-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26))

def preserves_Kernel_KernelIdeal : Prop :=
  IdealRules.named_const.Statement Cert.KernelIdeal.κ "inv_temp" .f32 0x3E3504F3#32 ((2097152 / 11863283 : ℝ) : EReal)
  ∧ IdealRules.named_const.Statement Cert.KernelIdeal.κ "inv_temp" .f32 0x3E3504F3#32 ((2097152 / 11863283 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)) →
    ∃ (v0 : (c : Dev Cert.KernelIdeal.nD) → Buf (Elt Ideal) ((c.tc : Thread Cert.KernelIdeal.nD Cert.KernelIdeal.τ).loc Cert.KernelIdeal.main_v63_1)) (v1 : (c : Dev Cert.KernelIdeal.nD) → Buf (Elt Ideal) ((c.tc : Thread Cert.KernelIdeal.nD Cert.KernelIdeal.τ).loc Cert.KernelIdeal.main_v63_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63_1) = v0 c
          ∧ r.2.mem ((c.tc : Thread Cert.KernelIdeal.nD Cert.KernelIdeal.τ).loc Cert.KernelIdeal.main_v63_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v130) = v0 c
          ∧ r.2.mem ((c.tc : Thread Cert.ReferenceIdeal.nD Cert.ReferenceIdeal.τ).loc Cert.ReferenceIdeal.main_v102) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000x30 : Shape := ⟨2, ![2000, 30]⟩
abbrev S2000x2 : Shape := ⟨2, ![2000, 2]⟩
abbrev S4000x30 : Shape := ⟨2, ![4000, 30]⟩
abbrev S4000x2 : Shape := ⟨2, ![4000, 2]⟩
abbrev S2000 : Shape := ⟨1, ![2000]⟩
abbrev S4000 : Shape := ⟨1, ![4000]⟩
abbrev S1x1 : Shape := ⟨2, ![1, 1]⟩
abbrev S30x32 : Shape := ⟨2, ![30, 32]⟩
abbrev S32 : Shape := ⟨1, ![32]⟩
abbrev S32x32 : Shape := ⟨2, ![32, 32]⟩
abbrev S94x32 : Shape := ⟨2, ![94, 32]⟩
abbrev S2x2 : Shape := ⟨2, ![2, 2]⟩
abbrev S2 : Shape := ⟨1, ![2]⟩
abbrev S_ : Shape := ⟨0, ![]⟩

class Facts : Prop where
  bcast_S_S2000x30 : S_.BroadcastsInDim S2000x30 (![] : Fin 0 → Fin S2000x30.rank)
  reducesTo_S2000x30_S_d0_1 : S2000x30.ReducesTo [0, 1] S_
  h_S_ : 0 < S_.numel
  bcast_S_S2000x2 : S_.BroadcastsInDim S2000x2 (![] : Fin 0 → Fin S2000x2.rank)
  reducesTo_S2000x2_S_d0_1 : S2000x2.ReducesTo [0, 1] S_
  bcast_S_S4000x30 : S_.BroadcastsInDim S4000x30 (![] : Fin 0 → Fin S4000x30.rank)
  reducesTo_S4000x30_S_d0_1 : S4000x30.ReducesTo [0, 1] S_
  bcast_S_S4000x2 : S_.BroadcastsInDim S4000x2 (![] : Fin 0 → Fin S4000x2.rank)
  reducesTo_S4000x2_S_d0_1 : S4000x2.ReducesTo [0, 1] S_
  bcast_S_S2000 : S_.BroadcastsInDim S2000 (![] : Fin 0 → Fin S2000.rank)
  reducesTo_S2000_S_d0 : S2000.ReducesTo [0] S_
  bcast_S_S4000 : S_.BroadcastsInDim S4000 (![] : Fin 0 → Fin S4000.rank)
  reducesTo_S4000_S_d0 : S4000.ReducesTo [0] S_
  bcast_S_S1x1 : S_.BroadcastsInDim S1x1 (![] : Fin 0 → Fin S1x1.rank)
  reducesTo_S1x1_S_d0_1 : S1x1.ReducesTo [0, 1] S_
  bcast_S_S30x32 : S_.BroadcastsInDim S30x32 (![] : Fin 0 → Fin S30x32.rank)
  reducesTo_S30x32_S_d0_1 : S30x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S94x32 : S_.BroadcastsInDim S94x32 (![] : Fin 0 → Fin S94x32.rank)
  reducesTo_S94x32_S_d0_1 : S94x32.ReducesTo [0, 1] S_
  bcast_S_S2x2 : S_.BroadcastsInDim S2x2 (![] : Fin 0 → Fin S2x2.rank)
  reducesTo_S2x2_S_d0_1 : S2x2.ReducesTo [0, 1] S_
  bcast_S_S2 : S_.BroadcastsInDim S2 (![] : Fin 0 → Fin S2.rank)
  reducesTo_S2_S_d0 : S2.ReducesTo [0] S_

variable [Facts]

def fn_part7 {F : FTy → Type} [FloatOps F] (main_arg25 : FVec F S2x2 .f32) (main_arg26 : FVec F S2 .f32) (main_v118 : IVec S_ 1) (main_v119 : FVec F S32 .f32) : IVec S_ 1 :=
  let main_cst_46 : FVec F S_ .f32 := constant S_ .f32 0x7F800000#32
  let main_v120 : FVec F S32 .f32 := broadcastInDim S32 ![] bcast_S_S32 main_cst_46
  let main_v121 : IVec S32 1 := cmpf .olt main_v119 main_v120
  let main_c_47 : IVec S_ 1 := constantI S_ 1 1#1
  let main_v122 : IVec S_ 1 := (fun x v => Host.reduce IntOp.andi x v reducesTo_S32_S_d0 h_S_) main_v121 main_c_47
  let main_v123 : IVec S_ 1 := andi main_v118 main_v122
  let main_v124 : FVec F S2x2 .f32 := Host.absf main_arg25
  let main_cst_48 : FVec F S_ .f32 := constant S_ .f32 0x7F800000#32
  let main_v125 : FVec F S2x2 .f32 := broadcastInDim S2x2 ![] bcast_S_S2x2 main_cst_48
  let main_v126 : IVec S2x2 1 := cmpf .olt main_v124 main_v125
  let main_c_49 : IVec S_ 1 := constantI S_ 1 1#1
  let main_v127 : IVec S_ 1 := (fun x v => Host.reduce IntOp.andi x v reducesTo_S2x2_S_d0_1 h_S_) main_v126 main_c_49
  let main_v128 : IVec S_ 1 := andi main_v123 main_v127
  let main_v129 : FVec F S2 .f32 := Host.absf main_arg26
  let main_cst_50 : FVec F S_ .f32 := constant S_ .f32 0x7F800000#32
  let main_v130 : FVec F S2 .f32 := broadcastInDim S2 ![] bcast_S_S2 main_cst_50
  let main_v131 : IVec S2 1 := cmpf .olt main_v129 main_v130
  let main_c_51 : IVec S_ 1 := constantI S_ 1 1#1
  let main_v132 : IVec S_ 1 := (fun x v => Host.reduce IntOp.andi x v reducesTo_S2_S_d0 h_S_) main_v131 main_c_51
  let main_v133 : IVec S_ 1 := andi main_v128 main_v132
  main_v133

def fn_part6 {F : FTy → Type} [FloatOps F] (main_arg21 : FVec F S94x32 .f32) (main_arg22 : FVec F S32 .f32) (main_arg23 : FVec F S30x32 .f32) (main_arg24 : FVec F S32 .f32) (main_arg25 : FVec F S2x2 .f32) (main_arg26 : FVec F S2 .f32) (main_v98 : IVec S_ 1) (main_v101 : IVec S32 1) (main_c_39 : IVec S_ 1) : IVec S_ 1 :=
  let main_v102 : IVec S_ 1 := (fun x v => Host.reduce IntOp.andi x v reducesTo_S32_S_d0 h_S_) main_v101 main_c_39
  let main_v103 : IVec S_ 1 := andi main_v98 main_v102
  let main_v104 : FVec F S94x32 .f32 := Host.absf main_arg21
  let main_cst_40 : FVec F S_ .f32 := constant S_ .f32 0x7F800000#32
  let main_v105 : FVec F S94x32 .f32 := broadcastInDim S94x32 ![] bcast_S_S94x32 main_cst_40
  let main_v106 : IVec S94x32 1 := cmpf .olt main_v104 main_v105
  let main_c_41 : IVec S_ 1 := constantI S_ 1 1#1
  let main_v107 : IVec S_ 1 := (fun x v => Host.reduce IntOp.andi x v reducesTo_S94x32_S_d0_1 h_S_) main_v106 main_c_41
  let main_v108 : IVec S_ 1 := andi main_v103 main_v107
  let main_v109 : FVec F S32 .f32 := Host.absf main_arg22
  let main_cst_42 : FVec F S_ .f32 := constant S_ .f32 0x7F800000#32
  let main_v110 : FVec F S32 .f32 := broadcastInDim S32 ![] bcast_S_S32 main_cst_42
  let main_v111 : IVec S32 1 := cmpf .olt main_v109 main_v110
  let main_c_43 : IVec S_ 1 := constantI S_ 1 1#1
  let main_v112 : IVec S_ 1 := (fun x v => Host.reduce IntOp.andi x v reducesTo_S32_S_d0 h_S_) main_v111 main_c_43
  let main_v113 : IVec S_ 1 := andi main_v108 main_v112
  let main_v114 : FVec F S30x32 .f32 := Host.absf main_arg23
  let main_cst_44 : FVec F S_ .f32 := constant S_ .f32 0x7F800000#32
  let main_v115 : FVec F S30x32 .f32 := broadcastInDim S30x32 ![] bcast_S_S30x32 main_cst_44
  let main_v116 : IVec S30x32 1 := cmpf .olt main_v114 main_v115
  let main_c_45 : IVec S_ 1 := constantI S_ 1 1#1
  let main_v117 : IVec S_ 1 := (fun x v => Host.reduce IntOp.andi x v reducesTo_S30x32_S_d0_1 h_S_) main_v116 main_c_45
  let main_v118 : IVec S_ 1 := andi main_v113 main_v117
  let main_v119 : FVec F S32 .f32 := Host.absf main_arg24
  fn_part7 (F := F) main_arg25 main_arg26 main_v118 main_v119

def fn_part5 {F : FTy → Type} [FloatOps F] (main_arg18 : FVec F S32 .f32) (main_arg19 : FVec F S32x32 .f32) (main_arg20 : FVec F S32 .f32) (main_arg21 : FVec F S94x32 .f32) (main_arg22 : FVec F S32 .f32) (main_arg23 : FVec F S30x32 .f32) (main_arg24 : FVec F S32 .f32) (main_arg25 : FVec F S2x2 .f32) (main_arg26 : FVec F S2 .f32) (main_v83 : IVec S_ 1) (main_v84 : FVec F S32x32 .f32) (main_cst_32 : FVec F S_ .f32) : IVec S_ 1 :=
  let main_v85 : FVec F S32x32 .f32 := broadcastInDim S32x32 ![] bcast_S_S32x32 main_cst_32
  let main_v86 : IVec S32x32 1 := cmpf .olt main_v84 main_v85
  let main_c_33 : IVec S_ 1 := constantI S_ 1 1#1
  let main_v87 : IVec S_ 1 := (fun x v => Host.reduce IntOp.andi x v reducesTo_S32x32_S_d0_1 h_S_) main_v86 main_c_33
  let main_v88 : IVec S_ 1 := andi main_v83 main_v87
  let main_v89 : FVec F S32 .f32 := Host.absf main_arg18
  let main_cst_34 : FVec F S_ .f32 := constant S_ .f32 0x7F800000#32
  let main_v90 : FVec F S32 .f32 := broadcastInDim S32 ![] bcast_S_S32 main_cst_34
  let main_v91 : IVec S32 1 := cmpf .olt main_v89 main_v90
  let main_c_35 : IVec S_ 1 := constantI S_ 1 1#1
  let main_v92 : IVec S_ 1 := (fun x v => Host.reduce IntOp.andi x v reducesTo_S32_S_d0 h_S_) main_v91 main_c_35
  let main_v93 : IVec S_ 1 := andi main_v88 main_v92
  let main_v94 : FVec F S32x32 .f32 := Host.absf main_arg19
  let main_cst_36 : FVec F S_ .f32 := constant S_ .f32 0x7F800000#32
  let main_v95 : FVec F S32x32 .f32 := broadcastInDim S32x32 ![] bcast_S_S32x32 main_cst_36
  let main_v96 : IVec S32x32 1 := cmpf .olt main_v94 main_v95
  let main_c_37 : IVec S_ 1 := constantI S_ 1 1#1
  let main_v97 : IVec S_ 1 := (fun x v => Host.reduce IntOp.andi x v reducesTo_S32x32_S_d0_1 h_S_) main_v96 main_c_37
  let main_v98 : IVec S_ 1 := andi main_v93 main_v97
  let main_v99 : FVec F S32 .f32 := Host.absf main_arg20
  let main_cst_38 : FVec F S_ .f32 := constant S_ .f32 0x7F800000#32
  let main_v100 : FVec F S32 .f32 := broadcastInDim S32 ![] bcast_S_S32 main_cst_38
  let main_v101 : IVec S32 1 := cmpf .olt main_v99 main_v100
  let main_c_39 : IVec S_ 1 := constantI S_ 1 1#1
  fn_part6 (F := F) main_arg21 main_arg22 main_arg23 main_arg24 main_arg25 main_arg26 main_v98 main_v101 main_c_39

def fn_part4 {F : FTy → Type} [FloatOps F] (main_arg14 : FVec F S32 .f32) (main_arg15 : FVec F S32x32 .f32) (main_arg16 : FVec F S32 .f32) (main_arg17 : FVec F S32x32 .f32) (main_arg18 : FVec F S32 .f32) (main_arg19 : FVec F S32x32 .f32) (main_arg20 : FVec F S32 .f32) (main_arg21 : FVec F S94x32 .f32) (main_arg22 : FVec F S32 .f32) (main_arg23 : FVec F S30x32 .f32) (main_arg24 : FVec F S32 .f32) (main_arg25 : FVec F S2x2 .f32) (main_arg26 : FVec F S2 .f32) (main_v63 : IVec S_ 1) (main_v67 : IVec S_ 1) : IVec S_ 1 :=
  let main_v68 : IVec S_ 1 := andi main_v63 main_v67
  let main_v69 : FVec F S32 .f32 := Host.absf main_arg14
  let main_cst_26 : FVec F S_ .f32 := constant S_ .f32 0x7F800000#32
  let main_v70 : FVec F S32 .f32 := broadcastInDim S32 ![] bcast_S_S32 main_cst_26
  let main_v71 : IVec S32 1 := cmpf .olt main_v69 main_v70
  let main_c_27 : IVec S_ 1 := constantI S_ 1 1#1
  let main_v72 : IVec S_ 1 := (fun x v => Host.reduce IntOp.andi x v reducesTo_S32_S_d0 h_S_) main_v71 main_c_27
  let main_v73 : IVec S_ 1 := andi main_v68 main_v72
  let main_v74 : FVec F S32x32 .f32 := Host.absf main_arg15
  let main_cst_28 : FVec F S_ .f32 := constant S_ .f32 0x7F800000#32
  let main_v75 : FVec F S32x32 .f32 := broadcastInDim S32x32 ![] bcast_S_S32x32 main_cst_28
  let main_v76 : IVec S32x32 1 := cmpf .olt main_v74 main_v75
  let main_c_29 : IVec S_ 1 := constantI S_ 1 1#1
  let main_v77 : IVec S_ 1 := (fun x v => Host.reduce IntOp.andi x v reducesTo_S32x32_S_d0_1 h_S_) main_v76 main_c_29
  let main_v78 : IVec S_ 1 := andi main_v73 main_v77
  let main_v79 : FVec F S32 .f32 := Host.absf main_arg16
  let main_cst_30 : FVec F S_ .f32 := constant S_ .f32 0x7F800000#32
  let main_v80 : FVec F S32 .f32 := broadcastInDim S32 ![] bcast_S_S32 main_cst_30
  let main_v81 : IVec S32 1 := cmpf .olt main_v79 main_v80
  let main_c_31 : IVec S_ 1 := constantI S_ 1 1#1
  let main_v82 : IVec S_ 1 := (fun x v => Host.reduce IntOp.andi x v reducesTo_S32_S_d0 h_S_) main_v81 main_c_31
  let main_v83 : IVec S_ 1 := andi main_v78 main_v82
  let main_v84 : FVec F S32x32 .f32 := Host.absf main_arg17
  let main_cst_32 : FVec F S_ .f32 := constant S_ .f32 0x7F800000#32
  fn_part5 (F := F) main_arg18 main_arg19 main_arg20 main_arg21 main_arg22 main_arg23 main_arg24 main_arg25 main_arg26 main_v83 main_v84 main_cst_32

def fn_part3 {F : FTy → Type} [FloatOps F] (main_arg11 : FVec F S30x32 .f32) (main_arg12 : FVec F S32 .f32) (main_arg13 : FVec F S30x32 .f32) (main_arg14 : FVec F S32 .f32) (main_arg15 : FVec F S32x32 .f32) (main_arg16 : FVec F S32 .f32) (main_arg17 : FVec F S32x32 .f32) (main_arg18 : FVec F S32 .f32) (main_arg19 : FVec F S32x32 .f32) (main_arg20 : FVec F S32 .f32) (main_arg21 : FVec F S94x32 .f32) (main_arg22 : FVec F S32 .f32) (main_arg23 : FVec F S30x32 .f32) (main_arg24 : FVec F S32 .f32) (main_arg25 : FVec F S2x2 .f32) (main_arg26 : FVec F S2 .f32) (main_v48 : IVec S_ 1) (main_v49 : FVec F S1x1 .f32) (main_v50 : FVec F S1x1 .f32) : IVec S_ 1 :=
  let main_v51 : IVec S1x1 1 := cmpf .olt main_v49 main_v50
  let main_c_19 : IVec S_ 1 := constantI S_ 1 1#1
  let main_v52 : IVec S_ 1 := (fun x v => Host.reduce IntOp.andi x v reducesTo_S1x1_S_d0_1 h_S_) main_v51 main_c_19
  let main_v53 : IVec S_ 1 := andi main_v48 main_v52
  let main_v54 : FVec F S30x32 .f32 := Host.absf main_arg11
  let main_cst_20 : FVec F S_ .f32 := constant S_ .f32 0x7F800000#32
  let main_v55 : FVec F S30x32 .f32 := broadcastInDim S30x32 ![] bcast_S_S30x32 main_cst_20
  let main_v56 : IVec S30x32 1 := cmpf .olt main_v54 main_v55
  let main_c_21 : IVec S_ 1 := constantI S_ 1 1#1
  let main_v57 : IVec S_ 1 := (fun x v => Host.reduce IntOp.andi x v reducesTo_S30x32_S_d0_1 h_S_) main_v56 main_c_21
  let main_v58 : IVec S_ 1 := andi main_v53 main_v57
  let main_v59 : FVec F S32 .f32 := Host.absf main_arg12
  let main_cst_22 : FVec F S_ .f32 := constant S_ .f32 0x7F800000#32
  let main_v60 : FVec F S32 .f32 := broadcastInDim S32 ![] bcast_S_S32 main_cst_22
  let main_v61 : IVec S32 1 := cmpf .olt main_v59 main_v60
  let main_c_23 : IVec S_ 1 := constantI S_ 1 1#1
  let main_v62 : IVec S_ 1 := (fun x v => Host.reduce IntOp.andi x v reducesTo_S32_S_d0 h_S_) main_v61 main_c_23
  let main_v63 : IVec S_ 1 := andi main_v58 main_v62
  let main_v64 : FVec F S30x32 .f32 := Host.absf main_arg13
  let main_cst_24 : FVec F S_ .f32 := constant S_ .f32 0x7F800000#32
  let main_v65 : FVec F S30x32 .f32 := broadcastInDim S30x32 ![] bcast_S_S30x32 main_cst_24
  let main_v66 : IVec S30x32 1 := cmpf .olt main_v64 main_v65
  let main_c_25 : IVec S_ 1 := constantI S_ 1 1#1
  let main_v67 : IVec S_ 1 := (fun x v => Host.reduce IntOp.andi x v reducesTo_S30x32_S_d0_1 h_S_) main_v66 main_c_25
  fn_part4 (F := F) main_arg14 main_arg15 main_arg16 main_arg17 main_arg18 main_arg19 main_arg20 main_arg21 main_arg22 main_arg23 main_arg24 main_arg25 main_arg26 main_v63 main_v67

def fn_part2 {F : FTy → Type} [FloatOps F] (main_arg7 : FVec F S1x1 .f32) (main_arg8 : FVec F S1x1 .f32) (main_arg9 : FVec F S1x1 .f32) (main_arg10 : FVec F S1x1 .f32) (main_arg11 : FVec F S30x32 .f32) (main_arg12 : FVec F S32 .f32) (main_arg13 : FVec F S30x32 .f32) (main_arg14 : FVec F S32 .f32) (main_arg15 : FVec F S32x32 .f32) (main_arg16 : FVec F S32 .f32) (main_arg17 : FVec F S32x32 .f32) (main_arg18 : FVec F S32 .f32) (main_arg19 : FVec F S32x32 .f32) (main_arg20 : FVec F S32 .f32) (main_arg21 : FVec F S94x32 .f32) (main_arg22 : FVec F S32 .f32) (main_arg23 : FVec F S30x32 .f32) (main_arg24 : FVec F S32 .f32) (main_arg25 : FVec F S2x2 .f32) (main_arg26 : FVec F S2 .f32) (main_v33 : IVec S_ 1) : IVec S_ 1 :=
  let main_v34 : FVec F S1x1 .f32 := Host.absf main_arg7
  let main_cst_12 : FVec F S_ .f32 := constant S_ .f32 0x7F800000#32
  let main_v35 : FVec F S1x1 .f32 := broadcastInDim S1x1 ![] bcast_S_S1x1 main_cst_12
  let main_v36 : IVec S1x1 1 := cmpf .olt main_v34 main_v35
  let main_c_13 : IVec S_ 1 := constantI S_ 1 1#1
  let main_v37 : IVec S_ 1 := (fun x v => Host.reduce IntOp.andi x v reducesTo_S1x1_S_d0_1 h_S_) main_v36 main_c_13
  let main_v38 : IVec S_ 1 := andi main_v33 main_v37
  let main_v39 : FVec F S1x1 .f32 := Host.absf main_arg8
  let main_cst_14 : FVec F S_ .f32 := constant S_ .f32 0x7F800000#32
  let main_v40 : FVec F S1x1 .f32 := broadcastInDim S1x1 ![] bcast_S_S1x1 main_cst_14
  let main_v41 : IVec S1x1 1 := cmpf .olt main_v39 main_v40
  let main_c_15 : IVec S_ 1 := constantI S_ 1 1#1
  let main_v42 : IVec S_ 1 := (fun x v => Host.reduce IntOp.andi x v reducesTo_S1x1_S_d0_1 h_S_) main_v41 main_c_15
  let main_v43 : IVec S_ 1 := andi main_v38 main_v42
  let main_v44 : FVec F S1x1 .f32 := Host.absf main_arg9
  let main_cst_16 : FVec F S_ .f32 := constant S_ .f32 0x7F800000#32
  let main_v45 : FVec F S1x1 .f32 := broadcastInDim S1x1 ![] bcast_S_S1x1 main_cst_16
  let main_v46 : IVec S1x1 1 := cmpf .olt main_v44 main_v45
  let main_c_17 : IVec S_ 1 := constantI S_ 1 1#1
  let main_v47 : IVec S_ 1 := (fun x v => Host.reduce IntOp.andi x v reducesTo_S1x1_S_d0_1 h_S_) main_v46 main_c_17
  let main_v48 : IVec S_ 1 := andi main_v43 main_v47
  let main_v49 : FVec F S1x1 .f32 := Host.absf main_arg10
  let main_cst_18 : FVec F S_ .f32 := constant S_ .f32 0x7F800000#32
  let main_v50 : FVec F S1x1 .f32 := broadcastInDim S1x1 ![] bcast_S_S1x1 main_cst_18
  fn_part3 (F := F) main_arg11 main_arg12 main_arg13 main_arg14 main_arg15 main_arg16 main_arg17 main_arg18 main_arg19 main_arg20 main_arg21 main_arg22 main_arg23 main_arg24 main_arg25 main_arg26 main_v48 main_v49 main_v50

def fn_part1 {F : FTy → Type} [FloatOps F] (main_arg4 : FVec F S2000 .f32) (main_arg5 : FVec F S4000 .f32) (main_arg6 : FVec F S1x1 .f32) (main_arg7 : FVec F S1x1 .f32) (main_arg8 : FVec F S1x1 .f32) (main_arg9 : FVec F S1x1 .f32) (main_arg10 : FVec F S1x1 .f32) (main_arg11 : FVec F S30x32 .f32) (main_arg12 : FVec F S32 .f32) (main_arg13 : FVec F S30x32 .f32) (main_arg14 : FVec F S32 .f32) (main_arg15 : FVec F S32x32 .f32) (main_arg16 : FVec F S32 .f32) (main_arg17 : FVec F S32x32 .f32) (main_arg18 : FVec F S32 .f32) (main_arg19 : FVec F S32x32 .f32) (main_arg20 : FVec F S32 .f32) (main_arg21 : FVec F S94x32 .f32) (main_arg22 : FVec F S32 .f32) (main_arg23 : FVec F S30x32 .f32) (main_arg24 : FVec F S32 .f32) (main_arg25 : FVec F S2x2 .f32) (main_arg26 : FVec F S2 .f32) (main_v13 : IVec S_ 1) (main_v16 : IVec S4000x2 1) : IVec S_ 1 :=
  let main_c_5 : IVec S_ 1 := constantI S_ 1 1#1
  let main_v17 : IVec S_ 1 := (fun x v => Host.reduce IntOp.andi x v reducesTo_S4000x2_S_d0_1 h_S_) main_v16 main_c_5
  let main_v18 : IVec S_ 1 := andi main_v13 main_v17
  let main_v19 : FVec F S2000 .f32 := Host.absf main_arg4
  let main_cst_6 : FVec F S_ .f32 := constant S_ .f32 0x7F800000#32
  let main_v20 : FVec F S2000 .f32 := broadcastInDim S2000 ![] bcast_S_S2000 main_cst_6
  let main_v21 : IVec S2000 1 := cmpf .olt main_v19 main_v20
  let main_c_7 : IVec S_ 1 := constantI S_ 1 1#1
  let main_v22 : IVec S_ 1 := (fun x v => Host.reduce IntOp.andi x v reducesTo_S2000_S_d0 h_S_) main_v21 main_c_7
  let main_v23 : IVec S_ 1 := andi main_v18 main_v22
  let main_v24 : FVec F S4000 .f32 := Host.absf main_arg5
  let main_cst_8 : FVec F S_ .f32 := constant S_ .f32 0x7F800000#32
  let main_v25 : FVec F S4000 .f32 := broadcastInDim S4000 ![] bcast_S_S4000 main_cst_8
  let main_v26 : IVec S4000 1 := cmpf .olt main_v24 main_v25
  let main_c_9 : IVec S_ 1 := constantI S_ 1 1#1
  let main_v27 : IVec S_ 1 := (fun x v => Host.reduce IntOp.andi x v reducesTo_S4000_S_d0 h_S_) main_v26 main_c_9
  let main_v28 : IVec S_ 1 := andi main_v23 main_v27
  let main_v29 : FVec F S1x1 .f32 := Host.absf main_arg6
  let main_cst_10 : FVec F S_ .f32 := constant S_ .f32 0x7F800000#32
  let main_v30 : FVec F S1x1 .f32 := broadcastInDim S1x1 ![] bcast_S_S1x1 main_cst_10
  let main_v31 : IVec S1x1 1 := cmpf .olt main_v29 main_v30
  let main_c_11 : IVec S_ 1 := constantI S_ 1 1#1
  let main_v32 : IVec S_ 1 := (fun x v => Host.reduce IntOp.andi x v reducesTo_S1x1_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_arg25 main_arg26 main_v33

def fn {F : FTy → Type} [FloatOps F] (main_arg0 : FVec F S2000x30 .f32) (main_arg1 : FVec F S2000x2 .f32) (main_arg2 : FVec F S4000x30 .f32) (main_arg3 : FVec F S4000x2 .f32) (main_arg4 : FVec F S2000 .f32) (main_arg5 : FVec F S4000 .f32) (main_arg6 : FVec F S1x1 .f32) (main_arg7 : FVec F S1x1 .f32) (main_arg8 : FVec F S1x1 .f32) (main_arg9 : FVec F S1x1 .f32) (main_arg10 : FVec F S1x1 .f32) (main_arg11 : FVec F S30x32 .f32) (main_arg12 : FVec F S32 .f32) (main_arg13 : FVec F S30x32 .f32) (main_arg14 : FVec F S32 .f32) (main_arg15 : FVec F S32x32 .f32) (main_arg16 : FVec F S32 .f32) (main_arg17 : FVec F S32x32 .f32) (main_arg18 : FVec F S32 .f32) (main_arg19 : FVec F S32x32 .f32) (main_arg20 : FVec F S32 .f32) (main_arg21 : FVec F S94x32 .f32) (main_arg22 : FVec F S32 .f32) (main_arg23 : FVec F S30x32 .f32) (main_arg24 : FVec F S32 .f32) (main_arg25 : FVec F S2x2 .f32) (main_arg26 : FVec F S2 .f32) : IVec S_ 1 :=
  let main_v0 : FVec F S2000x30 .f32 := Host.absf main_arg0
  let main_cst : FVec F S_ .f32 := constant S_ .f32 0x7F800000#32
  let main_v1 : FVec F S2000x30 .f32 := broadcastInDim S2000x30 ![] bcast_S_S2000x30 main_cst
  let main_v2 : IVec S2000x30 1 := cmpf .olt main_v0 main_v1
  let main_c : IVec S_ 1 := constantI S_ 1 1#1
  let main_v3 : IVec S_ 1 := (fun x v => Host.reduce IntOp.andi x v reducesTo_S2000x30_S_d0_1 h_S_) main_v2 main_c
  let main_v4 : FVec F S2000x2 .f32 := Host.absf main_arg1
  let main_cst_0 : FVec F S_ .f32 := constant S_ .f32 0x7F800000#32
  let main_v5 : FVec F S2000x2 .f32 := broadcastInDim S2000x2 ![] bcast_S_S2000x2 main_cst_0
  let main_v6 : IVec S2000x2 1 := cmpf .olt main_v4 main_v5
  let main_c_1 : IVec S_ 1 := constantI S_ 1 1#1
  let main_v7 : IVec S_ 1 := (fun x v => Host.reduce IntOp.andi x v reducesTo_S2000x2_S_d0_1 h_S_) main_v6 main_c_1
  let main_v8 : IVec S_ 1 := andi main_v3 main_v7
  let main_v9 : FVec F S4000x30 .f32 := Host.absf main_arg2
  let main_cst_2 : FVec F S_ .f32 := constant S_ .f32 0x7F800000#32
  let main_v10 : FVec F S4000x30 .f32 := broadcastInDim S4000x30 ![] bcast_S_S4000x30 main_cst_2
  let main_v11 : IVec S4000x30 1 := cmpf .olt main_v9 main_v10
  let main_c_3 : IVec S_ 1 := constantI S_ 1 1#1
  let main_v12 : IVec S_ 1 := (fun x v => Host.reduce IntOp.andi x v reducesTo_S4000x30_S_d0_1 h_S_) main_v11 main_c_3
  let main_v13 : IVec S_ 1 := andi main_v8 main_v12
  let main_v14 : FVec F S4000x2 .f32 := Host.absf main_arg3
  let main_cst_4 : FVec F S_ .f32 := constant S_ .f32 0x7F800000#32
  let main_v15 : FVec F S4000x2 .f32 := broadcastInDim S4000x2 ![] bcast_S_S4000x2 main_cst_4
  let main_v16 : IVec S4000x2 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_v13 main_v16
-- ==== Kernel.lean ====
abbrev S2000x30 : Shape := ⟨2, ![2000, 30]⟩
abbrev S2000x2 : Shape := ⟨2, ![2000, 2]⟩
abbrev S4000x30 : Shape := ⟨2, ![4000, 30]⟩
abbrev S4000x2 : Shape := ⟨2, ![4000, 2]⟩
abbrev S2000 : Shape := ⟨1, ![2000]⟩
abbrev S4000 : Shape := ⟨1, ![4000]⟩
abbrev S1x1 : Shape := ⟨2, ![1, 1]⟩
abbrev S30x32 : Shape := ⟨2, ![30, 32]⟩
abbrev S32 : Shape := ⟨1, ![32]⟩
abbrev S32x32 : Shape := ⟨2, ![32, 32]⟩
abbrev S94x32 : Shape := ⟨2, ![94, 32]⟩
abbrev S2x2 : Shape := ⟨2, ![2, 2]⟩
abbrev S2 : Shape := ⟨1, ![2]⟩
abbrev S2000x32 : Shape := ⟨2, ![2000, 32]⟩
abbrev S_ : Shape := ⟨0, ![]⟩
abbrev S1x32 : Shape := ⟨2, ![1, 32]⟩
abbrev S32x2000 : Shape := ⟨2, ![32, 2000]⟩
abbrev S1x2 : Shape := ⟨2, ![1, 2]⟩
abbrev S2000x34 : Shape := ⟨2, ![2000, 34]⟩
abbrev S2000x1 : Shape := ⟨2, ![2000, 1]⟩
abbrev S4000x1 : Shape := ⟨2, ![4000, 1]⟩
abbrev S4000x32 : Shape := ⟨2, ![4000, 32]⟩
abbrev S4000x94 : Shape := ⟨2, ![4000, 94]⟩
abbrev S1000x32 : Shape := ⟨2, ![1000, 32]⟩
abbrev S1000x94 : Shape := ⟨2, ![1000, 94]⟩
abbrev S1000x2 : Shape := ⟨2, ![1000, 2]⟩
abbrev S1000x30 : Shape := ⟨2, ![1000, 30]⟩
abbrev S1000x1 : Shape := ⟨2, ![1000, 1]⟩
abbrev S1000x2000 : Shape := ⟨2, ![1000, 2000]⟩
abbrev S1000 : Shape := ⟨1, ![1000]⟩

abbrev nBuf : Space → Nat
  | .hbm => 97
  | .vmem => 19
  | .smem => 0
  | _ => 0

abbrev bufTy : (tb : Table) → Fin (tcTables nBuf tb) → BufTy
  | .hbm, ⟨0, _⟩ => ⟨S2000x30, .f32⟩
  | .hbm, ⟨1, _⟩ => ⟨S2000x2, .f32⟩
  | .hbm, ⟨2, _⟩ => ⟨S4000x30, .f32⟩
  | .hbm, ⟨3, _⟩ => ⟨S4000x2, .f32⟩
  | .hbm, ⟨4, _⟩ => ⟨S2000, .f32⟩
  | .hbm, ⟨5, _⟩ => ⟨S4000, .f32⟩
  | .hbm, ⟨6, _⟩ => ⟨S1x1, .f32⟩
  | .hbm, ⟨7, _⟩ => ⟨S1x1, .f32⟩
  | .hbm, ⟨8, _⟩ => ⟨S1x1, .f32⟩
  | .hbm, ⟨9, _⟩ => ⟨S1x1, .f32⟩
  | .hbm, ⟨10, _⟩ => ⟨S1x1, .f32⟩
  | .hbm, ⟨11, _⟩ => ⟨S30x32, .f32⟩
  | .hbm, ⟨12, _⟩ => ⟨S32, .f32⟩
  | .hbm, ⟨13, _⟩ => ⟨S30x32, .f32⟩
  | .hbm, ⟨14, _⟩ => ⟨S32, .f32⟩
  | .hbm, ⟨15, _⟩ => ⟨S32x32, .f32⟩
  | .hbm, ⟨16, _⟩ => ⟨S32, .f32⟩
  | .hbm, ⟨17, _⟩ => ⟨S32x32, .f32⟩
  | .hbm, ⟨18, _⟩ => ⟨S32, .f32⟩
  | .hbm, ⟨19, _⟩ => ⟨S32x32, .f32⟩
  | .hbm, ⟨20, _⟩ => ⟨S32, .f32⟩
  | .hbm, ⟨21, _⟩ => ⟨S94x32, .f32⟩
  | .hbm, ⟨22, _⟩ => ⟨S32, .f32⟩
  | .hbm, ⟨23, _⟩ => ⟨S30x32, .f32⟩
  | .hbm, ⟨24, _⟩ => ⟨S32, .f32⟩
  | .hbm, ⟨25, _⟩ => ⟨S2x2, .f32⟩
  | .hbm, ⟨26, _⟩ => ⟨S2, .f32⟩
  | .hbm, ⟨27, _⟩ => ⟨S2000x32, .f32⟩
  | .hbm, ⟨28, _⟩ => ⟨S_, .f32⟩
  | .hbm, ⟨29, _⟩ => ⟨S32, .f32⟩
  | .hbm, ⟨30, _⟩ => ⟨S1x32, .f32⟩
  | .hbm, ⟨31, _⟩ => ⟨S_, .f32⟩
  | .hbm, ⟨32, _⟩ => ⟨S1x32, .f32⟩
  | .hbm, ⟨33, _⟩ => ⟨S1x32, .f32⟩
  | .hbm, ⟨34, _⟩ => ⟨S2000x32, .f32⟩
  | .hbm, ⟨35, _⟩ => ⟨S1x32, .f32⟩
  | .hbm, ⟨36, _⟩ => ⟨S2000x32, .f32⟩
  | .hbm, ⟨37, _⟩ => ⟨S2000x32, .f32⟩
  | .hbm, ⟨38, _⟩ => ⟨S2000x32, .f32⟩
  | .hbm, ⟨39, _⟩ => ⟨S1x32, .f32⟩
  | .hbm, ⟨40, _⟩ => ⟨S2000x32, .f32⟩
  | .hbm, ⟨41, _⟩ => ⟨S2000x32, .f32⟩
  | .hbm, ⟨42, _⟩ => ⟨S32x2000, .f32⟩
  | .hbm, ⟨43, _⟩ => ⟨S32x2000, .f32⟩
  | .hbm, ⟨44, _⟩ => ⟨S2000x2, .f32⟩
  | .hbm, ⟨45, _⟩ => ⟨S1x2, .f32⟩
  | .hbm, ⟨46, _⟩ => ⟨S2000x2, .f32⟩
  | .hbm, ⟨47, _⟩ => ⟨S2000x2, .f32⟩
  | .hbm, ⟨48, _⟩ => ⟨S2000x34, .f32⟩
  | .hbm, ⟨49, _⟩ => ⟨S2000x1, .f32⟩
  | .hbm, ⟨50, _⟩ => ⟨S1x1, .f32⟩
  | .hbm, ⟨51, _⟩ => ⟨S2000x1, .f32⟩
  | .hbm, ⟨52, _⟩ => ⟨S2000x1, .f32⟩
  | .hbm, ⟨53, _⟩ => ⟨S2000x1, .f32⟩
  | .hbm, ⟨54, _⟩ => ⟨S2000x1, .f32⟩
  | .hbm, ⟨55, _⟩ => ⟨S2000x1, .f32⟩
  | .hbm, ⟨56, _⟩ => ⟨S2000x1, .f32⟩
  | .hbm, ⟨57, _⟩ => ⟨S2000x1, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S2000x32, .f32⟩
  | .hbm, ⟨63, _⟩ => ⟨S2000x32, .f32⟩
  | .hbm, ⟨64, _⟩ => ⟨S_, .f32⟩
  | .hbm, ⟨65, _⟩ => ⟨S32, .f32⟩
  | .hbm, ⟨66, _⟩ => ⟨S1x32, .f32⟩
  | .hbm, ⟨67, _⟩ => ⟨S1x32, .f32⟩
  | .hbm, ⟨68, _⟩ => ⟨S1x32, .f32⟩
  | .hbm, ⟨69, _⟩ => ⟨S1x32, .f32⟩
  | .hbm, ⟨70, _⟩ => ⟨S1x32, .f32⟩
  | .hbm, ⟨71, _⟩ => ⟨S1x32, .f32⟩
  | .hbm, ⟨72, _⟩ => ⟨S1x32, .f32⟩
  | .hbm, ⟨73, _⟩ => ⟨S4000x1, .f32⟩
  | .hbm, ⟨74, _⟩ => ⟨S1x1, .f32⟩
  | .hbm, ⟨75, _⟩ => ⟨S4000x1, .f32⟩
  | .hbm, ⟨76, _⟩ => ⟨S4000x1, .f32⟩
  | .hbm, ⟨77, _⟩ => ⟨S4000x1, .f32⟩
  | .hbm, ⟨78, _⟩ => ⟨S4000x1, .f32⟩
  | .hbm, ⟨79, _⟩ => ⟨S4000x1, .f32⟩
  | .hbm, ⟨80, _⟩ => ⟨S4000x1, .f32⟩
  | .hbm, ⟨81, _⟩ => ⟨S4000x1, .f32⟩
  | .hbm, ⟨82, _⟩ => ⟨S1x1, .f32⟩
  | .hbm, ⟨83, _⟩ => ⟨S4000x1, .f32⟩
  | .hbm, ⟨84, _⟩ => ⟨S4000x1, .f32⟩
  | .hbm, ⟨85, _⟩ => ⟨S4000x1, .f32⟩
  | .hbm, ⟨86, _⟩ => ⟨S4000x1, .f32⟩
  | .hbm, ⟨87, _⟩ => ⟨S4000x1, .f32⟩
  | .hbm, ⟨88, _⟩ => ⟨S4000x1, .f32⟩
  | .hbm, ⟨89, _⟩ => ⟨S4000x1, .f32⟩
  | .hbm, ⟨90, _⟩ => ⟨S4000x32, .f32⟩
  | .hbm, ⟨91, _⟩ => ⟨S1x32, .f32⟩
  | .hbm, ⟨92, _⟩ => ⟨S1x32, .f32⟩
  | .hbm, ⟨93, _⟩ => ⟨S1x32, .f32⟩
  | .hbm, ⟨94, _⟩ => ⟨S1x32, .f32⟩
  | .hbm, ⟨95, _⟩ => ⟨S4000x94, .f32⟩
  | .hbm, ⟨96, _⟩ => ⟨S4000x2, .f32⟩
  | .local _ .vmem, ⟨0, _⟩ => ⟨S1000x32, .f32⟩
  | .local _ .vmem, ⟨1, _⟩ => ⟨S1000x32, .f32⟩
  | .local _ .vmem, ⟨2, _⟩ => ⟨S2000x34, .f32⟩
  | .local _ .vmem, ⟨3, _⟩ => ⟨S32x2000, .f32⟩
  | .local _ .vmem, ⟨4, _⟩ => ⟨S32x2000, .f32⟩
  | .local _ .vmem, ⟨5, _⟩ => ⟨S1x32, .f32⟩
  | .local _ .vmem, ⟨6, _⟩ => ⟨S1x32, .f32⟩
  | .local _ .vmem, ⟨7, _⟩ => ⟨S30x32, .f32⟩
  | .local _ .vmem, ⟨8, _⟩ => ⟨S1x32, .f32⟩
  | .local _ .vmem, ⟨9, _⟩ => ⟨S32x32, .f32⟩
  | .local _ .vmem, ⟨10, _⟩ => ⟨S1x32, .f32⟩
  | .local _ .vmem, ⟨11, _⟩ => ⟨S32x32, .f32⟩
  | .local _ .vmem, ⟨12, _⟩ => ⟨S1x32, .f32⟩
  | .local _ .vmem, ⟨13, _⟩ => ⟨S94x32, .f32⟩
  | .local _ .vmem, ⟨14, _⟩ => ⟨S1x32, .f32⟩
  | .local _ .vmem, ⟨15, _⟩ => ⟨S1000x94, .f32⟩
  | .local _ .vmem, ⟨16, _⟩ => ⟨S1000x94, .f32⟩
  | .local _ .vmem, ⟨17, _⟩ => ⟨S1000x2, .f32⟩
  | .local _ .vmem, ⟨18, _⟩ => ⟨S1000x2, .f32⟩
  | _, _ => ⟨S2000x30, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_cst : Ref sig .tc := ⟨.hbm, 28, rfl⟩
abbrev main_v1 : Ref sig .tc := ⟨.hbm, 29, rfl⟩
abbrev main_v2 : Ref sig .tc := ⟨.hbm, 30, rfl⟩
abbrev main_cst_0 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_cst_1 : Ref sig .tc := ⟨.hbm, 58, rfl⟩
abbrev main_v29 : Ref sig .tc := ⟨.hbm, 59, rfl⟩
abbrev main_cst_2 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_cst_3 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63_0 : Ref sig .tc := ⟨.hbm, 95, rfl⟩
abbrev main_v63_1 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg14_1 : Ref sig .tc := ⟨.vmem, 16, rfl⟩
abbrev cc0_stg15_0 : Ref sig .tc := ⟨.vmem, 17, rfl⟩
abbrev cc0_stg15_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem14_1 : DmaSem sig := 16
abbrev cc0_sem15_0 : DmaSem sig := 17
abbrev cc0_sem15_1 : DmaSem sig := 18

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2000x34 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x2000 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x2000 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S30x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S32x32 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x32 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S94x32 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x32 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S1000x94 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1000x2 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

class Facts₀ : Prop where
  concatenates_S2000x30_S2000x2_S2000x32_d1 : Shape.Concatenates [S2000x30, S2000x2] S2000x32 1
  reducesTo_S2000x32_S32_d0 : S2000x32.ReducesTo [0] S32
  h_S_ : 0 < S_.numel
  bcast_S32_S1x32_1 : S32.BroadcastsInDim S1x32 (![1] : Fin 1 → Fin S1x32.rank)
  bcast_S_S1x32 : S_.BroadcastsInDim S1x32 (![] : Fin 0 → Fin S1x32.rank)
  bcast_S1x32_S2000x32_0_1 : S1x32.BroadcastsInDim S2000x32 (![0, 1] : Fin 2 → Fin S2000x32.rank)
  transposes_S2000x32_S32x2000_1_0 : S2000x32.Transposes [1, 0] S32x2000
  bcast_S2_S1x2_1 : S2.BroadcastsInDim S1x2 (![1] : Fin 1 → Fin S1x2.rank)
  bcast_S1x2_S2000x2_0_1 : S1x2.BroadcastsInDim S2000x2 (![0, 1] : Fin 2 → Fin S2000x2.rank)
  concatenates_S2000x32_S2000x2_S2000x34_d1 : Shape.Concatenates [S2000x32, S2000x2] S2000x34 1
  shapeCasts_S2000_S2000x1 : S2000.ShapeCasts S2000x1
  bcast_S1x1_S2000x1_0_1 : S1x1.BroadcastsInDim S2000x1 (![0, 1] : Fin 2 → Fin S2000x1.rank)
  reducesTo_S2000x1_S_d0_1 : S2000x1.ReducesTo [0, 1] S_
  bcast_S2000x1_S2000x32_0_1 : S2000x1.BroadcastsInDim S2000x32 (![0, 1] : Fin 2 → Fin S2000x32.rank)
  shapeCasts_S4000_S4000x1 : S4000.ShapeCasts S4000x1
  bcast_S1x1_S4000x1_0_1 : S1x1.BroadcastsInDim S4000x1 (![0, 1] : Fin 2 → Fin S4000x1.rank)
  concatenates_S4000x30_S4000x1_S4000x1_S4000x32_d1 : Shape.Concatenates [S4000x30, S4000x1, S4000x1] S4000x32 1
  shapeCasts_S32_S1x32 : S32.ShapeCasts S1x32
  inb_S1000x32_S1000x32_0_0 : ∀ a, (![0, 0] : Fin 2 → Nat) a + S1000x32.size a ≤ S1000x32.size a
  h_S1000x32 : 0 < S1000x32.numel
  shapeCasts_S1000x32_S1000x32 : S1000x32.ShapeCasts S1000x32
  slices_S1000x32_o0_0_S1000x30 : S1000x32.Slices ![0, 0] S1000x30
  slices_S1000x32_o0_30_S1000x1 : S1000x32.Slices ![0, 30] S1000x1
  slices_S1000x32_o0_31_S1000x1 : S1000x32.Slices ![0, 31] S1000x1
  inb_S30x32_S30x32_0_0 : ∀ a, (![0, 0] : Fin 2 → Nat) a + S30x32.size a ≤ S30x32.size a
  h_S30x32 : 0 < S30x32.numel
  bitsLt_bf16_f32 : FTy.bits .bf16 < FTy.bits .f32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S1000x32 : S1x32.Broadcasts S1000x32
  inb_S32x2000_S32x2000_0_0 : ∀ a, (![0, 0] : Fin 2 → Nat) a + S32x2000.size a ≤ S32x2000.size a
  h_S32x2000 : 0 < S32x2000.numel
  shapeCasts_S32x2000_S32x2000 : S32x2000.ShapeCasts S32x2000
  reduces_S1000x2000_S1000 : S1000x2000.Reduces [1] S1000
  shapeCasts_S1000_S1000x1 : S1000.ShapeCasts S1000x1
  broadcasts_S1000x1_S1000x2000 : S1000x1.Broadcasts S1000x2000
  inb_S2000x34_S2000x34_0_0 : ∀ a, (![0, 0] : Fin 2 → Nat) a + S2000x34.size a ≤ S2000x34.size a
  h_S2000x34 : 0 < S2000x34.numel
  shapeCasts_S2000x34_S2000x34 : S2000x34.ShapeCasts S2000x34
  slices_S2000x34_o0_0_S2000x32 : S2000x34.Slices ![0, 0] S2000x32
  slices_S2000x34_o0_32_S2000x2 : S2000x34.Slices ![0, 32] S2000x2
  broadcasts_S1000x1_S1000x32 : S1000x1.Broadcasts S1000x32
  concatenates_S1000x30_S1000x2_S1000x32_d1 : Shape.Concatenates [S1000x30, S1000x2] S1000x32 1
  inb_S32x32_S32x32_0_0 : ∀ a, (![0, 0] : Fin 2 → Nat) a + S32x32.size a ≤ S32x32.size a
  h_S32x32 : 0 < S32x32.numel
  concatenates_S1000x30_S1000x32_S1000x32_S1000x94_d1 : Shape.Concatenates [S1000x30, S1000x32, S1000x32] S1000x94 1
  inb_S94x32_S94x32_0_0 : ∀ a, (![0, 0] : Fin 2 → Nat) a + S94x32.size a ≤ S94x32.size a
  h_S94x32 : 0 < S94x32.numel
  broadcasts_S1000x1_S1000x2 : S1000x1.Broadcasts S1000x2
  inb_S1000x94_S1000x94_0_0 : ∀ a, (![0, 0] : Fin 2 → Nat) a + S1000x94.size a ≤ S1000x94.size a
  h_S1000x94 : 0 < S1000x94.numel
  inb_S1000x2_S1000x2_0_0 : ∀ a, (![0, 0] : Fin 2 → Nat) a + S1000x2.size a ≤ S1000x2.size a
  h_S1000x2 : 0 < S1000x2.numel
  dot_S2000x30_S30x32_S2000x32_1_0_0_1_n_n_wf : DotDims.WF S2000x30 S30x32 S2000x32 [1] [0] [0] [1] [] []
  dot_S2000x2_S2x2_S2000x2_1_0_0_1_n_n_wf : DotDims.WF S2000x2 S2x2 S2000x2 [1] [0] [0] [1] [] []
  dot_S1x32_S32x32_S1x32_1_0_0_1_n_n_wf : DotDims.WF S1x32 S32x32 S1x32 [1] [0] [0] [1] [] []
  dot_S1000x30_S30x32_S1000x32_1_0_0_1_n_n_wf : DotDims.WF S1000x30 S30x32 S1000x32 [1] [0] [0] [1] [] []
  dot_S1000x32_S32x2000_S1000x2000_1_0_0_1_n_n_wf : DotDims.WF S1000x32 S32x2000 S1000x2000 [1] [0] [0] [1] [] []
  dot_S1000x2000_S2000x32_S1000x32_1_0_0_1_n_n_wf : DotDims.WF S1000x2000 S2000x32 S1000x32 [1] [0] [0] [1] [] []
  dot_S1000x32_S32x32_S1000x32_1_0_0_1_n_n_wf : DotDims.WF S1000x32 S32x32 S1000x32 [1] [0] [0] [1] [] []
  dot_S1000x94_S94x32_S1000x32_1_0_0_1_n_n_wf : DotDims.WF S1000x94 S94x32 S1000x32 [1] [0] [0] [1] [] []
  dot_S1000x2000_S2000x2_S1000x2_1_0_0_1_n_n_wf : DotDims.WF S1000x2000 S2000x2 S1000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x32.size a ≤ S4000x32.size a
  hwx0_0 : ∀ i : grid0.Coords, EltTy.bits .f32 = 32 ∨ (Rect.block (s := S4000x32) S1000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2000x34.size a ≤ S2000x34.size a
  hwx0_1 : ∀ i : grid0.Coords, EltTy.bits .f32 = 32 ∨ (Rect.block (s := S2000x34) S2000x34.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x2000.size a ≤ S32x2000.size a
  hwx0_2 : ∀ i : grid0.Coords, EltTy.bits .f32 = 32 ∨ (Rect.block (s := S32x2000) S32x2000.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x2000.size a ≤ S32x2000.size a
  hwx0_3 : ∀ i : grid0.Coords, EltTy.bits .f32 = 32 ∨ (Rect.block (s := S32x2000) S32x2000.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x32.size a ≤ S1x32.size a
  hwx0_4 : ∀ i : grid0.Coords, EltTy.bits .f32 = 32 ∨ (Rect.block (s := S1x32) S1x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x32.size a ≤ S1x32.size a
  hwx0_5 : ∀ i : grid0.Coords, EltTy.bits .f32 = 32 ∨ (Rect.block (s := S1x32) S1x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S30x32.size a ≤ S30x32.size a
  hwx0_6 : ∀ i : grid0.Coords, EltTy.bits .f32 = 32 ∨ (Rect.block (s := S30x32) S30x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x32.size a ≤ S1x32.size a
  hwx0_7 : ∀ i : grid0.Coords, EltTy.bits .f32 = 32 ∨ (Rect.block (s := S1x32) S1x32.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S32x32.size a ≤ S32x32.size a
  hwx0_8 : ∀ i : grid0.Coords, EltTy.bits .f32 = 32 ∨ (Rect.block (s := S32x32) S32x32.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x32.size a ≤ S1x32.size a
  hwx0_9 : ∀ i : grid0.Coords, EltTy.bits .f32 = 32 ∨ (Rect.block (s := S1x32) S1x32.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S32x32.size a ≤ S32x32.size a
  hwx0_10 : ∀ i : grid0.Coords, EltTy.bits .f32 = 32 ∨ (Rect.block (s := S32x32) S32x32.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x32.size a ≤ S1x32.size a
  hwx0_11 : ∀ i : grid0.Coords, EltTy.bits .f32 = 32 ∨ (Rect.block (s := S1x32) S1x32.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S94x32.size a ≤ S94x32.size a
  hwx0_12 : ∀ i : grid0.Coords, EltTy.bits .f32 = 32 ∨ (Rect.block (s := S94x32) S94x32.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x32.size a ≤ S1x32.size a
  hwx0_13 : ∀ i : grid0.Coords, EltTy.bits .f32 = 32 ∨ (Rect.block (s := S1x32) S1x32.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S1000x94.size a ≤ S4000x94.size a
  hwx0_14 : ∀ i : grid0.Coords, EltTy.bits .f32 = 32 ∨ (Rect.block (s := S4000x94) S1000x94.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S1000x2.size a ≤ S4000x2.size a
  hwx0_15 : ∀ i : grid0.Coords, EltTy.bits .f32 = 32 ∨ (Rect.block (s := S4000x2) S1000x2.size (cc0_transform_15 i) (hinb0_15 i)).WholeWords (EltTy.packing .f32)

variable [Facts₀]

def dot_S2000x30_S30x32_S2000x32_1_0_0_1_n_n : DotDims S2000x30 S30x32 S2000x32 where
  lhsContracting := [1]
  rhsContracting := [0]
  lhsNonContracting := [0]
  rhsNonContracting := [1]
  lhsBatch := []
  rhsBatch := []
  wf := dot_S2000x30_S30x32_S2000x32_1_0_0_1_n_n_wf
def dot_S2000x2_S2x2_S2000x2_1_0_0_1_n_n : DotDims S2000x2 S2x2 S2000x2 where
  lhsContracting := [1]
  rhsContracting := [0]
  lhsNonContracting := [0]
  rhsNonContracting := [1]
  lhsBatch := []
  rhsBatch := []
  wf := dot_S2000x2_S2x2_S2000x2_1_0_0_1_n_n_wf
def dot_S1x32_S32x32_S1x32_1_0_0_1_n_n : DotDims S1x32 S32x32 S1x32 where
  lhsContracting := [1]
  rhsContracting := [0]
  lhsNonContracting := [0]
  rhsNonContracting := [1]
  lhsBatch := []
  rhsBatch := []
  wf := dot_S1x32_S32x32_S1x32_1_0_0_1_n_n_wf
def dot_S1000x30_S30x32_S1000x32_1_0_0_1_n_n : DotDims S1000x30 S30x32 S1000x32 where
  lhsContracting := [1]
  rhsContracting := [0]
  lhsNonContracting := [0]
  rhsNonContracting := [1]
  lhsBatch := []
  rhsBatch := []
  wf := dot_S1000x30_S30x32_S1000x32_1_0_0_1_n_n_wf
def dot_S1000x32_S32x2000_S1000x2000_1_0_0_1_n_n : DotDims S1000x32 S32x2000 S1000x2000 where
  lhsContracting := [1]
  rhsContracting := [0]
  lhsNonContracting := [0]
  rhsNonContracting := [1]
  lhsBatch := []
  rhsBatch := []
  wf := dot_S1000x32_S32x2000_S1000x2000_1_0_0_1_n_n_wf
def dot_S1000x2000_S2000x32_S1000x32_1_0_0_1_n_n : DotDims S1000x2000 S2000x32 S1000x32 where
  lhsContracting := [1]
  rhsContracting := [0]
  lhsNonContracting := [0]
  rhsNonContracting := [1]
  lhsBatch := []
  rhsBatch := []
  wf := dot_S1000x2000_S2000x32_S1000x32_1_0_0_1_n_n_wf
def dot_S1000x32_S32x32_S1000x32_1_0_0_1_n_n : DotDims S1000x32 S32x32 S1000x32 where
  lhsContracting := [1]
  rhsContracting := [0]
  lhsNonContracting := [0]
  rhsNonContracting := [1]
  lhsBatch := []
  rhsBatch := []
  wf := dot_S1000x32_S32x32_S1000x32_1_0_0_1_n_n_wf
def dot_S1000x94_S94x32_S1000x32_1_0_0_1_n_n : DotDims S1000x94 S94x32 S1000x32 where
  lhsContracting := [1]
  rhsContracting := [0]
  lhsNonContracting := [0]
  rhsNonContracting := [1]
  lhsBatch := []
  rhsBatch := []
  wf := dot_S1000x94_S94x32_S1000x32_1_0_0_1_n_n_wf
def dot_S1000x2000_S2000x2_S1000x2_1_0_0_1_n_n : DotDims S1000x2000 S2000x2 S1000x2 where
  lhsContracting := [1]
  rhsContracting := [0]
  lhsNonContracting := [0]
  rhsNonContracting := [1]
  lhsBatch := []
  rhsBatch := []
  wf := dot_S1000x2000_S2000x2_S1000x2_1_0_0_1_n_n_wf

abbrev win0_0 : Pipeline.Window sig grid0 :=
  Pipeline.Window.ofSpec (Memref.whole main_v58) S1000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S2000x34.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S32x2000.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S32x2000.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v40) S1x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg11) S30x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v59) S1x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg17) S32x32.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v60) S1x32.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg19) S32x32.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v61) S1x32.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg21) S94x32.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v62) S1x32.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v63_0) S1000x94.size cc0_transform_14 reads0_14 true false 2 stage0_14 sem0_14
    hrank0 hreads0_14 hinb0_14 nbuf0_14 (Memref.isWhole_whole _) hwx0_14 hstage0_14

abbrev win0_15 : Pipeline.Window sig grid0 :=
  Pipeline.Window.ofSpec (Memref.whole main_v63_1) S1000x2.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

class Facts : Prop extends Facts₀ where

variable [Facts]
-- ==== ReferenceIdeal.lean ====
abbrev S2000x30 : Shape := ⟨2, ![2000, 30]⟩
abbrev S2000x2 : Shape := ⟨2, ![2000, 2]⟩
abbrev S4000x30 : Shape := ⟨2, ![4000, 30]⟩
abbrev S4000x2 : Shape := ⟨2, ![4000, 2]⟩
abbrev S2000 : Shape := ⟨1, ![2000]⟩
abbrev S4000 : Shape := ⟨1, ![4000]⟩
abbrev S1x1 : Shape := ⟨2, ![1, 1]⟩
abbrev S30x32 : Shape := ⟨2, ![30, 32]⟩
abbrev S32 : Shape := ⟨1, ![32]⟩
abbrev S32x32 : Shape := ⟨2, ![32, 32]⟩
abbrev S94x32 : Shape := ⟨2, ![94, 32]⟩
abbrev S2x2 : Shape := ⟨2, ![2, 2]⟩
abbrev S2 : Shape := ⟨1, ![2]⟩
abbrev S2000x32 : Shape := ⟨2, ![2000, 32]⟩
abbrev S_ : Shape := ⟨0, ![]⟩
abbrev S4000x32 : Shape := ⟨2, ![4000, 32]⟩
abbrev S1x32 : Shape := ⟨2, ![1, 32]⟩
abbrev S6001x32 : Shape := ⟨2, ![6001, 32]⟩
abbrev S32x2000 : Shape := ⟨2, ![32, 2000]⟩
abbrev S4000x2000 : Shape := ⟨2, ![4000, 2000]⟩
abbrev S4000x1 : Shape := ⟨2, ![4000, 1]⟩
abbrev S1x2000 : Shape := ⟨2, ![1, 2000]⟩
abbrev S1x4000 : Shape := ⟨2, ![1, 4000]⟩
abbrev S6001x6001 : Shape := ⟨2, ![6001, 6001]⟩
abbrev S1 : Shape := ⟨1, ![1]⟩
abbrev S6001 : Shape := ⟨1, ![6001]⟩
abbrev S6001x1 : Shape := ⟨2, ![6001, 1]⟩
abbrev S4000x94 : Shape := ⟨2, ![4000, 94]⟩
abbrev S1x2 : Shape := ⟨2, ![1, 2]⟩

abbrev nBuf : Space → Nat
  | .hbm => 192
  | .vmem => 0
  | .smem => 0
  | _ => 0

abbrev hbmTy0_0 (i : Nat) : BufTy := match i % 128 with
  | 0 => ⟨S2000x30, .f32⟩
  | 1 => ⟨S2000x2, .f32⟩
  | 2 => ⟨S4000x30, .f32⟩
  | 3 => ⟨S4000x2, .f32⟩
  | 4 => ⟨S2000, .f32⟩
  | 5 => ⟨S4000, .f32⟩
  | 6 => ⟨S1x1, .f32⟩
  | 7 => ⟨S1x1, .f32⟩
  | 8 => ⟨S1x1, .f32⟩
  | 9 => ⟨S1x1, .f32⟩
  | 10 => ⟨S1x1, .f32⟩
  | 11 => ⟨S30x32, .f32⟩
  | 12 => ⟨S32, .f32⟩
  | 13 => ⟨S30x32, .f32⟩
  | 14 => ⟨S32, .f32⟩
  | 15 => ⟨S32x32, .f32⟩
  | 16 => ⟨S32, .f32⟩
  | 17 => ⟨S32x32, .f32⟩
  | 18 => ⟨S32, .f32⟩
  | 19 => ⟨S32x32, .f32⟩
  | 20 => ⟨S32, .f32⟩
  | 21 => ⟨S94x32, .f32⟩
  | 22 => ⟨S32, .f32⟩
  | 23 => ⟨S30x32, .f32⟩
  | 24 => ⟨S32, .f32⟩
  | 25 => ⟨S2x2, .f32⟩
  | 26 => ⟨S2, .f32⟩
  | 27 => ⟨S2000x32, .f32⟩
  | 28 => ⟨S_, .f32⟩
  | 29 => ⟨S4000x2, .f32⟩
  | 30 => ⟨S4000x32, .f32⟩
  | 31 => ⟨S_, .f32⟩
  | 32 => ⟨S32, .f32⟩
  | 33 => ⟨S1x32, .f32⟩
  | 34 => ⟨S_, .f32⟩
  | 35 => ⟨S1x32, .f32⟩
  | 36 => ⟨S1x32, .f32⟩
  | 37 => ⟨S6001x32, .f32⟩
  | 38 => ⟨S4000x32, .f32⟩
  | 39 => ⟨S1x32, .f32⟩
  | 40 => ⟨S4000x32, .f32⟩
  | 41 => ⟨S4000x32, .f32⟩
  | 42 => ⟨S2000x32, .f32⟩
  | 43 => ⟨S1x32, .f32⟩
  | 44 => ⟨S2000x32, .f32⟩
  | 45 => ⟨S2000x32, .f32⟩
  | 46 => ⟨S_, .f32⟩
  | 47 => ⟨S4000x32, .f32⟩
  | 48 => ⟨S4000x32, .f32⟩
  | 49 => ⟨S32x2000, .f32⟩
  | 50 => ⟨S4000x2000, .f32⟩
  | 51 => ⟨S_, .f32⟩
  | 52 => ⟨S4000, .f32⟩
  | 53 => ⟨S_, .f32⟩
  | 54 => ⟨S4000, .f32⟩
  | 55 => ⟨S4000, .f32⟩
  | 56 => ⟨S4000x1, .f32⟩
  | 57 => ⟨S4000x2000, .f32⟩
  | 58 => ⟨S4000x2000, .f32⟩
  | 59 => ⟨S4000x2000, .f32⟩
  | 60 => ⟨S_, .f32⟩
  | 61 => ⟨S4000, .f32⟩
  | 62 => ⟨S4000x1, .f32⟩
  | 63 => ⟨S4000x1, .f32⟩
  | 64 => ⟨S4000x2000, .f32⟩
  | 65 => ⟨S4000x2000, .f32⟩
  | 66 => ⟨S4000x2000, .f32⟩
  | 67 => ⟨S1x1, .f32⟩
  | 68 => ⟨S1x2000, .f32⟩
  | 69 => ⟨S1x2000, .f32⟩
  | 70 => ⟨S1x2000, .f32⟩
  | 71 => ⟨S1x2000, .f32⟩
  | 72 => ⟨S1x2000, .f32⟩
  | 73 => ⟨S1x2000, .f32⟩
  | 74 => ⟨S1x2000, .f32⟩
  | 75 => ⟨S1x2000, .f32⟩
  | 76 => ⟨S2000, .f32⟩
  | 77 => ⟨S1x1, .f32⟩
  | 78 => ⟨S1x4000, .f32⟩
  | 79 => ⟨S1x4000, .f32⟩
  | 80 => ⟨S1x4000, .f32⟩
  | 81 => ⟨S1x4000, .f32⟩
  | 82 => ⟨S1x4000, .f32⟩
  | 83 => ⟨S1x4000, .f32⟩
  | 84 => ⟨S1x4000, .f32⟩
  | 85 => ⟨S1x4000, .f32⟩
  | 86 => ⟨S4000, .f32⟩
  | 87 => ⟨S6001x6001, .i32⟩
  | 88 => ⟨S6001x6001, .i32⟩
  | 89 => ⟨S_, .i32⟩
  | 90 => ⟨S6001x6001, .i32⟩
  | 91 => ⟨S6001x6001, .i32⟩
  | 92 => ⟨S6001x6001, .i1⟩
  | 93 => ⟨S6001x6001, .f32⟩
  | 94 => ⟨S_, .i32⟩
  | 95 => ⟨S1, .i32⟩
  | 96 => ⟨S_, .i32⟩
  | 97 => ⟨S1, .i32⟩
  | 98 => ⟨S2, .i32⟩
  | 99 => ⟨S6001x6001, .f32⟩
  | 100 => ⟨S_, .i32⟩
  | 101 => ⟨S1, .i32⟩
  | 102 => ⟨S_, .i32⟩
  | 103 => ⟨S1, .i32⟩
  | 104 => ⟨S2, .i32⟩
  | 105 => ⟨S6001x6001, .f32⟩
  | 106 => ⟨S_, .i32⟩
  | 107 => ⟨S1, .i32⟩
  | 108 => ⟨S_, .i32⟩
  | 109 => ⟨S1, .i32⟩
  | 110 => ⟨S2, .i32⟩
  | 111 => ⟨S6001x6001, .f32⟩
  | 112 => ⟨S_, .f32⟩
  | 113 => ⟨S6001, .f32⟩
  | 114 => ⟨S6001x1, .f32⟩
  | 115 => ⟨S6001x6001, .f32⟩
  | 116 => ⟨S6001x6001, .f32⟩
  | 117 => ⟨S6001x32, .f32⟩
  | 118 => ⟨S6001x32, .f32⟩
  | 119 => ⟨S1x32, .f32⟩
  | 120 => ⟨S6001x32, .f32⟩
  | 121 => ⟨S6001x32, .f32⟩
  | 122 => ⟨S4000x32, .f32⟩
  | 123 => ⟨S1x32, .f32⟩
  | 124 => ⟨S1x1, .f32⟩
  | 125 => ⟨S1x4000, .f32⟩
  | 126 => ⟨S1x4000, .f32⟩
  | 127 => ⟨S1x4000, .f32⟩
  | _ => ⟨S2000x30, .f32⟩

abbrev hbmTy0_1 (i : Nat) : BufTy := match i % 128 with
  | 0 => ⟨S1x4000, .f32⟩
  | 1 => ⟨S1x4000, .f32⟩
  | 2 => ⟨S1x4000, .f32⟩
  | 3 => ⟨S1x4000, .f32⟩
  | 4 => ⟨S1x4000, .f32⟩
  | 5 => ⟨S4000, .f32⟩
  | 6 => ⟨S6001x6001, .i32⟩
  | 7 => ⟨S6001x6001, .i32⟩
  | 8 => ⟨S_, .i32⟩
  | 9 => ⟨S6001x6001, .i32⟩
  | 10 => ⟨S6001x6001, .i32⟩
  | 11 => ⟨S6001x6001, .i1⟩
  | 12 => ⟨S6001x6001, .f32⟩
  | 13 => ⟨S_, .i32⟩
  | 14 => ⟨S1, .i32⟩
  | 15 => ⟨S_, .i32⟩
  | 16 => ⟨S1, .i32⟩
  | 17 => ⟨S2, .i32⟩
  | 18 => ⟨S6001x6001, .f32⟩
  | 19 => ⟨S6001x32, .f32⟩
  | 20 => ⟨S_, .f32⟩
  | 21 => ⟨S6001, .f32⟩
  | 22 => ⟨S6001x1, .f32⟩
  | 23 => ⟨S6001x6001, .f32⟩
  | 24 => ⟨S6001x6001, .f32⟩
  | 25 => ⟨S6001x32, .f32⟩
  | 26 => ⟨S6001x32, .f32⟩
  | 27 => ⟨S1x32, .f32⟩
  | 28 => ⟨S6001x32, .f32⟩
  | 29 => ⟨S6001x32, .f32⟩
  | 30 => ⟨S4000x32, .f32⟩
  | 31 => ⟨S4000x94, .f32⟩
  | 32 => ⟨S4000x32, .f32⟩
  | 33 => ⟨S1x32, .f32⟩
  | 34 => ⟨S4000x32, .f32⟩
  | 35 => ⟨S4000x32, .f32⟩
  | 36 => ⟨S2000x32, .f32⟩
  | 37 => ⟨S1x32, .f32⟩
  | 38 => ⟨S2000x32, .f32⟩
  | 39 => ⟨S2000x32, .f32⟩
  | 40 => ⟨S2000x2, .f32⟩
  | 41 => ⟨S1x2, .f32⟩
  | 42 => ⟨S2000x2, .f32⟩
  | 43 => ⟨S2000x2, .f32⟩
  | 44 => ⟨S_, .f32⟩
  | 45 => ⟨S4000x32, .f32⟩
  | 46 => ⟨S4000x32, .f32⟩
  | 47 => ⟨S32x2000, .f32⟩
  | 48 => ⟨S4000x2000, .f32⟩
  | 49 => ⟨S_, .f32⟩
  | 50 => ⟨S4000, .f32⟩
  | 51 => ⟨S_, .f32⟩
  | 52 => ⟨S4000, .f32⟩
  | 53 => ⟨S4000, .f32⟩
  | 54 => ⟨S4000x1, .f32⟩
  | 55 => ⟨S4000x2000, .f32⟩
  | 56 => ⟨S4000x2000, .f32⟩
  | 57 => ⟨S4000x2000, .f32⟩
  | 58 => ⟨S_, .f32⟩
  | 59 => ⟨S4000, .f32⟩
  | 60 => ⟨S4000x1, .f32⟩
  | 61 => ⟨S4000x2000, .f32⟩
  | 62 => ⟨S4000x2000, .f32⟩
  | 63 => ⟨S4000x2, .f32⟩
  | _ => ⟨S2000x30, .f32⟩

abbrev hbmTy (i : Nat) : BufTy := match i / 128 with
  | 0 => hbmTy0_0 i
  | 1 => hbmTy0_1 i
  | _ => ⟨S2000x30, .f32⟩

abbrev bufTy : (tb : Table) → Fin (tcTables nBuf tb) → BufTy
  | .hbm, ⟨i, _⟩ => hbmTy i
  | _, _ => ⟨S2000x30, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_cst : Ref sig .tc := ⟨.hbm, 28, rfl⟩
abbrev main_v1 : Ref sig .tc := ⟨.hbm, 29, rfl⟩
abbrev main_v2 : Ref sig .tc := ⟨.hbm, 30, rfl⟩
abbrev main_cst_0 : Ref sig .tc := ⟨.hbm, 31, rfl⟩
abbrev main_v3 : Ref sig .tc := ⟨.hbm, 32, rfl⟩
abbrev main_v4 : Ref sig .tc := ⟨.hbm, 33, rfl⟩
abbrev main_cst_1 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_cst_2 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_call0_cst : Ref sig .tc := ⟨.hbm, 51, rfl⟩
abbrev main_call0_v0 : Ref sig .tc := ⟨.hbm, 52, rfl⟩
abbrev main_call0_cst_0 : Ref sig .tc := ⟨.hbm, 53, rfl⟩
abbrev main_call0_v1 : Ref sig .tc := ⟨.hbm, 54, rfl⟩
abbrev main_call0_v2 : Ref sig .tc := ⟨.hbm, 55, rfl⟩
abbrev main_call0_v3 : Ref sig .tc := ⟨.hbm, 56, rfl⟩
abbrev main_call0_v4 : Ref sig .tc := ⟨.hbm, 57, rfl⟩
abbrev main_call0_v5 : Ref sig .tc := ⟨.hbm, 58, rfl⟩
abbrev main_call0_v6 : Ref sig .tc := ⟨.hbm, 59, rfl⟩
abbrev main_call0_cst_1 : Ref sig .tc := ⟨.hbm, 60, rfl⟩
abbrev main_call0_v7 : Ref sig .tc := ⟨.hbm, 61, rfl⟩
abbrev main_call0_v8 : Ref sig .tc := ⟨.hbm, 62, rfl⟩
abbrev main_call0_v9 : Ref sig .tc := ⟨.hbm, 63, rfl⟩
abbrev main_call0_v10 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_v27 : Ref sig .tc := ⟨.hbm, 72, rfl⟩
abbrev main_v28 : Ref sig .tc := ⟨.hbm, 73, rfl⟩
abbrev main_v29 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_c : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev main_c_3 : Ref sig .tc := ⟨.hbm, 94, rfl⟩
abbrev main_v48 : Ref sig .tc := ⟨.hbm, 95, rfl⟩
abbrev main_c_4 : Ref sig .tc := ⟨.hbm, 96, rfl⟩
abbrev main_v49 : Ref sig .tc := ⟨.hbm, 97, rfl⟩
abbrev main_v50 : Ref sig .tc := ⟨.hbm, 98, rfl⟩
abbrev main_v51 : Ref sig .tc := ⟨.hbm, 99, rfl⟩
abbrev main_c_5 : Ref sig .tc := ⟨.hbm, 100, rfl⟩
abbrev main_v52 : Ref sig .tc := ⟨.hbm, 101, rfl⟩
abbrev main_c_6 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_c_7 : Ref sig .tc := ⟨.hbm, 106, rfl⟩
abbrev main_v56 : Ref sig .tc := ⟨.hbm, 107, rfl⟩
abbrev main_c_8 : Ref sig .tc := ⟨.hbm, 108, rfl⟩
abbrev main_v57 : Ref sig .tc := ⟨.hbm, 109, rfl⟩
abbrev main_v58 : Ref sig .tc := ⟨.hbm, 110, rfl⟩
abbrev main_v59 : Ref sig .tc := ⟨.hbm, 111, rfl⟩
abbrev main_cst_9 : Ref sig .tc := ⟨.hbm, 112, rfl⟩
abbrev main_v60 : Ref sig .tc := ⟨.hbm, 113, rfl⟩
abbrev main_v61 : Ref sig .tc := ⟨.hbm, 114, rfl⟩
abbrev main_v62 : Ref sig .tc := ⟨.hbm, 115, rfl⟩
abbrev main_v63 : Ref sig .tc := ⟨.hbm, 116, rfl⟩
abbrev main_v64 : Ref sig .tc := ⟨.hbm, 117, rfl⟩
abbrev main_v65 : Ref sig .tc := ⟨.hbm, 118, rfl⟩
abbrev main_v66 : Ref sig .tc := ⟨.hbm, 119, rfl⟩
abbrev main_v67 : Ref sig .tc := ⟨.hbm, 120, rfl⟩
abbrev main_v68 : Ref sig .tc := ⟨.hbm, 121, rfl⟩
abbrev main_v69 : Ref sig .tc := ⟨.hbm, 122, rfl⟩
abbrev main_v70 : Ref sig .tc := ⟨.hbm, 123, rfl⟩
abbrev main_v71 : Ref sig .tc := ⟨.hbm, 124, rfl⟩
abbrev main_v72 : Ref sig .tc := ⟨.hbm, 125, rfl⟩
abbrev main_v73 : Ref sig .tc := ⟨.hbm, 126, rfl⟩
abbrev main_v74 : Ref sig .tc := ⟨.hbm, 127, rfl⟩
abbrev main_v75 : Ref sig .tc := ⟨.hbm, 128, rfl⟩
abbrev main_v76 : Ref sig .tc := ⟨.hbm, 129, rfl⟩
abbrev main_v77 : Ref sig .tc := ⟨.hbm, 130, rfl⟩
abbrev main_v78 : Ref sig .tc := ⟨.hbm, 131, rfl⟩
abbrev main_v79 : Ref sig .tc := ⟨.hbm, 132, rfl⟩
abbrev main_v80 : Ref sig .tc := ⟨.hbm, 133, rfl⟩
abbrev main_v81 : Ref sig .tc := ⟨.hbm, 134, rfl⟩
abbrev main_v82 : Ref sig .tc := ⟨.hbm, 135, rfl⟩
abbrev main_c_10 : Ref sig .tc := ⟨.hbm, 136, rfl⟩
abbrev main_v83 : Ref sig .tc := ⟨.hbm, 137, rfl⟩
abbrev main_v84 : Ref sig .tc := ⟨.hbm, 138, rfl⟩
abbrev main_v85 : Ref sig .tc := ⟨.hbm, 139, rfl⟩
abbrev main_v86 : Ref sig .tc := ⟨.hbm, 140, rfl⟩
abbrev main_c_11 : Ref sig .tc := ⟨.hbm, 141, rfl⟩
abbrev main_v87 : Ref sig .tc := ⟨.hbm, 142, rfl⟩
abbrev main_c_12 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_cst_13 : Ref sig .tc := ⟨.hbm, 148, rfl⟩
abbrev main_v92 : Ref sig .tc := ⟨.hbm, 149, rfl⟩
abbrev main_v93 : Ref sig .tc := ⟨.hbm, 150, rfl⟩
abbrev main_v94 : Ref sig .tc := ⟨.hbm, 151, rfl⟩
abbrev main_v95 : Ref sig .tc := ⟨.hbm, 152, rfl⟩
abbrev main_v96 : Ref sig .tc := ⟨.hbm, 153, rfl⟩
abbrev main_v97 : Ref sig .tc := ⟨.hbm, 154, rfl⟩
abbrev main_v98 : Ref sig .tc := ⟨.hbm, 155, rfl⟩
abbrev main_v99 : Ref sig .tc := ⟨.hbm, 156, rfl⟩
abbrev main_v100 : Ref sig .tc := ⟨.hbm, 157, rfl⟩
abbrev main_v101 : Ref sig .tc := ⟨.hbm, 158, rfl⟩
abbrev main_v102 : Ref sig .tc := ⟨.hbm, 159, rfl⟩
abbrev main_v103 : Ref sig .tc := ⟨.hbm, 160, rfl⟩
abbrev main_v104 : Ref sig .tc := ⟨.hbm, 161, rfl⟩
abbrev main_v105 : Ref sig .tc := ⟨.hbm, 162, rfl⟩
abbrev main_v106 : Ref sig .tc := ⟨.hbm, 163, rfl⟩
abbrev main_v107 : Ref sig .tc := ⟨.hbm, 164, rfl⟩
abbrev main_v108 : Ref sig .tc := ⟨.hbm, 165, rfl⟩
abbrev main_v109 : Ref sig .tc := ⟨.hbm, 166, rfl⟩
abbrev main_v110 : Ref sig .tc := ⟨.hbm, 167, rfl⟩
abbrev main_v111 : Ref sig .tc := ⟨.hbm, 168, rfl⟩
abbrev main_v112 : Ref sig .tc := ⟨.hbm, 169, rfl⟩
abbrev main_v113 : Ref sig .tc := ⟨.hbm, 170, rfl⟩
abbrev main_v114 : Ref sig .tc := ⟨.hbm, 171, rfl⟩
abbrev main_cst_14 : Ref sig .tc := ⟨.hbm, 172, rfl⟩
abbrev main_v115 : Ref sig .tc := ⟨.hbm, 173, rfl⟩
abbrev main_v116 : Ref sig .tc := ⟨.hbm, 174, rfl⟩
abbrev main_v117 : Ref sig .tc := ⟨.hbm, 175, rfl⟩
abbrev main_v118 : Ref sig .tc := ⟨.hbm, 176, rfl⟩
abbrev main_cst_15 : Ref sig .tc := ⟨.hbm, 177, rfl⟩
abbrev main_v119 : Ref sig .tc := ⟨.hbm, 178, rfl⟩
abbrev main_cst_16 : Ref sig .tc := ⟨.hbm, 179, rfl⟩
abbrev main_v120 : Ref sig .tc := ⟨.hbm, 180, rfl⟩
abbrev main_v121 : Ref sig .tc := ⟨.hbm, 181, rfl⟩
abbrev main_v122 : Ref sig .tc := ⟨.hbm, 182, rfl⟩
abbrev main_v123 : Ref sig .tc := ⟨.hbm, 183, rfl⟩
abbrev main_v124 : Ref sig .tc := ⟨.hbm, 184, rfl⟩
abbrev main_v125 : Ref sig .tc := ⟨.hbm, 185, rfl⟩
abbrev main_cst_17 : Ref sig .tc := ⟨.hbm, 186, rfl⟩
abbrev main_v126 : Ref sig .tc := ⟨.hbm, 187, rfl⟩
abbrev main_v127 : Ref sig .tc := ⟨.hbm, 188, rfl⟩
abbrev main_v128 : Ref sig .tc := ⟨.hbm, 189, rfl⟩
abbrev main_v129 : Ref sig .tc := ⟨.hbm, 190, rfl⟩
abbrev main_v130 : Ref sig .tc := ⟨.hbm, 191, rfl⟩

abbrev nD : Nat := 1
abbrev τ : Topo := Topo.v7x

variable {F : FTy → Type} [FloatOps F]

class Facts₀ : Prop where
  concatenates_S2000x30_S2000x2_S2000x32_d1 : Shape.Concatenates [S2000x30, S2000x2] S2000x32 1
  bcast_S_S4000x2 : S_.BroadcastsInDim S4000x2 (![] : Fin 0 → Fin S4000x2.rank)
  concatenates_S4000x30_S4000x2_S4000x32_d1 : Shape.Concatenates [S4000x30, S4000x2] S4000x32 1
  reducesTo_S2000x32_S32_d0 : S2000x32.ReducesTo [0] S32
  h_S_ : 0 < S_.numel
  bcast_S32_S1x32_1 : S32.BroadcastsInDim S1x32 (![1] : Fin 1 → Fin S1x32.rank)
  bcast_S_S1x32 : S_.BroadcastsInDim S1x32 (![] : Fin 0 → Fin S1x32.rank)
  concatenates_S2000x32_S4000x32_S1x32_S6001x32_d0 : Shape.Concatenates [S2000x32, S4000x32, S1x32] S6001x32 0
  bcast_S1x32_S4000x32_0_1 : S1x32.BroadcastsInDim S4000x32 (![0, 1] : Fin 2 → Fin S4000x32.rank)
  bcast_S1x32_S2000x32_0_1 : S1x32.BroadcastsInDim S2000x32 (![0, 1] : Fin 2 → Fin S2000x32.rank)
  bcast_S_S4000x32 : S_.BroadcastsInDim S4000x32 (![] : Fin 0 → Fin S4000x32.rank)
  transposes_S2000x32_S32x2000_1_0 : S2000x32.Transposes [1, 0] S32x2000
  reducesTo_S4000x2000_S4000_d1 : S4000x2000.ReducesTo [1] S4000
  bcast_S_S4000 : S_.BroadcastsInDim S4000 (![] : Fin 0 → Fin S4000.rank)
  bcast_S4000_S4000x1_0 : S4000.BroadcastsInDim S4000x1 (![0] : Fin 1 → Fin S4000x1.rank)
  bcast_S4000x1_S4000x2000_0_1 : S4000x1.BroadcastsInDim S4000x2000 (![0, 1] : Fin 2 → Fin S4000x2000.rank)
  bcast_S2000_S1x2000_1 : S2000.BroadcastsInDim S1x2000 (![1] : Fin 1 → Fin S1x2000.rank)
  bcast_S1x1_S1x2000_0_1 : S1x1.BroadcastsInDim S1x2000 (![0, 1] : Fin 2 → Fin S1x2000.rank)
  shapeCasts_S1x2000_S2000 : S1x2000.ShapeCasts S2000
  bcast_S4000_S1x4000_1 : S4000.BroadcastsInDim S1x4000 (![1] : Fin 1 → Fin S1x4000.rank)
  bcast_S1x1_S1x4000_0_1 : S1x1.BroadcastsInDim S1x4000 (![0, 1] : Fin 2 → Fin S1x4000.rank)
  shapeCasts_S1x4000_S4000 : S1x4000.ShapeCasts S4000
  bcast_S_S6001x6001 : S_.BroadcastsInDim S6001x6001 (![] : Fin 0 → Fin S6001x6001.rank)
  bcast_S_S1 : S_.BroadcastsInDim S1 (![] : Fin 0 → Fin S1.rank)
  concatenates_S1_S1_S2_d0 : Shape.Concatenates [S1, S1] S2 0
  reducesTo_S6001x6001_S6001_d1 : S6001x6001.ReducesTo [1] S6001
  bcast_S6001_S6001x1_0 : S6001.BroadcastsInDim S6001x1 (![0] : Fin 1 → Fin S6001x1.rank)
  bcast_S6001x1_S6001x6001_0_1 : S6001x1.BroadcastsInDim S6001x6001 (![0, 1] : Fin 2 → Fin S6001x6001.rank)
  bcast_S1x32_S6001x32_0_1 : S1x32.BroadcastsInDim S6001x32 (![0, 1] : Fin 2 → Fin S6001x32.rank)
  slices_S6001x32_S4000x32_2000_0 : S6001x32.Slices ![2000, 0] S4000x32
  slices_S6001x32_S1x32_6000_0 : S6001x32.Slices ![6000, 0] S1x32
  concatenates_S4000x30_S4000x32_S4000x32_S4000x94_d1 : Shape.Concatenates [S4000x30, S4000x32, S4000x32] S4000x94 1
  bcast_S2_S1x2_1 : S2.BroadcastsInDim S1x2 (![1] : Fin 1 → Fin S1x2.rank)
  bcast_S1x2_S2000x2_0_1 : S1x2.BroadcastsInDim S2000x2 (![0, 1] : Fin 2 → Fin S2000x2.rank)
  dot_S4000x30_S30x32_S4000x32_1_0_0_1_n_n_wf : DotDims.WF S4000x30 S30x32 S4000x32 [1] [0] [0] [1] [] []
  dot_S2000x30_S30x32_S2000x32_1_0_0_1_n_n_wf : DotDims.WF S2000x30 S30x32 S2000x32 [1] [0] [0] [1] [] []
  dot_S4000x32_S32x2000_S4000x2000_1_0_0_1_n_n_wf : DotDims.WF S4000x32 S32x2000 S4000x2000 [1] [0] [0] [1] [] []
  scatter_S6001x6001_S2_S4000x2000_01_n_01_0_wf : ScatterDims.WF S6001x6001 S2 S4000x2000 [0, 1] [] [0, 1] 0
  scatter_S6001x6001_S2_S2000_0_0_01_0_wf : ScatterDims.WF S6001x6001 S2 S2000 [0] [0] [0, 1] 0
  scatter_S6001x6001_S2_S4000_0_1_01_0_wf : ScatterDims.WF S6001x6001 S2 S4000 [0] [1] [0, 1] 0
  dot_S6001x6001_S6001x32_S6001x32_1_0_0_1_n_n_wf : DotDims.WF S6001x6001 S6001x32 S6001x32 [1] [0] [0] [1] [] []
  dot_S6001x32_S32x32_S6001x32_1_0_0_1_n_n_wf : DotDims.WF S6001x32 S32x32 S6001x32 [1] [0] [0] [1] [] []
  dot_S4000x94_S94x32_S4000x32_1_0_0_1_n_n_wf : DotDims.WF S4000x94 S94x32 S4000x32 [1] [0] [0] [1] [] []
  dot_S2000x2_S2x2_S2000x2_1_0_0_1_n_n_wf : DotDims.WF S2000x2 S2x2 S2000x2 [1] [0] [0] [1] [] []
  dot_S4000x2000_S2000x2_S4000x2_1_0_0_1_n_n_wf : DotDims.WF S4000x2000 S2000x2 S4000x2 [1] [0] [0] [1] [] []

variable [Facts₀]

def dot_S4000x30_S30x32_S4000x32_1_0_0_1_n_n : DotDims S4000x30 S30x32 S4000x32 where
  lhsContracting := [1]
  rhsContracting := [0]
  lhsNonContracting := [0]
  rhsNonContracting := [1]
  lhsBatch := []
  rhsBatch := []
  wf := dot_S4000x30_S30x32_S4000x32_1_0_0_1_n_n_wf
def dot_S2000x30_S30x32_S2000x32_1_0_0_1_n_n : DotDims S2000x30 S30x32 S2000x32 where
  lhsContracting := [1]
  rhsContracting := [0]
  lhsNonContracting := [0]
  rhsNonContracting := [1]
  lhsBatch := []
  rhsBatch := []
  wf := dot_S2000x30_S30x32_S2000x32_1_0_0_1_n_n_wf
def dot_S4000x32_S32x2000_S4000x2000_1_0_0_1_n_n : DotDims S4000x32 S32x2000 S4000x2000 where
  lhsContracting := [1]
  rhsContracting := [0]
  lhsNonContracting := [0]
  rhsNonContracting := [1]
  lhsBatch := []
  rhsBatch := []
  wf := dot_S4000x32_S32x2000_S4000x2000_1_0_0_1_n_n_wf
def scatter_S6001x6001_S2_S4000x2000_01_n_01_0 : ScatterDims S6001x6001 S2 S4000x2000 where
  updateWindowDims := [0, 1]
  insertedWindowDims := []
  scatterDimsToOperandDims := [0, 1]
  indexVectorDim := 0
  wf := scatter_S6001x6001_S2_S4000x2000_01_n_01_0_wf
def scatter_S6001x6001_S2_S2000_0_0_01_0 : ScatterDims S6001x6001 S2 S2000 where
  updateWindowDims := [0]
  insertedWindowDims := [0]
  scatterDimsToOperandDims := [0, 1]
  indexVectorDim := 0
  wf := scatter_S6001x6001_S2_S2000_0_0_01_0_wf
def scatter_S6001x6001_S2_S4000_0_1_01_0 : ScatterDims S6001x6001 S2 S4000 where
  updateWindowDims := [0]
  insertedWindowDims := [1]
  scatterDimsToOperandDims := [0, 1]
  indexVectorDim := 0
  wf := scatter_S6001x6001_S2_S4000_0_1_01_0_wf
def dot_S6001x6001_S6001x32_S6001x32_1_0_0_1_n_n : DotDims S6001x6001 S6001x32 S6001x32 where
  lhsContracting := [1]
  rhsContracting := [0]
  lhsNonContracting := [0]
  rhsNonContracting := [1]
  lhsBatch := []
  rhsBatch := []
  wf := dot_S6001x6001_S6001x32_S6001x32_1_0_0_1_n_n_wf
def dot_S6001x32_S32x32_S6001x32_1_0_0_1_n_n : DotDims S6001x32 S32x32 S6001x32 where
  lhsContracting := [1]
  rhsContracting := [0]
  lhsNonContracting := [0]
  rhsNonContracting := [1]
  lhsBatch := []
  rhsBatch := []
  wf := dot_S6001x32_S32x32_S6001x32_1_0_0_1_n_n_wf
def dot_S4000x94_S94x32_S4000x32_1_0_0_1_n_n : DotDims S4000x94 S94x32 S4000x32 where
  lhsContracting := [1]
  rhsContracting := [0]
  lhsNonContracting := [0]
  rhsNonContracting := [1]
  lhsBatch := []
  rhsBatch := []
  wf := dot_S4000x94_S94x32_S4000x32_1_0_0_1_n_n_wf
def dot_S2000x2_S2x2_S2000x2_1_0_0_1_n_n : DotDims S2000x2 S2x2 S2000x2 where
  lhsContracting := [1]
  rhsContracting := [0]
  lhsNonContracting := [0]
  rhsNonContracting := [1]
  lhsBatch := []
  rhsBatch := []
  wf := dot_S2000x2_S2x2_S2000x2_1_0_0_1_n_n_wf
def dot_S4000x2000_S2000x2_S4000x2_1_0_0_1_n_n : DotDims S4000x2000 S2000x2 S4000x2 where
  lhsContracting := [1]
  rhsContracting := [0]
  lhsNonContracting := [0]
  rhsNonContracting := [1]
  lhsBatch := []
  rhsBatch := []
  wf := dot_S4000x2000_S2000x2_S4000x2_1_0_0_1_n_n_wf

class Facts : Prop extends Facts₀ where

variable [Facts]
-- ==== Proof.FrameK.lean ====
import proofs.«406318_j68710886801531_3_alg».proof.Proof.Gen.Kernel.Launch
import proofs.«406318_j68710886801531_3_alg».proof.Proof.Gen.Kernel.Skeleton
import proofs.«406318_j68710886801531_3_alg».proof.Proof.Gen.Kernel.Points
import Idealize.ShloMosaic.Lib.Pipeline.FrameBody
import Idealize.ShloMosaic.Lib.Ring
import Idealize.ShloMosaic.Lib.Tactic
set_option maxRecDepth 16384
set_option synthInstance.maxSize 4096
noncomputable section
namespace Cert.Kernel.HandFrame
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (m : (ℓ : Loc nD τ sig) → Buf (Elt F) ℓ) (ρ : Dev nD → PrngReg)
abbrev V (c : Dev nD) (b : Ref sig .tc) : Buf (Elt F) ((c : Thread nD τ).loc b) := StableHlo.after hostOps0 (fun b => m (c, b)) b
theorem hostOps0_fresh : (hostOps0 : List (HloOp τ sig (Elt F))).Forall fun op => op.fresh = ∅ := by
  simp only [List.Forall]; repeat' constructor
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain
abbrev hostW : List (Ref sig .tc) :=
  [main_cst, main_cst_0, main_cst_1, main_cst_2, main_cst_3, main_v0, main_v1, main_v2, main_v3, main_v4, main_v5, main_v6, main_v7, main_v8, main_v9, main_v10, main_v11, main_v12, main_v13, main_v14, main_v15, main_v16, main_v17, main_v18, main_v19, main_v20, main_v21, main_v22, main_v23, main_v24, main_v25, main_v26, main_v27, main_v28, main_v29, main_v30, main_v31, main_v32, main_v33, main_v34, main_v35, main_v36, main_v37, main_v38, main_v39, main_v40, main_v41, main_v42, main_v43, main_v44, main_v45, main_v46, main_v47, main_v48, main_v49, main_v50, main_v51, main_v52, main_v53, main_v54, main_v55, main_v56, main_v57, main_v58, main_v59, main_v60, main_v61, main_v62]
-- Each of the sixty-eight host operations writes one reference, an intermediate of @main listed in `hostW`.
theorem hostOps0_writes : (hostOps0 : List (HloOp τ sig (Elt F))).Forall fun op => op.writes ⊆ (hostW.map (Proc.devRef (τ := τ) .tc)).toFinset := by
  simp only [hostOps0, List.Forall, StableHlo.nullary_writes, StableHlo.unary_writes, StableHlo.binary_writes, StableHlo.reshape_writes, StableHlo.nary_writes, Finset.singleton_subset_iff, List.mem_toFinset]
  repeat' apply And.intro
  all_goals exact List.mem_map_of_mem (by decide)
-- Hence every argument of @main, being none of them, is at the region's entry what it was at launch.
theorem V_of (c : Dev nD) {b : Ref sig .tc} (h : b ∉ hostW) : V m c b = m ((c : Thread nD τ).loc b) :=
  StableHlo.after_of_writes_sub hostOps0 _ hostOps0_writes h
theorem V_main_arg11 (c : Dev nD) : V m c main_arg11 = m ((c : Thread nD τ).loc main_arg11) := V_of m c (by decide)
theorem V_main_arg17 (c : Dev nD) : V m c main_arg17 = m ((c : Thread nD τ).loc main_arg17) := V_of m c (by decide)
theorem V_main_arg19 (c : Dev nD) : V m c main_arg19 = m ((c : Thread nD τ).loc main_arg19) := V_of m c (by decide)
theorem V_main_arg21 (c : Dev nD) : V m c main_arg21 = m ((c : Thread nD τ).loc main_arg21) := V_of m c (by decide)
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))
abbrev kept (r : PUnit × MemSt nD τ sig (Elt F)) (c : Dev nD) (b : Ref sig .tc) : Prop :=
  r.2.mem ((c.tc : Thread nD τ).loc b) = m ((c.tc : Thread nD τ).loc b)
abbrev Kept (r : PUnit × MemSt nD τ sig (Elt F)) (c : Dev nD) : Prop :=
  kept m r c main_arg0 ∧ kept m r c main_arg1 ∧ kept m r c main_arg2 ∧ kept m r c main_arg3 ∧ kept m r c main_arg4 ∧ kept m r c main_arg5 ∧ kept m r c main_arg6 ∧ kept m r c main_arg7 ∧ kept m r c main_arg8 ∧ kept m r c main_arg9 ∧ kept m r c main_arg10 ∧ kept m r c main_arg11 ∧ kept m r c main_arg12 ∧ kept m r c main_arg13 ∧ kept m r c main_arg14 ∧ kept m r c main_arg15 ∧ kept m r c main_arg16 ∧ kept m r c main_arg17 ∧ kept m r c main_arg18 ∧ kept m r c main_arg19 ∧ kept m r c main_arg20 ∧ kept m r c main_arg21 ∧ kept m r c main_arg22 ∧ kept m r c main_arg23 ∧ kept m r c main_arg24 ∧ kept m r c main_arg25 ∧ kept m r c main_arg26
-- An argument is either the array of an input window, which the region leaves as it found it, or no window's array, which the region does not touch.
theorem kept_of_post (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F)) (h : Pipeline.FramePost cfgs dats 0 (V m) r) (c : Dev nD) : Kept m r c :=
  have k (b : Ref sig .tc) (hb : b.isScoped = false ∧ (∀ w, ((cfgs 0).spec w).arr.view.ref ≠ b) ∧ b ∉ hostW) : kept m r c b :=
    ((h c).2 b (Pipeline.mem_restRefs_of b hb.1 hb.2.1)).trans (V_of m c hb.2.2)
  ⟨k main_arg0 (by decide),
    k main_arg1 (by decide),
    k main_arg2 (by decide),
    k main_arg3 (by decide),
    k main_arg4 (by decide),
    k main_arg5 (by decide),
    k main_arg6 (by decide),
    k main_arg7 (by decide),
    k main_arg8 (by decide),
    k main_arg9 (by decide),
    k main_arg10 (by decide),
    ((h c).1 6).trans (((dats 0 c).arrAt_in 6 rfl _).trans ((hA c 6).trans (V_main_arg11 m c))),
    k main_arg12 (by decide),
    k main_arg13 (by decide),
    k main_arg14 (by decide),
    k main_arg15 (by decide),
    k main_arg16 (by decide),
    ((h c).1 8).trans (((dats 0 c).arrAt_in 8 rfl _).trans ((hA c 8).trans (V_main_arg17 m c))),
    k main_arg18 (by decide),
    ((h c).1 10).trans (((dats 0 c).arrAt_in 10 rfl _).trans ((hA c 10).trans (V_main_arg19 m c))),
    k main_arg20 (by decide),
    ((h c).1 12).trans (((dats 0 c).arrAt_in 12 rfl _).trans ((hA c 12).trans (V_main_arg21 m c))),
    k main_arg22 (by decide),
    k main_arg23 (by decide),
    k main_arg24 (by decide),
    k main_arg25 (by decide),
    k main_arg26 (by decide)⟩
abbrev r_S1000x32 : Rect S1000x32 := Rect.unit (s := S1000x32) ![0, 0] S1000x32.size inb_S1000x32_S1000x32_0_0
abbrev r_S2000x34 : Rect S2000x34 := Rect.unit (s := S2000x34) ![0, 0] S2000x34.size inb_S2000x34_S2000x34_0_0
abbrev r_S32x2000 : Rect S32x2000 := Rect.unit (s := S32x2000) ![0, 0] S32x2000.size inb_S32x2000_S32x2000_0_0
abbrev r_S1x32 : Rect S1x32 := Rect.unit (s := S1x32) ![0, 0] S1x32.size inb_S1x32_S1x32_0_0
abbrev r_S30x32 : Rect S30x32 := Rect.unit (s := S30x32) ![0, 0] S30x32.size inb_S30x32_S30x32_0_0
abbrev r_S32x32 : Rect S32x32 := Rect.unit (s := S32x32) ![0, 0] S32x32.size inb_S32x32_S32x32_0_0
abbrev r_S94x32 : Rect S94x32 := Rect.unit (s := S94x32) ![0, 0] S94x32.size inb_S94x32_S94x32_0_0
abbrev r_S1000x94 : Rect S1000x94 := Rect.unit (s := S1000x94) ![0, 0] S1000x94.size inb_S1000x94_S1000x94_0_0
abbrev r_S1000x2 : Rect S1000x2 := Rect.unit (s := S1000x2) ![0, 0] S1000x2.size inb_S1000x2_S1000x2_0_0
def featVal
    (x0 : Vec F S1000x32 .f32) (x1 : Vec F S2000x34 .f32) (x2 x3 : Vec F S32x2000 .f32) (x4 x5 : Vec F S1x32 .f32)
    (x6 : Vec F S30x32 .f32) (x7 : Vec F S1x32 .f32) (x8 : Vec F S32x32 .f32) (x9 : Vec F S1x32 .f32) (x10 : Vec F S32x32 .f32)
    (x11 : Vec F S1x32 .f32) (x12 : Vec F S94x32 .f32) (x13 : Vec F S1x32 .f32)
    : FVec F S1000x94 .f32 :=
  k0_pay9 (k0_pay3 (View.ld x0 r_S1000x32)) (k0_pay4 (View.ld x0 r_S1000x32)) (k0_pay5 (View.ld x0 r_S1000x32))
    (k0_pay8 (View.ld x0 r_S1000x32) (View.ld x6 r_S30x32) (View.ld x7 r_S1x32) (View.ld x2 r_S32x2000) (View.ld x1 r_S2000x34))
    (View.ld x4 r_S1x32) (View.ld x8 r_S32x32) (View.ld x9 r_S1x32) (View.ld x5 r_S1x32) (View.ld x10 r_S32x32) (View.ld x11 r_S1x32)
def featBlock
    (x0 : Vec F S1000x32 .f32) (x1 : Vec F S2000x34 .f32) (x2 x3 : Vec F S32x2000 .f32) (x4 x5 : Vec F S1x32 .f32)
    (x6 : Vec F S30x32 .f32) (x7 : Vec F S1x32 .f32) (x8 : Vec F S32x32 .f32) (x9 : Vec F S1x32 .f32) (x10 : Vec F S32x32 .f32)
    (x11 : Vec F S1x32 .f32) (x12 : Vec F S94x32 .f32) (x13 : Vec F S1x32 .f32)
    : Vec F S1000x94 .f32 :=
  View.canon [⟨r_S1000x94, featVal x0 x1 x2 x3 x4 x5 x6 x7 x8 x9 x10 x11 x12 x13⟩]
def yBlock
    (x0 : Vec F S1000x32 .f32) (x1 : Vec F S2000x34 .f32) (x2 x3 : Vec F S32x2000 .f32) (x4 x5 : Vec F S1x32 .f32)
    (x6 : Vec F S30x32 .f32) (x7 : Vec F S1x32 .f32) (x8 : Vec F S32x32 .f32) (x9 : Vec F S1x32 .f32) (x10 : Vec F S32x32 .f32)
    (x11 : Vec F S1x32 .f32) (x12 : Vec F S94x32 .f32) (x13 : Vec F S1x32 .f32)
    : Vec F S1000x2 .f32 :=
  View.canon [⟨r_S1000x2, k0_pay1 (k0_pay7 (View.ld x1 r_S2000x34)) (featVal x0 x1 x2 x3 x4 x5 x6 x7 x8 x9 x10 x11 x12 x13)
    (View.ld x12 r_S94x32) (View.ld x13 r_S1x32) (View.ld x3 r_S32x2000)⟩]
-- The body reads the fourteen input blocks and stores both output blocks whole: what it leaves is a function of the input blocks alone.
set_option maxHeartbeats 1000000 in
theorem sound_kernel (c : Dev nD) (E : Set ℕ) (i : grid0.Coords)
    (a0 : Memref sig .tc .vmem S1000x32 .f32) (h0 : a0.IsWhole)
    (a1 : Memref sig .tc .vmem S2000x34 .f32) (h1 : a1.IsWhole)
    (a2 : Memref sig .tc .vmem S32x2000 .f32) (h2 : a2.IsWhole)
    (a3 : Memref sig .tc .vmem S32x2000 .f32) (h3 : a3.IsWhole)
    (a4 : Memref sig .tc .vmem S1x32 .f32) (h4 : a4.IsWhole)
    (a5 : Memref sig .tc .vmem S1x32 .f32) (h5 : a5.IsWhole)
    (a6 : Memref sig .tc .vmem S30x32 .f32) (h6 : a6.IsWhole)
    (a7 : Memref sig .tc .vmem S1x32 .f32) (h7 : a7.IsWhole)
    (a8 : Memref sig .tc .vmem S32x32 .f32) (h8 : a8.IsWhole)
    (a9 : Memref sig .tc .vmem S1x32 .f32) (h9 : a9.IsWhole)
    (a10 : Memref sig .tc .vmem S32x32 .f32) (h10 : a10.IsWhole)
    (a11 : Memref sig .tc .vmem S1x32 .f32) (h11 : a11.IsWhole)
    (a12 : Memref sig .tc .vmem S94x32 .f32) (h12 : a12.IsWhole)
    (a13 : Memref sig .tc .vmem S1x32 .f32) (h13 : a13.IsWhole)
    (a14 : Memref sig .tc .vmem S1000x94 .f32) (h14 : a14.IsWhole)
    (a15 : Memref sig .tc .vmem S1000x2 .f32) (h15 : a15.IsWhole)
    (x0 : Vec F S1000x32 .f32) (x1 : Vec F S2000x34 .f32) (x2 x3 : Vec F S32x2000 .f32) (x4 x5 : Vec F S1x32 .f32)
    (x6 : Vec F S30x32 .f32) (x7 : Vec F S1x32 .f32) (x8 : Vec F S32x32 .f32) (x9 : Vec F S1x32 .f32) (x10 : Vec F S32x32 .f32)
    (x11 : Vec F S1x32 .f32) (x12 : Vec F S94x32 .f32) (x13 : Vec F S1x32 .f32)
    (K : PUnit → sProp 𝕄) :
    iprop(
        owns (c : Thread nD τ) a0 fullShare x0 ∗
        owns (c : Thread nD τ) a1 fullShare x1 ∗
        owns (c : Thread nD τ) a2 fullShare x2 ∗
        owns (c : Thread nD τ) a3 fullShare x3 ∗
        owns (c : Thread nD τ) a4 fullShare x4 ∗
        owns (c : Thread nD τ) a5 fullShare x5 ∗
        owns (c : Thread nD τ) a6 fullShare x6 ∗
        owns (c : Thread nD τ) a7 fullShare x7 ∗
        owns (c : Thread nD τ) a8 fullShare x8 ∗
        owns (c : Thread nD τ) a9 fullShare x9 ∗
        owns (c : Thread nD τ) a10 fullShare x10 ∗
        owns (c : Thread nD τ) a11 fullShare x11 ∗
        owns (c : Thread nD τ) a12 fullShare x12 ∗
        owns (c : Thread nD τ) a13 fullShare x13 ∗
        (∃ d, owns (c : Thread nD τ) a14 fullShare d) ∗ (∃ d, owns (c : Thread nD τ) a15 fullShare d)
        ∗ (iprop(
            owns (c : Thread nD τ) a0 fullShare x0 ∗
            owns (c : Thread nD τ) a1 fullShare x1 ∗
            owns (c : Thread nD τ) a2 fullShare x2 ∗
            owns (c : Thread nD τ) a3 fullShare x3 ∗
            owns (c : Thread nD τ) a4 fullShare x4 ∗
            owns (c : Thread nD τ) a5 fullShare x5 ∗
            owns (c : Thread nD τ) a6 fullShare x6 ∗
            owns (c : Thread nD τ) a7 fullShare x7 ∗
            owns (c : Thread nD τ) a8 fullShare x8 ∗
            owns (c : Thread nD τ) a9 fullShare x9 ∗
            owns (c : Thread nD τ) a10 fullShare x10 ∗
            owns (c : Thread nD τ) a11 fullShare x11 ∗
            owns (c : Thread nD τ) a12 fullShare x12 ∗
            owns (c : Thread nD τ) a13 fullShare x13 ∗
            owns (c : Thread nD τ) a14 fullShare (featBlock x0 x1 x2 x3 x4 x5 x6 x7 x8 x9 x10 x11 x12 x13)
            ∗ owns (c : Thread nD τ) a15 fullShare (yBlock x0 x1 x2 x3 x4 x5 x6 x7 x8 x9 x10 x11 x12 x13)) -∗ K ⟨⟩))
      ⊢ wp frame (wpE (defs₀ (F := F)) Variants.none c none) E (cc0__gnn_kernel i
          a0 h0 a1 h1 a2 h2 a3 h3 a4 h4 a5 h5 a6 h6 a7 h7 a8 h8 a9 h9 a10 h10 a11 h11 a12 h12 a13 h13 a14 h14 a15 h15) K := by
  simp only [cc0__gnn_kernel_eq_skeleton]; unfold cc0__gnn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩,
    ⟨%d14, %f14, -, H14⟩, ⟨%d15, %f15, -, H15⟩, Hk⟩
  subst hf0 hf1 hf2 hf3 hf4 hf5 hf6 hf7 hf8 hf9 hf10 hf11 hf12 hf13
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists _; isplitr
    swap; · iexact H14
    ipureintro
    exact View.read_writes_eq_canon _ _ _ (View.cover_of_tiled _ S1000x94.size (by rfl))
  iexists _; isplitr
  swap; · iexact H15
  ipureintro
  exact View.read_writes_eq_canon _ _ _ (View.cover_of_tiled _ S1000x2.size (by rfl))
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => featBlock (iblk m c 0 t) (iblk m c 1 t) (iblk m c 2 t) (iblk m c 3 t) (iblk m c 4 t) (iblk m c 5 t) (iblk m c 6 t)
        (iblk m c 7 t) (iblk m c 8 t) (iblk m c 9 t) (iblk m c 10 t) (iblk m c 11 t) (iblk m c 12 t) (iblk m c 13 t)
    | ⟨15, _⟩ => yBlock (iblk m c 0 t) (iblk m c 1 t) (iblk m c 2 t) (iblk m c 3 t) (iblk m c 4 t) (iblk m c 5 t) (iblk m c 6 t)
        (iblk m c 7 t) (iblk m c 8 t) (iblk m c 9 t) (iblk m c 10 t) (iblk m c 11 t) (iblk m c 12 t) (iblk m c 13 t)
    | ⟨_ + 16, h⟩ => absurd h (Nat.not_lt.2 (Nat.le_add_left _ _))
  Φ _ := Pipeline.ΦA spec0 c
  q _ := fullShare
  owed _ := 0
theorem A_eq (c : Dev nD) (w : Fin cfg0.W) : (dats m 0 c).A w = V m c (Pipeline.arrRef spec0 w) := by
  dsimp only [dats]
theorem after0_all (c : Dev nD) (t : Fin cfg0.N) :
    (dats m 0 c).after 0 t = iblk m c 0 t ∧ (dats m 0 c).after 1 t = iblk m c 1 t ∧ (dats m 0 c).after 2 t = iblk m c 2 t ∧ (dats m 0 c).after 3 t = iblk m c 3 t ∧ (dats m 0 c).after 4 t = iblk m c 4 t ∧ (dats m 0 c).after 5 t = iblk m c 5 t ∧ (dats m 0 c).after 6 t = iblk m c 6 t ∧ (dats m 0 c).after 7 t = iblk m c 7 t ∧ (dats m 0 c).after 8 t = iblk m c 8 t ∧ (dats m 0 c).after 9 t = iblk m c 9 t ∧ (dats m 0 c).after 10 t = iblk m c 10 t ∧ (dats m 0 c).after 11 t = iblk m c 11 t ∧ (dats m 0 c).after 12 t = iblk m c 12 t ∧ (dats m 0 c).after 13 t = iblk m c 13 t := by
  refine ⟨?_, ?_, ?_, ?_, ?_, ?_, ?_, ?_, ?_, ?_, ?_, ?_, ?_, ?_⟩ <;> dsimp only [dats]
theorem after0_14 (c : Dev nD) (t : Fin cfg0.N) : (dats m 0 c).after 14 t = featBlock (iblk m c 0 t) (iblk m c 1 t) (iblk m c 2 t) (iblk m c 3 t) (iblk m c 4 t) (iblk m c 5 t) (iblk m c 6 t)
        (iblk m c 7 t) (iblk m c 8 t) (iblk m c 9 t) (iblk m c 10 t) (iblk m c 11 t) (iblk m c 12 t) (iblk m c 13 t)
    := by dsimp only [dats]
theorem after0_15 (c : Dev nD) (t : Fin cfg0.N) : (dats m 0 c).after 15 t = yBlock (iblk m c 0 t) (iblk m c 1 t) (iblk m c 2 t) (iblk m c 3 t) (iblk m c 4 t) (iblk m c 5 t) (iblk m c 6 t)
        (iblk m c 7 t) (iblk m c 8 t) (iblk m c 9 t) (iblk m c 10 t) (iblk m c 11 t) (iblk m c 12 t) (iblk m c 13 t)
    := by dsimp only [dats]
theorem before0_all (c : Dev nD) (t : Fin cfg0.N) :
    (∀ d, (dats m 0 c).before 0 t d = iblk m c 0 t) ∧ (∀ d, (dats m 0 c).before 1 t d = iblk m c 1 t) ∧ (∀ d, (dats m 0 c).before 2 t d = iblk m c 2 t) ∧ (∀ d, (dats m 0 c).before 3 t d = iblk m c 3 t) ∧ (∀ d, (dats m 0 c).before 4 t d = iblk m c 4 t) ∧ (∀ d, (dats m 0 c).before 5 t d = iblk m c 5 t) ∧ (∀ d, (dats m 0 c).before 6 t d = iblk m c 6 t) ∧ (∀ d, (dats m 0 c).before 7 t d = iblk m c 7 t) ∧ (∀ d, (dats m 0 c).before 8 t d = iblk m c 8 t) ∧ (∀ d, (dats m 0 c).before 9 t d = iblk m c 9 t) ∧ (∀ d, (dats m 0 c).before 10 t d = iblk m c 10 t) ∧ (∀ d, (dats m 0 c).before 11 t d = iblk m c 11 t) ∧ (∀ d, (dats m 0 c).before 12 t d = iblk m c 12 t) ∧ (∀ d, (dats m 0 c).before 13 t d = iblk m c 13 t) := by
  refine ⟨?_, ?_, ?_, ?_, ?_, ?_, ?_, ?_, ?_, ?_, ?_, ?_, ?_, ?_⟩ <;> exact fun d =>
    ((dats m 0 c).before_in_eq_fetched _ rfl (fun _ => rfl) (fun _ _ _ => rfl) (fun t => by dsimp only [dats]; unfold Dat.blockOf iblk; dsimp only [dats]; try rfl) t d).trans
      (by unfold Dat.fetched Dat.blockOf iblk; dsimp only [dats]; try rfl)
def overWindows (P : Fin cfg0.W → sProp 𝕄) : sProp 𝕄 :=
  iprop(P 0 ∗ P 1 ∗ P 2 ∗ P 3 ∗ P 4 ∗ P 5 ∗ P 6 ∗ P 7 ∗ P 8 ∗ P 9 ∗ P 10 ∗ P 11 ∗ P 12 ∗ P 13 ∗ P 14 ∗ P 15)
theorem sound_body (c : Dev nD) (t : Fin cfg0.N) :
    iprop((dats m 0 c).Φ t.castSucc ∗ (dats m 0 c).owesAt () t.castSucc
      ∗ overWindows fun w => iprop(∃ d, owns (c : Thread nD τ) ((cfg0.win w).stage (cfg0.slots t w)) fullShare ((dats m 0 c).before w t d)))
    ⊢ wp frame (wpE (defs₀ (F := F)) Variants.none c none) Set.univ (bodyAt0 t) fun _ =>
      iprop((dats m 0 c).Φ t.succ ∗ (dats m 0 c).owesAt () t.succ
        ∗ overWindows fun w => owns (c : Thread nD τ) ((cfg0.win w).stage (cfg0.slots t w)) fullShare ((dats m 0 c).after w t)) := by
  unfold overWindows bodyAt0
  simp only [before0_all m c t, after0_all m c t, after0_14, after0_15]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩,
    ⟨%d8, H8⟩, ⟨%d9, H9⟩, ⟨%d10, H10⟩, ⟨%d11, H11⟩, ⟨%d12, H12⟩, ⟨%d13, H13⟩, ⟨%d14, H14⟩, ⟨%d15, H15⟩⟩
  iapply (sound_kernel c Set.univ (grid0.coords t) _ _ _ _ _ _ _ _ _ _ _ _ _ _ _ _ _ _ _ _ _ _ _ _ _ _ _ _ _ _ _ _
    (iblk m c 0 t) (iblk m c 1 t) (iblk m c 2 t) (iblk m c 3 t) (iblk m c 4 t) (iblk m c 5 t) (iblk m c 6 t)
        (iblk m c 7 t) (iblk m c 8 t) (iblk m c 9 t) (iblk m c 10 t) (iblk m c 11 t) (iblk m c 12 t) (iblk m c 13 t)
    _)
  iframe
  isplitl [H14]; · iexists _; iexact H14
  isplitl [H15]; · iexists _; iexact H15
  iintro H
  iframe
theorem body_obligation (c : Dev nD) : BodyObligation (dats (F := F) m 0 c) (defs₀ (F := F)) Variants.none () Set.univ := fun t => by
  rw [bigSep_W0, bigSep_W0]
  exact sound_body m c t
set_option backward.isDefEq.respectTransparency.types false in
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)
theorem frame : θ_run defs (onTc (τ := τ) (main (F := F))) ⟨m, fun _ => 0, ρ⟩ (fun r => ∀ c : Dev nD, Kept m r c) :=
  (θ_run defs _ _).mono (fun r h c => kept_of_post m (dats m) (A_eq m) r h c) (run_main m ρ)
end Cert.Kernel.HandFrame
end
-- ==== Proof.FrameKI.lean ====
import proofs.«406318_j68710886801531_3_alg».proof.Proof.Gen.KernelIdeal.Launch
import proofs.«406318_j68710886801531_3_alg».proof.Proof.Gen.KernelIdeal.Skeleton
import proofs.«406318_j68710886801531_3_alg».proof.Proof.Gen.KernelIdeal.Points
import Idealize.ShloMosaic.Lib.Pipeline.FrameBody
import Idealize.ShloMosaic.Lib.Ring
import Idealize.ShloMosaic.Lib.Tactic
set_option maxRecDepth 16384
set_option synthInstance.maxSize 4096
noncomputable section
namespace Cert.KernelIdeal.HandFrame
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F] [Named F]
local notation "𝕄" => MT nD τ sig Unit (Elt F) ℕ (UR sig nD τ) ℕ
variable (m : (ℓ : Loc nD τ sig) → Buf (Elt F) ℓ) (ρ : Dev nD → PrngReg)
abbrev V (c : Dev nD) (b : Ref sig .tc) : Buf (Elt F) ((c : Thread nD τ).loc b) := StableHlo.after hostOps0 (fun b => m (c, b)) b
theorem hostOps0_fresh : (hostOps0 : List (HloOp τ sig (Elt F))).Forall fun op => op.fresh = ∅ := by
  simp only [List.Forall]; repeat' constructor
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain
abbrev hostW : List (Ref sig .tc) :=
  [main_cst, main_cst_0, main_cst_1, main_cst_2, main_cst_3, main_v0, main_v1, main_v2, main_v3, main_v4, main_v5, main_v6, main_v7, main_v8, main_v9, main_v10, main_v11, main_v12, main_v13, main_v14, main_v15, main_v16, main_v17, main_v18, main_v19, main_v20, main_v21, main_v22, main_v23, main_v24, main_v25, main_v26, main_v27, main_v28, main_v29, main_v30, main_v31, main_v32, main_v33, main_v34, main_v35, main_v36, main_v37, main_v38, main_v39, main_v40, main_v41, main_v42, main_v43, main_v44, main_v45, main_v46, main_v47, main_v48, main_v49, main_v50, main_v51, main_v52, main_v53, main_v54, main_v55, main_v56, main_v57, main_v58, main_v59, main_v60, main_v61, main_v62]
-- Each of the sixty-eight host operations writes one reference, an intermediate of @main listed in `hostW`.
theorem hostOps0_writes : (hostOps0 : List (HloOp τ sig (Elt F))).Forall fun op => op.writes ⊆ (hostW.map (Proc.devRef (τ := τ) .tc)).toFinset := by
  simp only [hostOps0, List.Forall, StableHlo.nullary_writes, StableHlo.unary_writes, StableHlo.binary_writes, StableHlo.reshape_writes, StableHlo.nary_writes, Finset.singleton_subset_iff, List.mem_toFinset]
  repeat' apply And.intro
  all_goals exact List.mem_map_of_mem (by decide)
-- Hence every argument of @main, being none of them, is at the region's entry what it was at launch.
theorem V_of (c : Dev nD) {b : Ref sig .tc} (h : b ∉ hostW) : V m c b = m ((c : Thread nD τ).loc b) :=
  StableHlo.after_of_writes_sub hostOps0 _ hostOps0_writes h
theorem V_main_arg11 (c : Dev nD) : V m c main_arg11 = m ((c : Thread nD τ).loc main_arg11) := V_of m c (by decide)
theorem V_main_arg17 (c : Dev nD) : V m c main_arg17 = m ((c : Thread nD τ).loc main_arg17) := V_of m c (by decide)
theorem V_main_arg19 (c : Dev nD) : V m c main_arg19 = m ((c : Thread nD τ).loc main_arg19) := V_of m c (by decide)
theorem V_main_arg21 (c : Dev nD) : V m c main_arg21 = m ((c : Thread nD τ).loc main_arg21) := V_of m c (by decide)
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))
abbrev kept (r : PUnit × MemSt nD τ sig (Elt F)) (c : Dev nD) (b : Ref sig .tc) : Prop :=
  r.2.mem ((c.tc : Thread nD τ).loc b) = m ((c.tc : Thread nD τ).loc b)
abbrev Kept (r : PUnit × MemSt nD τ sig (Elt F)) (c : Dev nD) : Prop :=
  kept m r c main_arg0 ∧ kept m r c main_arg1 ∧ kept m r c main_arg2 ∧ kept m r c main_arg3 ∧ kept m r c main_arg4 ∧ kept m r c main_arg5 ∧ kept m r c main_arg6 ∧ kept m r c main_arg7 ∧ kept m r c main_arg8 ∧ kept m r c main_arg9 ∧ kept m r c main_arg10 ∧ kept m r c main_arg11 ∧ kept m r c main_arg12 ∧ kept m r c main_arg13 ∧ kept m r c main_arg14 ∧ kept m r c main_arg15 ∧ kept m r c main_arg16 ∧ kept m r c main_arg17 ∧ kept m r c main_arg18 ∧ kept m r c main_arg19 ∧ kept m r c main_arg20 ∧ kept m r c main_arg21 ∧ kept m r c main_arg22 ∧ kept m r c main_arg23 ∧ kept m r c main_arg24 ∧ kept m r c main_arg25 ∧ kept m r c main_arg26
-- An argument is either the array of an input window, which the region leaves as it found it, or no window's array, which the region does not touch.
theorem kept_of_post (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F)) (h : Pipeline.FramePost cfgs dats 0 (V m) r) (c : Dev nD) : Kept m r c :=
  have k (b : Ref sig .tc) (hb : b.isScoped = false ∧ (∀ w, ((cfgs 0).spec w).arr.view.ref ≠ b) ∧ b ∉ hostW) : kept m r c b :=
    ((h c).2 b (Pipeline.mem_restRefs_of b hb.1 hb.2.1)).trans (V_of m c hb.2.2)
  ⟨k main_arg0 (by decide),
    k main_arg1 (by decide),
    k main_arg2 (by decide),
    k main_arg3 (by decide),
    k main_arg4 (by decide),
    k main_arg5 (by decide),
    k main_arg6 (by decide),
    k main_arg7 (by decide),
    k main_arg8 (by decide),
    k main_arg9 (by decide),
    k main_arg10 (by decide),
    ((h c).1 6).trans (((dats 0 c).arrAt_in 6 rfl _).trans ((hA c 6).trans (V_main_arg11 m c))),
    k main_arg12 (by decide),
    k main_arg13 (by decide),
    k main_arg14 (by decide),
    k main_arg15 (by decide),
    k main_arg16 (by decide),
    ((h c).1 8).trans (((dats 0 c).arrAt_in 8 rfl _).trans ((hA c 8).trans (V_main_arg17 m c))),
    k main_arg18 (by decide),
    ((h c).1 10).trans (((dats 0 c).arrAt_in 10 rfl _).trans ((hA c 10).trans (V_main_arg19 m c))),
    k main_arg20 (by decide),
    ((h c).1 12).trans (((dats 0 c).arrAt_in 12 rfl _).trans ((hA c 12).trans (V_main_arg21 m c))),
    k main_arg22 (by decide),
    k main_arg23 (by decide),
    k main_arg24 (by decide),
    k main_arg25 (by decide),
    k main_arg26 (by decide)⟩
abbrev r_S1000x32 : Rect S1000x32 := Rect.unit (s := S1000x32) ![0, 0] S1000x32.size inb_S1000x32_S1000x32_0_0
abbrev r_S2000x34 : Rect S2000x34 := Rect.unit (s := S2000x34) ![0, 0] S2000x34.size inb_S2000x34_S2000x34_0_0
abbrev r_S32x2000 : Rect S32x2000 := Rect.unit (s := S32x2000) ![0, 0] S32x2000.size inb_S32x2000_S32x2000_0_0
abbrev r_S1x32 : Rect S1x32 := Rect.unit (s := S1x32) ![0, 0] S1x32.size inb_S1x32_S1x32_0_0
abbrev r_S30x32 : Rect S30x32 := Rect.unit (s := S30x32) ![0, 0] S30x32.size inb_S30x32_S30x32_0_0
abbrev r_S32x32 : Rect S32x32 := Rect.unit (s := S32x32) ![0, 0] S32x32.size inb_S32x32_S32x32_0_0
abbrev r_S94x32 : Rect S94x32 := Rect.unit (s := S94x32) ![0, 0] S94x32.size inb_S94x32_S94x32_0_0
abbrev r_S1000x94 : Rect S1000x94 := Rect.unit (s := S1000x94) ![0, 0] S1000x94.size inb_S1000x94_S1000x94_0_0
abbrev r_S1000x2 : Rect S1000x2 := Rect.unit (s := S1000x2) ![0, 0] S1000x2.size inb_S1000x2_S1000x2_0_0
def featVal
    (x0 : Vec F S1000x32 .f32) (x1 : Vec F S2000x34 .f32) (x2 x3 : Vec F S32x2000 .f32) (x4 x5 : Vec F S1x32 .f32)
    (x6 : Vec F S30x32 .f32) (x7 : Vec F S1x32 .f32) (x8 : Vec F S32x32 .f32) (x9 : Vec F S1x32 .f32) (x10 : Vec F S32x32 .f32)
    (x11 : Vec F S1x32 .f32) (x12 : Vec F S94x32 .f32) (x13 : Vec F S1x32 .f32)
    : FVec F S1000x94 .f32 :=
  k0_pay9 (k0_pay3 (View.ld x0 r_S1000x32)) (k0_pay4 (View.ld x0 r_S1000x32)) (k0_pay5 (View.ld x0 r_S1000x32))
    (k0_pay8 (View.ld x0 r_S1000x32) (View.ld x6 r_S30x32) (View.ld x7 r_S1x32) (View.ld x2 r_S32x2000) (View.ld x1 r_S2000x34))
    (View.ld x4 r_S1x32) (View.ld x8 r_S32x32) (View.ld x9 r_S1x32) (View.ld x5 r_S1x32) (View.ld x10 r_S32x32) (View.ld x11 r_S1x32)
def featBlock
    (x0 : Vec F S1000x32 .f32) (x1 : Vec F S2000x34 .f32) (x2 x3 : Vec F S32x2000 .f32) (x4 x5 : Vec F S1x32 .f32)
    (x6 : Vec F S30x32 .f32) (x7 : Vec F S1x32 .f32) (x8 : Vec F S32x32 .f32) (x9 : Vec F S1x32 .f32) (x10 : Vec F S32x32 .f32)
    (x11 : Vec F S1x32 .f32) (x12 : Vec F S94x32 .f32) (x13 : Vec F S1x32 .f32)
    : Vec F S1000x94 .f32 :=
  View.canon [⟨r_S1000x94, featVal x0 x1 x2 x3 x4 x5 x6 x7 x8 x9 x10 x11 x12 x13⟩]
def yBlock
    (x0 : Vec F S1000x32 .f32) (x1 : Vec F S2000x34 .f32) (x2 x3 : Vec F S32x2000 .f32) (x4 x5 : Vec F S1x32 .f32)
    (x6 : Vec F S30x32 .f32) (x7 : Vec F S1x32 .f32) (x8 : Vec F S32x32 .f32) (x9 : Vec F S1x32 .f32) (x10 : Vec F S32x32 .f32)
    (x11 : Vec F S1x32 .f32) (x12 : Vec F S94x32 .f32) (x13 : Vec F S1x32 .f32)
    : Vec F S1000x2 .f32 :=
  View.canon [⟨r_S1000x2, k0_pay1 (k0_pay7 (View.ld x1 r_S2000x34)) (featVal x0 x1 x2 x3 x4 x5 x6 x7 x8 x9 x10 x11 x12 x13)
    (View.ld x12 r_S94x32) (View.ld x13 r_S1x32) (View.ld x3 r_S32x2000)⟩]
-- The body reads the fourteen input blocks and stores both output blocks whole: what it leaves is a function of the input blocks alone.
set_option maxHeartbeats 1000000 in
theorem sound_kernel (c : Dev nD) (E : Set ℕ) (i : grid0.Coords)
    (a0 : Memref sig .tc .vmem S1000x32 .f32) (h0 : a0.IsWhole)
    (a1 : Memref sig .tc .vmem S2000x34 .f32) (h1 : a1.IsWhole)
    (a2 : Memref sig .tc .vmem S32x2000 .f32) (h2 : a2.IsWhole)
    (a3 : Memref sig .tc .vmem S32x2000 .f32) (h3 : a3.IsWhole)
    (a4 : Memref sig .tc .vmem S1x32 .f32) (h4 : a4.IsWhole)
    (a5 : Memref sig .tc .vmem S1x32 .f32) (h5 : a5.IsWhole)
    (a6 : Memref sig .tc .vmem S30x32 .f32) (h6 : a6.IsWhole)
    (a7 : Memref sig .tc .vmem S1x32 .f32) (h7 : a7.IsWhole)
    (a8 : Memref sig .tc .vmem S32x32 .f32) (h8 : a8.IsWhole)
    (a9 : Memref sig .tc .vmem S1x32 .f32) (h9 : a9.IsWhole)
    (a10 : Memref sig .tc .vmem S32x32 .f32) (h10 : a10.IsWhole)
    (a11 : Memref sig .tc .vmem S1x32 .f32) (h11 : a11.IsWhole)
    (a12 : Memref sig .tc .vmem S94x32 .f32) (h12 : a12.IsWhole)
    (a13 : Memref sig .tc .vmem S1x32 .f32) (h13 : a13.IsWhole)
    (a14 : Memref sig .tc .vmem S1000x94 .f32) (h14 : a14.IsWhole)
    (a15 : Memref sig .tc .vmem S1000x2 .f32) (h15 : a15.IsWhole)
    (x0 : Vec F S1000x32 .f32) (x1 : Vec F S2000x34 .f32) (x2 x3 : Vec F S32x2000 .f32) (x4 x5 : Vec F S1x32 .f32)
    (x6 : Vec F S30x32 .f32) (x7 : Vec F S1x32 .f32) (x8 : Vec F S32x32 .f32) (x9 : Vec F S1x32 .f32) (x10 : Vec F S32x32 .f32)
    (x11 : Vec F S1x32 .f32) (x12 : Vec F S94x32 .f32) (x13 : Vec F S1x32 .f32)
    (K : PUnit → sProp 𝕄) :
    iprop(
        owns (c : Thread nD τ) a0 fullShare x0 ∗
        owns (c : Thread nD τ) a1 fullShare x1 ∗
        owns (c : Thread nD τ) a2 fullShare x2 ∗
        owns (c : Thread nD τ) a3 fullShare x3 ∗
        owns (c : Thread nD τ) a4 fullShare x4 ∗
        owns (c : Thread nD τ) a5 fullShare x5 ∗
        owns (c : Thread nD τ) a6 fullShare x6 ∗
        owns (c : Thread nD τ) a7 fullShare x7 ∗
        owns (c : Thread nD τ) a8 fullShare x8 ∗
        owns (c : Thread nD τ) a9 fullShare x9 ∗
        owns (c : Thread nD τ) a10 fullShare x10 ∗
        owns (c : Thread nD τ) a11 fullShare x11 ∗
        owns (c : Thread nD τ) a12 fullShare x12 ∗
        owns (c : Thread nD τ) a13 fullShare x13 ∗
        (∃ d, owns (c : Thread nD τ) a14 fullShare d) ∗ (∃ d, owns (c : Thread nD τ) a15 fullShare d)
        ∗ (iprop(
            owns (c : Thread nD τ) a0 fullShare x0 ∗
            owns (c : Thread nD τ) a1 fullShare x1 ∗
            owns (c : Thread nD τ) a2 fullShare x2 ∗
            owns (c : Thread nD τ) a3 fullShare x3 ∗
            owns (c : Thread nD τ) a4 fullShare x4 ∗
            owns (c : Thread nD τ) a5 fullShare x5 ∗
            owns (c : Thread nD τ) a6 fullShare x6 ∗
            owns (c : Thread nD τ) a7 fullShare x7 ∗
            owns (c : Thread nD τ) a8 fullShare x8 ∗
            owns (c : Thread nD τ) a9 fullShare x9 ∗
            owns (c : Thread nD τ) a10 fullShare x10 ∗
            owns (c : Thread nD τ) a11 fullShare x11 ∗
            owns (c : Thread nD τ) a12 fullShare x12 ∗
            owns (c : Thread nD τ) a13 fullShare x13 ∗
            owns (c : Thread nD τ) a14 fullShare (featBlock x0 x1 x2 x3 x4 x5 x6 x7 x8 x9 x10 x11 x12 x13)
            ∗ owns (c : Thread nD τ) a15 fullShare (yBlock x0 x1 x2 x3 x4 x5 x6 x7 x8 x9 x10 x11 x12 x13)) -∗ K ⟨⟩))
      ⊢ wp frame (wpE (defs₀ (F := F)) Variants.none c none) E (cc0__gnn_kernel i
          a0 h0 a1 h1 a2 h2 a3 h3 a4 h4 a5 h5 a6 h6 a7 h7 a8 h8 a9 h9 a10 h10 a11 h11 a12 h12 a13 h13 a14 h14 a15 h15) K := by
  simp only [cc0__gnn_kernel_eq_skeleton]; unfold cc0__gnn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩,
    ⟨%d14, %f14, -, H14⟩, ⟨%d15, %f15, -, H15⟩, Hk⟩
  subst hf0 hf1 hf2 hf3 hf4 hf5 hf6 hf7 hf8 hf9 hf10 hf11 hf12 hf13
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists _; isplitr
    swap; · iexact H14
    ipureintro
    exact View.read_writes_eq_canon _ _ _ (View.cover_of_tiled _ S1000x94.size (by rfl))
  iexists _; isplitr
  swap; · iexact H15
  ipureintro
  exact View.read_writes_eq_canon _ _ _ (View.cover_of_tiled _ S1000x2.size (by rfl))
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => featBlock (iblk m c 0 t) (iblk m c 1 t) (iblk m c 2 t) (iblk m c 3 t) (iblk m c 4 t) (iblk m c 5 t) (iblk m c 6 t)
        (iblk m c 7 t) (iblk m c 8 t) (iblk m c 9 t) (iblk m c 10 t) (iblk m c 11 t) (iblk m c 12 t) (iblk m c 13 t)
    | ⟨15, _⟩ => yBlock (iblk m c 0 t) (iblk m c 1 t) (iblk m c 2 t) (iblk m c 3 t) (iblk m c 4 t) (iblk m c 5 t) (iblk m c 6 t)
        (iblk m c 7 t) (iblk m c 8 t) (iblk m c 9 t) (iblk m c 10 t) (iblk m c 11 t) (iblk m c 12 t) (iblk m c 13 t)
    | ⟨_ + 16, h⟩ => absurd h (Nat.not_lt.2 (Nat.le_add_left _ _))
  Φ _ := Pipeline.ΦA spec0 c
  q _ := fullShare
  owed _ := 0
theorem A_eq (c : Dev nD) (w : Fin cfg0.W) : (dats m 0 c).A w = V m c (Pipeline.arrRef spec0 w) := by
  dsimp only [dats]
theorem after0_all (c : Dev nD) (t : Fin cfg0.N) :
    (dats m 0 c).after 0 t = iblk m c 0 t ∧ (dats m 0 c).after 1 t = iblk m c 1 t ∧ (dats m 0 c).after 2 t = iblk m c 2 t ∧ (dats m 0 c).after 3 t = iblk m c 3 t ∧ (dats m 0 c).after 4 t = iblk m c 4 t ∧ (dats m 0 c).after 5 t = iblk m c 5 t ∧ (dats m 0 c).after 6 t = iblk m c 6 t ∧ (dats m 0 c).after 7 t = iblk m c 7 t ∧ (dats m 0 c).after 8 t = iblk m c 8 t ∧ (dats m 0 c).after 9 t = iblk m c 9 t ∧ (dats m 0 c).after 10 t = iblk m c 10 t ∧ (dats m 0 c).after 11 t = iblk m c 11 t ∧ (dats m 0 c).after 12 t = iblk m c 12 t ∧ (dats m 0 c).after 13 t = iblk m c 13 t := by
  refine ⟨?_, ?_, ?_, ?_, ?_, ?_, ?_, ?_, ?_, ?_, ?_, ?_, ?_, ?_⟩ <;> dsimp only [dats]
theorem after0_14 (c : Dev nD) (t : Fin cfg0.N) : (dats m 0 c).after 14 t = featBlock (iblk m c 0 t) (iblk m c 1 t) (iblk m c 2 t) (iblk m c 3 t) (iblk m c 4 t) (iblk m c 5 t) (iblk m c 6 t)
        (iblk m c 7 t) (iblk m c 8 t) (iblk m c 9 t) (iblk m c 10 t) (iblk m c 11 t) (iblk m c 12 t) (iblk m c 13 t)
    := by dsimp only [dats]
theorem after0_15 (c : Dev nD) (t : Fin cfg0.N) : (dats m 0 c).after 15 t = yBlock (iblk m c 0 t) (iblk m c 1 t) (iblk m c 2 t) (iblk m c 3 t) (iblk m c 4 t) (iblk m c 5 t) (iblk m c 6 t)
        (iblk m c 7 t) (iblk m c 8 t) (iblk m c 9 t) (iblk m c 10 t) (iblk m c 11 t) (iblk m c 12 t) (iblk m c 13 t)
    := by dsimp only [dats]
theorem before0_all (c : Dev nD) (t : Fin cfg0.N) :
    (∀ d, (dats m 0 c).before 0 t d = iblk m c 0 t) ∧ (∀ d, (dats m 0 c).before 1 t d = iblk m c 1 t) ∧ (∀ d, (dats m 0 c).before 2 t d = iblk m c 2 t) ∧ (∀ d, (dats m 0 c).before 3 t d = iblk m c 3 t) ∧ (∀ d, (dats m 0 c).before 4 t d = iblk m c 4 t) ∧ (∀ d, (dats m 0 c).before 5 t d = iblk m c 5 t) ∧ (∀ d, (dats m 0 c).before 6 t d = iblk m c 6 t) ∧ (∀ d, (dats m 0 c).before 7 t d = iblk m c 7 t) ∧ (∀ d, (dats m 0 c).before 8 t d = iblk m c 8 t) ∧ (∀ d, (dats m 0 c).before 9 t d = iblk m c 9 t) ∧ (∀ d, (dats m 0 c).before 10 t d = iblk m c 10 t) ∧ (∀ d, (dats m 0 c).before 11 t d = iblk m c 11 t) ∧ (∀ d, (dats m 0 c).before 12 t d = iblk m c 12 t) ∧ (∀ d, (dats m 0 c).before 13 t d = iblk m c 13 t) := by
  refine ⟨?_, ?_, ?_, ?_, ?_, ?_, ?_, ?_, ?_, ?_, ?_, ?_, ?_, ?_⟩ <;> exact fun d =>
    ((dats m 0 c).before_in_eq_fetched _ rfl (fun _ => rfl) (fun _ _ _ => rfl) (fun t => by dsimp only [dats]; unfold Dat.blockOf iblk; dsimp only [dats]; try rfl) t d).trans
      (by unfold Dat.fetched Dat.blockOf iblk; dsimp only [dats]; try rfl)
def overWindows (P : Fin cfg0.W → sProp 𝕄) : sProp 𝕄 :=
  iprop(P 0 ∗ P 1 ∗ P 2 ∗ P 3 ∗ P 4 ∗ P 5 ∗ P 6 ∗ P 7 ∗ P 8 ∗ P 9 ∗ P 10 ∗ P 11 ∗ P 12 ∗ P 13 ∗ P 14 ∗ P 15)
theorem sound_body (c : Dev nD) (t : Fin cfg0.N) :
    iprop((dats m 0 c).Φ t.castSucc ∗ (dats m 0 c).owesAt () t.castSucc
      ∗ overWindows fun w => iprop(∃ d, owns (c : Thread nD τ) ((cfg0.win w).stage (cfg0.slots t w)) fullShare ((dats m 0 c).before w t d)))
    ⊢ wp frame (wpE (defs₀ (F := F)) Variants.none c none) Set.univ (bodyAt0 t) fun _ =>
      iprop((dats m 0 c).Φ t.succ ∗ (dats m 0 c).owesAt () t.succ
        ∗ overWindows fun w => owns (c : Thread nD τ) ((cfg0.win w).stage (cfg0.slots t w)) fullShare ((dats m 0 c).after w t)) := by
  unfold overWindows bodyAt0
  simp only [before0_all m c t, after0_all m c t, after0_14, after0_15]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩,
    ⟨%d8, H8⟩, ⟨%d9, H9⟩, ⟨%d10, H10⟩, ⟨%d11, H11⟩, ⟨%d12, H12⟩, ⟨%d13, H13⟩, ⟨%d14, H14⟩, ⟨%d15, H15⟩⟩
  iapply (sound_kernel c Set.univ (grid0.coords t) _ _ _ _ _ _ _ _ _ _ _ _ _ _ _ _ _ _ _ _ _ _ _ _ _ _ _ _ _ _ _ _
    (iblk m c 0 t) (iblk m c 1 t) (iblk m c 2 t) (iblk m c 3 t) (iblk m c 4 t) (iblk m c 5 t) (iblk m c 6 t)
        (iblk m c 7 t) (iblk m c 8 t) (iblk m c 9 t) (iblk m c 10 t) (iblk m c 11 t) (iblk m c 12 t) (iblk m c 13 t)
    _)
  iframe
  isplitl [H14]; · iexists _; iexact H14
  isplitl [H15]; · iexists _; iexact H15
  iintro H
  iframe
theorem body_obligation (c : Dev nD) : BodyObligation (dats (F := F) m 0 c) (defs₀ (F := F)) Variants.none () Set.univ := fun t => by
  rw [bigSep_W0, bigSep_W0]
  exact sound_body m c t
set_option backward.isDefEq.respectTransparency.types false in
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)
theorem frame : θ_run defs (onTc (τ := τ) (main (F := F))) ⟨m, fun _ => 0, ρ⟩ (fun r => ∀ c : Dev nD, Kept m r c) :=
  (θ_run defs _ _).mono (fun r h c => kept_of_post m (dats m) (A_eq m) r h c) (run_main m ρ)
end Cert.KernelIdeal.HandFrame
end
-- ==== Proof.Spec.lean ====
import Idealize.ShloMosaic.Lib.ValueIdx
import Idealize.ShloMosaic.PureOps.Ideal

noncomputable section

namespace Cert.StarGraph

open Idealize.ShloMosaic Idealize.ShloMosaic.ValueIdx

def up {s : Shape} (x : s.Idx → ℝ) : s.Idx → EReal := fun i => ((x i : ℝ) : EReal)

theorem up_apply {s : Shape} (x : s.Idx → ℝ) (i : s.Idx) : up x i = ((x i : ℝ) : EReal) := rfl

structure Inputs where
  lmX : (⟨2, ![2000, 30]⟩ : Shape).Idx → ℝ
  lmY : (⟨2, ![2000, 2]⟩ : Shape).Idx → ℝ
  tgX : (⟨2, ![4000, 30]⟩ : Shape).Idx → ℝ
  lmD : (⟨1, ![2000]⟩ : Shape).Idx → ℝ
  tgD : (⟨1, ![4000]⟩ : Shape).Idx → ℝ
  g1 : (⟨2, ![1, 1]⟩ : Shape).Idx → ℝ
  g2 : (⟨2, ![1, 1]⟩ : Shape).Idx → ℝ
  g3 : (⟨2, ![1, 1]⟩ : Shape).Idx → ℝ
  al : (⟨2, ![1, 1]⟩ : Shape).Idx → ℝ
  be : (⟨2, ![1, 1]⟩ : Shape).Idx → ℝ
  Wq : (⟨2, ![30, 32]⟩ : Shape).Idx → ℝ
  bq : (⟨1, ![32]⟩ : Shape).Idx → ℝ
  Wk : (⟨2, ![30, 32]⟩ : Shape).Idx → ℝ
  bk : (⟨1, ![32]⟩ : Shape).Idx → ℝ
  W1 : (⟨2, ![32, 32]⟩ : Shape).Idx → ℝ
  b1 : (⟨1, ![32]⟩ : Shape).Idx → ℝ
  W2 : (⟨2, ![32, 32]⟩ : Shape).Idx → ℝ
  b2 : (⟨1, ![32]⟩ : Shape).Idx → ℝ
  Wpq : (⟨2, ![94, 32]⟩ : Shape).Idx → ℝ
  bpq : (⟨1, ![32]⟩ : Shape).Idx → ℝ
  Wpk : (⟨2, ![30, 32]⟩ : Shape).Idx → ℝ
  bpk : (⟨1, ![32]⟩ : Shape).Idx → ℝ
  Wpv : (⟨2, ![2, 2]⟩ : Shape).Idx → ℝ
  bpv : (⟨1, ![2]⟩ : Shape).Idx → ℝ

variable (I : Inputs)

def scal (x : (⟨2, ![1, 1]⟩ : Shape).Idx → ℝ) : ℝ := x (ix2 0 0)

def invTemp : ℝ := 2097152 / 11863283

def lmF (j : Fin 2000) (z : Fin 32) : ℝ :=
  if h : z.val < 30 then I.lmX (ix2 j ⟨z.val, h⟩) else I.lmY (ix2 j ⟨z.val - 30, by omega⟩)

def router0 (z : Fin 32) : ℝ := (∑ j : Fin 2000, lmF I j z) / 2000

def keyA (j : Fin 2000) (z : Fin 32) : ℝ := ∑ a : Fin 30, I.lmX (ix2 j a) * I.Wk (ix2 a z) + I.bk (ix1 z)

def keyP (j : Fin 2000) (z : Fin 32) : ℝ := ∑ a : Fin 30, I.lmX (ix2 j a) * I.Wpk (ix2 a z) + I.bpk (ix1 z)

def valP (j : Fin 2000) (b : Fin 2) : ℝ := ∑ b' : Fin 2, I.lmY (ix2 j b') * I.Wpv (ix2 b' b) + I.bpv (ix1 b)

def decay (g d : ℝ) : ℝ := Real.exp (-g * (scal I.al * d + scal I.be))

def dsc (j : Fin 2000) : ℝ := decay I (scal I.g1) (I.lmD (ix1 j))
def rou0 (i : Fin 4000) : ℝ := decay I (scal I.g2) (I.tgD (ix1 i))
def rou1 (i : Fin 4000) : ℝ := decay I (scal I.g3) (I.tgD (ix1 i))

def qry (i : Fin 4000) (z : Fin 32) : ℝ := ∑ a : Fin 30, I.tgX (ix2 i a) * I.Wq (ix2 a z) + I.bq (ix1 z)

def score (i : Fin 4000) (j : Fin 2000) : ℝ := ∑ z : Fin 32, (qry I i z * invTemp) * keyA I j z

def att (i : Fin 4000) (j : Fin 2000) : ℝ := Real.exp (score I i j) / ∑ j' : Fin 2000, Real.exp (score I i j')

def msg (i : Fin 4000) (z : Fin 32) : ℝ := ∑ j : Fin 2000, att I i j * lmF I j z

def tg0 (i : Fin 4000) (z : Fin 32) : ℝ := if h : z.val < 30 then I.tgX (ix2 i ⟨z.val, h⟩) else 0

def pre1 (i : Fin 4000) (z : Fin 32) : ℝ := (tg0 I i z + msg I i z + rou0 I i * router0 I z) / (2 + rou0 I i)

def feat1 (i : Fin 4000) (z : Fin 32) : ℝ := ∑ z' : Fin 32, pre1 I i z' * I.W1 (ix2 z' z) + I.b1 (ix1 z)

def degR : ℝ := 1 + ∑ j : Fin 2000, dsc I j

def routerPre (z : Fin 32) : ℝ := (router0 I z + ∑ j : Fin 2000, dsc I j * lmF I j z) / degR I

def router1 (z : Fin 32) : ℝ := ∑ z' : Fin 32, routerPre I z' * I.W1 (ix2 z' z) + I.b1 (ix1 z)

def pre2 (i : Fin 4000) (z : Fin 32) : ℝ := (feat1 I i z + rou1 I i * router1 I z) / (1 + rou1 I i)

def feat2 (i : Fin 4000) (z : Fin 32) : ℝ := ∑ z' : Fin 32, pre2 I i z' * I.W2 (ix2 z' z) + I.b2 (ix1 z)

def feat (i : Fin 4000) (f : Fin 94) : ℝ :=
  if h : f.val < 30 then I.tgX (ix2 i ⟨f.val, h⟩)
  else if h2 : f.val < 62 then feat1 I i ⟨f.val - 30, by omega⟩ else feat2 I i ⟨f.val - 62, by omega⟩

def pqry (i : Fin 4000) (z : Fin 32) : ℝ := ∑ f : Fin 94, feat I i f * I.Wpq (ix2 f z) + I.bpq (ix1 z)

def pscore (i : Fin 4000) (j : Fin 2000) : ℝ := ∑ z : Fin 32, (pqry I i z * invTemp) * keyP I j z

def patt (i : Fin 4000) (j : Fin 2000) : ℝ := Real.exp (pscore I i j) / ∑ j' : Fin 2000, Real.exp (pscore I i j')

def yPred (i : Fin 4000) (b : Fin 2) : ℝ := ∑ j : Fin 2000, patt I i j * valP I j b

def featOut : (⟨2, ![4000, 94]⟩ : Shape).Idx → EReal := fun i => ((feat I (i 0) (i 1) : ℝ) : EReal)
def yOut : (⟨2, ![4000, 2]⟩ : Shape).Idx → EReal := fun i => ((yPred I (i 0) (i 1) : ℝ) : EReal)

theorem featOut_apply (i : Fin 4000) (f : Fin 94) : featOut I (ix2 i f) = ((feat I i f : ℝ) : EReal) := rfl
theorem yOut_apply (i : Fin 4000) (b : Fin 2) : yOut I (ix2 i b) = ((yPred I i b : ℝ) : EReal) := rfl

end Cert.StarGraph

end
-- ==== Proof.Inputs.lean ====
import proofs.«406318_j68710886801531_3_alg».proof.Defs
import proofs.«406318_j68710886801531_3_alg».proof.Proof.Spec

noncomputable section

namespace Cert.StarGraph

open Idealize.ShloMosaic Idealize.SL.Sem

structure AgreesK (m : (ℓ : Loc Cert.KernelIdeal.nD Cert.KernelIdeal.τ Cert.KernelIdeal.sig) → Buf (Elt Ideal) ℓ) (I : Inputs) : Prop where
  lmX : ∀ c : Dev Cert.KernelIdeal.nD, m ((c.tc : Thread Cert.KernelIdeal.nD Cert.KernelIdeal.τ).loc Cert.KernelIdeal.main_arg0) = up I.lmX
  lmY : ∀ c : Dev Cert.KernelIdeal.nD, m ((c.tc : Thread Cert.KernelIdeal.nD Cert.KernelIdeal.τ).loc Cert.KernelIdeal.main_arg1) = up I.lmY
  tgX : ∀ c : Dev Cert.KernelIdeal.nD, m ((c.tc : Thread Cert.KernelIdeal.nD Cert.KernelIdeal.τ).loc Cert.KernelIdeal.main_arg2) = up I.tgX
  lmD : ∀ c : Dev Cert.KernelIdeal.nD, m ((c.tc : Thread Cert.KernelIdeal.nD Cert.KernelIdeal.τ).loc Cert.KernelIdeal.main_arg4) = up I.lmD
  tgD : ∀ c : Dev Cert.KernelIdeal.nD, m ((c.tc : Thread Cert.KernelIdeal.nD Cert.KernelIdeal.τ).loc Cert.KernelIdeal.main_arg5) = up I.tgD
  g1 : ∀ c : Dev Cert.KernelIdeal.nD, m ((c.tc : Thread Cert.KernelIdeal.nD Cert.KernelIdeal.τ).loc Cert.KernelIdeal.main_arg6) = up I.g1
  g2 : ∀ c : Dev Cert.KernelIdeal.nD, m ((c.tc : Thread Cert.KernelIdeal.nD Cert.KernelIdeal.τ).loc Cert.KernelIdeal.main_arg7) = up I.g2
  g3 : ∀ c : Dev Cert.KernelIdeal.nD, m ((c.tc : Thread Cert.KernelIdeal.nD Cert.KernelIdeal.τ).loc Cert.KernelIdeal.main_arg8) = up I.g3
  al : ∀ c : Dev Cert.KernelIdeal.nD, m ((c.tc : Thread Cert.KernelIdeal.nD Cert.KernelIdeal.τ).loc Cert.KernelIdeal.main_arg9) = up I.al
  be : ∀ c : Dev Cert.KernelIdeal.nD, m ((c.tc : Thread Cert.KernelIdeal.nD Cert.KernelIdeal.τ).loc Cert.KernelIdeal.main_arg10) = up I.be
  Wq : ∀ c : Dev Cert.KernelIdeal.nD, m ((c.tc : Thread Cert.KernelIdeal.nD Cert.KernelIdeal.τ).loc Cert.KernelIdeal.main_arg11) = up I.Wq
  bq : ∀ c : Dev Cert.KernelIdeal.nD, m ((c.tc : Thread Cert.KernelIdeal.nD Cert.KernelIdeal.τ).loc Cert.KernelIdeal.main_arg12) = up I.bq
  Wk : ∀ c : Dev Cert.KernelIdeal.nD, m ((c.tc : Thread Cert.KernelIdeal.nD Cert.KernelIdeal.τ).loc Cert.KernelIdeal.main_arg13) = up I.Wk
  bk : ∀ c : Dev Cert.KernelIdeal.nD, m ((c.tc : Thread Cert.KernelIdeal.nD Cert.KernelIdeal.τ).loc Cert.KernelIdeal.main_arg14) = up I.bk
  W1 : ∀ c : Dev Cert.KernelIdeal.nD, m ((c.tc : Thread Cert.KernelIdeal.nD Cert.KernelIdeal.τ).loc Cert.KernelIdeal.main_arg17) = up I.W1
  b1 : ∀ c : Dev Cert.KernelIdeal.nD, m ((c.tc : Thread Cert.KernelIdeal.nD Cert.KernelIdeal.τ).loc Cert.KernelIdeal.main_arg18) = up I.b1
  W2 : ∀ c : Dev Cert.KernelIdeal.nD, m ((c.tc : Thread Cert.KernelIdeal.nD Cert.KernelIdeal.τ).loc Cert.KernelIdeal.main_arg19) = up I.W2
  b2 : ∀ c : Dev Cert.KernelIdeal.nD, m ((c.tc : Thread Cert.KernelIdeal.nD Cert.KernelIdeal.τ).loc Cert.KernelIdeal.main_arg20) = up I.b2
  Wpq : ∀ c : Dev Cert.KernelIdeal.nD, m ((c.tc : Thread Cert.KernelIdeal.nD Cert.KernelIdeal.τ).loc Cert.KernelIdeal.main_arg21) = up I.Wpq
  bpq : ∀ c : Dev Cert.KernelIdeal.nD, m ((c.tc : Thread Cert.KernelIdeal.nD Cert.KernelIdeal.τ).loc Cert.KernelIdeal.main_arg22) = up I.bpq
  Wpk : ∀ c : Dev Cert.KernelIdeal.nD, m ((c.tc : Thread Cert.KernelIdeal.nD Cert.KernelIdeal.τ).loc Cert.KernelIdeal.main_arg23) = up I.Wpk
  bpk : ∀ c : Dev Cert.KernelIdeal.nD, m ((c.tc : Thread Cert.KernelIdeal.nD Cert.KernelIdeal.τ).loc Cert.KernelIdeal.main_arg24) = up I.bpk
  Wpv : ∀ c : Dev Cert.KernelIdeal.nD, m ((c.tc : Thread Cert.KernelIdeal.nD Cert.KernelIdeal.τ).loc Cert.KernelIdeal.main_arg25) = up I.Wpv
  bpv : ∀ c : Dev Cert.KernelIdeal.nD, m ((c.tc : Thread Cert.KernelIdeal.nD Cert.KernelIdeal.τ).loc Cert.KernelIdeal.main_arg26) = up I.bpv

end Cert.StarGraph

end
-- ==== Proof.Finite.lean ====
import proofs.«406318_j68710886801531_3_alg».proof.Proof.Inputs
import Idealize.ShloMosaic.Lib.ReduceAll

noncomputable section

namespace Cert.StarGraph

open Idealize.ShloMosaic Idealize.ShloMosaic.ValueIdx Idealize.SL.Sem

instance Finite.subsingleton_idx0 : Subsingleton (⟨0, ![]⟩ : Shape).Idx := ⟨fun a b => funext fun d => d.elim0⟩

theorem inf_eq_top : Ideal.ofBits .f32 0x7F800000#32 = (⊤ : EReal) := by simp [Ideal.ofBits, Ideal.ieee]

theorem real_of_abs_lt_inf (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  change Ideal.cmp .olt (max x (-x)) (Ideal.ofBits .f32 0x7F800000#32) = 1#1 at h
  rw [inf_eq_top] at h
  unfold Ideal.cmp at h
  induction x using EReal.rec with
  | bot => simp at h
  | coe r => exact ⟨r, rfl⟩
  | top => simp at h

theorem exists_real_of_all {s : Shape} {axes : List (Fin s.rank)} (x : FVec Ideal s .f32)
    (hb : (⟨0, ![]⟩ : Shape).BroadcastsInDim s (![] : Fin 0 → Fin s.rank))
    (hr : s.ReducesTo axes (⟨0, ![]⟩ : Shape)) (hu : 0 < (⟨0, ![]⟩ : Shape).numel)
    (e : Host.reduce IntOp.andi
        (cmpf .olt (Host.absf x) (broadcastInDim s ![] hb (constant (F := Ideal) (⟨0, ![]⟩ : Shape) .f32 0x7F800000#32)))
        (constantI (⟨0, ![]⟩ : Shape) 1 1#1) hr hu ix0 = 1#1) :
    ∃ x' : s.Idx → ℝ, x = up x' := by
  have hall : ∀ i, ∃ r : ℝ, x i = (r : EReal) := fun i =>
    real_of_abs_lt_inf (x i) (Host.reduce_andi_all _ _ hr hu ix0 e i)
  choose x' hx' using hall
  exact ⟨x', funext hx'⟩

theorem exists_inputs [Cert.Pre_finite_inputs.Facts] (m : (ℓ : Loc Cert.KernelIdeal.nD Cert.KernelIdeal.τ Cert.KernelIdeal.sig) → Buf (Elt Ideal) ℓ)
    (h : Cert.Pre_KernelIdeal m) : ∃ I : Inputs, AgreesK m I := by

  let c0 : Dev Cert.KernelIdeal.nD := ⟨0, Nat.one_pos⟩
  have h0 := congrFun (h c0) ix0
  dsimp only [Cert.Pre_finite_inputs.fn, Cert.Pre_finite_inputs.fn_part1, Cert.Pre_finite_inputs.fn_part2, Cert.Pre_finite_inputs.fn_part3, Cert.Pre_finite_inputs.fn_part4, Cert.Pre_finite_inputs.fn_part5, Cert.Pre_finite_inputs.fn_part6, Cert.Pre_finite_inputs.fn_part7, Idealize.ShloMosaic.andi] at h0
  simp only [IntOp.andi_eq_one] at h0
  obtain ⟨⟨⟨⟨⟨⟨⟨⟨⟨⟨⟨⟨⟨⟨⟨⟨⟨⟨⟨⟨⟨⟨⟨⟨⟨⟨e0, e1⟩, e2⟩, e3⟩, e4⟩, e5⟩, e6⟩, e7⟩, e8⟩, e9⟩, e10⟩, e11⟩, e12⟩, e13⟩, e14⟩, e15⟩, e16⟩, e17⟩, e18⟩, e19⟩, e20⟩, e21⟩, e22⟩, e23⟩, e24⟩, e25⟩, e26⟩ := h0
  obtain ⟨lmX, hlmX⟩ := exists_real_of_all _ _ _ _ e0
  obtain ⟨lmY, hlmY⟩ := exists_real_of_all _ _ _ _ e1
  obtain ⟨tgX, htgX⟩ := exists_real_of_all _ _ _ _ e2
  obtain ⟨lmD, hlmD⟩ := exists_real_of_all _ _ _ _ e4
  obtain ⟨tgD, htgD⟩ := exists_real_of_all _ _ _ _ e5
  obtain ⟨g1, hg1⟩ := exists_real_of_all _ _ _ _ e6
  obtain ⟨g2, hg2⟩ := exists_real_of_all _ _ _ _ e7
  obtain ⟨g3, hg3⟩ := exists_real_of_all _ _ _ _ e8
  obtain ⟨al, hal⟩ := exists_real_of_all _ _ _ _ e9
  obtain ⟨be, hbe⟩ := exists_real_of_all _ _ _ _ e10
  obtain ⟨Wq, hWq⟩ := exists_real_of_all _ _ _ _ e11
  obtain ⟨bq, hbq⟩ := exists_real_of_all _ _ _ _ e12
  obtain ⟨Wk, hWk⟩ := exists_real_of_all _ _ _ _ e13
  obtain ⟨bk, hbk⟩ := exists_real_of_all _ _ _ _ e14
  obtain ⟨W1, hW1⟩ := exists_real_of_all _ _ _ _ e17
  obtain ⟨b1, hb1⟩ := exists_real_of_all _ _ _ _ e18
  obtain ⟨W2, hW2⟩ := exists_real_of_all _ _ _ _ e19
  obtain ⟨b2, hb2⟩ := exists_real_of_all _ _ _ _ e20
  obtain ⟨Wpq, hWpq⟩ := exists_real_of_all _ _ _ _ e21
  obtain ⟨bpq, hbpq⟩ := exists_real_of_all _ _ _ _ e22
  obtain ⟨Wpk, hWpk⟩ := exists_real_of_all _ _ _ _ e23
  obtain ⟨bpk, hbpk⟩ := exists_real_of_all _ _ _ _ e24
  obtain ⟨Wpv, hWpv⟩ := exists_real_of_all _ _ _ _ e25
  obtain ⟨bpv, hbpv⟩ := exists_real_of_all _ _ _ _ e26
  exact ⟨⟨lmX, lmY, tgX, lmD, tgD, g1, g2, g3, al, be, Wq, bq, Wk, bk, W1, b1, W2, b2, Wpq, bpq, Wpk, bpk, Wpv, bpv⟩,
    ⟨fun c => by rw [Subsingleton.elim c c0]; exact hlmX,
    fun c => by rw [Subsingleton.elim c c0]; exact hlmY,
    fun c => by rw [Subsingleton.elim c c0]; exact htgX,
    fun c => by rw [Subsingleton.elim c c0]; exact hlmD,
    fun c => by rw [Subsingleton.elim c c0]; exact htgD,
    fun c => by rw [Subsingleton.elim c c0]; exact hg1,
    fun c => by rw [Subsingleton.elim c c0]; exact hg2,
    fun c => by rw [Subsingleton.elim c c0]; exact hg3,
    fun c => by rw [Subsingleton.elim c c0]; exact hal,
    fun c => by rw [Subsingleton.elim c c0]; exact hbe,
    fun c => by rw [Subsingleton.elim c c0]; exact hWq,
    fun c => by rw [Subsingleton.elim c c0]; exact hbq,
    fun c => by rw [Subsingleton.elim c c0]; exact hWk,
    fun c => by rw [Subsingleton.elim c c0]; exact hbk,
    fun c => by rw [Subsingleton.elim c c0]; exact hW1,
    fun c => by rw [Subsingleton.elim c c0]; exact hb1,
    fun c => by rw [Subsingleton.elim c c0]; exact hW2,
    fun c => by rw [Subsingleton.elim c c0]; exact hb2,
    fun c => by rw [Subsingleton.elim c c0]; exact hWpq,
    fun c => by rw [Subsingleton.elim c c0]; exact hbpq,
    fun c => by rw [Subsingleton.elim c c0]; exact hWpk,
    fun c => by rw [Subsingleton.elim c c0]; exact hbpk,
    fun c => by rw [Subsingleton.elim c c0]; exact hWpv,
    fun c => by rw [Subsingleton.elim c c0]; exact hbpv⟩⟩

end Cert.StarGraph

end
-- ==== Proof.SpecGraph.lean ====
import proofs.«406318_j68710886801531_3_alg».proof.Proof.Spec

noncomputable section

namespace Cert.StarGraph

open Idealize.ShloMosaic Idealize.ShloMosaic.ValueIdx

variable (I : Inputs)

def tgAux (i : Fin 4000) (a : Fin 32) : ℝ :=
  if h : a.val < 30 then I.tgX (ix2 i ⟨a.val, h⟩) else if a.val = 30 then rou0 I i else rou1 I i

def lmAux (j : Fin 2000) (z : Fin 34) : ℝ :=
  if h : z.val < 32 then lmF I j ⟨z.val, h⟩ else valP I j ⟨z.val - 32, by omega⟩

def allF0 (k : Fin 6001) (z : Fin 32) : ℝ :=
  if h : k.val < 2000 then lmF I ⟨k.val, h⟩ z
  else if h2 : k.val < 6000 then tg0 I ⟨k.val - 2000, by omega⟩ z else router0 I z

def allF1 (k : Fin 6001) (z : Fin 32) : ℝ :=
  if h : k.val < 2000 then lmF I ⟨k.val, h⟩ z
  else if h2 : k.val < 6000 then feat1 I ⟨k.val - 2000, by omega⟩ z else router1 I z

def adj0 (k l : Fin 6001) : ℝ :=
  if hk : 2000 ≤ k.val ∧ k.val < 6000 then
    (if hl : l.val < 2000 then att I ⟨k.val - 2000, by omega⟩ ⟨l.val, hl⟩
     else if l.val = 6000 then rou0 I ⟨k.val - 2000, by omega⟩ else if k = l then 1 else 0)
  else if k.val = 6000 then (if hl : l.val < 2000 then dsc I ⟨l.val, hl⟩ else if k = l then 1 else 0)
  else if k = l then 1 else 0

def adj1 (k l : Fin 6001) : ℝ :=
  if hk : 2000 ≤ k.val ∧ k.val < 6000 then
    (if l.val = 6000 then rou1 I ⟨k.val - 2000, by omega⟩ else if k = l then 1 else 0)
  else if k = l then 1 else 0

end Cert.StarGraph

end
-- ==== Proof.RealOps.lean ====
import Idealize.ShloMosaic.PureOps.Ideal
import Idealize.ShloMosaic.PureOps.Ideal.Laws

noncomputable section

namespace Cert.StarGraph

open Idealize.ShloMosaic

theorem coe_sum {ι : Type} (s : Finset ι) (f : ι → ℝ) : ((∑ k ∈ s, f k : ℝ) : EReal) = ∑ k ∈ s, ((f k : ℝ) : EReal) := by
  classical
  induction s using Finset.induction_on with
  | empty => simp
  | insert a s ha ih => rw [Finset.sum_insert ha, Finset.sum_insert ha, EReal.coe_add, ih]

theorem div_coe_coe (a b : ℝ) (hb : b ≠ 0) : Ideal.div (a : EReal) (b : EReal) = ((a / b : ℝ) : EReal) := by
  rw [Ideal.div_coe hb, ← EReal.coe_mul, mul_one_div]

theorem one_div_coe (b : ℝ) (hb : b ≠ 0) : Ideal.div (1 : EReal) (b : EReal) = ((1 / b : ℝ) : EReal) := by
  rw [Ideal.div_coe hb, one_mul]

theorem fold_max_coe {n : ℕ} (r : Fin (n + 1) → ℝ) :
    ∃ k : Fin (n + 1), (Finset.univ : Finset (Fin (n + 1))).fold max (⊥ : EReal) (fun k => ((r k : ℝ) : EReal)) = ((r k : ℝ) : EReal) := by
  have hne : (Finset.univ : Finset (Fin (n + 1))).Nonempty := Finset.univ_nonempty
  obtain ⟨k, _, hk⟩ := Finset.exists_mem_eq_sup (Finset.univ : Finset (Fin (n + 1))) hne
    (fun k => ((r k : ℝ) : EReal))
  exact ⟨k, hk⟩

theorem softmax_shift {ι : Type} [Fintype ι] (s : ι → ℝ) (M : ℝ) (j : ι) :
    Real.exp (s j - M) / ∑ j' : ι, Real.exp (s j' - M) = Real.exp (s j) / ∑ j' : ι, Real.exp (s j') := by
  have hM : Real.exp M ≠ 0 := (Real.exp_pos M).ne'
  simp only [Real.exp_sub]
  rw [← Finset.sum_div, div_div_div_cancel_right₀ hM]

theorem exp_log_softmax {ι : Type} [Fintype ι] [Nonempty ι] (s : ι → ℝ) (M : ℝ) (j : ι) :
    Real.exp (s j - M - Real.log (∑ j' : ι, Real.exp (s j' - M))) = Real.exp (s j) / ∑ j' : ι, Real.exp (s j') := by
  have hpos : 0 < ∑ j' : ι, Real.exp (s j' - M) :=
    Finset.sum_pos (fun j' _ => Real.exp_pos (s j' - M)) Finset.univ_nonempty
  rw [Real.exp_sub (s j - M), Real.exp_log hpos, softmax_shift]

theorem sum_exp_pos {ι : Type} [Fintype ι] [Nonempty ι] (s : ι → ℝ) : 0 < ∑ j : ι, Real.exp (s j) :=
  Finset.sum_pos (fun j _ => Real.exp_pos (s j)) Finset.univ_nonempty

theorem sum_mul_inv {ι : Type} [Fintype ι] (e v : ι → ℝ) (S : ℝ) :
    (∑ j : ι, e j * v j) * (1 / S) = ∑ j : ι, e j / S * v j := by
  rw [Finset.sum_mul]
  refine Finset.sum_congr rfl (fun j _ => ?_)
  ring

end Cert.StarGraph

end
-- ==== Proof.LibPlainDot.lean ====
import Idealize.ShloMosaic.Lib.ValueIdx
import Idealize.ShloMosaic.PureOps.Ideal.Laws

noncomputable section

namespace Idealize.ShloMosaic.PlainDot

open Idealize.ShloMosaic Idealize.ShloMosaic.ValueIdx

variable {M K N : Nat}

/-- An M×K by K×N product: the left operand's columns run against the right operand's rows, and nothing is batched. -/
structure IsPlain (d : DotDims (⟨2, ![M, K]⟩ : Shape) (⟨2, ![K, N]⟩ : Shape) (⟨2, ![M, N]⟩ : Shape)) : Prop where
  lc : d.lhsContracting = [1]
  rc : d.rhsContracting = [0]
  ln : d.lhsNonContracting = [0]
  rn : d.rhsNonContracting = [1]
  lb : d.lhsBatch = []
  rb : d.rhsBatch = []

variable {d : DotDims (⟨2, ![M, K]⟩ : Shape) (⟨2, ![K, N]⟩ : Shape) (⟨2, ![M, N]⟩ : Shape)}

theorem IsPlain.rank_contr (h : IsPlain d) : d.contr.rank = 1 := by
  rw [d.rank_contr, h.lc]; rfl

theorem IsPlain.size_contr (h : IsPlain d) : d.contr.size ⟨0, by rw [h.rank_contr]; exact Nat.one_pos⟩ = K := by
  have e := d.size_contr 0 (by rw [h.lc]; exact Nat.one_pos)
  rw [e]
  simp only [h.lc, List.getElem_cons_zero]
  rfl

theorem IsPlain.lhs_row (h : IsPlain d) (j : (⟨2, ![M, N]⟩ : Shape).Idx) (k : d.contr.Idx) :
    (d.lhsIdx j k 0).val = (j 0).val := by
  have hb : (0 : Fin (⟨2, ![M, K]⟩ : Shape).rank) ∉ d.lhsBatch := by rw [h.lb]; exact List.not_mem_nil
  have hn : (0 : Fin (⟨2, ![M, K]⟩ : Shape).rank) ∈ d.lhsNonContracting := by rw [h.ln]; exact List.mem_singleton.mpr rfl
  unfold DotDims.lhsIdx
  rw [dif_neg hb, dif_pos hn]
  simp only [Fin.val_cast]
  have key : ∀ (p q : Nat) (hp : p < (⟨2, ![M, N]⟩ : Shape).rank) (hq : q < (⟨2, ![M, N]⟩ : Shape).rank), p = q →
      (j ⟨p, hp⟩).val = (j ⟨q, hq⟩).val := fun p q hp hq e => by subst e; rfl
  exact key _ _ _ _ (by simp [h.lb, h.ln])

theorem IsPlain.lhs_col (h : IsPlain d) (j : (⟨2, ![M, N]⟩ : Shape).Idx) (k : d.contr.Idx) :
    (d.lhsIdx j k 1).val = (k ⟨0, by rw [h.rank_contr]; exact Nat.one_pos⟩).val :=
  d.lhsIdx_val_of_single h.lc j k

theorem IsPlain.rhs_row (h : IsPlain d) (j : (⟨2, ![M, N]⟩ : Shape).Idx) (k : d.contr.Idx) :
    (d.rhsIdx j k 0).val = (k ⟨0, by rw [h.rank_contr]; exact Nat.one_pos⟩).val :=
  d.rhsIdx_val_of_single h.rc j k

theorem IsPlain.rhs_col (h : IsPlain d) (j : (⟨2, ![M, N]⟩ : Shape).Idx) (k : d.contr.Idx) :
    (d.rhsIdx j k 1).val = (j 1).val := by
  have hb : (1 : Fin (⟨2, ![K, N]⟩ : Shape).rank) ∉ d.rhsBatch := by rw [h.rb]; exact List.not_mem_nil
  have hn : (1 : Fin (⟨2, ![K, N]⟩ : Shape).rank) ∈ d.rhsNonContracting := by rw [h.rn]; exact List.mem_singleton.mpr rfl
  unfold DotDims.rhsIdx
  rw [dif_neg hb, dif_pos hn]
  simp only [Fin.val_cast]
  have key : ∀ (p q : Nat) (hp : p < (⟨2, ![M, N]⟩ : Shape).rank) (hq : q < (⟨2, ![M, N]⟩ : Shape).rank), p = q →
      (j ⟨p, hp⟩).val = (j ⟨q, hq⟩).val := fun p q hp hq e => by subst e; rfl
  exact key _ _ _ _ (by simp [h.lb, h.ln, h.rn])

/-- The contraction has one axis of length K, so a sum over its positions is a sum over `Fin K`. -/
theorem IsPlain.sum_contr (h : IsPlain d) {α : Type} [AddCommMonoid α] [Mul α]
    (lhs : (⟨2, ![M, K]⟩ : Shape).Idx → α) (rhs : (⟨2, ![K, N]⟩ : Shape).Idx → α) (r : Fin M) (c : Fin N) :
    ∑ k : d.contr.Idx, lhs (d.lhsIdx (ix2 r c) k) * rhs (d.rhsIdx (ix2 r c) k)
      = ∑ k : Fin K, lhs (ix2 r k) * rhs (ix2 k c) := by
  rw [← Equiv.sum_comp (contrEquiv1 d K h.rank_contr h.size_contr).symm]
  refine Finset.sum_congr rfl fun k _ => ?_
  have hk := contrEquiv1_symm_val d K h.rank_contr h.size_contr k
  have el : d.lhsIdx (ix2 r c) ((contrEquiv1 d K h.rank_contr h.size_contr).symm k) = ix2 r k :=
    funext fun a => Fin.ext (by
      match a with
      | ⟨0, _⟩ => exact h.lhs_row _ _
      | ⟨1, _⟩ => exact (h.lhs_col _ _).trans hk)
  have er : d.rhsIdx (ix2 r c) ((contrEquiv1 d K h.rank_contr h.size_contr).symm k) = ix2 k c :=
    funext fun a => Fin.ext (by
      match a with
      | ⟨0, _⟩ => exact (h.rhs_row _ _).trans hk
      | ⟨1, _⟩ => exact h.rhs_col _ _)
  rw [el, er]

/-- Entry (r, c) of a product into a zero accumulator is `∑ k, a (r, k) * b (k, c)` over the extended reals. -/
theorem IsPlain.matmul_zero_apply (h : IsPlain d) {φ₁ φ₂ : FTy} (prec : Option ContractPrecision)
    (lhs : FVec Ideal (⟨2, ![M, K]⟩ : Shape) φ₁) (rhs : FVec Ideal (⟨2, ![K, N]⟩ : Shape) φ₂) (r : Fin M) (c : Fin N) :
    FloatOps.matmul d prec lhs rhs (constant (⟨2, ![M, N]⟩ : Shape) .f32 0x00000000#32) (ix2 r c)
      = ∑ k : Fin K, lhs (ix2 r k) * rhs (ix2 k c) := by
  rw [Ideal.matmul_constant_zero_apply]
  exact h.sum_contr lhs rhs r c

/-- Entry (r, c) of a host product is `∑ k, a (r, k) * b (k, c)` over the extended reals. -/
theorem IsPlain.dotGeneral_apply (h : IsPlain d) {φ₁ φ₂ : FTy} (prec : Option ContractPrecision) (sched : HostSchedule)
    (lhs : FVec Ideal (⟨2, ![M, K]⟩ : Shape) φ₁) (rhs : FVec Ideal (⟨2, ![K, N]⟩ : Shape) φ₂) (r : Fin M) (c : Fin N) :
    FloatOps.dotGeneral d prec sched lhs rhs (ix2 r c) = ∑ k : Fin K, lhs (ix2 r k) * rhs (ix2 k c) := by
  rw [Ideal.dotGeneral_apply]
  exact h.sum_contr lhs rhs r c

end Idealize.ShloMosaic.PlainDot

end
-- ==== Proof.KHostA.lean ====
import proofs.«406318_j68710886801531_3_alg».proof.Proof.Gen.KernelIdeal.Launch
import proofs.«406318_j68710886801531_3_alg».proof.Proof.Inputs
import proofs.«406318_j68710886801531_3_alg».proof.Proof.SpecGraph
import proofs.«406318_j68710886801531_3_alg».proof.Proof.RealOps
import proofs.«406318_j68710886801531_3_alg».proof.Proof.LibPlainDot
import Idealize.ShloMosaic.Lib.StableHlo.Run
import Idealize.ShloMosaic.Lib.Pipeline.Value
import Idealize.ShloMosaic.Lib.ValueLayout

noncomputable section

namespace Cert.StarGraph.Kern

open Idealize.ShloMosaic Idealize.ShloMosaic.TcCoe Idealize.ShloMosaic.ValueIdx Idealize.SL.Sem
open Cert.KernelIdeal Cert.KernelIdeal.Gen Cert.StarGraph

variable (I : Inputs) (m : (ℓ : Loc nD τ sig) → Buf (Elt Ideal) ℓ)

abbrev Vh (c : Dev nD) (b : Ref sig .tc) : Buf (Elt Ideal) ((c : Thread nD τ).loc b) := StableHlo.after hostOps0 (fun b => m (c, b)) b

theorem bcast11_apply {α : Type} (x : S1x1.Idx → α) (i : Fin 4000) :
    broadcastInDim S4000x1 ![0, 1] bcast_S1x1_S4000x1_0_1 x (ix2 i (0 : Fin 1)) = x (ix2 (0 : Fin 1) (0 : Fin 1)) :=
  broadcastInDim_apply _ bcast_S1x1_S4000x1_0_1 x (ix2 i (0 : Fin 1)) (ix2 (0 : Fin 1) (0 : Fin 1)) (fun a => match a with
    | ⟨0, _⟩ => by show 0 = if (1 : Nat) = 1 then 0 else _; rw [if_pos rfl]
    | ⟨1, _⟩ => by show 0 = if (1 : Nat) = 1 then 0 else _; rw [if_pos rfl])

theorem col4000_apply {α : Type} (x : S4000.Idx → α) (i : Fin 4000) :
    shapeCast S4000x1 x shapeCasts_S4000_S4000x1 (ix2 i (0 : Fin 1)) = x (ix1 i) :=
  shapeCast_apply x shapeCasts_S4000_S4000x1 (ix2 i (0 : Fin 1)) (ix1 i)
    (by rw [Shape.rowMajor_val_one, Shape.rowMajor_val_two]; show i.val = i.val * 1 + 0; omega)

theorem row32_apply {α : Type} (x : S32.Idx → α) (z : Fin 32) :
    shapeCast S1x32 x shapeCasts_S32_S1x32 (ix2 (0 : Fin 1) z) = x (ix1 z) :=
  shapeCast_apply x shapeCasts_S32_S1x32 (ix2 (0 : Fin 1) z) (ix1 z)
    (by rw [Shape.rowMajor_val_one, Shape.rowMajor_val_two]; show z.val = 0 * 32 + z.val; omega)

theorem bias2000_apply {α : Type} (x : S32.Idx → α) (j : Fin 2000) (z : Fin 32) :
    broadcastInDim S2000x32 ![0, 1] bcast_S1x32_S2000x32_0_1 (broadcastInDim S1x32 ![1] bcast_S32_S1x32_1 x) (ix2 j z) = x (ix1 z) := by
  refine (broadcastInDim_apply _ bcast_S1x32_S2000x32_0_1 _ (ix2 j z) (ix2 (0 : Fin 1) z) (fun a => match a with
    | ⟨0, _⟩ => by show 0 = if (1 : Nat) = 1 then 0 else _; rw [if_pos rfl]
    | ⟨1, _⟩ => by show z.val = if (32 : Nat) = 1 then 0 else z.val; rw [if_neg (by decide)])).trans ?_
  exact broadcastInDim_apply _ bcast_S32_S1x32_1 x (ix2 (0 : Fin 1) z) (ix1 z) (fun a => match a with
    | ⟨0, _⟩ => by show z.val = if (32 : Nat) = 1 then 0 else z.val; rw [if_neg (by decide)])

def decayCol (g al be : FVec Ideal S1x1 .f32) (d : FVec Ideal S4000 .f32) : FVec Ideal S4000x1 .f32 :=
  Host.exp (mulf (broadcastInDim S4000x1 ![0, 1] bcast_S1x1_S4000x1_0_1 (Host.negf g))
    (addf (mulf (broadcastInDim S4000x1 ![0, 1] bcast_S1x1_S4000x1_0_1 al) (shapeCast S4000x1 d shapeCasts_S4000_S4000x1))
      (broadcastInDim S4000x1 ![0, 1] bcast_S1x1_S4000x1_0_1 be)))

theorem decayCol_apply (g al be : S1x1.Idx → ℝ) (d : S4000.Idx → ℝ) (i : Fin 4000) :
    decayCol (up g) (up al) (up be) (up d) (ix2 i (0 : Fin 1))
      = ((Real.exp (-(scal g) * (scal al * d (ix1 i) + scal be)) : ℝ) : EReal) := by
  show Ideal.exp (broadcastInDim S4000x1 ![0, 1] bcast_S1x1_S4000x1_0_1 (Host.negf (F := Ideal) (φ := .f32) (up g)) (ix2 i (0 : Fin 1))
      * (broadcastInDim S4000x1 ![0, 1] bcast_S1x1_S4000x1_0_1 (up al) (ix2 i (0 : Fin 1))
          * shapeCast S4000x1 (up d) shapeCasts_S4000_S4000x1 (ix2 i (0 : Fin 1))
        + broadcastInDim S4000x1 ![0, 1] bcast_S1x1_S4000x1_0_1 (up be) (ix2 i (0 : Fin 1)))) = _
  rw [bcast11_apply, bcast11_apply, bcast11_apply, col4000_apply]
  show Ideal.exp (-((g (ix2 0 0) : ℝ) : EReal) * (((al (ix2 0 0) : ℝ) : EReal) * ((d (ix1 i) : ℝ) : EReal) + ((be (ix2 0 0) : ℝ) : EReal))) = _
  rw [← EReal.coe_neg, ← EReal.coe_mul, ← EReal.coe_add, ← EReal.coe_mul, Ideal.exp_coe]
  rfl

def cat58 (A : FVec Ideal S4000x30 .f32) (B C : FVec Ideal S4000x1 .f32) : FVec Ideal S4000x32 .f32 :=
  concatenate S4000x32 1 [⟨S4000x30, A⟩, ⟨S4000x1, B⟩, ⟨S4000x1, C⟩] concatenates_S4000x30_S4000x1_S4000x1_S4000x32_d1

def term58 (x2 : FVec Ideal S4000x30 .f32) (x5 : FVec Ideal S4000 .f32) (x7 x8 x9 x10 : FVec Ideal S1x1 .f32) : FVec Ideal S4000x32 .f32 :=
  cat58 x2 (decayCol x7 x9 x10 x5) (decayCol x8 x9 x10 x5)

theorem term58_apply (X : S4000x30.Idx → ℝ) (d : S4000.Idx → ℝ) (g2 g3 al be : S1x1.Idx → ℝ) (i : Fin 4000) (a : Fin 32) :
    term58 (up X) (up d) (up g2) (up g3) (up al) (up be) (ix2 i a)
      = (((if h : a.val < 30 then X (ix2 i ⟨a.val, h⟩)
            else if a.val = 30 then Real.exp (-(scal g2) * (scal al * d (ix1 i) + scal be))
            else Real.exp (-(scal g3) * (scal al * d (ix1 i) + scal be))) : ℝ) : EReal) := by
  unfold term58 cat58
  by_cases h : a.val < 30
  · rw [dif_pos h]
    refine (concatenate_apply_piece (1 : Fin S4000x32.rank)
      ([⟨S4000x30, up X⟩, ⟨S4000x1, decayCol (up g2) (up al) (up be) (up d)⟩, ⟨S4000x1, decayCol (up g3) (up al) (up be) (up d)⟩] : List ((s : Shape) × (s.Idx → EReal)))
      concatenates_S4000x30_S4000x1_S4000x1_S4000x32_d1 (ix2 i a)
      0 (by simp) S4000x30 (up X) rfl rfl 0 rfl (ix2 i ⟨a.val, h⟩) (fun b hb => ?_) ?_).trans (up_apply _ _)
    · match b, hb with
      | ⟨0, _⟩, _ => rfl
      | ⟨1, _⟩, hb => exact absurd rfl hb
    · show 0 + a.val = a.val; omega
  · rw [dif_neg h]
    by_cases h30 : a.val = 30
    · rw [if_pos h30]
      refine (concatenate_apply_piece (1 : Fin S4000x32.rank)
      ([⟨S4000x30, up X⟩, ⟨S4000x1, decayCol (up g2) (up al) (up be) (up d)⟩, ⟨S4000x1, decayCol (up g3) (up al) (up be) (up d)⟩] : List ((s : Shape) × (s.Idx → EReal)))
      concatenates_S4000x30_S4000x1_S4000x1_S4000x32_d1 (ix2 i a)
        1 (by simp) S4000x1 (decayCol (up g2) (up al) (up be) (up d)) rfl rfl 30 rfl (ix2 i (0 : Fin 1)) (fun b hb => ?_) ?_).trans
        (decayCol_apply g2 al be d i)
      · match b, hb with
        | ⟨0, _⟩, _ => rfl
        | ⟨1, _⟩, hb => exact absurd rfl hb
      · show 30 + 0 = a.val; omega
    · rw [if_neg h30]
      refine (concatenate_apply_piece (1 : Fin S4000x32.rank)
      ([⟨S4000x30, up X⟩, ⟨S4000x1, decayCol (up g2) (up al) (up be) (up d)⟩, ⟨S4000x1, decayCol (up g3) (up al) (up be) (up d)⟩] : List ((s : Shape) × (s.Idx → EReal)))
      concatenates_S4000x30_S4000x1_S4000x1_S4000x32_d1 (ix2 i a)
        2 (by simp) S4000x1 (decayCol (up g3) (up al) (up be) (up d)) rfl rfl 31 rfl (ix2 i (0 : Fin 1)) (fun b hb => ?_) ?_).trans
        (decayCol_apply g3 al be d i)
      · match b, hb with
        | ⟨0, _⟩, _ => rfl
        | ⟨1, _⟩, hb => exact absurd rfl hb
      · show 31 + 0 = a.val
        have := a.isLt
        omega

def termKT (x0 : FVec Ideal S2000x30 .f32) (w : FVec Ideal S30x32 .f32) (bv : FVec Ideal S32 .f32) : FVec Ideal S32x2000 .f32 :=
  transpose S32x2000 [1, 0]
    (addf (Host.dotGeneral dot_S2000x30_S30x32_S2000x32_1_0_0_1_n_n none x0 w)
      (broadcastInDim S2000x32 ![0, 1] bcast_S1x32_S2000x32_0_1 (broadcastInDim S1x32 ![1] bcast_S32_S1x32_1 bv)))
    transposes_S2000x32_S32x2000_1_0

theorem termKT_apply (X : S2000x30.Idx → ℝ) (W : S30x32.Idx → ℝ) (bv : S32.Idx → ℝ) (z : Fin 32) (j : Fin 2000) :
    termKT (up X) (up W) (up bv) (ix2 z j) = ((∑ a : Fin 30, X (ix2 j a) * W (ix2 a z) + bv (ix1 z) : ℝ) : EReal) := by
  unfold termKT
  refine (transpose_apply [1, 0] _ transposes_S2000x32_S32x2000_1_0 (ix2 z j) (ix2 j z) (fun b => match b with
    | ⟨0, _⟩ => rfl
    | ⟨1, _⟩ => rfl)).trans ?_
  show FloatOps.dotGeneral (F := Ideal) (φ₁ := .f32) (φ₂ := .f32) dot_S2000x30_S30x32_S2000x32_1_0_0_1_n_n none .single (up X) (up W) (ix2 j z)
      + broadcastInDim S2000x32 ![0, 1] bcast_S1x32_S2000x32_0_1 (broadcastInDim S1x32 ![1] bcast_S32_S1x32_1 (up bv)) (ix2 j z) = _
  rw [bias2000_apply, PlainDot.IsPlain.dotGeneral_apply ⟨rfl, rfl, rfl, rfl, rfl, rfl⟩]
  simp only [up_apply]
  simp only [← EReal.coe_mul]
  rw [← coe_sum, ← EReal.coe_add]

open Idealize.ShloMosaic.StableHlo in

theorem nary3_result' {τ' : Topo} {sig' : RefSig} {Val : EltTy → Type} {x a b y : Ref sig' .tc}
    (g : x.ty.Contents Val → a.ty.Contents Val → b.ty.Contents Val → y.ty.Contents Val) (hxs hy)
    (F : Valuation τ' sig' Val) :
    (nary (τ := τ') ![x, a, b] y (fun u => g (u 0) (u 1) (u 2)) hxs hy).result F (Proc.devRef .tc y)
      = g (F (Proc.devRef .tc x)) (F (Proc.devRef .tc a)) (F (Proc.devRef .tc b)) := by
  rw [nary_result]
  rfl

set_option maxHeartbeats 4000000 in
open Idealize.ShloMosaic.StableHlo in
theorem e58 (hI : AgreesK m I) (c : Dev nD) :
    (Vh m c main_v58 : S4000x32.Idx → EReal) = term58 (up I.tgX) (up I.tgD) (up I.g2) (up I.g3) (up I.al) (up I.be) := by
  rw [← hI.tgX c, ← hI.tgD c, ← hI.g2 c, ← hI.g3 c, ← hI.al c, ← hI.be c]
  dsimp only [Vh, hostOps0]
  simp (disch := decide) only [after_cons, after_nil, reshape_result_ne']
  rw [nary3_result' (τ' := τ) (sig' := sig) (Val := Elt Ideal) (x := main_arg2) (a := main_v49) (b := main_v57) (y := main_v58)
    (fun A B C => concatenate S4000x32 1 [⟨S4000x30, A⟩, ⟨S4000x1, B⟩, ⟨S4000x1, C⟩] concatenates_S4000x30_S4000x1_S4000x1_S4000x32_d1)]
  show cat58 _ _ _ = _
  unfold term58
  refine congr (congr (congrArg cat58 ?_) ?_) ?_
  all_goals (after_results_simp; try rfl)

set_option maxHeartbeats 4000000 in
open Idealize.ShloMosaic.StableHlo in
theorem e13 (hI : AgreesK m I) (c : Dev nD) :
    (Vh m c main_v13 : S32x2000.Idx → EReal) = termKT (up I.lmX) (up I.Wk) (up I.bk) := by
  rw [← hI.lmX c, ← hI.Wk c, ← hI.bk c]
  dsimp only [Vh, hostOps0]
  after_results_simp
  rfl

set_option maxHeartbeats 4000000 in
open Idealize.ShloMosaic.StableHlo in
theorem e14 (hI : AgreesK m I) (c : Dev nD) :
    (Vh m c main_v14 : S32x2000.Idx → EReal) = termKT (up I.lmX) (up I.Wpk) (up I.bpk) := by
  rw [← hI.lmX c, ← hI.Wpk c, ← hI.bpk c]
  dsimp only [Vh, hostOps0]
  after_results_simp
  rfl

set_option maxHeartbeats 4000000 in
open Idealize.ShloMosaic.StableHlo in
theorem e59 (hI : AgreesK m I) (c : Dev nD) :
    (Vh m c main_v59 : S1x32.Idx → EReal) = shapeCast S1x32 (up I.bq) shapeCasts_S32_S1x32 := by
  rw [← hI.bq c]
  dsimp only [Vh, hostOps0]
  after_results_simp
  rfl

set_option maxHeartbeats 4000000 in
open Idealize.ShloMosaic.StableHlo in
theorem e60 (hI : AgreesK m I) (c : Dev nD) :
    (Vh m c main_v60 : S1x32.Idx → EReal) = shapeCast S1x32 (up I.b1) shapeCasts_S32_S1x32 := by
  rw [← hI.b1 c]
  dsimp only [Vh, hostOps0]
  after_results_simp
  rfl

set_option maxHeartbeats 4000000 in
open Idealize.ShloMosaic.StableHlo in
theorem e61 (hI : AgreesK m I) (c : Dev nD) :
    (Vh m c main_v61 : S1x32.Idx → EReal) = shapeCast S1x32 (up I.b2) shapeCasts_S32_S1x32 := by
  rw [← hI.b2 c]
  dsimp only [Vh, hostOps0]
  after_results_simp
  rfl

set_option maxHeartbeats 4000000 in
open Idealize.ShloMosaic.StableHlo in
theorem e62 (hI : AgreesK m I) (c : Dev nD) :
    (Vh m c main_v62 : S1x32.Idx → EReal) = shapeCast S1x32 (up I.bpq) shapeCasts_S32_S1x32 := by
  rw [← hI.bpq c]
  dsimp only [Vh, hostOps0]
  after_results_simp
  rfl

theorem host_tgaux (hI : AgreesK m I) (c : Dev nD) (i : Fin 4000) (a : Fin 32) :
    Vh m c main_v58 (ix2 i a) = ((tgAux I i a : ℝ) : EReal) :=
  (congrFun (e58 I m hI c) (ix2 i a)).trans ((term58_apply I.tgX I.tgD I.g2 I.g3 I.al I.be i a).trans rfl)

theorem host_kt (hI : AgreesK m I) (c : Dev nD) (z : Fin 32) (j : Fin 2000) :
    Vh m c main_v13 (ix2 z j) = ((keyA I j z : ℝ) : EReal) :=
  (congrFun (e13 I m hI c) (ix2 z j)).trans ((termKT_apply I.lmX I.Wk I.bk z j).trans rfl)

theorem host_pkt (hI : AgreesK m I) (c : Dev nD) (z : Fin 32) (j : Fin 2000) :
    Vh m c main_v14 (ix2 z j) = ((keyP I j z : ℝ) : EReal) :=
  (congrFun (e14 I m hI c) (ix2 z j)).trans ((termKT_apply I.lmX I.Wpk I.bpk z j).trans rfl)

theorem host_bq (hI : AgreesK m I) (c : Dev nD) (z : Fin 32) : Vh m c main_v59 (ix2 (0 : Fin 1) z) = ((I.bq (ix1 z) : ℝ) : EReal) :=
  (congrFun (e59 I m hI c) (ix2 (0 : Fin 1) z)).trans (row32_apply (up I.bq) z)
theorem host_b1 (hI : AgreesK m I) (c : Dev nD) (z : Fin 32) : Vh m c main_v60 (ix2 (0 : Fin 1) z) = ((I.b1 (ix1 z) : ℝ) : EReal) :=
  (congrFun (e60 I m hI c) (ix2 (0 : Fin 1) z)).trans (row32_apply (up I.b1) z)
theorem host_b2 (hI : AgreesK m I) (c : Dev nD) (z : Fin 32) : Vh m c main_v61 (ix2 (0 : Fin 1) z) = ((I.b2 (ix1 z) : ℝ) : EReal) :=
  (congrFun (e61 I m hI c) (ix2 (0 : Fin 1) z)).trans (row32_apply (up I.b2) z)
theorem host_bpq (hI : AgreesK m I) (c : Dev nD) (z : Fin 32) : Vh m c main_v62 (ix2 (0 : Fin 1) z) = ((I.bpq (ix1 z) : ℝ) : EReal) :=
  (congrFun (e62 I m hI c) (ix2 (0 : Fin 1) z)).trans (row32_apply (up I.bpq) z)

end Cert.StarGraph.Kern

end
-- ==== Proof.KHostB.lean ====
import proofs.«406318_j68710886801531_3_alg».proof.Proof.Gen.KernelIdeal.Launch
import proofs.«406318_j68710886801531_3_alg».proof.Proof.Inputs
import proofs.«406318_j68710886801531_3_alg».proof.Proof.SpecGraph
import proofs.«406318_j68710886801531_3_alg».proof.Proof.RealOps
import proofs.«406318_j68710886801531_3_alg».proof.Proof.LibPlainDot
import Idealize.ShloMosaic.Lib.StableHlo.Run
import Idealize.ShloMosaic.Lib.Pipeline.Value
import Idealize.ShloMosaic.Lib.ValueLayout
import Idealize.ShloMosaic.Lib.IdealHost
import proofs.«406318_j68710886801531_3_alg».proof.Proof.KHostA

noncomputable section

namespace Cert.StarGraph.Kern

open Idealize.ShloMosaic Idealize.ShloMosaic.TcCoe Idealize.ShloMosaic.ValueIdx Idealize.SL.Sem
open Cert.KernelIdeal Cert.KernelIdeal.Gen Cert.StarGraph

variable (I : Inputs) (m : (ℓ : Loc nD τ sig) → Buf (Elt Ideal) ℓ)

def hFeat (x0 : FVec Ideal S2000x30 .f32) (x1 : FVec Ideal S2000x2 .f32) : FVec Ideal S2000x32 .f32 :=
  concatenate S2000x32 1 [⟨S2000x30, x0⟩, ⟨S2000x2, x1⟩] concatenates_S2000x30_S2000x2_S2000x32_d1

def hMean (x0 : FVec Ideal S2000x30 .f32) (x1 : FVec Ideal S2000x2 .f32) : FVec Ideal S1x32 .f32 :=
  Host.divf
    (broadcastInDim S1x32 ![1] bcast_S32_S1x32_1
      (Host.reduceAdd (hFeat x0 x1) (constant (F := Ideal) S_ .f32 0x00000000#32) reducesTo_S2000x32_S32_d0 h_S_))
    (broadcastInDim S1x32 ![] bcast_S_S1x32 (constant (F := Ideal) S_ .f32 0x44FA0000#32))

def hVal (x1 : FVec Ideal S2000x2 .f32) (x25 : FVec Ideal S2x2 .f32) (x26 : FVec Ideal S2 .f32) : FVec Ideal S2000x2 .f32 :=
  addf (Host.dotGeneral dot_S2000x2_S2x2_S2000x2_1_0_0_1_n_n none x1 x25)
    (broadcastInDim S2000x2 ![0, 1] bcast_S1x2_S2000x2_0_1 (broadcastInDim S1x2 ![1] bcast_S2_S1x2_1 x26))

def hLmAux (x0 : FVec Ideal S2000x30 .f32) (x1 : FVec Ideal S2000x2 .f32) (x25 : FVec Ideal S2x2 .f32)
    (x26 : FVec Ideal S2 .f32) : FVec Ideal S2000x34 .f32 :=
  concatenate S2000x34 1 [⟨S2000x32, hFeat x0 x1⟩, ⟨S2000x2, hVal x1 x25 x26⟩] concatenates_S2000x32_S2000x2_S2000x34_d1

def hDsc (x4 : FVec Ideal S2000 .f32) (x6 x9 x10 : FVec Ideal S1x1 .f32) : FVec Ideal S2000x1 .f32 :=
  Host.exp
    (mulf (broadcastInDim S2000x1 ![0, 1] bcast_S1x1_S2000x1_0_1 (Host.negf x6))
      (addf
        (mulf (broadcastInDim S2000x1 ![0, 1] bcast_S1x1_S2000x1_0_1 x9) (shapeCast S2000x1 x4 shapeCasts_S2000_S2000x1))
        (broadcastInDim S2000x1 ![0, 1] bcast_S1x1_S2000x1_0_1 x10)))

def hDeg (x4 : FVec Ideal S2000 .f32) (x6 x9 x10 : FVec Ideal S1x1 .f32) : FVec Ideal S_ .f32 :=
  addf (constant (F := Ideal) S_ .f32 0x3F800000#32)
    (Host.reduceAdd (hDsc x4 x6 x9 x10) (constant (F := Ideal) S_ .f32 0x00000000#32) reducesTo_S2000x1_S_d0_1 h_S_)

def hWsum (x0 : FVec Ideal S2000x30 .f32) (x1 : FVec Ideal S2000x2 .f32) (x4 : FVec Ideal S2000 .f32)
    (x6 x9 x10 : FVec Ideal S1x1 .f32) : FVec Ideal S32 .f32 :=
  Host.reduceAdd
    (mulf (broadcastInDim S2000x32 ![0, 1] bcast_S2000x1_S2000x32_0_1 (hDsc x4 x6 x9 x10)) (hFeat x0 x1))
    (constant (F := Ideal) S_ .f32 0x00000000#32) reducesTo_S2000x32_S32_d0 h_S_

def hPre (x0 : FVec Ideal S2000x30 .f32) (x1 : FVec Ideal S2000x2 .f32) (x4 : FVec Ideal S2000 .f32)
    (x6 x9 x10 : FVec Ideal S1x1 .f32) : FVec Ideal S1x32 .f32 :=
  Host.divf
    (addf (hMean x0 x1) (broadcastInDim S1x32 ![1] bcast_S32_S1x32_1 (hWsum x0 x1 x4 x6 x9 x10)))
    (broadcastInDim S1x32 ![] bcast_S_S1x32 (hDeg x4 x6 x9 x10))

def hR1 (x0 : FVec Ideal S2000x30 .f32) (x1 : FVec Ideal S2000x2 .f32) (x4 : FVec Ideal S2000 .f32)
    (x6 x9 x10 : FVec Ideal S1x1 .f32) (x17 : FVec Ideal S32x32 .f32) (x18 : FVec Ideal S32 .f32) : FVec Ideal S1x32 .f32 :=
  addf (Host.dotGeneral dot_S1x32_S32x32_S1x32_1_0_0_1_n_n none (hPre x0 x1 x4 x6 x9 x10) x17)
    (broadcastInDim S1x32 ![1] bcast_S32_S1x32_1 x18)

set_option maxHeartbeats 4000000 in
theorem buf_v4 (c : Dev nD) :
    (Vh m c main_v4 : S1x32.Idx → EReal)
      = hMean (m ((c.tc : Thread nD τ).loc main_arg0)) (m ((c.tc : Thread nD τ).loc main_arg1)) := by
  dsimp only [Vh, hostOps0]
  after_results_simp
  rfl

set_option maxHeartbeats 4000000 in
theorem buf_v19 (c : Dev nD) :
    (Vh m c main_v19 : S2000x34.Idx → EReal)
      = hLmAux (m ((c.tc : Thread nD τ).loc main_arg0)) (m ((c.tc : Thread nD τ).loc main_arg1))
          (m ((c.tc : Thread nD τ).loc main_arg25)) (m ((c.tc : Thread nD τ).loc main_arg26)) := by
  dsimp only [Vh, hostOps0]
  after_results_simp
  rfl

set_option maxHeartbeats 4000000 in
theorem buf_v40 (c : Dev nD) :
    (Vh m c main_v40 : S1x32.Idx → EReal)
      = hR1 (m ((c.tc : Thread nD τ).loc main_arg0)) (m ((c.tc : Thread nD τ).loc main_arg1))
          (m ((c.tc : Thread nD τ).loc main_arg4)) (m ((c.tc : Thread nD τ).loc main_arg6))
          (m ((c.tc : Thread nD τ).loc main_arg9)) (m ((c.tc : Thread nD τ).loc main_arg10))
          (m ((c.tc : Thread nD τ).loc main_arg17)) (m ((c.tc : Thread nD τ).loc main_arg18)) := by
  dsimp only [Vh, hostOps0]
  after_results_simp
  rfl

theorem ofBits_2000 : Ideal.ofBits .f32 0x44FA0000#32 = ((2000 : ℝ) : EReal) := by
  simp [Ideal.ofBits, Ideal.ieee, -EReal.coe_mul]; norm_num

theorem biasRow32_apply (y : FVec Ideal S32 .f32) (z : Fin 32) :
    broadcastInDim S1x32 ![1] bcast_S32_S1x32_1 y (ix2 (0 : Fin 1) z) = y (ix1 z) :=
  broadcastInDim_apply _ bcast_S32_S1x32_1 y _ (ix1 z) (fun a => match a with
    | ⟨0, _⟩ => by show z.val = if (32 : Nat) = 1 then 0 else z.val; rw [if_neg (by decide)])

theorem row2_apply (y : FVec Ideal S2 .f32) (b : Fin 2) :
    broadcastInDim S1x2 ![1] bcast_S2_S1x2_1 y (ix2 (0 : Fin 1) b) = y (ix1 b) :=
  broadcastInDim_apply _ bcast_S2_S1x2_1 y _ (ix1 b) (fun a => match a with
    | ⟨0, _⟩ => by show b.val = if (2 : Nat) = 1 then 0 else b.val; rw [if_neg (by decide)])

theorem rows2_apply (y : FVec Ideal S1x2 .f32) (j : Fin 2000) (b : Fin 2) :
    broadcastInDim S2000x2 ![0, 1] bcast_S1x2_S2000x2_0_1 y (ix2 j b) = y (ix2 (0 : Fin 1) b) :=
  broadcastInDim_apply _ bcast_S1x2_S2000x2_0_1 y _ (ix2 (0 : Fin 1) b) (fun a => match a with
    | ⟨0, _⟩ => by show 0 = if (1 : Nat) = 1 then 0 else j.val; rw [if_pos rfl]
    | ⟨1, _⟩ => by show b.val = if (2 : Nat) = 1 then 0 else b.val; rw [if_neg (by decide)])

theorem col1_apply (y : FVec Ideal S1x1 .f32) (j : Fin 2000) :
    broadcastInDim S2000x1 ![0, 1] bcast_S1x1_S2000x1_0_1 y (ix2 j (0 : Fin 1)) = y (ix2 (0 : Fin 1) (0 : Fin 1)) :=
  broadcastInDim_apply _ bcast_S1x1_S2000x1_0_1 y _ (ix2 (0 : Fin 1) (0 : Fin 1)) (fun a => match a with
    | ⟨0, _⟩ => by show 0 = if (1 : Nat) = 1 then 0 else j.val; rw [if_pos rfl]
    | ⟨1, _⟩ => by show 0 = if (1 : Nat) = 1 then 0 else 0; rw [if_pos rfl])

theorem cols_apply (y : FVec Ideal S2000x1 .f32) (k : Fin 2000) (z : Fin 32) :
    broadcastInDim S2000x32 ![0, 1] bcast_S2000x1_S2000x32_0_1 y (ix2 k z) = y (ix2 k (0 : Fin 1)) :=
  broadcastInDim_apply _ bcast_S2000x1_S2000x32_0_1 y _ (ix2 k (0 : Fin 1)) (fun a => match a with
    | ⟨0, _⟩ => by show k.val = if (2000 : Nat) = 1 then 0 else k.val; rw [if_neg (by decide)]
    | ⟨1, _⟩ => by show 0 = if (1 : Nat) = 1 then 0 else z.val; rw [if_pos rfl])

theorem asCol_apply (x : FVec Ideal S2000 .f32) (j : Fin 2000) :
    shapeCast S2000x1 x shapeCasts_S2000_S2000x1 (ix2 j (0 : Fin 1)) = x (ix1 j) :=
  shapeCast_apply x shapeCasts_S2000_S2000x1 _ (ix1 j)
    (by rewrite [Shape.rowMajor_val_one, Shape.rowMajor_val_two]; show j.val = j.val * 1 + 0; omega)

theorem colsum_apply (y : FVec Ideal S2000x32 .f32) (z : Fin 32) :
    Host.reduceAdd y (constant (F := Ideal) S_ .f32 0x00000000#32) reducesTo_S2000x32_S32_d0 h_S_ (ix1 z)
      = ∑ k : Fin 2000, y (ix2 k z) := by
  rw [hostReduceAdd_apply, Ideal.hostReduceAdd_single reducesTo_S2000x32_S32_d0 (by decide), constant_apply,
    Ideal.ofBits_zero_f32, zero_add]
  refine Finset.sum_congr rfl fun k _ => ?_
  exact congrArg y (funext fun a => Fin.ext (by match a with | ⟨0, _⟩ => rfl | ⟨1, _⟩ => rfl))

theorem total_apply (y : FVec Ideal S2000x1 .f32) :
    Host.reduceAdd y (constant (F := Ideal) S_ .f32 0x00000000#32) reducesTo_S2000x1_S_d0_1 h_S_ ix0
      = ∑ k : Fin 2000, y (ix2 k (0 : Fin 1)) := by
  rw [hostReduceAdd_apply, Ideal.hostReduceAdd_total reducesTo_S2000x1_S_d0_1 (fun b => b.elim0), constant_apply,
    Ideal.ofBits_zero_f32, zero_add, sum_idx2]
  refine Finset.sum_congr rfl fun k _ => ?_
  exact Fin.sum_univ_one _

theorem isPlain_val : PlainDot.IsPlain dot_S2000x2_S2x2_S2000x2_1_0_0_1_n_n := ⟨rfl, rfl, rfl, rfl, rfl, rfl⟩
theorem isPlain_lin : PlainDot.IsPlain dot_S1x32_S32x32_S1x32_1_0_0_1_n_n := ⟨rfl, rfl, rfl, rfl, rfl, rfl⟩

theorem hFeat_apply (j : Fin 2000) (z : Fin 32) :
    hFeat (up I.lmX) (up I.lmY) (ix2 j z) = ((lmF I j z : ℝ) : EReal) := by
  unfold hFeat lmF
  by_cases h : z.val < 30
  · rw [dif_pos h]
    exact concatenate_pair_apply_left 1 (up I.lmX) (up I.lmY) concatenates_S2000x30_S2000x2_S2000x32_d1 (ix2 j z) rfl
      (ix2 j ⟨z.val, h⟩) (fun b => match b with | ⟨0, _⟩ => rfl | ⟨1, _⟩ => rfl)
  · rw [dif_neg h]
    exact concatenate_pair_apply_right 1 (up I.lmX) (up I.lmY) concatenates_S2000x30_S2000x2_S2000x32_d1 (ix2 j z) rfl rfl
      (ix2 j ⟨z.val - 30, by omega⟩)
      (fun b hb => match b, hb with | ⟨0, _⟩, _ => rfl | ⟨1, _⟩, hb => absurd (Fin.ext rfl) hb)
      (by show z.val - 30 + 30 = z.val; omega)

theorem hVal_apply (j : Fin 2000) (b : Fin 2) :
    hVal (up I.lmY) (up I.Wpv) (up I.bpv) (ix2 j b) = ((valP I j b : ℝ) : EReal) := by
  unfold hVal
  rw [addf_apply, rows2_apply, row2_apply]
  simp only [Host.dotGeneral]
  rw [isPlain_val.dotGeneral_apply (φ₁ := .f32) (φ₂ := .f32) none .single (up I.lmY) (up I.Wpv) j b]
  simp only [up_apply]
  unfold valP
  rw [EReal.coe_add, coe_sum]
  simp only [EReal.coe_mul]

theorem hLmAux_apply (j : Fin 2000) (z : Fin 34) :
    hLmAux (up I.lmX) (up I.lmY) (up I.Wpv) (up I.bpv) (ix2 j z) = ((lmAux I j z : ℝ) : EReal) := by
  unfold hLmAux lmAux
  by_cases h : z.val < 32
  · rw [dif_pos h, ← hFeat_apply I j ⟨z.val, h⟩]
    exact concatenate_pair_apply_left 1 _ _ concatenates_S2000x32_S2000x2_S2000x34_d1 (ix2 j z) rfl
      (ix2 j ⟨z.val, h⟩) (fun b => match b with | ⟨0, _⟩ => rfl | ⟨1, _⟩ => rfl)
  · rw [dif_neg h, ← hVal_apply I j ⟨z.val - 32, by omega⟩]
    exact concatenate_pair_apply_right 1 _ _ concatenates_S2000x32_S2000x2_S2000x34_d1 (ix2 j z) rfl rfl
      (ix2 j ⟨z.val - 32, by omega⟩)
      (fun b hb => match b, hb with | ⟨0, _⟩, _ => rfl | ⟨1, _⟩, hb => absurd (Fin.ext rfl) hb)
      (by show z.val - 32 + 32 = z.val; omega)

theorem hMean_apply (z : Fin 32) : hMean (up I.lmX) (up I.lmY) (ix2 (0 : Fin 1) z) = ((router0 I z : ℝ) : EReal) := by
  unfold hMean
  rw [hostDivf_apply, biasRow32_apply, colsum_apply, broadcastInDim_scalar_apply, constant_apply, ofBits_2000]
  simp only [hFeat_apply]
  rw [← coe_sum, div_coe_coe _ _ (by norm_num)]
  rfl

theorem hDsc_apply (j : Fin 2000) :
    hDsc (up I.lmD) (up I.g1) (up I.al) (up I.be) (ix2 j (0 : Fin 1)) = ((dsc I j : ℝ) : EReal) := by
  unfold hDsc
  rw [show ∀ (y : FVec Ideal S2000x1 .f32) i, Host.exp y i = Ideal.exp (y i) from fun _ _ => rfl,
    mulf_apply, addf_apply, mulf_apply, col1_apply, col1_apply, col1_apply, asCol_apply,
    show ∀ (y : FVec Ideal S1x1 .f32) i, Host.negf y i = -(y i) from fun _ _ => rfl]
  simp only [up_apply]
  unfold dsc decay scal
  rw [← Ideal.exp_coe]
  simp only [EReal.coe_mul, EReal.coe_add, EReal.coe_neg]

theorem hDeg_apply : hDeg (up I.lmD) (up I.g1) (up I.al) (up I.be) ix0 = ((degR I : ℝ) : EReal) := by
  unfold hDeg
  rw [addf_apply, constant_apply, Ideal.ofBits_one_f32, total_apply]
  simp only [hDsc_apply]
  unfold degR
  rw [EReal.coe_add, coe_sum, EReal.coe_one]

theorem hWsum_apply (z : Fin 32) :
    hWsum (up I.lmX) (up I.lmY) (up I.lmD) (up I.g1) (up I.al) (up I.be) (ix1 z)
      = ((∑ j : Fin 2000, dsc I j * lmF I j z : ℝ) : EReal) := by
  unfold hWsum
  rw [colsum_apply, coe_sum]
  refine Finset.sum_congr rfl fun k _ => ?_
  rw [mulf_apply, cols_apply, hDsc_apply, hFeat_apply, EReal.coe_mul]

theorem degR_ne_zero : degR I ≠ 0 := by
  unfold degR
  have h : 0 ≤ ∑ j : Fin 2000, dsc I j := Finset.sum_nonneg fun j _ => by
    unfold dsc decay; exact (Real.exp_pos _).le
  linarith

theorem hPre_apply (z : Fin 32) :
    hPre (up I.lmX) (up I.lmY) (up I.lmD) (up I.g1) (up I.al) (up I.be) (ix2 (0 : Fin 1) z)
      = ((routerPre I z : ℝ) : EReal) := by
  unfold hPre
  rw [hostDivf_apply, addf_apply, hMean_apply, biasRow32_apply, hWsum_apply, broadcastInDim_scalar_apply, hDeg_apply,
    ← EReal.coe_add, div_coe_coe _ _ (degR_ne_zero I)]
  rfl

theorem hR1_apply (z : Fin 32) :
    hR1 (up I.lmX) (up I.lmY) (up I.lmD) (up I.g1) (up I.al) (up I.be) (up I.W1) (up I.b1) (ix2 (0 : Fin 1) z)
      = ((router1 I z : ℝ) : EReal) := by
  unfold hR1
  rw [addf_apply, biasRow32_apply]
  simp only [Host.dotGeneral]
  rw [isPlain_lin.dotGeneral_apply (φ₁ := .f32) (φ₂ := .f32) none .single
    (hPre (up I.lmX) (up I.lmY) (up I.lmD) (up I.g1) (up I.al) (up I.be)) (up I.W1) (0 : Fin 1) z]
  simp only [hPre_apply, up_apply]
  unfold router1
  rw [EReal.coe_add, coe_sum]
  simp only [EReal.coe_mul]

theorem host_lmaux (hI : AgreesK m I) (c : Dev nD) (j : Fin 2000) (z : Fin 34) :
    Vh m c main_v19 (ix2 j z) = ((lmAux I j z : ℝ) : EReal) := by
  have e := buf_v19 m c
  rw [hI.lmX c, hI.lmY c, hI.Wpv c, hI.bpv c] at e
  exact (congrFun e (ix2 j z)).trans (hLmAux_apply I j z)

theorem host_r0 (hI : AgreesK m I) (c : Dev nD) (z : Fin 32) : Vh m c main_v4 (ix2 (0 : Fin 1) z) = ((router0 I z : ℝ) : EReal) := by
  have e := buf_v4 m c
  rw [hI.lmX c, hI.lmY c] at e
  exact (congrFun e (ix2 (0 : Fin 1) z)).trans (hMean_apply I z)

theorem host_r1 (hI : AgreesK m I) (c : Dev nD) (z : Fin 32) : Vh m c main_v40 (ix2 (0 : Fin 1) z) = ((router1 I z : ℝ) : EReal) := by
  have e := buf_v40 m c
  rw [hI.lmX c, hI.lmY c, hI.lmD c, hI.g1 c, hI.al c, hI.be c, hI.W1 c, hI.b1 c] at e
  exact (congrFun e (ix2 (0 : Fin 1) z)).trans (hR1_apply I z)

end Cert.StarGraph.Kern

end
-- ==== Proof.Rows.lean ====
import Idealize.ShloMosaic.Lib.ValueIdx

namespace Cert.StarGraph.Kern

abbrev rowOf (t : Fin 4) (r : Fin 1000) : Fin 4000 := ⟨1000 * t.val + r.val, by omega⟩

end Cert.StarGraph.Kern
-- ==== Proof.KPayMsg.lean ====
import proofs.«406318_j68710886801531_3_alg».proof.Proof.Gen.KernelIdeal.Skeleton
import proofs.«406318_j68710886801531_3_alg».proof.Proof.Gen.KernelIdeal.Launch
import proofs.«406318_j68710886801531_3_alg».proof.Proof.SpecGraph
import proofs.«406318_j68710886801531_3_alg».proof.Proof.RealOps
import proofs.«406318_j68710886801531_3_alg».proof.Proof.LibPlainDot
import proofs.«406318_j68710886801531_3_alg».proof.Proof.Rows
import Idealize.ShloMosaic.PureOps.IdealRules
import Idealize.ShloMosaic.Lib.Pipeline.Value
import Idealize.ShloMosaic.Lib.ValueLayout

noncomputable section

namespace Cert.StarGraph.Kern

open Idealize.ShloMosaic Idealize.ShloMosaic.ValueIdx Cert.KernelIdeal Cert.KernelIdeal.Gen Cert.StarGraph

variable (I : Inputs)

theorem named_invTemp : Named.named (F := Ideal) Cert.KernelIdeal.κ "inv_temp" (φ := .f32) 0x3E3504F3#32 = ((invTemp : ℝ) : EReal) :=
  IdealRules.named_const.ideal_named_scalar _ _ _ _ rfl

theorem msg_pay2_eq (v0 : Vec Ideal S1000x32 .f32) : k0_pay2 v0 = v0 := shapeCast_self v0 _

theorem msg_pay6_eq (v30 : Vec Ideal S2000x34 .f32) : k0_pay6 v30 = v30 := shapeCast_self v30 _

theorem pay3_apply (v0 : Vec Ideal S1000x32 .f32) (r : Fin 1000) (a : Fin 30) :
    k0_pay3 v0 (ix2 r a) = v0 (ix2 r ⟨a.val, by omega⟩) := by
  unfold k0_pay3
  rw [msg_pay2_eq]
  exact slice2_axis1_apply 0 v0 _ r a ⟨a.val, by omega⟩ (Nat.zero_add _).symm

theorem pay4_apply (v0 : Vec Ideal S1000x32 .f32) (r : Fin 1000) : k0_pay4 v0 (ix2 r (0 : Fin 1)) = v0 (ix2 r (30 : Fin 32)) := by
  unfold k0_pay4
  rw [msg_pay2_eq]
  exact slice2_axis1_apply 30 v0 _ r 0 30 rfl

theorem pay5_apply (v0 : Vec Ideal S1000x32 .f32) (r : Fin 1000) : k0_pay5 v0 (ix2 r (0 : Fin 1)) = v0 (ix2 r (31 : Fin 32)) := by
  unfold k0_pay5
  rw [msg_pay2_eq]
  exact slice2_axis1_apply 31 v0 _ r 0 31 rfl

theorem pay7_apply (v30 : Vec Ideal S2000x34 .f32) (j : Fin 2000) (b : Fin 2) :
    k0_pay7 v30 (ix2 j b) = v30 (ix2 j ⟨32 + b.val, by omega⟩) := by
  unfold k0_pay7
  rw [msg_pay6_eq]
  exact slice2_axis1_apply 32 v30 Gen.slices_S2000x34_o0_32_S2000x2 j b ⟨32 + b.val, by omega⟩ rfl

theorem msg_ofBits_one : Ideal.ofBits .f32 0x3F800000#32 = 1 := by
  simp [Ideal.ofBits, Ideal.ieee, -EReal.coe_mul]; norm_num

theorem msg_ofBits_negInf : Ideal.ofBits .f32 0xFF800000#32 = ⊥ := by
  simp [Ideal.ofBits, Ideal.ieee]

theorem msg_shapeCast_a_a1_apply {α : Type} {a : ℕ} (x : (⟨1, ![a]⟩ : Shape).Idx → α)
    (h : (⟨1, ![a]⟩ : Shape).ShapeCasts ⟨2, ![a, 1]⟩) (i : Fin a) :
    shapeCast ⟨2, ![a, 1]⟩ x h (ix2 i (0 : Fin 1)) = x (ix1 i) :=
  shapeCast_apply x h _ _ (by
    rw [Shape.rowMajor_val_two, Shape.rowMajor_val_one]
    show i.val = i.val * 1 + 0
    omega)

theorem msg_broadcastTo_a1_ab_apply {α : Type} {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

theorem msg_lift_eq (hred : S1000x2000.Reduces [1] S1000) (r : Fin 1000) (k : Fin 2000) :
    hred.lift (ix1 r) k = ix2 r k := by
  funext ax
  match ax with
  | ⟨0, _⟩ => exact Fin.ext rfl
  | ⟨1, _⟩ => exact Fin.ext rfl

theorem msg_rowmax (sc : FVec Ideal S1000x2000 .f32) (s : Fin 1000 → Fin 2000 → ℝ)
    (hs : ∀ r j, sc (ix2 r j) = ((s r j : ℝ) : EReal)) (hred : S1000x2000.Reduces [1] S1000) (hφ : FKind.Formats .f32)
    (hacc : (0xFF800000#32 : BitVec (FTy.bits .f32)) = FKind.maximumf.neutral .f32 hφ) (r : Fin 1000) :
    ∃ k : Fin 2000, multiReduction (F := Ideal) .maximumf [1] S1000 sc 0xFF800000#32 hred hφ hacc (ix1 r)
      = ((s r k : ℝ) : EReal) := by
  obtain ⟨k, hk⟩ := fold_max_coe (n := 1999) (s r)
  refine ⟨k, (Ideal.multiReduction_maximumf_single sc _ hred hφ hacc (ix1 r)).trans ?_⟩
  have hfun : (sc ∘ hred.lift (ix1 r)) = fun k : Fin 2000 => ((s r k : ℝ) : EReal) :=
    funext fun k => (congrArg sc (msg_lift_eq hred r k)).trans (hs r k)
  rw [Ideal.ofBits_def, msg_ofBits_negInf]
  exact (congrArg (fun f => (Finset.univ : Finset (Fin 2000)).fold max (⊥ : EReal) f) hfun).trans hk

theorem msg_rowsum (e : FVec Ideal S1000x2000 .f32) (hred : S1000x2000.Reduces [1] S1000) (hφ : FKind.Formats .f32)
    (hacc : (0x00000000#32 : BitVec (FTy.bits .f32)) = FKind.add.neutral .f32 hφ) (r : Fin 1000) :
    multiReduction (F := Ideal) .add [1] S1000 e 0x00000000#32 hred hφ hacc (ix1 r) = ∑ k : Fin 2000, e (ix2 r k) := by
  refine (Ideal.multiReduction_add_single e _ hred hφ hacc (ix1 r)).trans ?_
  exact Finset.sum_congr rfl fun k _ => congrArg e (msg_lift_eq hred r k)

theorem msg_plainQ : PlainDot.IsPlain dot_S1000x30_S30x32_S1000x32_1_0_0_1_n_n := ⟨rfl, rfl, rfl, rfl, rfl, rfl⟩
theorem msg_plainS : PlainDot.IsPlain dot_S1000x32_S32x2000_S1000x2000_1_0_0_1_n_n := ⟨rfl, rfl, rfl, rfl, rfl, rfl⟩
theorem msg_plainO : PlainDot.IsPlain dot_S1000x2000_S2000x32_S1000x32_1_0_0_1_n_n := ⟨rfl, rfl, rfl, rfl, rfl, rfl⟩

theorem msg_slice_lm (v30 : Vec Ideal S2000x34 .f32) (hsl : S2000x34.Slices ![0, 0] S2000x32) (j : Fin 2000) (z : Fin 32) :
    extractStridedSlice S2000x32 ![0, 0] (k0_pay6 v30) hsl (ix2 j z) = v30 (ix2 j ⟨z.val, by omega⟩) := by
  rw [msg_pay6_eq]
  exact slice2_axis1_apply 0 v30 hsl j z ⟨z.val, by omega⟩ (Nat.zero_add _).symm

theorem msg_query (t : Fin 4) (v0 : Vec Ideal S1000x32 .f32) (v5 : Vec Ideal S30x32 .f32) (v9 : Vec Ideal S1x32 .f32)
    (h0 : ∀ (r : Fin 1000) (a : Fin 32), v0 (ix2 r a) = ((tgAux I (rowOf t r) a : ℝ) : EReal))
    (h5 : ∀ (a : Fin 30) (z : Fin 32), v5 (ix2 a z) = ((I.Wq (ix2 a z) : ℝ) : EReal))
    (h9 : ∀ z : Fin 32, v9 (ix2 (0 : Fin 1) z) = ((I.bq (ix1 z) : ℝ) : EReal))
    (hlt : FTy.bits .bf16 < FTy.bits .f32) (hc : S1x32.ShapeCasts S1x32) (hb : S1x32.Broadcasts S1000x32)
    (r : Fin 1000) (z : Fin 32) :
    mulf (addf (FloatOps.matmul dot_S1000x30_S30x32_S1000x32_1_0_0_1_n_n none (truncf .bf16 (k0_pay3 v0) hlt) (truncf .bf16 v5 hlt)
          (constant S1000x32 .f32 0x00000000#32))
        (broadcastTo S1000x32 (shapeCast S1x32 v9 hc) hb))
      (broadcast S1000x32 (Named.named (F := Ideal) κ "inv_temp" (φ := .f32) 0x3E3504F3#32)) (ix2 r z)
    = ((qry I (rowOf t r) z * invTemp : ℝ) : EReal) := by
  rw [mulf_apply, addf_apply, broadcast_apply, msg_plainQ.matmul_zero_apply, shapeCast_self,
    broadcastTo_1b_ab_apply, h9, named_invTemp]
  have htg : ∀ a : Fin 30, tgAux I (rowOf t r) ⟨a.val, by omega⟩ = I.tgX (ix2 (rowOf t r) a) := fun a => by
    unfold tgAux
    rw [dif_pos a.isLt]
  simp only [truncf_apply, pay3_apply, h0, h5, htg, ← EReal.coe_mul, ← coe_sum, ← EReal.coe_add]
  rfl

theorem msg_score (q : FVec Ideal S1000x32 .f32) (v13 : Vec Ideal S32x2000 .f32) (qr : Fin 1000 → Fin 32 → ℝ)
    (key : Fin 2000 → Fin 32 → ℝ) (hq : ∀ r z, q (ix2 r z) = ((qr r z : ℝ) : EReal))
    (h13 : ∀ (z : Fin 32) (j : Fin 2000), v13 (ix2 z j) = ((key j z : ℝ) : EReal))
    (hlt : FTy.bits .bf16 < FTy.bits .f32) (hc : S32x2000.ShapeCasts S32x2000) (r : Fin 1000) (j : Fin 2000) :
    FloatOps.matmul dot_S1000x32_S32x2000_S1000x2000_1_0_0_1_n_n none (truncf .bf16 q hlt)
        (truncf .bf16 (shapeCast S32x2000 v13 hc) hlt) (constant S1000x2000 .f32 0x00000000#32) (ix2 r j)
      = ((∑ z : Fin 32, qr r z * key j z : ℝ) : EReal) := by
  rw [msg_plainS.matmul_zero_apply, shapeCast_self]
  simp only [truncf_apply, hq, h13, ← EReal.coe_mul, ← coe_sum]

theorem msg_out (sc : FVec Ideal S1000x2000 .f32) (v30 : Vec Ideal S2000x34 .f32) (s : Fin 1000 → Fin 2000 → ℝ)
    (lm : Fin 2000 → Fin 34 → ℝ) (hs : ∀ r j, sc (ix2 r j) = ((s r j : ℝ) : EReal))
    (h30 : ∀ (j : Fin 2000) (z : Fin 34), v30 (ix2 j z) = ((lm j z : ℝ) : EReal))
    (hlt : FTy.bits .bf16 < FTy.bits .f32) (hred : S1000x2000.Reduces [1] S1000) (hφ : FKind.Formats .f32)
    (haccM : (0xFF800000#32 : BitVec (FTy.bits .f32)) = FKind.maximumf.neutral .f32 hφ)
    (haccA : (0x00000000#32 : BitVec (FTy.bits .f32)) = FKind.add.neutral .f32 hφ)
    (hsc : S1000.ShapeCasts S1000x1) (hbc : S1000x1.Broadcasts S1000x2000) (hbo : S1000x1.Broadcasts S1000x32)
    (hsl : S2000x34.Slices ![0, 0] S2000x32) (r : Fin 1000) (z : Fin 32) :
    mulf (FloatOps.matmul dot_S1000x2000_S2000x32_S1000x32_1_0_0_1_n_n none
        (truncf .bf16 (exp (subf sc (broadcastTo S1000x2000
          (shapeCast S1000x1 (multiReduction .maximumf [1] S1000 sc 0xFF800000#32 hred hφ haccM) hsc) hbc))) hlt)
        (truncf .bf16 (extractStridedSlice S2000x32 ![0, 0] (k0_pay6 v30) hsl) hlt)
        (constant S1000x32 .f32 0x00000000#32))
      (broadcastTo S1000x32 (divf (broadcast S1000x1 (FloatOps.ofBits (F := Ideal) .f32 0x3F800000#32))
        (shapeCast S1000x1 (multiReduction .add [1] S1000 (exp (subf sc (broadcastTo S1000x2000
          (shapeCast S1000x1 (multiReduction .maximumf [1] S1000 sc 0xFF800000#32 hred hφ haccM) hsc) hbc)))
          0x00000000#32 hred hφ haccA) hsc)) hbo)
      (ix2 r z)
    = ((∑ j : Fin 2000, Real.exp (s r j) / (∑ j' : Fin 2000, Real.exp (s r j')) * lm j ⟨z.val, by omega⟩ : ℝ) : EReal) := by
  obtain ⟨k0, hM⟩ := msg_rowmax sc s hs hred hφ haccM r
  have he : ∀ j : Fin 2000, exp (subf sc (broadcastTo S1000x2000
      (shapeCast S1000x1 (multiReduction .maximumf [1] S1000 sc 0xFF800000#32 hred hφ haccM) hsc) hbc)) (ix2 r j)
      = ((Real.exp (s r j - s r k0) : ℝ) : EReal) := fun j => by
    show FloatOps.exp (subf sc _ (ix2 r j)) = _
    rw [subf_apply, msg_broadcastTo_a1_ab_apply, msg_shapeCast_a_a1_apply, hM, hs, ← EReal.coe_sub, Ideal.exp_def,
      Ideal.exp_coe]
  generalize exp (subf sc (broadcastTo S1000x2000
      (shapeCast S1000x1 (multiReduction .maximumf [1] S1000 sc 0xFF800000#32 hred hφ haccM) hsc) hbc)) = e at he ⊢
  have hpos : 0 < ∑ j : Fin 2000, Real.exp (s r j - s r k0) :=
    Finset.sum_pos (fun j _ => Real.exp_pos _) ⟨⟨0, by omega⟩, Finset.mem_univ _⟩
  rw [mulf_apply, msg_plainO.matmul_zero_apply, msg_broadcastTo_a1_ab_apply, divf_apply, broadcast_apply,
    msg_shapeCast_a_a1_apply, msg_rowsum, Ideal.ofBits_def, msg_ofBits_one]
  simp only [truncf_apply, he, msg_slice_lm, h30, ← EReal.coe_mul, ← coe_sum]
  rw [one_div_coe _ hpos.ne', ← EReal.coe_mul, sum_mul_inv]
  refine congrArg _ (Finset.sum_congr rfl fun j _ => ?_)
  rw [softmax_shift]

theorem pay8_apply (t : Fin 4) (v0 : Vec Ideal S1000x32 .f32) (v5 : Vec Ideal S30x32 .f32) (v9 : Vec Ideal S1x32 .f32)
    (v13 : Vec Ideal S32x2000 .f32) (v30 : Vec Ideal S2000x34 .f32)
    (h0 : ∀ (r : Fin 1000) (a : Fin 32), v0 (ix2 r a) = ((tgAux I (rowOf t r) a : ℝ) : EReal))
    (h5 : ∀ (a : Fin 30) (z : Fin 32), v5 (ix2 a z) = ((I.Wq (ix2 a z) : ℝ) : EReal))
    (h9 : ∀ z : Fin 32, v9 (ix2 (0 : Fin 1) z) = ((I.bq (ix1 z) : ℝ) : EReal))
    (h13 : ∀ (z : Fin 32) (j : Fin 2000), v13 (ix2 z j) = ((keyA I j z : ℝ) : EReal))
    (h30 : ∀ (j : Fin 2000) (z : Fin 34), v30 (ix2 j z) = ((lmAux I j z : ℝ) : EReal))
    (r : Fin 1000) (z : Fin 32) :
    k0_pay8 v0 v5 v9 v13 v30 (ix2 r z) = ((msg I (rowOf t r) z : ℝ) : EReal) := by
  have hq := fun (r : Fin 1000) (z : Fin 32) => msg_query I t v0 v5 v9 h0 h5 h9 Gen.bitsLt_bf16_f32
    Gen.shapeCasts_S1x32_S1x32 Gen.broadcasts_S1x32_S1000x32 r z
  have hs := fun (r : Fin 1000) (j : Fin 2000) => msg_score _ v13 (fun r z => qry I (rowOf t r) z * invTemp) (keyA I)
    hq h13 Gen.bitsLt_bf16_f32 Gen.shapeCasts_S32x2000_S32x2000 r j
  have ho := msg_out _ v30 (fun r j => score I (rowOf t r) j) (lmAux I) hs h30 Gen.bitsLt_bf16_f32
    Gen.reduces_S1000x2000_S1000 (.inl rfl) rfl rfl Gen.shapeCasts_S1000_S1000x1 Gen.broadcasts_S1000x1_S1000x2000
    Gen.broadcasts_S1000x1_S1000x32 Gen.slices_S2000x34_o0_0_S2000x32 r z
  refine Eq.trans ho ?_
  refine congrArg _ ?_
  unfold msg att
  refine Finset.sum_congr rfl fun j _ => ?_
  have hl : lmAux I j ⟨z.val, by omega⟩ = lmF I j z := by
    unfold lmAux
    rw [dif_pos z.isLt]
  rw [hl]

end Cert.StarGraph.Kern

end
-- ==== Proof.KPayFeat.lean ====
import proofs.«406318_j68710886801531_3_alg».proof.Proof.Gen.KernelIdeal.Skeleton
import proofs.«406318_j68710886801531_3_alg».proof.Proof.Gen.KernelIdeal.Launch
import proofs.«406318_j68710886801531_3_alg».proof.Proof.SpecGraph
import proofs.«406318_j68710886801531_3_alg».proof.Proof.RealOps
import proofs.«406318_j68710886801531_3_alg».proof.Proof.LibPlainDot
import Idealize.ShloMosaic.PureOps.IdealRules
import Idealize.ShloMosaic.Lib.Pipeline.Value
import Idealize.ShloMosaic.Lib.ValueLayout
import proofs.«406318_j68710886801531_3_alg».proof.Proof.Rows

noncomputable section

namespace Cert.StarGraph.Kern

open Idealize.ShloMosaic Idealize.ShloMosaic.ValueIdx Cert.KernelIdeal Cert.KernelIdeal.Gen Cert.StarGraph

variable (I : Inputs)

section Layout
variable {α : Type}

theorem bcol_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem concat2_fst {m n1 n2 n : ℕ} (x1 : (⟨2, ![m, n1]⟩ : Shape).Idx → α) (x2 : (⟨2, ![m, n2]⟩ : Shape).Idx → α)
    (h : Shape.Concatenates [⟨2, ![m, n1]⟩, ⟨2, ![m, n2]⟩] ⟨2, ![m, n]⟩ 1) (r : Fin m) (c : Fin n) (c' : Fin n1)
    (hc : c'.val = c.val) :
    concatenate ⟨2, ![m, n]⟩ 1 [⟨⟨2, ![m, n1]⟩, x1⟩, ⟨⟨2, ![m, n2]⟩, x2⟩] h (ix2 r c) = x1 (ix2 r c') :=
  concatenate_apply_piece (t := ⟨2, ![m, n]⟩) 1 [⟨⟨2, ![m, n1]⟩, x1⟩, ⟨⟨2, ![m, n2]⟩, x2⟩] h (ix2 r c) 0 (by show 0 < 2; omega) _ x1 rfl rfl 0 rfl (ix2 r c')
    (fun b hb => by match b with | ⟨0, _⟩ => rfl | ⟨1, _⟩ => exact absurd rfl hb)
    (by show 0 + c'.val = c.val; omega)

theorem concat2_snd {m n1 n2 n : ℕ} (x1 : (⟨2, ![m, n1]⟩ : Shape).Idx → α) (x2 : (⟨2, ![m, n2]⟩ : Shape).Idx → α)
    (h : Shape.Concatenates [⟨2, ![m, n1]⟩, ⟨2, ![m, n2]⟩] ⟨2, ![m, n]⟩ 1) (r : Fin m) (c : Fin n) (c' : Fin n2)
    (hc : n1 + c'.val = c.val) :
    concatenate ⟨2, ![m, n]⟩ 1 [⟨⟨2, ![m, n1]⟩, x1⟩, ⟨⟨2, ![m, n2]⟩, x2⟩] h (ix2 r c) = x2 (ix2 r c') :=
  concatenate_apply_piece (t := ⟨2, ![m, n]⟩) 1 [⟨⟨2, ![m, n1]⟩, x1⟩, ⟨⟨2, ![m, n2]⟩, x2⟩] h (ix2 r c) 1 (by show 1 < 2; omega) _ x2 rfl rfl n1 rfl (ix2 r c')
    (fun b hb => by match b with | ⟨0, _⟩ => rfl | ⟨1, _⟩ => exact absurd rfl hb)
    (by show n1 + c'.val = c.val; omega)

theorem concat3_fst {m n1 n2 n3 n : ℕ} (x1 : (⟨2, ![m, n1]⟩ : Shape).Idx → α) (x2 : (⟨2, ![m, n2]⟩ : Shape).Idx → α)
    (x3 : (⟨2, ![m, n3]⟩ : Shape).Idx → α)
    (h : Shape.Concatenates [⟨2, ![m, n1]⟩, ⟨2, ![m, n2]⟩, ⟨2, ![m, n3]⟩] ⟨2, ![m, n]⟩ 1) (r : Fin m) (c : Fin n) (c' : Fin n1)
    (hc : c'.val = c.val) :
    concatenate ⟨2, ![m, n]⟩ 1 [⟨⟨2, ![m, n1]⟩, x1⟩, ⟨⟨2, ![m, n2]⟩, x2⟩, ⟨⟨2, ![m, n3]⟩, x3⟩] h (ix2 r c) = x1 (ix2 r c') :=
  concatenate_apply_piece (t := ⟨2, ![m, n]⟩) 1 [⟨⟨2, ![m, n1]⟩, x1⟩, ⟨⟨2, ![m, n2]⟩, x2⟩, ⟨⟨2, ![m, n3]⟩, x3⟩] h (ix2 r c) 0 (by show 0 < 3; omega) _ x1 rfl rfl 0 rfl (ix2 r c')
    (fun b hb => by match b with | ⟨0, _⟩ => rfl | ⟨1, _⟩ => exact absurd rfl hb)
    (by show 0 + c'.val = c.val; omega)

theorem concat3_snd {m n1 n2 n3 n : ℕ} (x1 : (⟨2, ![m, n1]⟩ : Shape).Idx → α) (x2 : (⟨2, ![m, n2]⟩ : Shape).Idx → α)
    (x3 : (⟨2, ![m, n3]⟩ : Shape).Idx → α)
    (h : Shape.Concatenates [⟨2, ![m, n1]⟩, ⟨2, ![m, n2]⟩, ⟨2, ![m, n3]⟩] ⟨2, ![m, n]⟩ 1) (r : Fin m) (c : Fin n) (c' : Fin n2)
    (hc : n1 + c'.val = c.val) :
    concatenate ⟨2, ![m, n]⟩ 1 [⟨⟨2, ![m, n1]⟩, x1⟩, ⟨⟨2, ![m, n2]⟩, x2⟩, ⟨⟨2, ![m, n3]⟩, x3⟩] h (ix2 r c) = x2 (ix2 r c') :=
  concatenate_apply_piece (t := ⟨2, ![m, n]⟩) 1 [⟨⟨2, ![m, n1]⟩, x1⟩, ⟨⟨2, ![m, n2]⟩, x2⟩, ⟨⟨2, ![m, n3]⟩, x3⟩] h (ix2 r c) 1 (by show 1 < 3; omega) _ x2 rfl rfl n1 rfl (ix2 r c')
    (fun b hb => by match b with | ⟨0, _⟩ => rfl | ⟨1, _⟩ => exact absurd rfl hb)
    (by show n1 + c'.val = c.val; omega)

theorem concat3_thd {m n1 n2 n3 n : ℕ} (x1 : (⟨2, ![m, n1]⟩ : Shape).Idx → α) (x2 : (⟨2, ![m, n2]⟩ : Shape).Idx → α)
    (x3 : (⟨2, ![m, n3]⟩ : Shape).Idx → α)
    (h : Shape.Concatenates [⟨2, ![m, n1]⟩, ⟨2, ![m, n2]⟩, ⟨2, ![m, n3]⟩] ⟨2, ![m, n]⟩ 1) (r : Fin m) (c : Fin n) (c' : Fin n3)
    (hc : n1 + n2 + c'.val = c.val) :
    concatenate ⟨2, ![m, n]⟩ 1 [⟨⟨2, ![m, n1]⟩, x1⟩, ⟨⟨2, ![m, n2]⟩, x2⟩, ⟨⟨2, ![m, n3]⟩, x3⟩] h (ix2 r c) = x3 (ix2 r c') :=
  concatenate_apply_piece (t := ⟨2, ![m, n]⟩) 1 [⟨⟨2, ![m, n1]⟩, x1⟩, ⟨⟨2, ![m, n2]⟩, x2⟩, ⟨⟨2, ![m, n3]⟩, x3⟩] h (ix2 r c) 2 (by show 2 < 3; omega) _ x3 rfl rfl (n1 + n2) (by simp) (ix2 r c')
    (fun b hb => by match b with | ⟨0, _⟩ => rfl | ⟨1, _⟩ => exact absurd rfl hb)
    (by show n1 + n2 + c'.val = c.val; omega)

end Layout

theorem lit_zero : Ideal.ofBits .f32 0x00000000#32 = ((0 : ℝ) : EReal) := by simp [Ideal.ofBits, Ideal.ieee]
theorem lit_one : Ideal.ofBits .f32 0x3F800000#32 = ((1 : ℝ) : EReal) := by
  simp [Ideal.ofBits, Ideal.ieee, -EReal.coe_mul]; norm_num
theorem lit_two : Ideal.ofBits .f32 0x40000000#32 = ((2 : ℝ) : EReal) := by
  simp [Ideal.ofBits, Ideal.ieee, -EReal.coe_mul]; norm_num

def layer (X : FVec Ideal S1000x32 .f32) (ρ : FVec Ideal S1000x1 .f32) (R : FVec Ideal S1x32 .f32) (cbits : BitVec 32)
    (W : FVec Ideal S32x32 .f32) (B : FVec Ideal S1x32 .f32) : FVec Ideal S1000x32 .f32 :=
  addf
    (FloatOps.matmul dot_S1000x32_S32x32_S1000x32_1_0_0_1_n_n none
      (truncf .bf16
        (mulf
          (addf X (mulf (broadcastTo S1000x32 ρ broadcasts_S1000x1_S1000x32)
            (broadcastTo S1000x32 (shapeCast S1x32 R shapeCasts_S1x32_S1x32) broadcasts_S1x32_S1000x32)))
          (broadcastTo S1000x32
            (divf (broadcast S1000x1 (Scalar.ofBits (F := Ideal) .f32 0x3F800000#32))
              (addf (broadcast S1000x1 (Scalar.ofBits (F := Ideal) .f32 cbits)) ρ))
            broadcasts_S1000x1_S1000x32))
        bitsLt_bf16_f32)
      (truncf .bf16 W bitsLt_bf16_f32) (constant (F := Ideal) S1000x32 .f32 0x00000000#32))
    (broadcastTo S1000x32 (shapeCast S1x32 B shapeCasts_S1x32_S1x32) broadcasts_S1x32_S1000x32)

theorem plain_dot : PlainDot.IsPlain dot_S1000x32_S32x32_S1000x32_1_0_0_1_n_n := ⟨rfl, rfl, rfl, rfl, rfl, rfl⟩

theorem mix_apply (X : FVec Ideal S1000x32 .f32) (ρ : FVec Ideal S1000x1 .f32) (R : FVec Ideal S1x32 .f32) (cbits : BitVec 32)
    (hbc : S1000x1.Broadcasts S1000x32) (hbr : S1x32.Broadcasts S1000x32) (hs : S1x32.ShapeCasts S1x32)
    (x ρr Rz c : ℝ) (r : Fin 1000) (z : Fin 32)
    (hX : X (ix2 r z) = ((x : ℝ) : EReal)) (hρ : ρ (ix2 r (0 : Fin 1)) = ((ρr : ℝ) : EReal))
    (hR : R (ix2 (0 : Fin 1) z) = ((Rz : ℝ) : EReal)) (hc : Ideal.ofBits .f32 cbits = ((c : ℝ) : EReal)) (hne : c + ρr ≠ 0) :
    mulf (addf X (mulf (broadcastTo S1000x32 ρ hbc) (broadcastTo S1000x32 (shapeCast S1x32 R hs) hbr)))
        (broadcastTo S1000x32
          (divf (broadcast S1000x1 (Scalar.ofBits (F := Ideal) .f32 0x3F800000#32))
            (addf (broadcast S1000x1 (Scalar.ofBits (F := Ideal) .f32 cbits)) ρ)) hbc) (ix2 r z)
      = (((x + ρr * Rz) / (c + ρr) : ℝ) : EReal) := by
  show (X (ix2 r z) + broadcastTo S1000x32 ρ hbc (ix2 r z) * broadcastTo S1000x32 (shapeCast S1x32 R hs) hbr (ix2 r z))
      * broadcastTo S1000x32
          (divf (broadcast S1000x1 (Scalar.ofBits (F := Ideal) .f32 0x3F800000#32))
            (addf (broadcast S1000x1 (Scalar.ofBits (F := Ideal) .f32 cbits)) ρ)) hbc (ix2 r z) = _
  rw [bcol_apply, bcol_apply, shapeCast_self, broadcastTo_1b_ab_apply, hX, hρ, hR]
  show (((x : ℝ) : EReal) + ((ρr : ℝ) : EReal) * ((Rz : ℝ) : EReal))
      * Ideal.div (Ideal.ofBits .f32 0x3F800000#32) (Ideal.ofBits .f32 cbits + ρ (ix2 r (0 : Fin 1))) = _
  rw [hρ, lit_one, hc, ← EReal.coe_add, div_coe_coe _ _ hne, ← EReal.coe_mul, ← EReal.coe_add, ← EReal.coe_mul]
  congr 1
  ring

theorem layer_apply (X : FVec Ideal S1000x32 .f32) (ρ : FVec Ideal S1000x1 .f32) (R : FVec Ideal S1x32 .f32) (cbits : BitVec 32)
    (W : FVec Ideal S32x32 .f32) (B : FVec Ideal S1x32 .f32)
    (x : Fin 32 → ℝ) (ρr : ℝ) (Rr : Fin 32 → ℝ) (c : ℝ) (w : Fin 32 → Fin 32 → ℝ) (b : Fin 32 → ℝ) (r : Fin 1000) (z : Fin 32)
    (hX : ∀ z', X (ix2 r z') = ((x z' : ℝ) : EReal)) (hρ : ρ (ix2 r (0 : Fin 1)) = ((ρr : ℝ) : EReal))
    (hR : ∀ z', R (ix2 (0 : Fin 1) z') = ((Rr z' : ℝ) : EReal)) (hc : Ideal.ofBits .f32 cbits = ((c : ℝ) : EReal))
    (hne : c + ρr ≠ 0) (hW : ∀ z' z, W (ix2 z' z) = ((w z' z : ℝ) : EReal))
    (hB : ∀ z, B (ix2 (0 : Fin 1) z) = ((b z : ℝ) : EReal)) :
    layer X ρ R cbits W B (ix2 r z) = ((∑ z' : Fin 32, (x z' + ρr * Rr z') / (c + ρr) * w z' z + b z : ℝ) : EReal) := by
  unfold layer
  rw [addf_apply, plain_dot.matmul_zero_apply, shapeCast_self B, broadcastTo_1b_ab_apply, hB, EReal.coe_add, coe_sum]
  congr 1
  refine Finset.sum_congr rfl fun k _ => ?_
  rw [truncf_apply, truncf_apply, hW, EReal.coe_mul]
  congr 1
  exact mix_apply X ρ R cbits _ _ _ (x k) ρr (Rr k) c r k (hX k) hρ (hR k) hc hne

theorem pay9_eq (v2 : FVec Ideal S1000x30 .f32) (v3 v4 : FVec Ideal S1000x1 .f32) (v38 : FVec Ideal S1000x32 .f32)
    (v39 : Vec Ideal S1x32 .f32) (v54 : Vec Ideal S32x32 .f32) (v58 v62 : Vec Ideal S1x32 .f32) (v74 : Vec Ideal S32x32 .f32) (v78 : Vec Ideal S1x32 .f32) :
    k0_pay9 v2 v3 v4 v38 v39 v54 v58 v62 v74 v78
      = concatenate S1000x94 1
          [⟨S1000x30, v2⟩,
            ⟨S1000x32, layer (addf (concatenate S1000x32 1 [⟨S1000x30, v2⟩, ⟨S1000x2, broadcast S1000x2 (Scalar.ofBits (F := Ideal) .f32 0x00000000#32)⟩]
                concatenates_S1000x30_S1000x2_S1000x32_d1) v38) v3 v39 0x40000000#32 v54 v58⟩,
            ⟨S1000x32, layer (layer (addf (concatenate S1000x32 1 [⟨S1000x30, v2⟩, ⟨S1000x2, broadcast S1000x2 (Scalar.ofBits (F := Ideal) .f32 0x00000000#32)⟩]
                concatenates_S1000x30_S1000x2_S1000x32_d1) v38) v3 v39 0x40000000#32 v54 v58) v4 v62 0x3F800000#32 v74 v78⟩]
          concatenates_S1000x30_S1000x32_S1000x32_S1000x94_d1 := rfl

theorem rou0_pos' (i : Fin 4000) : 0 < rou0 I i := Real.exp_pos _
theorem rou1_pos' (i : Fin 4000) : 0 < rou1 I i := Real.exp_pos _

theorem pay9_apply (t : Fin 4) (v2 : FVec Ideal S1000x30 .f32) (v3 v4 : FVec Ideal S1000x1 .f32) (v38 : FVec Ideal S1000x32 .f32)
    (v39 : Vec Ideal S1x32 .f32) (v54 : Vec Ideal S32x32 .f32) (v58 v62 : Vec Ideal S1x32 .f32) (v74 : Vec Ideal S32x32 .f32) (v78 : Vec Ideal S1x32 .f32)
    (h2 : ∀ (r : Fin 1000) (a : Fin 30), v2 (ix2 r a) = ((I.tgX (ix2 (rowOf t r) a) : ℝ) : EReal))
    (h3 : ∀ r : Fin 1000, v3 (ix2 r (0 : Fin 1)) = ((rou0 I (rowOf t r) : ℝ) : EReal))
    (h4 : ∀ r : Fin 1000, v4 (ix2 r (0 : Fin 1)) = ((rou1 I (rowOf t r) : ℝ) : EReal))
    (h38 : ∀ (r : Fin 1000) (z : Fin 32), v38 (ix2 r z) = ((msg I (rowOf t r) z : ℝ) : EReal))
    (h39 : ∀ z : Fin 32, v39 (ix2 (0 : Fin 1) z) = ((router0 I z : ℝ) : EReal))
    (h54 : ∀ z' z : Fin 32, v54 (ix2 z' z) = ((I.W1 (ix2 z' z) : ℝ) : EReal))
    (h58 : ∀ z : Fin 32, v58 (ix2 (0 : Fin 1) z) = ((I.b1 (ix1 z) : ℝ) : EReal))
    (h62 : ∀ z : Fin 32, v62 (ix2 (0 : Fin 1) z) = ((router1 I z : ℝ) : EReal))
    (h74 : ∀ z' z : Fin 32, v74 (ix2 z' z) = ((I.W2 (ix2 z' z) : ℝ) : EReal))
    (h78 : ∀ z : Fin 32, v78 (ix2 (0 : Fin 1) z) = ((I.b2 (ix1 z) : ℝ) : EReal))
    (r : Fin 1000) (f : Fin 94) :
    k0_pay9 v2 v3 v4 v38 v39 v54 v58 v62 v74 v78 (ix2 r f) = ((feat I (rowOf t r) f : ℝ) : EReal) := by

  have e45 : ∀ z : Fin 32, addf (concatenate S1000x32 1
        [⟨S1000x30, v2⟩, ⟨S1000x2, broadcast S1000x2 (Scalar.ofBits (F := Ideal) .f32 0x00000000#32)⟩]
        concatenates_S1000x30_S1000x2_S1000x32_d1) v38 (ix2 r z)
      = ((tg0 I (rowOf t r) z + msg I (rowOf t r) z : ℝ) : EReal) := fun z => by
    rw [addf_apply, h38, EReal.coe_add]
    congr 1
    unfold tg0
    by_cases hz : z.val < 30
    · rw [dif_pos hz, concat2_fst _ _ _ r z ⟨z.val, hz⟩ rfl, h2]
    · rw [dif_neg hz, concat2_snd _ _ _ r z ⟨z.val - 30, by omega⟩ (by show 30 + (z.val - 30) = z.val; omega)]
      exact lit_zero
  have hp0 : (2 : ℝ) + rou0 I (rowOf t r) ≠ 0 := by have := rou0_pos' I (rowOf t r); positivity
  have hp1 : (1 : ℝ) + rou1 I (rowOf t r) ≠ 0 := by have := rou1_pos' I (rowOf t r); positivity

  have e61 : ∀ z : Fin 32, layer (addf (concatenate S1000x32 1
        [⟨S1000x30, v2⟩, ⟨S1000x2, broadcast S1000x2 (Scalar.ofBits (F := Ideal) .f32 0x00000000#32)⟩]
        concatenates_S1000x30_S1000x2_S1000x32_d1) v38) v3 v39 0x40000000#32 v54 v58 (ix2 r z)
      = ((feat1 I (rowOf t r) z : ℝ) : EReal) := fun z =>
    layer_apply _ v3 v39 _ v54 v58 (fun z' => tg0 I (rowOf t r) z' + msg I (rowOf t r) z') (rou0 I (rowOf t r))
      (fun z' => router0 I z') 2 (fun z' z => I.W1 (ix2 z' z)) (fun z => I.b1 (ix1 z)) r z e45 (h3 r) h39 lit_two hp0 h54 h58

  have e81 : ∀ z : Fin 32, layer (layer (addf (concatenate S1000x32 1
        [⟨S1000x30, v2⟩, ⟨S1000x2, broadcast S1000x2 (Scalar.ofBits (F := Ideal) .f32 0x00000000#32)⟩]
        concatenates_S1000x30_S1000x2_S1000x32_d1) v38) v3 v39 0x40000000#32 v54 v58) v4 v62 0x3F800000#32 v74 v78 (ix2 r z)
      = ((feat2 I (rowOf t r) z : ℝ) : EReal) := fun z =>
    layer_apply _ v4 v62 _ v74 v78 (fun z' => feat1 I (rowOf t r) z') (rou1 I (rowOf t r))
      (fun z' => router1 I z') 1 (fun z' z => I.W2 (ix2 z' z)) (fun z => I.b2 (ix1 z)) r z e61 (h4 r) h62 lit_one hp1 h74 h78
  rw [pay9_eq]
  unfold feat
  by_cases hf : f.val < 30
  · rw [dif_pos hf, concat3_fst _ _ _ _ r f ⟨f.val, hf⟩ rfl, h2]
  · by_cases hf2 : f.val < 62
    · rw [dif_neg hf, dif_pos hf2,
        concat3_snd _ _ _ _ r f ⟨f.val - 30, by omega⟩ (by show 30 + (f.val - 30) = f.val; omega), e61]
    · rw [dif_neg hf, dif_neg hf2,
        concat3_thd _ _ _ _ r f ⟨f.val - 62, by omega⟩ (by show 30 + 32 + (f.val - 62) = f.val; omega), e81]

end Cert.StarGraph.Kern

end
-- ==== Proof.KPayY.lean ====
import proofs.«406318_j68710886801531_3_alg».proof.Proof.Gen.KernelIdeal.Skeleton
import proofs.«406318_j68710886801531_3_alg».proof.Proof.Gen.KernelIdeal.Launch
import proofs.«406318_j68710886801531_3_alg».proof.Proof.SpecGraph
import proofs.«406318_j68710886801531_3_alg».proof.Proof.RealOps
import proofs.«406318_j68710886801531_3_alg».proof.Proof.LibPlainDot
import proofs.«406318_j68710886801531_3_alg».proof.Proof.Rows
import Idealize.ShloMosaic.PureOps.IdealRules
import Idealize.ShloMosaic.Lib.Pipeline.Value
import Idealize.ShloMosaic.Lib.ValueLayout

noncomputable section

namespace Cert.StarGraph.Kern

open Idealize.ShloMosaic Idealize.ShloMosaic.ValueIdx Cert.KernelIdeal Cert.KernelIdeal.Gen Cert.StarGraph

variable (I : Inputs)

namespace PayY

theorem invTemp_named :
    Named.named (F := Ideal) Cert.KernelIdeal.κ "inv_temp" (φ := .f32) 0x3E3504F3#32 = ((invTemp : ℝ) : EReal) :=
  IdealRules.named_const.ideal_named_scalar _ _ _ _ rfl

theorem ofBits_one : Ideal.ofBits .f32 0x3F800000#32 = 1 := by
  simp [Ideal.ofBits, Ideal.ieee, -EReal.coe_mul]; norm_num

theorem ofBits_negInf : Ideal.ofBits .f32 0xFF800000#32 = ⊥ := by
  simp [Ideal.ofBits, Ideal.ieee]

theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem lift_ix (h : S1000x2000.Reduces [1] S1000) (r : Fin 1000) (j : Fin 2000) : h.lift (ix1 r) j = ix2 r j := by
  funext a
  match a with
  | ⟨0, _⟩ => exact Fin.ext rfl
  | ⟨1, _⟩ => exact Fin.ext rfl

theorem plain_q : PlainDot.IsPlain (M := 1000) (K := 94) (N := 32) dot_S1000x94_S94x32_S1000x32_1_0_0_1_n_n :=
  ⟨rfl, rfl, rfl, rfl, rfl, rfl⟩
theorem plain_s : PlainDot.IsPlain (M := 1000) (K := 32) (N := 2000) dot_S1000x32_S32x2000_S1000x2000_1_0_0_1_n_n :=
  ⟨rfl, rfl, rfl, rfl, rfl, rfl⟩
theorem plain_y : PlainDot.IsPlain (M := 1000) (K := 2000) (N := 2) dot_S1000x2000_S2000x2_S1000x2_1_0_0_1_n_n :=
  ⟨rfl, rfl, rfl, rfl, rfl, rfl⟩

theorem pq_apply (t : Fin 4) (v82 : FVec Ideal S1000x94 .f32) (v83 : Vec Ideal S94x32 .f32) (v87 : Vec Ideal S1x32 .f32)
    (h82 : ∀ (r : Fin 1000) (f : Fin 94), v82 (ix2 r f) = ((feat I (rowOf t r) f : ℝ) : EReal))
    (h83 : ∀ (f : Fin 94) (z : Fin 32), v83 (ix2 f z) = ((I.Wpq (ix2 f z) : ℝ) : EReal))
    (h87 : ∀ z : Fin 32, v87 (ix2 (0 : Fin 1) z) = ((I.bpq (ix1 z) : ℝ) : EReal))
    (r : Fin 1000) (z : Fin 32) :
    addf (matmul dot_S1000x94_S94x32_S1000x32_1_0_0_1_n_n none (truncf .bf16 v82 bitsLt_bf16_f32)
        (truncf .bf16 v83 bitsLt_bf16_f32) (constant S1000x32 .f32 0x00000000#32))
      (broadcastTo S1000x32 (shapeCast S1x32 v87 shapeCasts_S1x32_S1x32) broadcasts_S1x32_S1000x32) (ix2 r z)
      = ((pqry I (rowOf t r) z : ℝ) : EReal) := by
  rw [addf_apply, broadcastTo_1b_ab_apply, shapeCast_self, h87]
  refine (congrArg (· + _) (plain_q.matmul_zero_apply none _ _ r z)).trans ?_
  simp only [truncf_apply, h82, h83]
  unfold pqry
  rw [EReal.coe_add, coe_sum]
  simp only [EReal.coe_mul]

theorem pqs_apply (v90 : FVec Ideal S1000x32 .f32) (q : Fin 1000 → Fin 32 → ℝ)
    (h90 : ∀ (r : Fin 1000) (z : Fin 32), v90 (ix2 r z) = ((q r z : ℝ) : EReal)) (r : Fin 1000) (z : Fin 32) :
    mulf v90 (broadcast S1000x32 (Named.named (F := Ideal) Cert.KernelIdeal.κ "inv_temp" (φ := .f32) 0x3E3504F3#32)) (ix2 r z)
      = ((q r z * invTemp : ℝ) : EReal) := by
  rw [mulf_apply, broadcast_apply, h90, invTemp_named, EReal.coe_mul]

theorem sc_apply (v95 : FVec Ideal S1000x32 .f32) (v91 : Vec Ideal S32x2000 .f32) (q : Fin 1000 → Fin 32 → ℝ)
    (k : Fin 32 → Fin 2000 → ℝ)
    (h95 : ∀ (r : Fin 1000) (z : Fin 32), v95 (ix2 r z) = ((q r z : ℝ) : EReal))
    (h91 : ∀ (z : Fin 32) (j : Fin 2000), v91 (ix2 z j) = ((k z j : ℝ) : EReal)) (r : Fin 1000) (j : Fin 2000) :
    matmul dot_S1000x32_S32x2000_S1000x2000_1_0_0_1_n_n none (truncf .bf16 v95 bitsLt_bf16_f32)
        (truncf .bf16 (shapeCast S32x2000 v91 shapeCasts_S32x2000_S32x2000) bitsLt_bf16_f32)
        (constant S1000x2000 .f32 0x00000000#32) (ix2 r j)
      = ((∑ z : Fin 32, q r z * k z j : ℝ) : EReal) := by
  refine (plain_s.matmul_zero_apply none _ _ r j).trans ?_
  rw [shapeCast_self, coe_sum]
  simp only [truncf_apply, h95, h91, EReal.coe_mul]

theorem rmax_apply (v97 : FVec Ideal S1000x2000 .f32) (s : Fin 1000 → Fin 2000 → ℝ)
    (h97 : ∀ (r : Fin 1000) (j : Fin 2000), v97 (ix2 r j) = ((s r j : ℝ) : EReal))
    (h : S1000x2000.Reduces [1] S1000) (hφ : FKind.Formats .f32)
    (hacc : (0xFF800000#32 : BitVec 32) = FKind.maximumf.neutral .f32 hφ) (r : Fin 1000) :
    ∃ M : ℝ, multiReduction (F := Ideal) .maximumf [1] S1000 v97 0xFF800000#32 h hφ hacc (ix1 r) = ((M : ℝ) : EReal) := by
  have key : ∀ f : Fin 2000 → EReal, (∀ j, f j = ((s r j : ℝ) : EReal)) →
      ∃ M : ℝ, (Finset.univ : Finset (Fin 2000)).fold max (Ideal.ofBits .f32 0xFF800000#32) f = ((M : ℝ) : EReal) := by
    intro f hf
    obtain ⟨k, hk⟩ := fold_max_coe (n := 1999) (fun j => s r j)
    have hfun : f = fun j => ((s r j : ℝ) : EReal) := funext hf
    subst hfun
    exact ⟨s r k, by rw [ofBits_negInf]; exact hk⟩
  obtain ⟨M, hM⟩ := key (fun j => v97 (h.lift (ix1 r) j)) (fun j => (congrArg v97 (lift_ix h r j)).trans (h97 r j))
  exact ⟨M, (Ideal.multiReduction_maximumf_single v97 _ h hφ hacc (ix1 r)).trans hM⟩

theorem ex_apply (v97 : FVec Ideal S1000x2000 .f32) (v98 : FVec Ideal S1000 .f32) (s : Fin 1000 → Fin 2000 → ℝ)
    (M : Fin 1000 → ℝ)
    (h97 : ∀ (r : Fin 1000) (j : Fin 2000), v97 (ix2 r j) = ((s r j : ℝ) : EReal))
    (h98 : ∀ r : Fin 1000, v98 (ix1 r) = ((M r : ℝ) : EReal)) (r : Fin 1000) (j : Fin 2000) :
    Idealize.ShloMosaic.exp (subf v97 (broadcastTo S1000x2000 (shapeCast S1000x1 v98 shapeCasts_S1000_S1000x1)
        broadcasts_S1000x1_S1000x2000)) (ix2 r j)
      = ((Real.exp (s r j - M r) : ℝ) : EReal) := by
  show FloatOps.exp (subf v97 _ (ix2 r j)) = _
  rw [subf_apply, broadcastTo_a1_ab_apply, shapeCast_a_a1_apply, h97, h98, ← EReal.coe_sub, Ideal.exp_def, Ideal.exp_coe]

theorem sum_apply (v102 : FVec Ideal S1000x2000 .f32) (e : Fin 1000 → Fin 2000 → ℝ)
    (h102 : ∀ (r : Fin 1000) (j : Fin 2000), v102 (ix2 r j) = ((e r j : ℝ) : EReal))
    (h : S1000x2000.Reduces [1] S1000) (hφ : FKind.Formats .f32)
    (hacc : (0x00000000#32 : BitVec 32) = FKind.add.neutral .f32 hφ) (r : Fin 1000) :
    multiReduction (F := Ideal) .add [1] S1000 v102 0x00000000#32 h hφ hacc (ix1 r) = ((∑ j : Fin 2000, e r j : ℝ) : EReal) := by
  refine (Ideal.multiReduction_add_single v102 _ h hφ hacc (ix1 r)).trans ?_
  show ∑ j : Fin 2000, v102 (h.lift (ix1 r) j) = _
  rw [coe_sum]
  refine Finset.sum_congr rfl fun j _ => ?_
  rw [lift_ix, h102]

theorem inv_apply (v103 : FVec Ideal S1000 .f32) (S : Fin 1000 → ℝ)
    (h103 : ∀ r : Fin 1000, v103 (ix1 r) = ((S r : ℝ) : EReal)) (hS : ∀ r, S r ≠ 0) (r : Fin 1000) :
    divf (broadcast S1000x1 (Scalar.ofBits (F := Ideal) .f32 0x3F800000#32)) (shapeCast S1000x1 v103 shapeCasts_S1000_S1000x1)
        (ix2 r (0 : Fin 1))
      = ((1 / S r : ℝ) : EReal) := by
  rw [divf_apply, broadcast_apply, shapeCast_a_a1_apply, h103, Ideal.ofBits_def, ofBits_one]
  exact one_div_coe _ (hS r)

theorem y_apply (v102 : FVec Ideal S1000x2000 .f32) (v35 : FVec Ideal S2000x2 .bf16) (v106 : FVec Ideal S1000x1 .f32)
    (e : Fin 1000 → Fin 2000 → ℝ) (val : Fin 2000 → Fin 2 → ℝ) (w : Fin 1000 → ℝ)
    (h102 : ∀ (r : Fin 1000) (j : Fin 2000), v102 (ix2 r j) = ((e r j : ℝ) : EReal))
    (h35 : ∀ (j : Fin 2000) (b : Fin 2), v35 (ix2 j b) = ((val j b : ℝ) : EReal))
    (h106 : ∀ r : Fin 1000, v106 (ix2 r (0 : Fin 1)) = ((w r : ℝ) : EReal)) (r : Fin 1000) (b : Fin 2) :
    mulf (matmul dot_S1000x2000_S2000x2_S1000x2_1_0_0_1_n_n none (truncf .bf16 v102 bitsLt_bf16_f32) v35
        (constant S1000x2 .f32 0x00000000#32)) (broadcastTo S1000x2 v106 broadcasts_S1000x1_S1000x2) (ix2 r b)
      = (((∑ j : Fin 2000, e r j * val j b) * w r : ℝ) : EReal) := by
  rw [mulf_apply, broadcastTo_a1_ab_apply, h106]
  refine (congrArg (· * _) (plain_y.matmul_zero_apply none _ _ r b)).trans ?_
  rw [EReal.coe_mul, coe_sum]
  simp only [truncf_apply, h102, h35, EReal.coe_mul]

end PayY

open PayY in

theorem pay1_apply (t : Fin 4) (v35 : FVec Ideal S2000x2 .bf16) (v82 : FVec Ideal S1000x94 .f32) (v83 : Vec Ideal S94x32 .f32)
    (v87 : Vec Ideal S1x32 .f32) (v91 : Vec Ideal S32x2000 .f32)
    (h35 : ∀ (j : Fin 2000) (b : Fin 2), v35 (ix2 j b) = ((valP I j b : ℝ) : EReal))
    (h82 : ∀ (r : Fin 1000) (f : Fin 94), v82 (ix2 r f) = ((feat I (rowOf t r) f : ℝ) : EReal))
    (h83 : ∀ (f : Fin 94) (z : Fin 32), v83 (ix2 f z) = ((I.Wpq (ix2 f z) : ℝ) : EReal))
    (h87 : ∀ z : Fin 32, v87 (ix2 (0 : Fin 1) z) = ((I.bpq (ix1 z) : ℝ) : EReal))
    (h91 : ∀ (z : Fin 32) (j : Fin 2000), v91 (ix2 z j) = ((keyP I j z : ℝ) : EReal))
    (r : Fin 1000) (b : Fin 2) :
    k0_pay1 v35 v82 v83 v87 v91 (ix2 r b) = ((yPred I (rowOf t r) b : ℝ) : EReal) := by

  have hq := pq_apply I t v82 v83 v87 h82 h83 h87
  have hqs := pqs_apply _ (fun r z => pqry I (rowOf t r) z) hq
  have hs : ∀ (r : Fin 1000) (j : Fin 2000), _ = ((pscore I (rowOf t r) j : ℝ) : EReal) :=
    sc_apply _ v91 (fun r z => pqry I (rowOf t r) z * invTemp) (fun z j => keyP I j z) hqs h91

  choose M hM using rmax_apply _ (fun r j => pscore I (rowOf t r) j) hs reduces_S1000x2000_S1000 (.inl rfl) rfl

  have he := ex_apply _ _ (fun r j => pscore I (rowOf t r) j) M hs hM
  have hS := sum_apply _ (fun r j => Real.exp (pscore I (rowOf t r) j - M r)) he reduces_S1000x2000_S1000 (.inl rfl) rfl
  have hpos : ∀ r : Fin 1000, (∑ j : Fin 2000, Real.exp (pscore I (rowOf t r) j - M r)) ≠ 0 := fun r =>
    (sum_exp_pos (fun j : Fin 2000 => pscore I (rowOf t r) j - M r)).ne'
  have hi := inv_apply _ (fun r => ∑ j : Fin 2000, Real.exp (pscore I (rowOf t r) j - M r)) hS hpos
  have hy := y_apply _ v35 _ (fun r j => Real.exp (pscore I (rowOf t r) j - M r)) (fun j b => valP I j b)
    (fun r => 1 / ∑ j : Fin 2000, Real.exp (pscore I (rowOf t r) j - M r)) he h35 hi r b
  unfold k0_pay1
  refine hy.trans (congrArg _ ?_)

  unfold yPred patt
  rw [sum_mul_inv]
  refine Finset.sum_congr rfl fun j _ => ?_
  rw [softmax_shift (fun j => pscore I (rowOf t r) j) (M r) j]

end Cert.StarGraph.Kern

end
-- ==== Proof.KValue.lean ====
import proofs.«406318_j68710886801531_3_alg».proof.Proof.FrameKI
import proofs.«406318_j68710886801531_3_alg».proof.Proof.KHostA
import proofs.«406318_j68710886801531_3_alg».proof.Proof.KHostB
import proofs.«406318_j68710886801531_3_alg».proof.Proof.KPayMsg
import proofs.«406318_j68710886801531_3_alg».proof.Proof.KPayFeat
import proofs.«406318_j68710886801531_3_alg».proof.Proof.KPayY
import proofs.«406318_j68710886801531_3_alg».proof.Proof.Inputs
import proofs.«406318_j68710886801531_3_alg».proof.Proof.Rows
import Idealize.ShloMosaic.Lib.Pipeline.Value
import Idealize.ShloMosaic.Lib.ValueIdx

noncomputable section

namespace Cert.StarGraph.Kern

open Cert.KernelIdeal Cert.KernelIdeal.Gen Cert.KernelIdeal.HandFrame Cert.StarGraph
open Idealize.ShloMosaic Idealize.ShloMosaic.TcCoe Idealize.ShloMosaic.ValueIdx Idealize.SL.Sem
open Idealize.ShloMosaic.Pipeline (Dat)

variable (I : Inputs) (m : (ℓ : Loc nD τ sig) → Buf (Elt Ideal) ℓ) (ρ : Dev nD → PrngReg)

namespace KValue

abbrev pt (t : Fin cfg0.N) : Fin 4 := Fin.cast N_0 t

theorem hz : (![0, 0] : Fin 2 → Nat) = fun _ => 0 := funext fun a => by fin_cases a <;> rfl

theorem idx0 : ∀ t : Fin cfg0.N, win0_0.index t (0 : Fin 2) = t.val ∧ win0_0.index t (1 : Fin 2) = 0 :=
  (by decide +kernel : ∀ t : Fin grid0.N, _)

theorem idx14 : ∀ t : Fin cfg0.N, win0_14.index t (0 : Fin 2) = t.val ∧ win0_14.index t (1 : Fin 2) = 0 :=
  (by decide +kernel : ∀ t : Fin grid0.N, _)

theorem idx15 : ∀ t : Fin cfg0.N, win0_15.index t (0 : Fin 2) = t.val ∧ win0_15.index t (1 : Fin 2) = 0 :=
  (by decide +kernel : ∀ t : Fin grid0.N, _)

theorem idx1 : ∀ t : Fin cfg0.N, win0_1.index t (0 : Fin 2) = 0 ∧ win0_1.index t (1 : Fin 2) = 0 :=
  (by decide +kernel : ∀ t : Fin grid0.N, _)

theorem idx2 : ∀ t : Fin cfg0.N, win0_2.index t (0 : Fin 2) = 0 ∧ win0_2.index t (1 : Fin 2) = 0 :=
  (by decide +kernel : ∀ t : Fin grid0.N, _)

theorem idx3 : ∀ t : Fin cfg0.N, win0_3.index t (0 : Fin 2) = 0 ∧ win0_3.index t (1 : Fin 2) = 0 :=
  (by decide +kernel : ∀ t : Fin grid0.N, _)

theorem idx4 : ∀ t : Fin cfg0.N, win0_4.index t (0 : Fin 2) = 0 ∧ win0_4.index t (1 : Fin 2) = 0 :=
  (by decide +kernel : ∀ t : Fin grid0.N, _)

theorem idx5 : ∀ t : Fin cfg0.N, win0_5.index t (0 : Fin 2) = 0 ∧ win0_5.index t (1 : Fin 2) = 0 :=
  (by decide +kernel : ∀ t : Fin grid0.N, _)

theorem idx6 : ∀ t : Fin cfg0.N, win0_6.index t (0 : Fin 2) = 0 ∧ win0_6.index t (1 : Fin 2) = 0 :=
  (by decide +kernel : ∀ t : Fin grid0.N, _)

theorem idx7 : ∀ t : Fin cfg0.N, win0_7.index t (0 : Fin 2) = 0 ∧ win0_7.index t (1 : Fin 2) = 0 :=
  (by decide +kernel : ∀ t : Fin grid0.N, _)

theorem idx8 : ∀ t : Fin cfg0.N, win0_8.index t (0 : Fin 2) = 0 ∧ win0_8.index t (1 : Fin 2) = 0 :=
  (by decide +kernel : ∀ t : Fin grid0.N, _)

theorem idx9 : ∀ t : Fin cfg0.N, win0_9.index t (0 : Fin 2) = 0 ∧ win0_9.index t (1 : Fin 2) = 0 :=
  (by decide +kernel : ∀ t : Fin grid0.N, _)

theorem idx10 : ∀ t : Fin cfg0.N, win0_10.index t (0 : Fin 2) = 0 ∧ win0_10.index t (1 : Fin 2) = 0 :=
  (by decide +kernel : ∀ t : Fin grid0.N, _)

theorem idx11 : ∀ t : Fin cfg0.N, win0_11.index t (0 : Fin 2) = 0 ∧ win0_11.index t (1 : Fin 2) = 0 :=
  (by decide +kernel : ∀ t : Fin grid0.N, _)

theorem idx12 : ∀ t : Fin cfg0.N, win0_12.index t (0 : Fin 2) = 0 ∧ win0_12.index t (1 : Fin 2) = 0 :=
  (by decide +kernel : ∀ t : Fin grid0.N, _)

theorem idx13 : ∀ t : Fin cfg0.N, win0_13.index t (0 : Fin 2) = 0 ∧ win0_13.index t (1 : Fin 2) = 0 :=
  (by decide +kernel : ∀ t : Fin grid0.N, _)

theorem emb0_apply (t : Fin cfg0.N) (r : Fin 1000) (a : Fin 32) :
    ((cfg0.win 0).blk t).view.emb (ix2 r a) = ix2 (rowOf (pt t) r) a := by
  funext ax; apply Fin.ext
  match ax with
  | ⟨0, _⟩ => show win0_0.index t (0 : Fin 2) * 1000 + 1 * r.val = 1000 * t.val + r.val; rw [(idx0 t).1]; omega
  | ⟨1, _⟩ => show win0_0.index t (1 : Fin 2) * 32 + 1 * a.val = a.val; rw [(idx0 t).2]; omega

theorem emb14_apply (t : Fin cfg0.N) (r : Fin 1000) (f : Fin 94) :
    ((cfg0.win 14).blk t).view.emb (ix2 r f) = ix2 (rowOf (pt t) r) f := by
  funext ax; apply Fin.ext
  match ax with
  | ⟨0, _⟩ => show win0_14.index t (0 : Fin 2) * 1000 + 1 * r.val = 1000 * t.val + r.val; rw [(idx14 t).1]; omega
  | ⟨1, _⟩ => show win0_14.index t (1 : Fin 2) * 94 + 1 * f.val = f.val; rw [(idx14 t).2]; omega

theorem emb15_apply (t : Fin cfg0.N) (r : Fin 1000) (b : Fin 2) :
    ((cfg0.win 15).blk t).view.emb (ix2 r b) = ix2 (rowOf (pt t) r) b := by
  funext ax; apply Fin.ext
  match ax with
  | ⟨0, _⟩ => show win0_15.index t (0 : Fin 2) * 1000 + 1 * r.val = 1000 * t.val + r.val; rw [(idx15 t).1]; omega
  | ⟨1, _⟩ => show win0_15.index t (1 : Fin 2) * 2 + 1 * b.val = b.val; rw [(idx15 t).2]; omega

theorem emb1_apply (t : Fin cfg0.N) (y : S2000x34.Idx) : ((cfg0.win 1).blk t).view.emb y = y := by
  funext ax; apply Fin.ext
  match ax with
  | ⟨0, _⟩ => show win0_1.index t (0 : Fin 2) * 2000 + 1 * (y 0).val = (y 0).val; rw [(idx1 t).1]; omega
  | ⟨1, _⟩ => show win0_1.index t (1 : Fin 2) * 34 + 1 * (y 1).val = (y 1).val; rw [(idx1 t).2]; omega

theorem emb2_apply (t : Fin cfg0.N) (y : S32x2000.Idx) : ((cfg0.win 2).blk t).view.emb y = y := by
  funext ax; apply Fin.ext
  match ax with
  | ⟨0, _⟩ => show win0_2.index t (0 : Fin 2) * 32 + 1 * (y 0).val = (y 0).val; rw [(idx2 t).1]; omega
  | ⟨1, _⟩ => show win0_2.index t (1 : Fin 2) * 2000 + 1 * (y 1).val = (y 1).val; rw [(idx2 t).2]; omega

theorem emb3_apply (t : Fin cfg0.N) (y : S32x2000.Idx) : ((cfg0.win 3).blk t).view.emb y = y := by
  funext ax; apply Fin.ext
  match ax with
  | ⟨0, _⟩ => show win0_3.index t (0 : Fin 2) * 32 + 1 * (y 0).val = (y 0).val; rw [(idx3 t).1]; omega
  | ⟨1, _⟩ => show win0_3.index t (1 : Fin 2) * 2000 + 1 * (y 1).val = (y 1).val; rw [(idx3 t).2]; omega

theorem emb4_apply (t : Fin cfg0.N) (y : S1x32.Idx) : ((cfg0.win 4).blk t).view.emb y = y := by
  funext ax; apply Fin.ext
  match ax with
  | ⟨0, _⟩ => show win0_4.index t (0 : Fin 2) * 1 + 1 * (y 0).val = (y 0).val; rw [(idx4 t).1]; omega
  | ⟨1, _⟩ => show win0_4.index t (1 : Fin 2) * 32 + 1 * (y 1).val = (y 1).val; rw [(idx4 t).2]; omega

theorem emb5_apply (t : Fin cfg0.N) (y : S1x32.Idx) : ((cfg0.win 5).blk t).view.emb y = y := by
  funext ax; apply Fin.ext
  match ax with
  | ⟨0, _⟩ => show win0_5.index t (0 : Fin 2) * 1 + 1 * (y 0).val = (y 0).val; rw [(idx5 t).1]; omega
  | ⟨1, _⟩ => show win0_5.index t (1 : Fin 2) * 32 + 1 * (y 1).val = (y 1).val; rw [(idx5 t).2]; omega

theorem emb6_apply (t : Fin cfg0.N) (y : S30x32.Idx) : ((cfg0.win 6).blk t).view.emb y = y := by
  funext ax; apply Fin.ext
  match ax with
  | ⟨0, _⟩ => show win0_6.index t (0 : Fin 2) * 30 + 1 * (y 0).val = (y 0).val; rw [(idx6 t).1]; omega
  | ⟨1, _⟩ => show win0_6.index t (1 : Fin 2) * 32 + 1 * (y 1).val = (y 1).val; rw [(idx6 t).2]; omega

theorem emb7_apply (t : Fin cfg0.N) (y : S1x32.Idx) : ((cfg0.win 7).blk t).view.emb y = y := by
  funext ax; apply Fin.ext
  match ax with
  | ⟨0, _⟩ => show win0_7.index t (0 : Fin 2) * 1 + 1 * (y 0).val = (y 0).val; rw [(idx7 t).1]; omega
  | ⟨1, _⟩ => show win0_7.index t (1 : Fin 2) * 32 + 1 * (y 1).val = (y 1).val; rw [(idx7 t).2]; omega

theorem emb8_apply (t : Fin cfg0.N) (y : S32x32.Idx) : ((cfg0.win 8).blk t).view.emb y = y := by
  funext ax; apply Fin.ext
  match ax with
  | ⟨0, _⟩ => show win0_8.index t (0 : Fin 2) * 32 + 1 * (y 0).val = (y 0).val; rw [(idx8 t).1]; omega
  | ⟨1, _⟩ => show win0_8.index t (1 : Fin 2) * 32 + 1 * (y 1).val = (y 1).val; rw [(idx8 t).2]; omega

theorem emb9_apply (t : Fin cfg0.N) (y : S1x32.Idx) : ((cfg0.win 9).blk t).view.emb y = y := by
  funext ax; apply Fin.ext
  match ax with
  | ⟨0, _⟩ => show win0_9.index t (0 : Fin 2) * 1 + 1 * (y 0).val = (y 0).val; rw [(idx9 t).1]; omega
  | ⟨1, _⟩ => show win0_9.index t (1 : Fin 2) * 32 + 1 * (y 1).val = (y 1).val; rw [(idx9 t).2]; omega

theorem emb10_apply (t : Fin cfg0.N) (y : S32x32.Idx) : ((cfg0.win 10).blk t).view.emb y = y := by
  funext ax; apply Fin.ext
  match ax with
  | ⟨0, _⟩ => show win0_10.index t (0 : Fin 2) * 32 + 1 * (y 0).val = (y 0).val; rw [(idx10 t).1]; omega
  | ⟨1, _⟩ => show win0_10.index t (1 : Fin 2) * 32 + 1 * (y 1).val = (y 1).val; rw [(idx10 t).2]; omega

theorem emb11_apply (t : Fin cfg0.N) (y : S1x32.Idx) : ((cfg0.win 11).blk t).view.emb y = y := by
  funext ax; apply Fin.ext
  match ax with
  | ⟨0, _⟩ => show win0_11.index t (0 : Fin 2) * 1 + 1 * (y 0).val = (y 0).val; rw [(idx11 t).1]; omega
  | ⟨1, _⟩ => show win0_11.index t (1 : Fin 2) * 32 + 1 * (y 1).val = (y 1).val; rw [(idx11 t).2]; omega

theorem emb12_apply (t : Fin cfg0.N) (y : S94x32.Idx) : ((cfg0.win 12).blk t).view.emb y = y := by
  funext ax; apply Fin.ext
  match ax with
  | ⟨0, _⟩ => show win0_12.index t (0 : Fin 2) * 94 + 1 * (y 0).val = (y 0).val; rw [(idx12 t).1]; omega
  | ⟨1, _⟩ => show win0_12.index t (1 : Fin 2) * 32 + 1 * (y 1).val = (y 1).val; rw [(idx12 t).2]; omega

theorem emb13_apply (t : Fin cfg0.N) (y : S1x32.Idx) : ((cfg0.win 13).blk t).view.emb y = y := by
  funext ax; apply Fin.ext
  match ax with
  | ⟨0, _⟩ => show win0_13.index t (0 : Fin 2) * 1 + 1 * (y 0).val = (y 0).val; rw [(idx13 t).1]; omega
  | ⟨1, _⟩ => show win0_13.index t (1 : Fin 2) * 32 + 1 * (y 1).val = (y 1).val; rw [(idx13 t).2]; omega

theorem blk0_apply (c : Dev nD) (t : Fin cfg0.N) (r : Fin 1000) (a : Fin 32) :
    (iblk m c 0 t : Vec Ideal S1000x32 .f32) (ix2 r a) = V m c main_v58 (ix2 (rowOf (pt t) r) a) := by
  unfold iblk
  show V m c main_v58 (((cfg0.win 0).blk t).view.emb (ix2 r a)) = V m c main_v58 (ix2 (rowOf (pt t) r) a)
  rw [emb0_apply]

theorem blk1_apply (c : Dev nD) (t : Fin cfg0.N) (y : S2000x34.Idx) :
    (iblk m c 1 t : Vec Ideal S2000x34 .f32) y = V m c main_v19 y := by
  unfold iblk
  show V m c main_v19 (((cfg0.win 1).blk t).view.emb y) = V m c main_v19 y
  rw [emb1_apply]

theorem blk2_apply (c : Dev nD) (t : Fin cfg0.N) (y : S32x2000.Idx) :
    (iblk m c 2 t : Vec Ideal S32x2000 .f32) y = V m c main_v13 y := by
  unfold iblk
  show V m c main_v13 (((cfg0.win 2).blk t).view.emb y) = V m c main_v13 y
  rw [emb2_apply]

theorem blk3_apply (c : Dev nD) (t : Fin cfg0.N) (y : S32x2000.Idx) :
    (iblk m c 3 t : Vec Ideal S32x2000 .f32) y = V m c main_v14 y := by
  unfold iblk
  show V m c main_v14 (((cfg0.win 3).blk t).view.emb y) = V m c main_v14 y
  rw [emb3_apply]

theorem blk4_apply (c : Dev nD) (t : Fin cfg0.N) (y : S1x32.Idx) :
    (iblk m c 4 t : Vec Ideal S1x32 .f32) y = V m c main_v4 y := by
  unfold iblk
  show V m c main_v4 (((cfg0.win 4).blk t).view.emb y) = V m c main_v4 y
  rw [emb4_apply]

theorem blk5_apply (c : Dev nD) (t : Fin cfg0.N) (y : S1x32.Idx) :
    (iblk m c 5 t : Vec Ideal S1x32 .f32) y = V m c main_v40 y := by
  unfold iblk
  show V m c main_v40 (((cfg0.win 5).blk t).view.emb y) = V m c main_v40 y
  rw [emb5_apply]

theorem blk6_apply (c : Dev nD) (t : Fin cfg0.N) (y : S30x32.Idx) :
    (iblk m c 6 t : Vec Ideal S30x32 .f32) y = V m c main_arg11 y := by
  unfold iblk
  show V m c main_arg11 (((cfg0.win 6).blk t).view.emb y) = V m c main_arg11 y
  rw [emb6_apply]

theorem blk7_apply (c : Dev nD) (t : Fin cfg0.N) (y : S1x32.Idx) :
    (iblk m c 7 t : Vec Ideal S1x32 .f32) y = V m c main_v59 y := by
  unfold iblk
  show V m c main_v59 (((cfg0.win 7).blk t).view.emb y) = V m c main_v59 y
  rw [emb7_apply]

theorem blk8_apply (c : Dev nD) (t : Fin cfg0.N) (y : S32x32.Idx) :
    (iblk m c 8 t : Vec Ideal S32x32 .f32) y = V m c main_arg17 y := by
  unfold iblk
  show V m c main_arg17 (((cfg0.win 8).blk t).view.emb y) = V m c main_arg17 y
  rw [emb8_apply]

theorem blk9_apply (c : Dev nD) (t : Fin cfg0.N) (y : S1x32.Idx) :
    (iblk m c 9 t : Vec Ideal S1x32 .f32) y = V m c main_v60 y := by
  unfold iblk
  show V m c main_v60 (((cfg0.win 9).blk t).view.emb y) = V m c main_v60 y
  rw [emb9_apply]

theorem blk10_apply (c : Dev nD) (t : Fin cfg0.N) (y : S32x32.Idx) :
    (iblk m c 10 t : Vec Ideal S32x32 .f32) y = V m c main_arg19 y := by
  unfold iblk
  show V m c main_arg19 (((cfg0.win 10).blk t).view.emb y) = V m c main_arg19 y
  rw [emb10_apply]

theorem blk11_apply (c : Dev nD) (t : Fin cfg0.N) (y : S1x32.Idx) :
    (iblk m c 11 t : Vec Ideal S1x32 .f32) y = V m c main_v61 y := by
  unfold iblk
  show V m c main_v61 (((cfg0.win 11).blk t).view.emb y) = V m c main_v61 y
  rw [emb11_apply]

theorem blk12_apply (c : Dev nD) (t : Fin cfg0.N) (y : S94x32.Idx) :
    (iblk m c 12 t : Vec Ideal S94x32 .f32) y = V m c main_arg21 y := by
  unfold iblk
  show V m c main_arg21 (((cfg0.win 12).blk t).view.emb y) = V m c main_arg21 y
  rw [emb12_apply]

theorem blk13_apply (c : Dev nD) (t : Fin cfg0.N) (y : S1x32.Idx) :
    (iblk m c 13 t : Vec Ideal S1x32 .f32) y = V m c main_v62 y := by
  unfold iblk
  show V m c main_v62 (((cfg0.win 13).blk t).view.emb y) = V m c main_v62 y
  rw [emb13_apply]

theorem read14_apply (G : S4000x94.Idx → EReal) (t : Fin cfg0.N) (r : Fin 1000) (f : Fin 94) :
    ((cfg0.win 14).blk t).view.read (Elt Ideal) G (ix2 r f) = G (ix2 (rowOf (pt t) r) f) := by
  show G (((cfg0.win 14).blk t).view.emb (ix2 r f)) = G (ix2 (rowOf (pt t) r) f)
  rw [emb14_apply]

theorem read15_apply (G : S4000x2.Idx → EReal) (t : Fin cfg0.N) (r : Fin 1000) (b : Fin 2) :
    ((cfg0.win 15).blk t).view.read (Elt Ideal) G (ix2 r b) = G (ix2 (rowOf (pt t) r) b) := by
  show G (((cfg0.win 15).blk t).view.emb (ix2 r b)) = G (ix2 (rowOf (pt t) r) b)
  rw [emb15_apply]

theorem tgAux_attr (i : Fin 4000) (a : Fin 30) : tgAux I i ⟨a.val, by omega⟩ = I.tgX (ix2 i a) := by
  unfold tgAux
  rw [dif_pos (show a.val < 30 from a.isLt)]

theorem tgAux_30 (i : Fin 4000) : tgAux I i (30 : Fin 32) = rou0 I i := by
  unfold tgAux
  rw [dif_neg (by decide), if_pos (show (30 : Fin 32).val = 30 from rfl)]

theorem tgAux_31 (i : Fin 4000) : tgAux I i (31 : Fin 32) = rou1 I i := by
  unfold tgAux
  rw [dif_neg (by decide), if_neg (by decide)]

theorem lmAux_val (j : Fin 2000) (b : Fin 2) : lmAux I j ⟨32 + b.val, by omega⟩ = valP I j b := by
  unfold lmAux
  rw [dif_neg (show ¬ (32 + b.val < 32) by omega)]
  exact congrArg (valP I j) (Fin.ext (show 32 + b.val - 32 = b.val by omega))

theorem stage_Wq (hI : AgreesK m I) (c : Dev nD) (a : Fin 30) (z : Fin 32) :
    V m c main_arg11 (ix2 a z) = ((I.Wq (ix2 a z) : ℝ) : EReal) := by
  rw [V_main_arg11 m c, hI.Wq c]; rfl
theorem stage_W1 (hI : AgreesK m I) (c : Dev nD) (z' z : Fin 32) :
    V m c main_arg17 (ix2 z' z) = ((I.W1 (ix2 z' z) : ℝ) : EReal) := by
  rw [V_main_arg17 m c, hI.W1 c]; rfl
theorem stage_W2 (hI : AgreesK m I) (c : Dev nD) (z' z : Fin 32) :
    V m c main_arg19 (ix2 z' z) = ((I.W2 (ix2 z' z) : ℝ) : EReal) := by
  rw [V_main_arg19 m c, hI.W2 c]; rfl
theorem stage_Wpq (hI : AgreesK m I) (c : Dev nD) (f : Fin 94) (z : Fin 32) :
    V m c main_arg21 (ix2 f z) = ((I.Wpq (ix2 f z) : ℝ) : EReal) := by
  rw [V_main_arg21 m c, hI.Wpq c]; rfl

theorem featVal_apply (t : Fin 4) (x0 : Vec Ideal S1000x32 .f32) (x1 : Vec Ideal S2000x34 .f32) (x2 x3 : Vec Ideal S32x2000 .f32)
    (x4 x5 : Vec Ideal S1x32 .f32) (x6 : Vec Ideal S30x32 .f32) (x7 : Vec Ideal S1x32 .f32) (x8 : Vec Ideal S32x32 .f32)
    (x9 : Vec Ideal S1x32 .f32) (x10 : Vec Ideal S32x32 .f32) (x11 : Vec Ideal S1x32 .f32) (x12 : Vec Ideal S94x32 .f32)
    (x13 : Vec Ideal S1x32 .f32)
    (h0 : ∀ (r : Fin 1000) (a : Fin 32), x0 (ix2 r a) = ((tgAux I (rowOf t r) a : ℝ) : EReal))
    (h1 : ∀ (j : Fin 2000) (z : Fin 34), x1 (ix2 j z) = ((lmAux I j z : ℝ) : EReal))
    (h2 : ∀ (z : Fin 32) (j : Fin 2000), x2 (ix2 z j) = ((keyA I j z : ℝ) : EReal))
    (h4 : ∀ z : Fin 32, x4 (ix2 (0 : Fin 1) z) = ((router0 I z : ℝ) : EReal))
    (h5 : ∀ z : Fin 32, x5 (ix2 (0 : Fin 1) z) = ((router1 I z : ℝ) : EReal))
    (h6 : ∀ (a : Fin 30) (z : Fin 32), x6 (ix2 a z) = ((I.Wq (ix2 a z) : ℝ) : EReal))
    (h7 : ∀ z : Fin 32, x7 (ix2 (0 : Fin 1) z) = ((I.bq (ix1 z) : ℝ) : EReal))
    (h8 : ∀ z' z : Fin 32, x8 (ix2 z' z) = ((I.W1 (ix2 z' z) : ℝ) : EReal))
    (h9 : ∀ z : Fin 32, x9 (ix2 (0 : Fin 1) z) = ((I.b1 (ix1 z) : ℝ) : EReal))
    (h10 : ∀ z' z : Fin 32, x10 (ix2 z' z) = ((I.W2 (ix2 z' z) : ℝ) : EReal))
    (h11 : ∀ z : Fin 32, x11 (ix2 (0 : Fin 1) z) = ((I.b2 (ix1 z) : ℝ) : EReal))
    (r : Fin 1000) (f : Fin 94) :
    featVal x0 x1 x2 x3 x4 x5 x6 x7 x8 x9 x10 x11 x12 x13 (ix2 r f) = ((feat I (rowOf t r) f : ℝ) : EReal) := by
  unfold featVal
  simp only [View.ld_unit_zero (S := S1000x32) hz, View.ld_unit_zero (S := S2000x34) hz, View.ld_unit_zero (S := S32x2000) hz,
    View.ld_unit_zero (S := S1x32) hz, View.ld_unit_zero (S := S30x32) hz, View.ld_unit_zero (S := S32x32) hz]
  refine pay9_apply I t _ _ _ _ _ _ _ _ _ _ (fun r a => ?_) (fun r => ?_) (fun r => ?_) (fun r z => ?_) h4 h8 h9 h5 h10 h11 r f
  · rw [pay3_apply, h0, tgAux_attr]
  · rw [pay4_apply, h0, tgAux_30]
  · rw [pay5_apply, h0, tgAux_31]
  · exact pay8_apply I t x0 x6 x7 x2 x1 h0 h6 h7 h2 h1 r z

theorem yVal_apply (t : Fin 4) (x0 : Vec Ideal S1000x32 .f32) (x1 : Vec Ideal S2000x34 .f32) (x2 x3 : Vec Ideal S32x2000 .f32)
    (x4 x5 : Vec Ideal S1x32 .f32) (x6 : Vec Ideal S30x32 .f32) (x7 : Vec Ideal S1x32 .f32) (x8 : Vec Ideal S32x32 .f32)
    (x9 : Vec Ideal S1x32 .f32) (x10 : Vec Ideal S32x32 .f32) (x11 : Vec Ideal S1x32 .f32) (x12 : Vec Ideal S94x32 .f32)
    (x13 : Vec Ideal S1x32 .f32)
    (h0 : ∀ (r : Fin 1000) (a : Fin 32), x0 (ix2 r a) = ((tgAux I (rowOf t r) a : ℝ) : EReal))
    (h1 : ∀ (j : Fin 2000) (z : Fin 34), x1 (ix2 j z) = ((lmAux I j z : ℝ) : EReal))
    (h2 : ∀ (z : Fin 32) (j : Fin 2000), x2 (ix2 z j) = ((keyA I j z : ℝ) : EReal))
    (h4 : ∀ z : Fin 32, x4 (ix2 (0 : Fin 1) z) = ((router0 I z : ℝ) : EReal))
    (h5 : ∀ z : Fin 32, x5 (ix2 (0 : Fin 1) z) = ((router1 I z : ℝ) : EReal))
    (h6 : ∀ (a : Fin 30) (z : Fin 32), x6 (ix2 a z) = ((I.Wq (ix2 a z) : ℝ) : EReal))
    (h7 : ∀ z : Fin 32, x7 (ix2 (0 : Fin 1) z) = ((I.bq (ix1 z) : ℝ) : EReal))
    (h8 : ∀ z' z : Fin 32, x8 (ix2 z' z) = ((I.W1 (ix2 z' z) : ℝ) : EReal))
    (h9 : ∀ z : Fin 32, x9 (ix2 (0 : Fin 1) z) = ((I.b1 (ix1 z) : ℝ) : EReal))
    (h10 : ∀ z' z : Fin 32, x10 (ix2 z' z) = ((I.W2 (ix2 z' z) : ℝ) : EReal))
    (h11 : ∀ z : Fin 32, x11 (ix2 (0 : Fin 1) z) = ((I.b2 (ix1 z) : ℝ) : EReal))
    (h3 : ∀ (z : Fin 32) (j : Fin 2000), x3 (ix2 z j) = ((keyP I j z : ℝ) : EReal))
    (h12 : ∀ (f : Fin 94) (z : Fin 32), x12 (ix2 f z) = ((I.Wpq (ix2 f z) : ℝ) : EReal))
    (h13 : ∀ z : Fin 32, x13 (ix2 (0 : Fin 1) z) = ((I.bpq (ix1 z) : ℝ) : EReal))
    (r : Fin 1000) (b : Fin 2) :
    k0_pay1 (k0_pay7 (View.ld x1 r_S2000x34)) (featVal x0 x1 x2 x3 x4 x5 x6 x7 x8 x9 x10 x11 x12 x13)
        (View.ld x12 r_S94x32) (View.ld x13 r_S1x32) (View.ld x3 r_S32x2000) (ix2 r b)
      = ((yPred I (rowOf t r) b : ℝ) : EReal) := by
  simp only [View.ld_unit_zero (S := S2000x34) hz, View.ld_unit_zero (S := S94x32) hz, View.ld_unit_zero (S := S1x32) hz,
    View.ld_unit_zero (S := S32x2000) hz]
  refine pay1_apply I t _ _ _ _ _ (fun j b => ?_)
    (fun r f => featVal_apply I t x0 x1 x2 x3 x4 x5 x6 x7 x8 x9 x10 x11 x12 x13 h0 h1 h2 h4 h5 h6 h7 h8 h9 h10 h11 r f) h12 h13 h3 r b
  rw [pay7_apply, h1, lmAux_val]

theorem flushed14_eq (hI : AgreesK m I) (c : Dev nD) (t : Fin cfg0.N) :
    (dats m 0 c).flushed 14 t = ((cfg0.win 14).blk t).view.read (Elt Ideal) (featOut I) := by
  show (cfg0.win 14).cut (grid0.coords t) ((dats m 0 c).after 14 t) = _
  rw [after0_14]
  unfold featBlock
  rw [View.canon_unit_zero hz]
  funext j
  obtain ⟨r, f, rfl⟩ : ∃ (r : Fin 1000) (f : Fin 94), j = ix2 r f := ⟨j 0, j 1, eq_ix2 j⟩
  refine Eq.trans (b := ((feat I (rowOf (pt t) r) f : ℝ) : EReal)) ?_ (read14_apply (featOut I) t r f).symm
  exact featVal_apply I (pt t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    (fun r a => (blk0_apply m c t r a).trans (host_tgaux I m hI c _ a))
    (fun j z => (blk1_apply m c t (ix2 j z)).trans (host_lmaux I m hI c j z))
    (fun z j => (blk2_apply m c t (ix2 z j)).trans (host_kt I m hI c z j))
    (fun z => (blk4_apply m c t (ix2 (0 : Fin 1) z)).trans (host_r0 I m hI c z))
    (fun z => (blk5_apply m c t (ix2 (0 : Fin 1) z)).trans (host_r1 I m hI c z))
    (fun a z => (blk6_apply m c t (ix2 a z)).trans (stage_Wq I m hI c a z))
    (fun z => (blk7_apply m c t (ix2 (0 : Fin 1) z)).trans (host_bq I m hI c z))
    (fun z' z => (blk8_apply m c t (ix2 z' z)).trans (stage_W1 I m hI c z' z))
    (fun z => (blk9_apply m c t (ix2 (0 : Fin 1) z)).trans (host_b1 I m hI c z))
    (fun z' z => (blk10_apply m c t (ix2 z' z)).trans (stage_W2 I m hI c z' z))
    (fun z => (blk11_apply m c t (ix2 (0 : Fin 1) z)).trans (host_b2 I m hI c z))
    r f

theorem flushed15_eq (hI : AgreesK m I) (c : Dev nD) (t : Fin cfg0.N) :
    (dats m 0 c).flushed 15 t = ((cfg0.win 15).blk t).view.read (Elt Ideal) (yOut I) := by
  show (cfg0.win 15).cut (grid0.coords t) ((dats m 0 c).after 15 t) = _
  rw [after0_15]
  unfold yBlock
  rw [View.canon_unit_zero hz]
  funext j
  obtain ⟨r, b, rfl⟩ : ∃ (r : Fin 1000) (b : Fin 2), j = ix2 r b := ⟨j 0, j 1, eq_ix2 j⟩
  refine Eq.trans (b := ((yPred I (rowOf (pt t) r) b : ℝ) : EReal)) ?_ (read15_apply (yOut I) t r b).symm
  exact yVal_apply I (pt t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    (fun r a => (blk0_apply m c t r a).trans (host_tgaux I m hI c _ a))
    (fun j z => (blk1_apply m c t (ix2 j z)).trans (host_lmaux I m hI c j z))
    (fun z j => (blk2_apply m c t (ix2 z j)).trans (host_kt I m hI c z j))
    (fun z => (blk4_apply m c t (ix2 (0 : Fin 1) z)).trans (host_r0 I m hI c z))
    (fun z => (blk5_apply m c t (ix2 (0 : Fin 1) z)).trans (host_r1 I m hI c z))
    (fun a z => (blk6_apply m c t (ix2 a z)).trans (stage_Wq I m hI c a z))
    (fun z => (blk7_apply m c t (ix2 (0 : Fin 1) z)).trans (host_bq I m hI c z))
    (fun z' z => (blk8_apply m c t (ix2 z' z)).trans (stage_W1 I m hI c z' z))
    (fun z => (blk9_apply m c t (ix2 (0 : Fin 1) z)).trans (host_b1 I m hI c z))
    (fun z' z => (blk10_apply m c t (ix2 z' z)).trans (stage_W2 I m hI c z' z))
    (fun z => (blk11_apply m c t (ix2 (0 : Fin 1) z)).trans (host_b2 I m hI c z))
    (fun z j => (blk3_apply m c t (ix2 z j)).trans (host_pkt I m hI c z j))
    (fun f z => (blk12_apply m c t (ix2 f z)).trans (stage_Wpq I m hI c f z))
    (fun z => (blk13_apply m c t (ix2 (0 : Fin 1) z)).trans (host_bpq I m hI c z))
    r b

theorem mem_blk14 (t : Fin cfg0.N) (i : S4000x94.Idx) :
    i ∈ ((cfg0.win 14).blk t).view.set ↔ ∀ a : Fin 2, win0_14.index t a * S1000x94.size a ≤ (i a).val
      ∧ (i a).val < win0_14.index t a * S1000x94.size a + S1000x94.size a := by
  show i ∈ ((View.whole main_v63_0).slice (win0_14.rect t)).set ↔ _
  rw [View.set_slice_whole, Rect.mem_set_unit]
  exact Iff.rfl

theorem mem_blk15 (t : Fin cfg0.N) (i : S4000x2.Idx) :
    i ∈ ((cfg0.win 15).blk t).view.set ↔ ∀ a : Fin 2, win0_15.index t a * S1000x2.size a ≤ (i a).val
      ∧ (i a).val < win0_15.index t a * S1000x2.size a + S1000x2.size a := by
  show i ∈ ((View.whole main_v63_1).slice (win0_15.rect t)).set ↔ _
  rw [View.set_slice_whole, Rect.mem_set_unit]
  exact Iff.rfl

theorem cover14 (i : S4000x94.Idx) :
    ∃ t : Fin cfg0.N, (cfg0.win 14).flush t = true ∧ i ∈ ((cfg0.win 14).blk t).view.set := by
  have hi0 : (i 0).val < 4000 := (i 0).isLt
  have hi1 : (i 1).val < 94 := (i 1).isLt
  obtain ⟨t, ht⟩ : ∃ t : Fin cfg0.N, t.val = (i 0).val / 1000 := ⟨Fin.cast N_0.symm ⟨(i 0).val / 1000, by omega⟩, rfl⟩
  refine ⟨t, flush0_14 t, ?_⟩
  rw [mem_blk14]
  obtain ⟨e0, e1⟩ := idx14 t
  intro a
  match a with
  | ⟨0, _⟩ =>
    show win0_14.index t (0 : Fin 2) * 1000 ≤ (i 0).val ∧ (i 0).val < win0_14.index t (0 : Fin 2) * 1000 + 1000
    rw [e0, ht]; omega
  | ⟨1, _⟩ =>
    show win0_14.index t (1 : Fin 2) * 94 ≤ (i 1).val ∧ (i 1).val < win0_14.index t (1 : Fin 2) * 94 + 94
    rw [e1]; omega

theorem cover15 (i : S4000x2.Idx) :
    ∃ t : Fin cfg0.N, (cfg0.win 15).flush t = true ∧ i ∈ ((cfg0.win 15).blk t).view.set := by
  have hi0 : (i 0).val < 4000 := (i 0).isLt
  have hi1 : (i 1).val < 2 := (i 1).isLt
  obtain ⟨t, ht⟩ : ∃ t : Fin cfg0.N, t.val = (i 0).val / 1000 := ⟨Fin.cast N_0.symm ⟨(i 0).val / 1000, by omega⟩, rfl⟩
  refine ⟨t, flush0_15 t, ?_⟩
  rw [mem_blk15]
  obtain ⟨e0, e1⟩ := idx15 t
  intro a
  match a with
  | ⟨0, _⟩ =>
    show win0_15.index t (0 : Fin 2) * 1000 ≤ (i 0).val ∧ (i 0).val < win0_15.index t (0 : Fin 2) * 1000 + 1000
    rw [e0, ht]; omega
  | ⟨1, _⟩ =>
    show win0_15.index t (1 : Fin 2) * 2 ≤ (i 1).val ∧ (i 1).val < win0_15.index t (1 : Fin 2) * 2 + 2
    rw [e1]; omega

theorem final14 (hI : AgreesK m I) (c : Dev nD) : (dats m 0 c).arrAt 14 cfg0.N = featOut I :=
  (dats m 0 c).arrAt_eq_of_cover 14 (featOut I) (fun t _ => flushed14_eq I m hI c t) cover14

theorem final15 (hI : AgreesK m I) (c : Dev nD) : (dats m 0 c).arrAt 15 cfg0.N = yOut I :=
  (dats m 0 c).arrAt_eq_of_cover 15 (yOut I) (fun t _ => flushed15_eq I m hI c t) cover15

end KValue

open KValue

theorem kernel_value (I : Inputs) (m : (ℓ : Loc nD τ sig) → Buf (Elt Ideal) ℓ) (ρ : Dev nD → PrngReg) (hI : AgreesK m I) :
    θ_run (defs (F := Ideal)) (onTc (τ := τ) (main (F := Ideal))) ⟨m, fun _ => 0, ρ⟩ (fun r => ∀ c : Dev nD,
      r.2.mem ((c.tc : Thread nD τ).loc main_v63_1) = yOut I
      ∧ r.2.mem ((c.tc : Thread nD τ).loc main_v63_0) = featOut I
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)) :=
  (θ_run defs _ _).mono (fun r h c => ⟨((h c).1 15).trans (final15 I m hI c), ((h c).1 14).trans (final14 I m hI c),
    kept_of_post m (dats m) (A_eq m) r h c⟩) (run_main m ρ)

end Cert.StarGraph.Kern

end
-- ==== Proof.ReadQ.lean ====
import proofs.«406318_j68710886801531_3_alg».proof.Proof.RunQ
import Idealize.ShloMosaic.Lib.Pipeline.Value
import Idealize.ShloMosaic.Lib.ValueIdx
import Idealize.ShloMosaic.PureOps.Ideal.Laws

noncomputable section

namespace Cert.ReferenceIdeal.ReadP

open Cert.ReferenceIdeal Cert.ReferenceIdeal.Gen Idealize.ShloMosaic Idealize.ShloMosaic.TcCoe Idealize.SL.Sem Idealize.ShloMosaic.StableHlo

variable {F : FTy → Type} [FloatOps F]
variable (x0 : (⟨S2000x30, .f32⟩ : BufTy).Contents (Elt F))
  (x1 : (⟨S2000x2, .f32⟩ : BufTy).Contents (Elt F))
  (x2 : (⟨S4000x30, .f32⟩ : BufTy).Contents (Elt F))
  (x4 : (⟨S2000, .f32⟩ : BufTy).Contents (Elt F))
  (x5 : (⟨S4000, .f32⟩ : BufTy).Contents (Elt F))
  (x6 x7 x8 x9 x10 : (⟨S1x1, .f32⟩ : BufTy).Contents (Elt F))
  (x11 : (⟨S30x32, .f32⟩ : BufTy).Contents (Elt F))
  (x12 : (⟨S32, .f32⟩ : BufTy).Contents (Elt F))
  (x13 : (⟨S30x32, .f32⟩ : BufTy).Contents (Elt F))
  (x14 : (⟨S32, .f32⟩ : BufTy).Contents (Elt F))
  (x17 : (⟨S32x32, .f32⟩ : BufTy).Contents (Elt F))
  (x18 : (⟨S32, .f32⟩ : BufTy).Contents (Elt F))
  (x19 : (⟨S32x32, .f32⟩ : BufTy).Contents (Elt F))
  (x20 : (⟨S32, .f32⟩ : BufTy).Contents (Elt F))
  (x21 : (⟨S94x32, .f32⟩ : BufTy).Contents (Elt F))
  (x22 : (⟨S32, .f32⟩ : BufTy).Contents (Elt F))
  (x23 : (⟨S30x32, .f32⟩ : BufTy).Contents (Elt F))
  (x24 : (⟨S32, .f32⟩ : BufTy).Contents (Elt F))
  (x25 : (⟨S2x2, .f32⟩ : BufTy).Contents (Elt F))
  (x26 : (⟨S2, .f32⟩ : BufTy).Contents (Elt F))

def val_main_v0 : (⟨S2000x32, .f32⟩ : BufTy).Contents (Elt F) :=
  concatenate S2000x32 1 [⟨S2000x30, (x0)⟩, ⟨S2000x2, (x1)⟩] concatenates_S2000x30_S2000x2_S2000x32_d1

def val_main_cst : (⟨S_, .f32⟩ : BufTy).Contents (Elt F) :=
  constant S_ .f32 0x00000000#32
theorem val_main_cst_apply (i : S_.Idx) :
    val_main_cst (F := F) i = FloatOps.ofBits .f32 0x00000000#32 := rfl

def val_main_v1 : (⟨S4000x2, .f32⟩ : BufTy).Contents (Elt F) :=
  broadcastInDim S4000x2 ![] bcast_S_S4000x2 (val_main_cst (F := F))
abbrev idx_main_v1 (i : S4000x2.Idx) : S_.Idx := fun a => a.elim0
theorem val_main_v1_apply (i : S4000x2.Idx) :
    val_main_v1 (F := F) i = val_main_cst (F := F) (idx_main_v1 i) := by
  unfold val_main_v1
  generalize val_main_cst (F := F) = y
  exact broadcastInDim_apply _ bcast_S_S4000x2 y i (idx_main_v1 i) (fun a => a.elim0)

def val_main_v2 : (⟨S4000x32, .f32⟩ : BufTy).Contents (Elt F) :=
  concatenate S4000x32 1 [⟨S4000x30, (x2)⟩, ⟨S4000x2, (val_main_v1 (F := F))⟩] concatenates_S4000x30_S4000x2_S4000x32_d1

def val_main_cst_0 : (⟨S_, .f32⟩ : BufTy).Contents (Elt F) :=
  constant S_ .f32 0x00000000#32
theorem val_main_cst_0_apply (i : S_.Idx) :
    val_main_cst_0 (F := F) i = FloatOps.ofBits .f32 0x00000000#32 := rfl

def val_main_v3 : (⟨S32, .f32⟩ : BufTy).Contents (Elt F) :=
  Host.reduceAdd (val_main_v0 (F := F) x0 x1) (val_main_cst_0 (F := F)) reducesTo_S2000x32_S32_d0 h_S_
abbrev idx_main_v3 (i : S32.Idx) (k : Fin 2000) : S2000x32.Idx := fun a => match a with
  | ⟨0, _⟩ => ⟨k.val, k.isLt⟩
  | ⟨1, _⟩ => ⟨(i 0).val, (i 0).isLt⟩

theorem val_main_v3_apply (x0 : (⟨S2000x30, .f32⟩ : BufTy).Contents (Elt Ideal)) (x1 : (⟨S2000x2, .f32⟩ : BufTy).Contents (Elt Ideal)) (i : S32.Idx) :
    val_main_v3 (F := Ideal) x0 x1 i = (val_main_cst_0 (F := Ideal)) (Shape.Idx.first h_S_) + ∑ k : Fin 2000, (val_main_v0 (F := Ideal) x0 x1) (idx_main_v3 i k) := by
  unfold val_main_v3
  generalize val_main_v0 (F := Ideal) x0 x1 = y0
  simp only [Host.reduceAdd, Ideal.hostReduceAdd_def]
  rw [Ideal.hostReduceAdd_single reducesTo_S2000x32_S32_d0 (by decide)]
  refine congrArg (_ + ·) (Finset.sum_congr rfl fun k _ => ?_)
  exact congrArg y0 (funext fun a => Fin.ext (by match a with | ⟨0, _⟩ => rfl | ⟨1, _⟩ => rfl))

def val_main_v4 : (⟨S1x32, .f32⟩ : BufTy).Contents (Elt F) :=
  broadcastInDim S1x32 ![1] bcast_S32_S1x32_1 (val_main_v3 (F := F) x0 x1)
abbrev idx_main_v4 (i : S1x32.Idx) : S32.Idx := fun a => match a with
  | ⟨0, _⟩ => ⟨(i 1).val, (i 1).isLt⟩
theorem val_main_v4_apply (i : S1x32.Idx) :
    val_main_v4 (F := F) x0 x1 i = val_main_v3 (F := F) x0 x1 (idx_main_v4 i) := by
  unfold val_main_v4
  generalize val_main_v3 (F := F) x0 x1 = y
  exact broadcastInDim_apply _ bcast_S32_S1x32_1 y i (idx_main_v4 i) (fun a => match a with
    | ⟨0, _⟩ => by show (i 1).val = if (32 : Nat) = 1 then 0 else (i 1).val; rw [if_neg (by decide)])

def val_main_cst_1 : (⟨S_, .f32⟩ : BufTy).Contents (Elt F) :=
  constant S_ .f32 0x44FA0000#32
theorem val_main_cst_1_apply (i : S_.Idx) :
    val_main_cst_1 (F := F) i = FloatOps.ofBits .f32 0x44FA0000#32 := rfl

def val_main_v5 : (⟨S1x32, .f32⟩ : BufTy).Contents (Elt F) :=
  broadcastInDim S1x32 ![] bcast_S_S1x32 (val_main_cst_1 (F := F))
abbrev idx_main_v5 (i : S1x32.Idx) : S_.Idx := fun a => a.elim0
theorem val_main_v5_apply (i : S1x32.Idx) :
    val_main_v5 (F := F) i = val_main_cst_1 (F := F) (idx_main_v5 i) := by
  unfold val_main_v5
  generalize val_main_cst_1 (F := F) = y
  exact broadcastInDim_apply _ bcast_S_S1x32 y i (idx_main_v5 i) (fun a => a.elim0)

def val_main_v6 : (⟨S1x32, .f32⟩ : BufTy).Contents (Elt F) :=
  Host.divf (val_main_v4 (F := F) x0 x1) (val_main_v5 (F := F))
theorem val_main_v6_apply (i : S1x32.Idx) :
    val_main_v6 (F := F) x0 x1 i = FloatOps.hostDivf (val_main_v4 (F := F) x0 x1 i) (val_main_v5 (F := F) i) := rfl

def val_main_v7 : (⟨S6001x32, .f32⟩ : BufTy).Contents (Elt F) :=
  concatenate S6001x32 0 [⟨S2000x32, (val_main_v0 (F := F) x0 x1)⟩, ⟨S4000x32, (val_main_v2 (F := F) x2)⟩, ⟨S1x32, (val_main_v6 (F := F) x0 x1)⟩] concatenates_S2000x32_S4000x32_S1x32_S6001x32_d0

def val_main_v8 : (⟨S4000x32, .f32⟩ : BufTy).Contents (Elt F) :=
  Host.dotGeneral dot_S4000x30_S30x32_S4000x32_1_0_0_1_n_n none (x2) (x11)
theorem lhs_main_v8_0 (i : S4000x32.Idx) (q : dot_S4000x30_S30x32_S4000x32_1_0_0_1_n_n.contr.Idx) :
    (dot_S4000x30_S30x32_S4000x32_1_0_0_1_n_n.lhsIdx i q 0).val = (i 0).val := by
  unfold DotDims.lhsIdx
  rw [dif_neg (show ¬(0 : Fin S4000x30.rank) ∈ dot_S4000x30_S30x32_S4000x32_1_0_0_1_n_n.lhsBatch by decide), dif_pos (show (0 : Fin S4000x30.rank) ∈ dot_S4000x30_S30x32_S4000x32_1_0_0_1_n_n.lhsNonContracting by decide)]
  rfl
theorem lhs_main_v8_1 (i : S4000x32.Idx) (q : dot_S4000x30_S30x32_S4000x32_1_0_0_1_n_n.contr.Idx) :
    (dot_S4000x30_S30x32_S4000x32_1_0_0_1_n_n.lhsIdx i q 1).val = (q ⟨0, by decide⟩).val :=
  dot_S4000x30_S30x32_S4000x32_1_0_0_1_n_n.lhsIdx_val_of_single rfl i q
theorem rhs_main_v8_0 (i : S4000x32.Idx) (q : dot_S4000x30_S30x32_S4000x32_1_0_0_1_n_n.contr.Idx) :
    (dot_S4000x30_S30x32_S4000x32_1_0_0_1_n_n.rhsIdx i q 0).val = (q ⟨0, by decide⟩).val :=
  dot_S4000x30_S30x32_S4000x32_1_0_0_1_n_n.rhsIdx_val_of_single rfl i q
theorem rhs_main_v8_1 (i : S4000x32.Idx) (q : dot_S4000x30_S30x32_S4000x32_1_0_0_1_n_n.contr.Idx) :
    (dot_S4000x30_S30x32_S4000x32_1_0_0_1_n_n.rhsIdx i q 1).val = (i 1).val := by
  unfold DotDims.rhsIdx
  rw [dif_neg (show ¬(1 : Fin S30x32.rank) ∈ dot_S4000x30_S30x32_S4000x32_1_0_0_1_n_n.rhsBatch by decide), dif_pos (show (1 : Fin S30x32.rank) ∈ dot_S4000x30_S30x32_S4000x32_1_0_0_1_n_n.rhsNonContracting by decide)]
  rfl
abbrev lidx_main_v8 (i : S4000x32.Idx) (k : Fin 30) : S4000x30.Idx := fun a => match a with
  | ⟨0, _⟩ => ⟨(i 0).val, (i 0).isLt⟩
  | ⟨1, _⟩ => ⟨k.val, k.isLt⟩
abbrev ridx_main_v8 (i : S4000x32.Idx) (k : Fin 30) : S30x32.Idx := fun a => match a with
  | ⟨0, _⟩ => ⟨k.val, k.isLt⟩
  | ⟨1, _⟩ => ⟨(i 1).val, (i 1).isLt⟩

theorem val_main_v8_apply (x2 : (⟨S4000x30, .f32⟩ : BufTy).Contents (Elt Ideal)) (x11 : (⟨S30x32, .f32⟩ : BufTy).Contents (Elt Ideal)) (i : S4000x32.Idx) :
    val_main_v8 (F := Ideal) x2 x11 i = ∑ k : Fin 30, x2 (lidx_main_v8 i k) * x11 (ridx_main_v8 i k) := by
  unfold val_main_v8
  simp only [Host.dotGeneral]
  rw [Ideal.dotGeneral_apply, ← Equiv.sum_comp (ValueIdx.contrEquiv1 dot_S4000x30_S30x32_S4000x32_1_0_0_1_n_n 30 rfl rfl).symm]
  refine Finset.sum_congr rfl fun k _ => ?_
  have hk := ValueIdx.contrEquiv1_symm_val dot_S4000x30_S30x32_S4000x32_1_0_0_1_n_n 30 rfl rfl k
  have el : dot_S4000x30_S30x32_S4000x32_1_0_0_1_n_n.lhsIdx i ((ValueIdx.contrEquiv1 dot_S4000x30_S30x32_S4000x32_1_0_0_1_n_n 30 rfl rfl).symm k) = lidx_main_v8 i k := funext fun a => Fin.ext (by
    match a with
    | ⟨0, _⟩ => exact lhs_main_v8_0 _ _
    | ⟨1, _⟩ => exact (lhs_main_v8_1 _ _).trans hk)
  have er : dot_S4000x30_S30x32_S4000x32_1_0_0_1_n_n.rhsIdx i ((ValueIdx.contrEquiv1 dot_S4000x30_S30x32_S4000x32_1_0_0_1_n_n 30 rfl rfl).symm k) = ridx_main_v8 i k := funext fun a => Fin.ext (by
    match a with
    | ⟨0, _⟩ => exact (rhs_main_v8_0 _ _).trans hk
    | ⟨1, _⟩ => exact rhs_main_v8_1 _ _)
  rw [el, er]

def val_main_v9 : (⟨S1x32, .f32⟩ : BufTy).Contents (Elt F) :=
  broadcastInDim S1x32 ![1] bcast_S32_S1x32_1 (x12)
abbrev idx_main_v9 (i : S1x32.Idx) : S32.Idx := fun a => match a with
  | ⟨0, _⟩ => ⟨(i 1).val, (i 1).isLt⟩
theorem val_main_v9_apply (i : S1x32.Idx) :
    val_main_v9 (F := F) x12 i = x12 (idx_main_v9 i) := by
  unfold val_main_v9
  exact broadcastInDim_apply _ bcast_S32_S1x32_1 x12 i (idx_main_v9 i) (fun a => match a with
    | ⟨0, _⟩ => by show (i 1).val = if (32 : Nat) = 1 then 0 else (i 1).val; rw [if_neg (by decide)])

def val_main_v10 : (⟨S4000x32, .f32⟩ : BufTy).Contents (Elt F) :=
  broadcastInDim S4000x32 ![0, 1] bcast_S1x32_S4000x32_0_1 (val_main_v9 (F := F) x12)
abbrev idx_main_v10 (i : S4000x32.Idx) : S1x32.Idx := fun a => match a with
  | ⟨0, _⟩ => ⟨0, Nat.one_pos⟩
  | ⟨1, _⟩ => ⟨(i 1).val, (i 1).isLt⟩
theorem val_main_v10_apply (i : S4000x32.Idx) :
    val_main_v10 (F := F) x12 i = val_main_v9 (F := F) x12 (idx_main_v10 i) := by
  unfold val_main_v10
  generalize val_main_v9 (F := F) x12 = y
  exact broadcastInDim_apply _ bcast_S1x32_S4000x32_0_1 y i (idx_main_v10 i) (fun a => match a with
    | ⟨0, _⟩ => by show 0 = if (1 : Nat) = 1 then 0 else (i 0).val; rw [if_pos rfl]
    | ⟨1, _⟩ => by show (i 1).val = if (32 : Nat) = 1 then 0 else (i 1).val; rw [if_neg (by decide)])

def val_main_v11 : (⟨S4000x32, .f32⟩ : BufTy).Contents (Elt F) :=
  addf (val_main_v8 (F := F) x2 x11) (val_main_v10 (F := F) x12)
theorem val_main_v11_apply (i : S4000x32.Idx) :
    val_main_v11 (F := F) x2 x11 x12 i = FloatOps.addf (val_main_v8 (F := F) x2 x11 i) (val_main_v10 (F := F) x12 i) := rfl

def val_main_v12 : (⟨S2000x32, .f32⟩ : BufTy).Contents (Elt F) :=
  Host.dotGeneral dot_S2000x30_S30x32_S2000x32_1_0_0_1_n_n none (x0) (x13)
theorem lhs_main_v12_0 (i : S2000x32.Idx) (q : dot_S2000x30_S30x32_S2000x32_1_0_0_1_n_n.contr.Idx) :
    (dot_S2000x30_S30x32_S2000x32_1_0_0_1_n_n.lhsIdx i q 0).val = (i 0).val := by
  unfold DotDims.lhsIdx
  rw [dif_neg (show ¬(0 : Fin S2000x30.rank) ∈ dot_S2000x30_S30x32_S2000x32_1_0_0_1_n_n.lhsBatch by decide), dif_pos (show (0 : Fin S2000x30.rank) ∈ dot_S2000x30_S30x32_S2000x32_1_0_0_1_n_n.lhsNonContracting by decide)]
  rfl
theorem lhs_main_v12_1 (i : S2000x32.Idx) (q : dot_S2000x30_S30x32_S2000x32_1_0_0_1_n_n.contr.Idx) :
    (dot_S2000x30_S30x32_S2000x32_1_0_0_1_n_n.lhsIdx i q 1).val = (q ⟨0, by decide⟩).val :=
  dot_S2000x30_S30x32_S2000x32_1_0_0_1_n_n.lhsIdx_val_of_single rfl i q
theorem rhs_main_v12_0 (i : S2000x32.Idx) (q : dot_S2000x30_S30x32_S2000x32_1_0_0_1_n_n.contr.Idx) :
    (dot_S2000x30_S30x32_S2000x32_1_0_0_1_n_n.rhsIdx i q 0).val = (q ⟨0, by decide⟩).val :=
  dot_S2000x30_S30x32_S2000x32_1_0_0_1_n_n.rhsIdx_val_of_single rfl i q
theorem rhs_main_v12_1 (i : S2000x32.Idx) (q : dot_S2000x30_S30x32_S2000x32_1_0_0_1_n_n.contr.Idx) :
    (dot_S2000x30_S30x32_S2000x32_1_0_0_1_n_n.rhsIdx i q 1).val = (i 1).val := by
  unfold DotDims.rhsIdx
  rw [dif_neg (show ¬(1 : Fin S30x32.rank) ∈ dot_S2000x30_S30x32_S2000x32_1_0_0_1_n_n.rhsBatch by decide), dif_pos (show (1 : Fin S30x32.rank) ∈ dot_S2000x30_S30x32_S2000x32_1_0_0_1_n_n.rhsNonContracting by decide)]
  rfl
abbrev lidx_main_v12 (i : S2000x32.Idx) (k : Fin 30) : S2000x30.Idx := fun a => match a with
  | ⟨0, _⟩ => ⟨(i 0).val, (i 0).isLt⟩
  | ⟨1, _⟩ => ⟨k.val, k.isLt⟩
abbrev ridx_main_v12 (i : S2000x32.Idx) (k : Fin 30) : S30x32.Idx := fun a => match a with
  | ⟨0, _⟩ => ⟨k.val, k.isLt⟩
  | ⟨1, _⟩ => ⟨(i 1).val, (i 1).isLt⟩

theorem val_main_v12_apply (x0 : (⟨S2000x30, .f32⟩ : BufTy).Contents (Elt Ideal)) (x13 : (⟨S30x32, .f32⟩ : BufTy).Contents (Elt Ideal)) (i : S2000x32.Idx) :
    val_main_v12 (F := Ideal) x0 x13 i = ∑ k : Fin 30, x0 (lidx_main_v12 i k) * x13 (ridx_main_v12 i k) := by
  unfold val_main_v12
  simp only [Host.dotGeneral]
  rw [Ideal.dotGeneral_apply, ← Equiv.sum_comp (ValueIdx.contrEquiv1 dot_S2000x30_S30x32_S2000x32_1_0_0_1_n_n 30 rfl rfl).symm]
  refine Finset.sum_congr rfl fun k _ => ?_
  have hk := ValueIdx.contrEquiv1_symm_val dot_S2000x30_S30x32_S2000x32_1_0_0_1_n_n 30 rfl rfl k
  have el : dot_S2000x30_S30x32_S2000x32_1_0_0_1_n_n.lhsIdx i ((ValueIdx.contrEquiv1 dot_S2000x30_S30x32_S2000x32_1_0_0_1_n_n 30 rfl rfl).symm k) = lidx_main_v12 i k := funext fun a => Fin.ext (by
    match a with
    | ⟨0, _⟩ => exact lhs_main_v12_0 _ _
    | ⟨1, _⟩ => exact (lhs_main_v12_1 _ _).trans hk)
  have er : dot_S2000x30_S30x32_S2000x32_1_0_0_1_n_n.rhsIdx i ((ValueIdx.contrEquiv1 dot_S2000x30_S30x32_S2000x32_1_0_0_1_n_n 30 rfl rfl).symm k) = ridx_main_v12 i k := funext fun a => Fin.ext (by
    match a with
    | ⟨0, _⟩ => exact (rhs_main_v12_0 _ _).trans hk
    | ⟨1, _⟩ => exact rhs_main_v12_1 _ _)
  rw [el, er]

def val_main_v13 : (⟨S1x32, .f32⟩ : BufTy).Contents (Elt F) :=
  broadcastInDim S1x32 ![1] bcast_S32_S1x32_1 (x14)
abbrev idx_main_v13 (i : S1x32.Idx) : S32.Idx := fun a => match a with
  | ⟨0, _⟩ => ⟨(i 1).val, (i 1).isLt⟩
theorem val_main_v13_apply (i : S1x32.Idx) :
    val_main_v13 (F := F) x14 i = x14 (idx_main_v13 i) := by
  unfold val_main_v13
  exact broadcastInDim_apply _ bcast_S32_S1x32_1 x14 i (idx_main_v13 i) (fun a => match a with
    | ⟨0, _⟩ => by show (i 1).val = if (32 : Nat) = 1 then 0 else (i 1).val; rw [if_neg (by decide)])

def val_main_v14 : (⟨S2000x32, .f32⟩ : BufTy).Contents (Elt F) :=
  broadcastInDim S2000x32 ![0, 1] bcast_S1x32_S2000x32_0_1 (val_main_v13 (F := F) x14)
abbrev idx_main_v14 (i : S2000x32.Idx) : S1x32.Idx := fun a => match a with
  | ⟨0, _⟩ => ⟨0, Nat.one_pos⟩
  | ⟨1, _⟩ => ⟨(i 1).val, (i 1).isLt⟩
theorem val_main_v14_apply (i : S2000x32.Idx) :
    val_main_v14 (F := F) x14 i = val_main_v13 (F := F) x14 (idx_main_v14 i) := by
  unfold val_main_v14
  generalize val_main_v13 (F := F) x14 = y
  exact broadcastInDim_apply _ bcast_S1x32_S2000x32_0_1 y i (idx_main_v14 i) (fun a => match a with
    | ⟨0, _⟩ => by show 0 = if (1 : Nat) = 1 then 0 else (i 0).val; rw [if_pos rfl]
    | ⟨1, _⟩ => by show (i 1).val = if (32 : Nat) = 1 then 0 else (i 1).val; rw [if_neg (by decide)])

def val_main_v15 : (⟨S2000x32, .f32⟩ : BufTy).Contents (Elt F) :=
  addf (val_main_v12 (F := F) x0 x13) (val_main_v14 (F := F) x14)
theorem val_main_v15_apply (i : S2000x32.Idx) :
    val_main_v15 (F := F) x0 x13 x14 i = FloatOps.addf (val_main_v12 (F := F) x0 x13 i) (val_main_v14 (F := F) x14 i) := rfl

def val_main_cst_2 : (⟨S_, .f32⟩ : BufTy).Contents (Elt F) :=
  constant S_ .f32 0x40B504F3#32
theorem val_main_cst_2_apply (i : S_.Idx) :
    val_main_cst_2 (F := F) i = FloatOps.ofBits .f32 0x40B504F3#32 := rfl

def val_main_v16 : (⟨S4000x32, .f32⟩ : BufTy).Contents (Elt F) :=
  broadcastInDim S4000x32 ![] bcast_S_S4000x32 (val_main_cst_2 (F := F))
abbrev idx_main_v16 (i : S4000x32.Idx) : S_.Idx := fun a => a.elim0
theorem val_main_v16_apply (i : S4000x32.Idx) :
    val_main_v16 (F := F) i = val_main_cst_2 (F := F) (idx_main_v16 i) := by
  unfold val_main_v16
  generalize val_main_cst_2 (F := F) = y
  exact broadcastInDim_apply _ bcast_S_S4000x32 y i (idx_main_v16 i) (fun a => a.elim0)

def val_main_v17 : (⟨S4000x32, .f32⟩ : BufTy).Contents (Elt F) :=
  Host.divf (val_main_v11 (F := F) x2 x11 x12) (val_main_v16 (F := F))
theorem val_main_v17_apply (i : S4000x32.Idx) :
    val_main_v17 (F := F) x2 x11 x12 i = FloatOps.hostDivf (val_main_v11 (F := F) x2 x11 x12 i) (val_main_v16 (F := F) i) := rfl

def val_main_v18 : (⟨S32x2000, .f32⟩ : BufTy).Contents (Elt F) :=
  transpose S32x2000 [1, 0] (val_main_v15 (F := F) x0 x13 x14) transposes_S2000x32_S32x2000_1_0
abbrev idx_main_v18 (i : S32x2000.Idx) : S2000x32.Idx := fun a => match a with
  | ⟨0, _⟩ => ⟨(i 1).val, (i 1).isLt⟩
  | ⟨1, _⟩ => ⟨(i 0).val, (i 0).isLt⟩
theorem val_main_v18_apply (i : S32x2000.Idx) :
    val_main_v18 (F := F) x0 x13 x14 i = val_main_v15 (F := F) x0 x13 x14 (idx_main_v18 i) := by
  unfold val_main_v18
  generalize val_main_v15 (F := F) x0 x13 x14 = y
  exact transpose_apply [1, 0] y transposes_S2000x32_S32x2000_1_0 i (idx_main_v18 i) (fun b => match b with
    | ⟨0, _⟩ => rfl
    | ⟨1, _⟩ => rfl)

def val_main_v19 : (⟨S4000x2000, .f32⟩ : BufTy).Contents (Elt F) :=
  Host.dotGeneral dot_S4000x32_S32x2000_S4000x2000_1_0_0_1_n_n none (val_main_v17 (F := F) x2 x11 x12) (val_main_v18 (F := F) x0 x13 x14)
theorem lhs_main_v19_0 (i : S4000x2000.Idx) (q : dot_S4000x32_S32x2000_S4000x2000_1_0_0_1_n_n.contr.Idx) :
    (dot_S4000x32_S32x2000_S4000x2000_1_0_0_1_n_n.lhsIdx i q 0).val = (i 0).val := by
  unfold DotDims.lhsIdx
  rw [dif_neg (show ¬(0 : Fin S4000x32.rank) ∈ dot_S4000x32_S32x2000_S4000x2000_1_0_0_1_n_n.lhsBatch by decide), dif_pos (show (0 : Fin S4000x32.rank) ∈ dot_S4000x32_S32x2000_S4000x2000_1_0_0_1_n_n.lhsNonContracting by decide)]
  rfl
theorem lhs_main_v19_1 (i : S4000x2000.Idx) (q : dot_S4000x32_S32x2000_S4000x2000_1_0_0_1_n_n.contr.Idx) :
    (dot_S4000x32_S32x2000_S4000x2000_1_0_0_1_n_n.lhsIdx i q 1).val = (q ⟨0, by decide⟩).val :=
  dot_S4000x32_S32x2000_S4000x2000_1_0_0_1_n_n.lhsIdx_val_of_single rfl i q
theorem rhs_main_v19_0 (i : S4000x2000.Idx) (q : dot_S4000x32_S32x2000_S4000x2000_1_0_0_1_n_n.contr.Idx) :
    (dot_S4000x32_S32x2000_S4000x2000_1_0_0_1_n_n.rhsIdx i q 0).val = (q ⟨0, by decide⟩).val :=
  dot_S4000x32_S32x2000_S4000x2000_1_0_0_1_n_n.rhsIdx_val_of_single rfl i q
theorem rhs_main_v19_1 (i : S4000x2000.Idx) (q : dot_S4000x32_S32x2000_S4000x2000_1_0_0_1_n_n.contr.Idx) :
    (dot_S4000x32_S32x2000_S4000x2000_1_0_0_1_n_n.rhsIdx i q 1).val = (i 1).val := by
  unfold DotDims.rhsIdx
  rw [dif_neg (show ¬(1 : Fin S32x2000.rank) ∈ dot_S4000x32_S32x2000_S4000x2000_1_0_0_1_n_n.rhsBatch by decide), dif_pos (show (1 : Fin S32x2000.rank) ∈ dot_S4000x32_S32x2000_S4000x2000_1_0_0_1_n_n.rhsNonContracting by decide)]
  rfl
abbrev lidx_main_v19 (i : S4000x2000.Idx) (k : Fin 32) : S4000x32.Idx := fun a => match a with
  | ⟨0, _⟩ => ⟨(i 0).val, (i 0).isLt⟩
  | ⟨1, _⟩ => ⟨k.val, k.isLt⟩
abbrev ridx_main_v19 (i : S4000x2000.Idx) (k : Fin 32) : S32x2000.Idx := fun a => match a with
  | ⟨0, _⟩ => ⟨k.val, k.isLt⟩
  | ⟨1, _⟩ => ⟨(i 1).val, (i 1).isLt⟩

theorem val_main_v19_apply (x0 : (⟨S2000x30, .f32⟩ : BufTy).Contents (Elt Ideal)) (x2 : (⟨S4000x30, .f32⟩ : BufTy).Contents (Elt Ideal)) (x11 : (⟨S30x32, .f32⟩ : BufTy).Contents (Elt Ideal)) (x12 : (⟨S32, .f32⟩ : BufTy).Contents (Elt Ideal)) (x13 : (⟨S30x32, .f32⟩ : BufTy).Contents (Elt Ideal)) (x14 : (⟨S32, .f32⟩ : BufTy).Contents (Elt Ideal)) (i : S4000x2000.Idx) :
    val_main_v19 (F := Ideal) x0 x2 x11 x12 x13 x14 i = ∑ k : Fin 32, (val_main_v17 (F := Ideal) x2 x11 x12) (lidx_main_v19 i k) * (val_main_v18 (F := Ideal) x0 x13 x14) (ridx_main_v19 i k) := by
  unfold val_main_v19
  generalize val_main_v17 (F := Ideal) x2 x11 x12 = y0
  generalize val_main_v18 (F := Ideal) x0 x13 x14 = y1
  simp only [Host.dotGeneral]
  rw [Ideal.dotGeneral_apply, ← Equiv.sum_comp (ValueIdx.contrEquiv1 dot_S4000x32_S32x2000_S4000x2000_1_0_0_1_n_n 32 rfl rfl).symm]
  refine Finset.sum_congr rfl fun k _ => ?_
  have hk := ValueIdx.contrEquiv1_symm_val dot_S4000x32_S32x2000_S4000x2000_1_0_0_1_n_n 32 rfl rfl k
  have el : dot_S4000x32_S32x2000_S4000x2000_1_0_0_1_n_n.lhsIdx i ((ValueIdx.contrEquiv1 dot_S4000x32_S32x2000_S4000x2000_1_0_0_1_n_n 32 rfl rfl).symm k) = lidx_main_v19 i k := funext fun a => Fin.ext (by
    match a with
    | ⟨0, _⟩ => exact lhs_main_v19_0 _ _
    | ⟨1, _⟩ => exact (lhs_main_v19_1 _ _).trans hk)
  have er : dot_S4000x32_S32x2000_S4000x2000_1_0_0_1_n_n.rhsIdx i ((ValueIdx.contrEquiv1 dot_S4000x32_S32x2000_S4000x2000_1_0_0_1_n_n 32 rfl rfl).symm k) = ridx_main_v19 i k := funext fun a => Fin.ext (by
    match a with
    | ⟨0, _⟩ => exact (rhs_main_v19_0 _ _).trans hk
    | ⟨1, _⟩ => exact rhs_main_v19_1 _ _)
  rw [el, er]

def val_main_call0_cst : (⟨S_, .f32⟩ : BufTy).Contents (Elt F) :=
  constant S_ .f32 0xFF800000#32
theorem val_main_call0_cst_apply (i : S_.Idx) :
    val_main_call0_cst (F := F) i = FloatOps.ofBits .f32 0xFF800000#32 := rfl

def val_main_call0_v0 : (⟨S4000, .f32⟩ : BufTy).Contents (Elt F) :=
  Host.reduce FloatOps.maximumf (val_main_v19 (F := F) x0 x2 x11 x12 x13 x14) (val_main_call0_cst (F := F)) reducesTo_S4000x2000_S4000_d1 h_S_

def val_main_call0_cst_0 : (⟨S_, .f32⟩ : BufTy).Contents (Elt F) :=
  constant S_ .f32 0xFF800000#32
theorem val_main_call0_cst_0_apply (i : S_.Idx) :
    val_main_call0_cst_0 (F := F) i = FloatOps.ofBits .f32 0xFF800000#32 := rfl

def val_main_call0_v1 : (⟨S4000, .f32⟩ : BufTy).Contents (Elt F) :=
  broadcastInDim S4000 ![] bcast_S_S4000 (val_main_call0_cst_0 (F := F))
abbrev idx_main_call0_v1 (i : S4000.Idx) : S_.Idx := fun a => a.elim0
theorem val_main_call0_v1_apply (i : S4000.Idx) :
    val_main_call0_v1 (F := F) i = val_main_call0_cst_0 (F := F) (idx_main_call0_v1 i) := by
  unfold val_main_call0_v1
  generalize val_main_call0_cst_0 (F := F) = y
  exact broadcastInDim_apply _ bcast_S_S4000 y i (idx_main_call0_v1 i) (fun a => a.elim0)

def val_main_call0_v2 : (⟨S4000, .f32⟩ : BufTy).Contents (Elt F) :=
  maximumf (val_main_call0_v1 (F := F)) (val_main_call0_v0 (F := F) x0 x2 x11 x12 x13 x14)
theorem val_main_call0_v2_apply (i : S4000.Idx) :
    val_main_call0_v2 (F := F) x0 x2 x11 x12 x13 x14 i = FloatOps.maximumf (val_main_call0_v1 (F := F) i) (val_main_call0_v0 (F := F) x0 x2 x11 x12 x13 x14 i) := rfl

def val_main_call0_v3 : (⟨S4000x1, .f32⟩ : BufTy).Contents (Elt F) :=
  broadcastInDim S4000x1 ![0] bcast_S4000_S4000x1_0 (val_main_call0_v2 (F := F) x0 x2 x11 x12 x13 x14)
abbrev idx_main_call0_v3 (i : S4000x1.Idx) : S4000.Idx := fun a => match a with
  | ⟨0, _⟩ => ⟨(i 0).val, (i 0).isLt⟩
theorem val_main_call0_v3_apply (i : S4000x1.Idx) :
    val_main_call0_v3 (F := F) x0 x2 x11 x12 x13 x14 i = val_main_call0_v2 (F := F) x0 x2 x11 x12 x13 x14 (idx_main_call0_v3 i) := by
  unfold val_main_call0_v3
  generalize val_main_call0_v2 (F := F) x0 x2 x11 x12 x13 x14 = y
  exact broadcastInDim_apply _ bcast_S4000_S4000x1_0 y i (idx_main_call0_v3 i) (fun a => match a with
    | ⟨0, _⟩ => by show (i 0).val = if (4000 : Nat) = 1 then 0 else (i 0).val; rw [if_neg (by decide)])

def val_main_call0_v4 : (⟨S4000x2000, .f32⟩ : BufTy).Contents (Elt F) :=
  broadcastInDim S4000x2000 ![0, 1] bcast_S4000x1_S4000x2000_0_1 (val_main_call0_v3 (F := F) x0 x2 x11 x12 x13 x14)
abbrev idx_main_call0_v4 (i : S4000x2000.Idx) : S4000x1.Idx := fun a => match a with
  | ⟨0, _⟩ => ⟨(i 0).val, (i 0).isLt⟩
  | ⟨1, _⟩ => ⟨0, Nat.one_pos⟩
theorem val_main_call0_v4_apply (i : S4000x2000.Idx) :
    val_main_call0_v4 (F := F) x0 x2 x11 x12 x13 x14 i = val_main_call0_v3 (F := F) x0 x2 x11 x12 x13 x14 (idx_main_call0_v4 i) := by
  unfold val_main_call0_v4
  generalize val_main_call0_v3 (F := F) x0 x2 x11 x12 x13 x14 = y
  exact broadcastInDim_apply _ bcast_S4000x1_S4000x2000_0_1 y i (idx_main_call0_v4 i) (fun a => match a with
    | ⟨0, _⟩ => by show (i 0).val = if (4000 : Nat) = 1 then 0 else (i 0).val; rw [if_neg (by decide)]
    | ⟨1, _⟩ => by show 0 = if (1 : Nat) = 1 then 0 else (i 1).val; rw [if_pos rfl])

def val_main_call0_v5 : (⟨S4000x2000, .f32⟩ : BufTy).Contents (Elt F) :=
  subf (val_main_v19 (F := F) x0 x2 x11 x12 x13 x14) (val_main_call0_v4 (F := F) x0 x2 x11 x12 x13 x14)
theorem val_main_call0_v5_apply (i : S4000x2000.Idx) :
    val_main_call0_v5 (F := F) x0 x2 x11 x12 x13 x14 i = FloatOps.subf (val_main_v19 (F := F) x0 x2 x11 x12 x13 x14 i) (val_main_call0_v4 (F := F) x0 x2 x11 x12 x13 x14 i) := rfl

def val_main_call0_v6 : (⟨S4000x2000, .f32⟩ : BufTy).Contents (Elt F) :=
  Host.exp (val_main_call0_v5 (F := F) x0 x2 x11 x12 x13 x14)
theorem val_main_call0_v6_apply (i : S4000x2000.Idx) :
    val_main_call0_v6 (F := F) x0 x2 x11 x12 x13 x14 i = FloatOps.hostUnary .exp (val_main_call0_v5 (F := F) x0 x2 x11 x12 x13 x14 i) := rfl

def val_main_call0_cst_1 : (⟨S_, .f32⟩ : BufTy).Contents (Elt F) :=
  constant S_ .f32 0x00000000#32
theorem val_main_call0_cst_1_apply (i : S_.Idx) :
    val_main_call0_cst_1 (F := F) i = FloatOps.ofBits .f32 0x00000000#32 := rfl

def val_main_call0_v7 : (⟨S4000, .f32⟩ : BufTy).Contents (Elt F) :=
  Host.reduceAdd (val_main_call0_v6 (F := F) x0 x2 x11 x12 x13 x14) (val_main_call0_cst_1 (F := F)) reducesTo_S4000x2000_S4000_d1 h_S_
abbrev idx_main_call0_v7 (i : S4000.Idx) (k : Fin 2000) : S4000x2000.Idx := fun a => match a with
  | ⟨0, _⟩ => ⟨(i 0).val, (i 0).isLt⟩
  | ⟨1, _⟩ => ⟨k.val, k.isLt⟩

theorem val_main_call0_v7_apply (x0 : (⟨S2000x30, .f32⟩ : BufTy).Contents (Elt Ideal)) (x2 : (⟨S4000x30, .f32⟩ : BufTy).Contents (Elt Ideal)) (x11 : (⟨S30x32, .f32⟩ : BufTy).Contents (Elt Ideal)) (x12 : (⟨S32, .f32⟩ : BufTy).Contents (Elt Ideal)) (x13 : (⟨S30x32, .f32⟩ : BufTy).Contents (Elt Ideal)) (x14 : (⟨S32, .f32⟩ : BufTy).Contents (Elt Ideal)) (i : S4000.Idx) :
    val_main_call0_v7 (F := Ideal) x0 x2 x11 x12 x13 x14 i = (val_main_call0_cst_1 (F := Ideal)) (Shape.Idx.first h_S_) + ∑ k : Fin 2000, (val_main_call0_v6 (F := Ideal) x0 x2 x11 x12 x13 x14) (idx_main_call0_v7 i k) := by
  unfold val_main_call0_v7
  generalize val_main_call0_v6 (F := Ideal) x0 x2 x11 x12 x13 x14 = y0
  simp only [Host.reduceAdd, Ideal.hostReduceAdd_def]
  rw [Ideal.hostReduceAdd_single reducesTo_S4000x2000_S4000_d1 (by decide)]
  refine congrArg (_ + ·) (Finset.sum_congr rfl fun k _ => ?_)
  exact congrArg y0 (funext fun a => Fin.ext (by match a with | ⟨0, _⟩ => rfl | ⟨1, _⟩ => rfl))

def val_main_call0_v8 : (⟨S4000x1, .f32⟩ : BufTy).Contents (Elt F) :=
  broadcastInDim S4000x1 ![0] bcast_S4000_S4000x1_0 (val_main_call0_v7 (F := F) x0 x2 x11 x12 x13 x14)
abbrev idx_main_call0_v8 (i : S4000x1.Idx) : S4000.Idx := fun a => match a with
  | ⟨0, _⟩ => ⟨(i 0).val, (i 0).isLt⟩
theorem val_main_call0_v8_apply (i : S4000x1.Idx) :
    val_main_call0_v8 (F := F) x0 x2 x11 x12 x13 x14 i = val_main_call0_v7 (F := F) x0 x2 x11 x12 x13 x14 (idx_main_call0_v8 i) := by
  unfold val_main_call0_v8
  generalize val_main_call0_v7 (F := F) x0 x2 x11 x12 x13 x14 = y
  exact broadcastInDim_apply _ bcast_S4000_S4000x1_0 y i (idx_main_call0_v8 i) (fun a => match a with
    | ⟨0, _⟩ => by show (i 0).val = if (4000 : Nat) = 1 then 0 else (i 0).val; rw [if_neg (by decide)])

def val_main_call0_v9 : (⟨S4000x1, .f32⟩ : BufTy).Contents (Elt F) :=
  Host.log (val_main_call0_v8 (F := F) x0 x2 x11 x12 x13 x14)
theorem val_main_call0_v9_apply (i : S4000x1.Idx) :
    val_main_call0_v9 (F := F) x0 x2 x11 x12 x13 x14 i = FloatOps.hostUnary .log (val_main_call0_v8 (F := F) x0 x2 x11 x12 x13 x14 i) := rfl

def val_main_call0_v10 : (⟨S4000x2000, .f32⟩ : BufTy).Contents (Elt F) :=
  broadcastInDim S4000x2000 ![0, 1] bcast_S4000x1_S4000x2000_0_1 (val_main_call0_v9 (F := F) x0 x2 x11 x12 x13 x14)
abbrev idx_main_call0_v10 (i : S4000x2000.Idx) : S4000x1.Idx := fun a => match a with
  | ⟨0, _⟩ => ⟨(i 0).val, (i 0).isLt⟩
  | ⟨1, _⟩ => ⟨0, Nat.one_pos⟩
theorem val_main_call0_v10_apply (i : S4000x2000.Idx) :
    val_main_call0_v10 (F := F) x0 x2 x11 x12 x13 x14 i = val_main_call0_v9 (F := F) x0 x2 x11 x12 x13 x14 (idx_main_call0_v10 i) := by
  unfold val_main_call0_v10
  generalize val_main_call0_v9 (F := F) x0 x2 x11 x12 x13 x14 = y
  exact broadcastInDim_apply _ bcast_S4000x1_S4000x2000_0_1 y i (idx_main_call0_v10 i) (fun a => match a with
    | ⟨0, _⟩ => by show (i 0).val = if (4000 : Nat) = 1 then 0 else (i 0).val; rw [if_neg (by decide)]
    | ⟨1, _⟩ => by show 0 = if (1 : Nat) = 1 then 0 else (i 1).val; rw [if_pos rfl])

def val_main_v20 : (⟨S4000x2000, .f32⟩ : BufTy).Contents (Elt F) :=
  subf (val_main_call0_v5 (F := F) x0 x2 x11 x12 x13 x14) (val_main_call0_v10 (F := F) x0 x2 x11 x12 x13 x14)
theorem val_main_v20_apply (i : S4000x2000.Idx) :
    val_main_v20 (F := F) x0 x2 x11 x12 x13 x14 i = FloatOps.subf (val_main_call0_v5 (F := F) x0 x2 x11 x12 x13 x14 i) (val_main_call0_v10 (F := F) x0 x2 x11 x12 x13 x14 i) := rfl

def val_main_v21 : (⟨S4000x2000, .f32⟩ : BufTy).Contents (Elt F) :=
  Host.exp (val_main_v20 (F := F) x0 x2 x11 x12 x13 x14)
theorem val_main_v21_apply (i : S4000x2000.Idx) :
    val_main_v21 (F := F) x0 x2 x11 x12 x13 x14 i = FloatOps.hostUnary .exp (val_main_v20 (F := F) x0 x2 x11 x12 x13 x14 i) := rfl

def val_main_v22 : (⟨S1x1, .f32⟩ : BufTy).Contents (Elt F) :=
  Host.negf (x6)
theorem val_main_v22_apply (i : S1x1.Idx) :
    val_main_v22 (F := F) x6 i = FloatOps.hostNegf (x6 i) := rfl

def val_main_v23 : (⟨S1x2000, .f32⟩ : BufTy).Contents (Elt F) :=
  broadcastInDim S1x2000 ![1] bcast_S2000_S1x2000_1 (x4)
abbrev idx_main_v23 (i : S1x2000.Idx) : S2000.Idx := fun a => match a with
  | ⟨0, _⟩ => ⟨(i 1).val, (i 1).isLt⟩
theorem val_main_v23_apply (i : S1x2000.Idx) :
    val_main_v23 (F := F) x4 i = x4 (idx_main_v23 i) := by
  unfold val_main_v23
  exact broadcastInDim_apply _ bcast_S2000_S1x2000_1 x4 i (idx_main_v23 i) (fun a => match a with
    | ⟨0, _⟩ => by show (i 1).val = if (2000 : Nat) = 1 then 0 else (i 1).val; rw [if_neg (by decide)])

def val_main_v24 : (⟨S1x2000, .f32⟩ : BufTy).Contents (Elt F) :=
  broadcastInDim S1x2000 ![0, 1] bcast_S1x1_S1x2000_0_1 (x9)
abbrev idx_main_v24 (i : S1x2000.Idx) : S1x1.Idx := fun a => match a with
  | ⟨0, _⟩ => ⟨0, Nat.one_pos⟩
  | ⟨1, _⟩ => ⟨0, Nat.one_pos⟩
theorem val_main_v24_apply (i : S1x2000.Idx) :
    val_main_v24 (F := F) x9 i = x9 (idx_main_v24 i) := by
  unfold val_main_v24
  exact broadcastInDim_apply _ bcast_S1x1_S1x2000_0_1 x9 i (idx_main_v24 i) (fun a => match a with
    | ⟨0, _⟩ => by show 0 = if (1 : Nat) = 1 then 0 else (i 0).val; rw [if_pos rfl]
    | ⟨1, _⟩ => by show 0 = if (1 : Nat) = 1 then 0 else (i 1).val; rw [if_pos rfl])

def val_main_v25 : (⟨S1x2000, .f32⟩ : BufTy).Contents (Elt F) :=
  mulf (val_main_v24 (F := F) x9) (val_main_v23 (F := F) x4)
theorem val_main_v25_apply (i : S1x2000.Idx) :
    val_main_v25 (F := F) x4 x9 i = FloatOps.mulf (val_main_v24 (F := F) x9 i) (val_main_v23 (F := F) x4 i) := rfl

def val_main_v26 : (⟨S1x2000, .f32⟩ : BufTy).Contents (Elt F) :=
  broadcastInDim S1x2000 ![0, 1] bcast_S1x1_S1x2000_0_1 (x10)
abbrev idx_main_v26 (i : S1x2000.Idx) : S1x1.Idx := fun a => match a with
  | ⟨0, _⟩ => ⟨0, Nat.one_pos⟩
  | ⟨1, _⟩ => ⟨0, Nat.one_pos⟩
theorem val_main_v26_apply (i : S1x2000.Idx) :
    val_main_v26 (F := F) x10 i = x10 (idx_main_v26 i) := by
  unfold val_main_v26
  exact broadcastInDim_apply _ bcast_S1x1_S1x2000_0_1 x10 i (idx_main_v26 i) (fun a => match a with
    | ⟨0, _⟩ => by show 0 = if (1 : Nat) = 1 then 0 else (i 0).val; rw [if_pos rfl]
    | ⟨1, _⟩ => by show 0 = if (1 : Nat) = 1 then 0 else (i 1).val; rw [if_pos rfl])

def val_main_v27 : (⟨S1x2000, .f32⟩ : BufTy).Contents (Elt F) :=
  addf (val_main_v25 (F := F) x4 x9) (val_main_v26 (F := F) x10)
theorem val_main_v27_apply (i : S1x2000.Idx) :
    val_main_v27 (F := F) x4 x9 x10 i = FloatOps.addf (val_main_v25 (F := F) x4 x9 i) (val_main_v26 (F := F) x10 i) := rfl

def val_main_v28 : (⟨S1x2000, .f32⟩ : BufTy).Contents (Elt F) :=
  broadcastInDim S1x2000 ![0, 1] bcast_S1x1_S1x2000_0_1 (val_main_v22 (F := F) x6)
abbrev idx_main_v28 (i : S1x2000.Idx) : S1x1.Idx := fun a => match a with
  | ⟨0, _⟩ => ⟨0, Nat.one_pos⟩
  | ⟨1, _⟩ => ⟨0, Nat.one_pos⟩
theorem val_main_v28_apply (i : S1x2000.Idx) :
    val_main_v28 (F := F) x6 i = val_main_v22 (F := F) x6 (idx_main_v28 i) := by
  unfold val_main_v28
  generalize val_main_v22 (F := F) x6 = y
  exact broadcastInDim_apply _ bcast_S1x1_S1x2000_0_1 y i (idx_main_v28 i) (fun a => match a with
    | ⟨0, _⟩ => by show 0 = if (1 : Nat) = 1 then 0 else (i 0).val; rw [if_pos rfl]
    | ⟨1, _⟩ => by show 0 = if (1 : Nat) = 1 then 0 else (i 1).val; rw [if_pos rfl])

def val_main_v29 : (⟨S1x2000, .f32⟩ : BufTy).Contents (Elt F) :=
  mulf (val_main_v28 (F := F) x6) (val_main_v27 (F := F) x4 x9 x10)
theorem val_main_v29_apply (i : S1x2000.Idx) :
    val_main_v29 (F := F) x4 x6 x9 x10 i = FloatOps.mulf (val_main_v28 (F := F) x6 i) (val_main_v27 (F := F) x4 x9 x10 i) := rfl

def val_main_v30 : (⟨S1x2000, .f32⟩ : BufTy).Contents (Elt F) :=
  Host.exp (val_main_v29 (F := F) x4 x6 x9 x10)
theorem val_main_v30_apply (i : S1x2000.Idx) :
    val_main_v30 (F := F) x4 x6 x9 x10 i = FloatOps.hostUnary .exp (val_main_v29 (F := F) x4 x6 x9 x10 i) := rfl

def val_main_v31 : (⟨S2000, .f32⟩ : BufTy).Contents (Elt F) :=
  shapeCast _ (val_main_v30 (F := F) x4 x6 x9 x10) shapeCasts_S1x2000_S2000
abbrev idx_main_v31 (i : S2000.Idx) : S1x2000.Idx := fun a => match a with
  | ⟨0, _⟩ => ⟨0, Nat.one_pos⟩
  | ⟨1, _⟩ => ⟨((i 0).val) % 2000, by have h0 : (i 0).val < 2000 := (i 0).isLt; show ((i 0).val) % 2000 < 2000; omega⟩
theorem val_main_v31_apply (i : S2000.Idx) :
    val_main_v31 (F := F) x4 x6 x9 x10 i = val_main_v30 (F := F) x4 x6 x9 x10 (idx_main_v31 i) := by
  unfold val_main_v31
  generalize val_main_v30 (F := F) x4 x6 x9 x10 = y
  exact shapeCast_apply y shapeCasts_S1x2000_S2000 i (idx_main_v31 i)
    (by rewrite [Shape.rowMajor_val_two, Shape.rowMajor_val_one]; have h0 : (i 0).val < 2000 := (i 0).isLt; show 0 * 2000 + ((i 0).val) % 2000 = (i 0).val; omega)

def val_main_v32 : (⟨S1x1, .f32⟩ : BufTy).Contents (Elt F) :=
  Host.negf (x7)
theorem val_main_v32_apply (i : S1x1.Idx) :
    val_main_v32 (F := F) x7 i = FloatOps.hostNegf (x7 i) := rfl

def val_main_v33 : (⟨S1x4000, .f32⟩ : BufTy).Contents (Elt F) :=
  broadcastInDim S1x4000 ![1] bcast_S4000_S1x4000_1 (x5)
abbrev idx_main_v33 (i : S1x4000.Idx) : S4000.Idx := fun a => match a with
  | ⟨0, _⟩ => ⟨(i 1).val, (i 1).isLt⟩
theorem val_main_v33_apply (i : S1x4000.Idx) :
    val_main_v33 (F := F) x5 i = x5 (idx_main_v33 i) := by
  unfold val_main_v33
  exact broadcastInDim_apply _ bcast_S4000_S1x4000_1 x5 i (idx_main_v33 i) (fun a => match a with
    | ⟨0, _⟩ => by show (i 1).val = if (4000 : Nat) = 1 then 0 else (i 1).val; rw [if_neg (by decide)])

def val_main_v34 : (⟨S1x4000, .f32⟩ : BufTy).Contents (Elt F) :=
  broadcastInDim S1x4000 ![0, 1] bcast_S1x1_S1x4000_0_1 (x9)
abbrev idx_main_v34 (i : S1x4000.Idx) : S1x1.Idx := fun a => match a with
  | ⟨0, _⟩ => ⟨0, Nat.one_pos⟩
  | ⟨1, _⟩ => ⟨0, Nat.one_pos⟩
theorem val_main_v34_apply (i : S1x4000.Idx) :
    val_main_v34 (F := F) x9 i = x9 (idx_main_v34 i) := by
  unfold val_main_v34
  exact broadcastInDim_apply _ bcast_S1x1_S1x4000_0_1 x9 i (idx_main_v34 i) (fun a => match a with
    | ⟨0, _⟩ => by show 0 = if (1 : Nat) = 1 then 0 else (i 0).val; rw [if_pos rfl]
    | ⟨1, _⟩ => by show 0 = if (1 : Nat) = 1 then 0 else (i 1).val; rw [if_pos rfl])

def val_main_v35 : (⟨S1x4000, .f32⟩ : BufTy).Contents (Elt F) :=
  mulf (val_main_v34 (F := F) x9) (val_main_v33 (F := F) x5)
theorem val_main_v35_apply (i : S1x4000.Idx) :
    val_main_v35 (F := F) x5 x9 i = FloatOps.mulf (val_main_v34 (F := F) x9 i) (val_main_v33 (F := F) x5 i) := rfl

def val_main_v36 : (⟨S1x4000, .f32⟩ : BufTy).Contents (Elt F) :=
  broadcastInDim S1x4000 ![0, 1] bcast_S1x1_S1x4000_0_1 (x10)
abbrev idx_main_v36 (i : S1x4000.Idx) : S1x1.Idx := fun a => match a with
  | ⟨0, _⟩ => ⟨0, Nat.one_pos⟩
  | ⟨1, _⟩ => ⟨0, Nat.one_pos⟩
theorem val_main_v36_apply (i : S1x4000.Idx) :
    val_main_v36 (F := F) x10 i = x10 (idx_main_v36 i) := by
  unfold val_main_v36
  exact broadcastInDim_apply _ bcast_S1x1_S1x4000_0_1 x10 i (idx_main_v36 i) (fun a => match a with
    | ⟨0, _⟩ => by show 0 = if (1 : Nat) = 1 then 0 else (i 0).val; rw [if_pos rfl]
    | ⟨1, _⟩ => by show 0 = if (1 : Nat) = 1 then 0 else (i 1).val; rw [if_pos rfl])

def val_main_v37 : (⟨S1x4000, .f32⟩ : BufTy).Contents (Elt F) :=
  addf (val_main_v35 (F := F) x5 x9) (val_main_v36 (F := F) x10)
theorem val_main_v37_apply (i : S1x4000.Idx) :
    val_main_v37 (F := F) x5 x9 x10 i = FloatOps.addf (val_main_v35 (F := F) x5 x9 i) (val_main_v36 (F := F) x10 i) := rfl

def val_main_v38 : (⟨S1x4000, .f32⟩ : BufTy).Contents (Elt F) :=
  broadcastInDim S1x4000 ![0, 1] bcast_S1x1_S1x4000_0_1 (val_main_v32 (F := F) x7)
abbrev idx_main_v38 (i : S1x4000.Idx) : S1x1.Idx := fun a => match a with
  | ⟨0, _⟩ => ⟨0, Nat.one_pos⟩
  | ⟨1, _⟩ => ⟨0, Nat.one_pos⟩
theorem val_main_v38_apply (i : S1x4000.Idx) :
    val_main_v38 (F := F) x7 i = val_main_v32 (F := F) x7 (idx_main_v38 i) := by
  unfold val_main_v38
  generalize val_main_v32 (F := F) x7 = y
  exact broadcastInDim_apply _ bcast_S1x1_S1x4000_0_1 y i (idx_main_v38 i) (fun a => match a with
    | ⟨0, _⟩ => by show 0 = if (1 : Nat) = 1 then 0 else (i 0).val; rw [if_pos rfl]
    | ⟨1, _⟩ => by show 0 = if (1 : Nat) = 1 then 0 else (i 1).val; rw [if_pos rfl])

def val_main_v39 : (⟨S1x4000, .f32⟩ : BufTy).Contents (Elt F) :=
  mulf (val_main_v38 (F := F) x7) (val_main_v37 (F := F) x5 x9 x10)
theorem val_main_v39_apply (i : S1x4000.Idx) :
    val_main_v39 (F := F) x5 x7 x9 x10 i = FloatOps.mulf (val_main_v38 (F := F) x7 i) (val_main_v37 (F := F) x5 x9 x10 i) := rfl

def val_main_v40 : (⟨S1x4000, .f32⟩ : BufTy).Contents (Elt F) :=
  Host.exp (val_main_v39 (F := F) x5 x7 x9 x10)
theorem val_main_v40_apply (i : S1x4000.Idx) :
    val_main_v40 (F := F) x5 x7 x9 x10 i = FloatOps.hostUnary .exp (val_main_v39 (F := F) x5 x7 x9 x10 i) := rfl

def val_main_v41 : (⟨S4000, .f32⟩ : BufTy).Contents (Elt F) :=
  shapeCast _ (val_main_v40 (F := F) x5 x7 x9 x10) shapeCasts_S1x4000_S4000
abbrev idx_main_v41 (i : S4000.Idx) : S1x4000.Idx := fun a => match a with
  | ⟨0, _⟩ => ⟨0, Nat.one_pos⟩
  | ⟨1, _⟩ => ⟨((i 0).val) % 4000, by have h0 : (i 0).val < 4000 := (i 0).isLt; show ((i 0).val) % 4000 < 4000; omega⟩
theorem val_main_v41_apply (i : S4000.Idx) :
    val_main_v41 (F := F) x5 x7 x9 x10 i = val_main_v40 (F := F) x5 x7 x9 x10 (idx_main_v41 i) := by
  unfold val_main_v41
  generalize val_main_v40 (F := F) x5 x7 x9 x10 = y
  exact shapeCast_apply y shapeCasts_S1x4000_S4000 i (idx_main_v41 i)
    (by rewrite [Shape.rowMajor_val_two, Shape.rowMajor_val_one]; have h0 : (i 0).val < 4000 := (i 0).isLt; show 0 * 4000 + ((i 0).val) % 4000 = (i 0).val; omega)

def val_main_v42 : (⟨S6001x6001, .i32⟩ : BufTy).Contents (Elt F) :=
  iotaInDim S6001x6001 32 0
theorem val_main_v42_apply (i : S6001x6001.Idx) :
    val_main_v42 (F := F) i = BitVec.ofNat 32 (i 0).val := rfl

def val_main_v43 : (⟨S6001x6001, .i32⟩ : BufTy).Contents (Elt F) :=
  iotaInDim S6001x6001 32 1
theorem val_main_v43_apply (i : S6001x6001.Idx) :
    val_main_v43 (F := F) i = BitVec.ofNat 32 (i 1).val := rfl

def val_main_c : (⟨S_, .i32⟩ : BufTy).Contents (Elt F) :=
  constantI S_ 32 0#32
theorem val_main_c_apply (i : S_.Idx) :
    val_main_c (F := F) i = 0#32 := rfl

def val_main_v44 : (⟨S6001x6001, .i32⟩ : BufTy).Contents (Elt F) :=
  broadcastInDim S6001x6001 ![] bcast_S_S6001x6001 (val_main_c (F := F))
abbrev idx_main_v44 (i : S6001x6001.Idx) : S_.Idx := fun a => a.elim0
theorem val_main_v44_apply (i : S6001x6001.Idx) :
    val_main_v44 (F := F) i = val_main_c (F := F) (idx_main_v44 i) := by
  unfold val_main_v44
  generalize val_main_c (F := F) = y
  exact broadcastInDim_apply _ bcast_S_S6001x6001 y i (idx_main_v44 i) (fun a => a.elim0)

def val_main_v45 : (⟨S6001x6001, .i32⟩ : BufTy).Contents (Elt F) :=
  addi (val_main_v42 (F := F)) (val_main_v44 (F := F))
theorem val_main_v45_apply (i : S6001x6001.Idx) :
    val_main_v45 (F := F) i = IntOp.addi (val_main_v42 (F := F) i) (val_main_v44 (F := F) i) := rfl

def val_main_v46 : (⟨S6001x6001, .i1⟩ : BufTy).Contents (Elt F) :=
  cmpi .eq (val_main_v45 (F := F)) (val_main_v43 (F := F))
theorem val_main_v46_apply (i : S6001x6001.Idx) :
    val_main_v46 (F := F) i = IntOp.cmpi .eq (val_main_v45 (F := F) i) (val_main_v43 (F := F) i) := rfl

def val_main_v47 : (⟨S6001x6001, .f32⟩ : BufTy).Contents (Elt F) :=
  uitofp .f32 (val_main_v46 (F := F))
theorem val_main_v47_apply (i : S6001x6001.Idx) :
    val_main_v47 (F := F) i = FloatOps.uitofp .f32 (val_main_v46 (F := F) i) := rfl

def val_main_c_3 : (⟨S_, .i32⟩ : BufTy).Contents (Elt F) :=
  constantI S_ 32 2000#32
theorem val_main_c_3_apply (i : S_.Idx) :
    val_main_c_3 (F := F) i = 2000#32 := rfl

def val_main_v48 : (⟨S1, .i32⟩ : BufTy).Contents (Elt F) :=
  broadcastInDim S1 ![] bcast_S_S1 (val_main_c_3 (F := F))
abbrev idx_main_v48 (i : S1.Idx) : S_.Idx := fun a => a.elim0
theorem val_main_v48_apply (i : S1.Idx) :
    val_main_v48 (F := F) i = val_main_c_3 (F := F) (idx_main_v48 i) := by
  unfold val_main_v48
  generalize val_main_c_3 (F := F) = y
  exact broadcastInDim_apply _ bcast_S_S1 y i (idx_main_v48 i) (fun a => a.elim0)

def val_main_c_4 : (⟨S_, .i32⟩ : BufTy).Contents (Elt F) :=
  constantI S_ 32 0#32
theorem val_main_c_4_apply (i : S_.Idx) :
    val_main_c_4 (F := F) i = 0#32 := rfl

def val_main_v49 : (⟨S1, .i32⟩ : BufTy).Contents (Elt F) :=
  broadcastInDim S1 ![] bcast_S_S1 (val_main_c_4 (F := F))
abbrev idx_main_v49 (i : S1.Idx) : S_.Idx := fun a => a.elim0
theorem val_main_v49_apply (i : S1.Idx) :
    val_main_v49 (F := F) i = val_main_c_4 (F := F) (idx_main_v49 i) := by
  unfold val_main_v49
  generalize val_main_c_4 (F := F) = y
  exact broadcastInDim_apply _ bcast_S_S1 y i (idx_main_v49 i) (fun a => a.elim0)

def val_main_v50 : (⟨S2, .i32⟩ : BufTy).Contents (Elt F) :=
  concatenate S2 0 [⟨S1, (val_main_v48 (F := F))⟩, ⟨S1, (val_main_v49 (F := F))⟩] concatenates_S1_S1_S2_d0

def val_main_v51 : (⟨S6001x6001, .f32⟩ : BufTy).Contents (Elt F) :=
  Host.scatter scatter_S6001x6001_S2_S4000x2000_01_n_01_0 (fun _ b => b) (val_main_v47 (F := F)) (val_main_v50 (F := F)) (val_main_v21 (F := F) x0 x2 x11 x12 x13 x14)

def val_main_c_5 : (⟨S_, .i32⟩ : BufTy).Contents (Elt F) :=
  constantI S_ 32 6000#32
theorem val_main_c_5_apply (i : S_.Idx) :
    val_main_c_5 (F := F) i = 6000#32 := rfl

def val_main_v52 : (⟨S1, .i32⟩ : BufTy).Contents (Elt F) :=
  broadcastInDim S1 ![] bcast_S_S1 (val_main_c_5 (F := F))
abbrev idx_main_v52 (i : S1.Idx) : S_.Idx := fun a => a.elim0
theorem val_main_v52_apply (i : S1.Idx) :
    val_main_v52 (F := F) i = val_main_c_5 (F := F) (idx_main_v52 i) := by
  unfold val_main_v52
  generalize val_main_c_5 (F := F) = y
  exact broadcastInDim_apply _ bcast_S_S1 y i (idx_main_v52 i) (fun a => a.elim0)

def val_main_c_6 : (⟨S_, .i32⟩ : BufTy).Contents (Elt F) :=
  constantI S_ 32 0#32
theorem val_main_c_6_apply (i : S_.Idx) :
    val_main_c_6 (F := F) i = 0#32 := rfl

def val_main_v53 : (⟨S1, .i32⟩ : BufTy).Contents (Elt F) :=
  broadcastInDim S1 ![] bcast_S_S1 (val_main_c_6 (F := F))
abbrev idx_main_v53 (i : S1.Idx) : S_.Idx := fun a => a.elim0
theorem val_main_v53_apply (i : S1.Idx) :
    val_main_v53 (F := F) i = val_main_c_6 (F := F) (idx_main_v53 i) := by
  unfold val_main_v53
  generalize val_main_c_6 (F := F) = y
  exact broadcastInDim_apply _ bcast_S_S1 y i (idx_main_v53 i) (fun a => a.elim0)

def val_main_v54 : (⟨S2, .i32⟩ : BufTy).Contents (Elt F) :=
  concatenate S2 0 [⟨S1, (val_main_v52 (F := F))⟩, ⟨S1, (val_main_v53 (F := F))⟩] concatenates_S1_S1_S2_d0

def val_main_v55 : (⟨S6001x6001, .f32⟩ : BufTy).Contents (Elt F) :=
  Host.scatter scatter_S6001x6001_S2_S2000_0_0_01_0 (fun _ b => b) (val_main_v51 (F := F) x0 x2 x11 x12 x13 x14) (val_main_v54 (F := F)) (val_main_v31 (F := F) x4 x6 x9 x10)

def val_main_c_7 : (⟨S_, .i32⟩ : BufTy).Contents (Elt F) :=
  constantI S_ 32 2000#32
theorem val_main_c_7_apply (i : S_.Idx) :
    val_main_c_7 (F := F) i = 2000#32 := rfl

def val_main_v56 : (⟨S1, .i32⟩ : BufTy).Contents (Elt F) :=
  broadcastInDim S1 ![] bcast_S_S1 (val_main_c_7 (F := F))
abbrev idx_main_v56 (i : S1.Idx) : S_.Idx := fun a => a.elim0
theorem val_main_v56_apply (i : S1.Idx) :
    val_main_v56 (F := F) i = val_main_c_7 (F := F) (idx_main_v56 i) := by
  unfold val_main_v56
  generalize val_main_c_7 (F := F) = y
  exact broadcastInDim_apply _ bcast_S_S1 y i (idx_main_v56 i) (fun a => a.elim0)

def val_main_c_8 : (⟨S_, .i32⟩ : BufTy).Contents (Elt F) :=
  constantI S_ 32 6000#32
theorem val_main_c_8_apply (i : S_.Idx) :
    val_main_c_8 (F := F) i = 6000#32 := rfl

def val_main_v57 : (⟨S1, .i32⟩ : BufTy).Contents (Elt F) :=
  broadcastInDim S1 ![] bcast_S_S1 (val_main_c_8 (F := F))
abbrev idx_main_v57 (i : S1.Idx) : S_.Idx := fun a => a.elim0
theorem val_main_v57_apply (i : S1.Idx) :
    val_main_v57 (F := F) i = val_main_c_8 (F := F) (idx_main_v57 i) := by
  unfold val_main_v57
  generalize val_main_c_8 (F := F) = y
  exact broadcastInDim_apply _ bcast_S_S1 y i (idx_main_v57 i) (fun a => a.elim0)

def val_main_v58 : (⟨S2, .i32⟩ : BufTy).Contents (Elt F) :=
  concatenate S2 0 [⟨S1, (val_main_v56 (F := F))⟩, ⟨S1, (val_main_v57 (F := F))⟩] concatenates_S1_S1_S2_d0

def val_main_v59 : (⟨S6001x6001, .f32⟩ : BufTy).Contents (Elt F) :=
  Host.scatter scatter_S6001x6001_S2_S4000_0_1_01_0 (fun _ b => b) (val_main_v55 (F := F) x0 x2 x4 x6 x9 x10 x11 x12 x13 x14) (val_main_v58 (F := F)) (val_main_v41 (F := F) x5 x7 x9 x10)

def val_main_cst_9 : (⟨S_, .f32⟩ : BufTy).Contents (Elt F) :=
  constant S_ .f32 0x00000000#32
theorem val_main_cst_9_apply (i : S_.Idx) :
    val_main_cst_9 (F := F) i = FloatOps.ofBits .f32 0x00000000#32 := rfl

def val_main_v60 : (⟨S6001, .f32⟩ : BufTy).Contents (Elt F) :=
  Host.reduceAdd (val_main_v59 (F := F) x0 x2 x4 x5 x6 x7 x9 x10 x11 x12 x13 x14) (val_main_cst_9 (F := F)) reducesTo_S6001x6001_S6001_d1 h_S_
abbrev idx_main_v60 (i : S6001.Idx) (k : Fin 6001) : S6001x6001.Idx := fun a => match a with
  | ⟨0, _⟩ => ⟨(i 0).val, (i 0).isLt⟩
  | ⟨1, _⟩ => ⟨k.val, k.isLt⟩

theorem val_main_v60_apply (x0 : (⟨S2000x30, .f32⟩ : BufTy).Contents (Elt Ideal)) (x2 : (⟨S4000x30, .f32⟩ : BufTy).Contents (Elt Ideal)) (x4 : (⟨S2000, .f32⟩ : BufTy).Contents (Elt Ideal)) (x5 : (⟨S4000, .f32⟩ : BufTy).Contents (Elt Ideal)) (x6 x7 x9 x10 : (⟨S1x1, .f32⟩ : BufTy).Contents (Elt Ideal)) (x11 : (⟨S30x32, .f32⟩ : BufTy).Contents (Elt Ideal)) (x12 : (⟨S32, .f32⟩ : BufTy).Contents (Elt Ideal)) (x13 : (⟨S30x32, .f32⟩ : BufTy).Contents (Elt Ideal)) (x14 : (⟨S32, .f32⟩ : BufTy).Contents (Elt Ideal)) (i : S6001.Idx) :
    val_main_v60 (F := Ideal) x0 x2 x4 x5 x6 x7 x9 x10 x11 x12 x13 x14 i = (val_main_cst_9 (F := Ideal)) (Shape.Idx.first h_S_) + ∑ k : Fin 6001, (val_main_v59 (F := Ideal) x0 x2 x4 x5 x6 x7 x9 x10 x11 x12 x13 x14) (idx_main_v60 i k) := by
  unfold val_main_v60
  generalize val_main_v59 (F := Ideal) x0 x2 x4 x5 x6 x7 x9 x10 x11 x12 x13 x14 = y0
  simp only [Host.reduceAdd, Ideal.hostReduceAdd_def]
  rw [Ideal.hostReduceAdd_single reducesTo_S6001x6001_S6001_d1 (by decide)]
  refine congrArg (_ + ·) (Finset.sum_congr rfl fun k _ => ?_)
  exact congrArg y0 (funext fun a => Fin.ext (by match a with | ⟨0, _⟩ => rfl | ⟨1, _⟩ => rfl))

def val_main_v61 : (⟨S6001x1, .f32⟩ : BufTy).Contents (Elt F) :=
  broadcastInDim S6001x1 ![0] bcast_S6001_S6001x1_0 (val_main_v60 (F := F) x0 x2 x4 x5 x6 x7 x9 x10 x11 x12 x13 x14)
abbrev idx_main_v61 (i : S6001x1.Idx) : S6001.Idx := fun a => match a with
  | ⟨0, _⟩ => ⟨(i 0).val, (i 0).isLt⟩
theorem val_main_v61_apply (i : S6001x1.Idx) :
    val_main_v61 (F := F) x0 x2 x4 x5 x6 x7 x9 x10 x11 x12 x13 x14 i = val_main_v60 (F := F) x0 x2 x4 x5 x6 x7 x9 x10 x11 x12 x13 x14 (idx_main_v61 i) := by
  unfold val_main_v61
  generalize val_main_v60 (F := F) x0 x2 x4 x5 x6 x7 x9 x10 x11 x12 x13 x14 = y
  exact broadcastInDim_apply _ bcast_S6001_S6001x1_0 y i (idx_main_v61 i) (fun a => match a with
    | ⟨0, _⟩ => by show (i 0).val = if (6001 : Nat) = 1 then 0 else (i 0).val; rw [if_neg (by decide)])

def val_main_v62 : (⟨S6001x6001, .f32⟩ : BufTy).Contents (Elt F) :=
  broadcastInDim S6001x6001 ![0, 1] bcast_S6001x1_S6001x6001_0_1 (val_main_v61 (F := F) x0 x2 x4 x5 x6 x7 x9 x10 x11 x12 x13 x14)
abbrev idx_main_v62 (i : S6001x6001.Idx) : S6001x1.Idx := fun a => match a with
  | ⟨0, _⟩ => ⟨(i 0).val, (i 0).isLt⟩
  | ⟨1, _⟩ => ⟨0, Nat.one_pos⟩
theorem val_main_v62_apply (i : S6001x6001.Idx) :
    val_main_v62 (F := F) x0 x2 x4 x5 x6 x7 x9 x10 x11 x12 x13 x14 i = val_main_v61 (F := F) x0 x2 x4 x5 x6 x7 x9 x10 x11 x12 x13 x14 (idx_main_v62 i) := by
  unfold val_main_v62
  generalize val_main_v61 (F := F) x0 x2 x4 x5 x6 x7 x9 x10 x11 x12 x13 x14 = y
  exact broadcastInDim_apply _ bcast_S6001x1_S6001x6001_0_1 y i (idx_main_v62 i) (fun a => match a with
    | ⟨0, _⟩ => by show (i 0).val = if (6001 : Nat) = 1 then 0 else (i 0).val; rw [if_neg (by decide)]
    | ⟨1, _⟩ => by show 0 = if (1 : Nat) = 1 then 0 else (i 1).val; rw [if_pos rfl])

def val_main_v63 : (⟨S6001x6001, .f32⟩ : BufTy).Contents (Elt F) :=
  Host.divf (val_main_v59 (F := F) x0 x2 x4 x5 x6 x7 x9 x10 x11 x12 x13 x14) (val_main_v62 (F := F) x0 x2 x4 x5 x6 x7 x9 x10 x11 x12 x13 x14)
theorem val_main_v63_apply (i : S6001x6001.Idx) :
    val_main_v63 (F := F) x0 x2 x4 x5 x6 x7 x9 x10 x11 x12 x13 x14 i = FloatOps.hostDivf (val_main_v59 (F := F) x0 x2 x4 x5 x6 x7 x9 x10 x11 x12 x13 x14 i) (val_main_v62 (F := F) x0 x2 x4 x5 x6 x7 x9 x10 x11 x12 x13 x14 i) := rfl

def val_main_v64 : (⟨S6001x32, .f32⟩ : BufTy).Contents (Elt F) :=
  Host.dotGeneral dot_S6001x6001_S6001x32_S6001x32_1_0_0_1_n_n none (val_main_v63 (F := F) x0 x2 x4 x5 x6 x7 x9 x10 x11 x12 x13 x14) (val_main_v7 (F := F) x0 x1 x2)
theorem lhs_main_v64_0 (i : S6001x32.Idx) (q : dot_S6001x6001_S6001x32_S6001x32_1_0_0_1_n_n.contr.Idx) :
    (dot_S6001x6001_S6001x32_S6001x32_1_0_0_1_n_n.lhsIdx i q 0).val = (i 0).val := by
  unfold DotDims.lhsIdx
  rw [dif_neg (show ¬(0 : Fin S6001x6001.rank) ∈ dot_S6001x6001_S6001x32_S6001x32_1_0_0_1_n_n.lhsBatch by decide), dif_pos (show (0 : Fin S6001x6001.rank) ∈ dot_S6001x6001_S6001x32_S6001x32_1_0_0_1_n_n.lhsNonContracting by decide)]
  rfl
theorem lhs_main_v64_1 (i : S6001x32.Idx) (q : dot_S6001x6001_S6001x32_S6001x32_1_0_0_1_n_n.contr.Idx) :
    (dot_S6001x6001_S6001x32_S6001x32_1_0_0_1_n_n.lhsIdx i q 1).val = (q ⟨0, by decide⟩).val :=
  dot_S6001x6001_S6001x32_S6001x32_1_0_0_1_n_n.lhsIdx_val_of_single rfl i q
theorem rhs_main_v64_0 (i : S6001x32.Idx) (q : dot_S6001x6001_S6001x32_S6001x32_1_0_0_1_n_n.contr.Idx) :
    (dot_S6001x6001_S6001x32_S6001x32_1_0_0_1_n_n.rhsIdx i q 0).val = (q ⟨0, by decide⟩).val :=
  dot_S6001x6001_S6001x32_S6001x32_1_0_0_1_n_n.rhsIdx_val_of_single rfl i q
theorem rhs_main_v64_1 (i : S6001x32.Idx) (q : dot_S6001x6001_S6001x32_S6001x32_1_0_0_1_n_n.contr.Idx) :
    (dot_S6001x6001_S6001x32_S6001x32_1_0_0_1_n_n.rhsIdx i q 1).val = (i 1).val := by
  unfold DotDims.rhsIdx
  rw [dif_neg (show ¬(1 : Fin S6001x32.rank) ∈ dot_S6001x6001_S6001x32_S6001x32_1_0_0_1_n_n.rhsBatch by decide), dif_pos (show (1 : Fin S6001x32.rank) ∈ dot_S6001x6001_S6001x32_S6001x32_1_0_0_1_n_n.rhsNonContracting by decide)]
  rfl
abbrev lidx_main_v64 (i : S6001x32.Idx) (k : Fin 6001) : S6001x6001.Idx := fun a => match a with
  | ⟨0, _⟩ => ⟨(i 0).val, (i 0).isLt⟩
  | ⟨1, _⟩ => ⟨k.val, k.isLt⟩
abbrev ridx_main_v64 (i : S6001x32.Idx) (k : Fin 6001) : S6001x32.Idx := fun a => match a with
  | ⟨0, _⟩ => ⟨k.val, k.isLt⟩
  | ⟨1, _⟩ => ⟨(i 1).val, (i 1).isLt⟩

theorem val_main_v64_apply (x0 : (⟨S2000x30, .f32⟩ : BufTy).Contents (Elt Ideal)) (x1 : (⟨S2000x2, .f32⟩ : BufTy).Contents (Elt Ideal)) (x2 : (⟨S4000x30, .f32⟩ : BufTy).Contents (Elt Ideal)) (x4 : (⟨S2000, .f32⟩ : BufTy).Contents (Elt Ideal)) (x5 : (⟨S4000, .f32⟩ : BufTy).Contents (Elt Ideal)) (x6 x7 x9 x10 : (⟨S1x1, .f32⟩ : BufTy).Contents (Elt Ideal)) (x11 : (⟨S30x32, .f32⟩ : BufTy).Contents (Elt Ideal)) (x12 : (⟨S32, .f32⟩ : BufTy).Contents (Elt Ideal)) (x13 : (⟨S30x32, .f32⟩ : BufTy).Contents (Elt Ideal)) (x14 : (⟨S32, .f32⟩ : BufTy).Contents (Elt Ideal)) (i : S6001x32.Idx) :
    val_main_v64 (F := Ideal) x0 x1 x2 x4 x5 x6 x7 x9 x10 x11 x12 x13 x14 i = ∑ k : Fin 6001, (val_main_v63 (F := Ideal) x0 x2 x4 x5 x6 x7 x9 x10 x11 x12 x13 x14) (lidx_main_v64 i k) * (val_main_v7 (F := Ideal) x0 x1 x2) (ridx_main_v64 i k) := by
  unfold val_main_v64
  generalize val_main_v63 (F := Ideal) x0 x2 x4 x5 x6 x7 x9 x10 x11 x12 x13 x14 = y0
  generalize val_main_v7 (F := Ideal) x0 x1 x2 = y1
  simp only [Host.dotGeneral]
  rw [Ideal.dotGeneral_apply, ← Equiv.sum_comp (ValueIdx.contrEquiv1 dot_S6001x6001_S6001x32_S6001x32_1_0_0_1_n_n 6001 rfl rfl).symm]
  refine Finset.sum_congr rfl fun k _ => ?_
  have hk := ValueIdx.contrEquiv1_symm_val dot_S6001x6001_S6001x32_S6001x32_1_0_0_1_n_n 6001 rfl rfl k
  have el : dot_S6001x6001_S6001x32_S6001x32_1_0_0_1_n_n.lhsIdx i ((ValueIdx.contrEquiv1 dot_S6001x6001_S6001x32_S6001x32_1_0_0_1_n_n 6001 rfl rfl).symm k) = lidx_main_v64 i k := funext fun a => Fin.ext (by
    match a with
    | ⟨0, _⟩ => exact lhs_main_v64_0 _ _
    | ⟨1, _⟩ => exact (lhs_main_v64_1 _ _).trans hk)
  have er : dot_S6001x6001_S6001x32_S6001x32_1_0_0_1_n_n.rhsIdx i ((ValueIdx.contrEquiv1 dot_S6001x6001_S6001x32_S6001x32_1_0_0_1_n_n 6001 rfl rfl).symm k) = ridx_main_v64 i k := funext fun a => Fin.ext (by
    match a with
    | ⟨0, _⟩ => exact (rhs_main_v64_0 _ _).trans hk
    | ⟨1, _⟩ => exact rhs_main_v64_1 _ _)
  rw [el, er]

def val_main_v65 : (⟨S6001x32, .f32⟩ : BufTy).Contents (Elt F) :=
  Host.dotGeneral dot_S6001x32_S32x32_S6001x32_1_0_0_1_n_n none (val_main_v64 (F := F) x0 x1 x2 x4 x5 x6 x7 x9 x10 x11 x12 x13 x14) (x17)
theorem lhs_main_v65_0 (i : S6001x32.Idx) (q : dot_S6001x32_S32x32_S6001x32_1_0_0_1_n_n.contr.Idx) :
    (dot_S6001x32_S32x32_S6001x32_1_0_0_1_n_n.lhsIdx i q 0).val = (i 0).val := by
  unfold DotDims.lhsIdx
  rw [dif_neg (show ¬(0 : Fin S6001x32.rank) ∈ dot_S6001x32_S32x32_S6001x32_1_0_0_1_n_n.lhsBatch by decide), dif_pos (show (0 : Fin S6001x32.rank) ∈ dot_S6001x32_S32x32_S6001x32_1_0_0_1_n_n.lhsNonContracting by decide)]
  rfl
theorem lhs_main_v65_1 (i : S6001x32.Idx) (q : dot_S6001x32_S32x32_S6001x32_1_0_0_1_n_n.contr.Idx) :
    (dot_S6001x32_S32x32_S6001x32_1_0_0_1_n_n.lhsIdx i q 1).val = (q ⟨0, by decide⟩).val :=
  dot_S6001x32_S32x32_S6001x32_1_0_0_1_n_n.lhsIdx_val_of_single rfl i q
theorem rhs_main_v65_0 (i : S6001x32.Idx) (q : dot_S6001x32_S32x32_S6001x32_1_0_0_1_n_n.contr.Idx) :
    (dot_S6001x32_S32x32_S6001x32_1_0_0_1_n_n.rhsIdx i q 0).val = (q ⟨0, by decide⟩).val :=
  dot_S6001x32_S32x32_S6001x32_1_0_0_1_n_n.rhsIdx_val_of_single rfl i q
theorem rhs_main_v65_1 (i : S6001x32.Idx) (q : dot_S6001x32_S32x32_S6001x32_1_0_0_1_n_n.contr.Idx) :
    (dot_S6001x32_S32x32_S6001x32_1_0_0_1_n_n.rhsIdx i q 1).val = (i 1).val := by
  unfold DotDims.rhsIdx
  rw [dif_neg (show ¬(1 : Fin S32x32.rank) ∈ dot_S6001x32_S32x32_S6001x32_1_0_0_1_n_n.rhsBatch by decide), dif_pos (show (1 : Fin S32x32.rank) ∈ dot_S6001x32_S32x32_S6001x32_1_0_0_1_n_n.rhsNonContracting by decide)]
  rfl
abbrev lidx_main_v65 (i : S6001x32.Idx) (k : Fin 32) : S6001x32.Idx := fun a => match a with
  | ⟨0, _⟩ => ⟨(i 0).val, (i 0).isLt⟩
  | ⟨1, _⟩ => ⟨k.val, k.isLt⟩
abbrev ridx_main_v65 (i : S6001x32.Idx) (k : Fin 32) : S32x32.Idx := fun a => match a with
  | ⟨0, _⟩ => ⟨k.val, k.isLt⟩
  | ⟨1, _⟩ => ⟨(i 1).val, (i 1).isLt⟩

theorem val_main_v65_apply (x0 : (⟨S2000x30, .f32⟩ : BufTy).Contents (Elt Ideal)) (x1 : (⟨S2000x2, .f32⟩ : BufTy).Contents (Elt Ideal)) (x2 : (⟨S4000x30, .f32⟩ : BufTy).Contents (Elt Ideal)) (x4 : (⟨S2000, .f32⟩ : BufTy).Contents (Elt Ideal)) (x5 : (⟨S4000, .f32⟩ : BufTy).Contents (Elt Ideal)) (x6 x7 x9 x10 : (⟨S1x1, .f32⟩ : BufTy).Contents (Elt Ideal)) (x11 : (⟨S30x32, .f32⟩ : BufTy).Contents (Elt Ideal)) (x12 : (⟨S32, .f32⟩ : BufTy).Contents (Elt Ideal)) (x13 : (⟨S30x32, .f32⟩ : BufTy).Contents (Elt Ideal)) (x14 : (⟨S32, .f32⟩ : BufTy).Contents (Elt Ideal)) (x17 : (⟨S32x32, .f32⟩ : BufTy).Contents (Elt Ideal)) (i : S6001x32.Idx) :
    val_main_v65 (F := Ideal) x0 x1 x2 x4 x5 x6 x7 x9 x10 x11 x12 x13 x14 x17 i = ∑ k : Fin 32, (val_main_v64 (F := Ideal) x0 x1 x2 x4 x5 x6 x7 x9 x10 x11 x12 x13 x14) (lidx_main_v65 i k) * x17 (ridx_main_v65 i k) := by
  unfold val_main_v65
  generalize val_main_v64 (F := Ideal) x0 x1 x2 x4 x5 x6 x7 x9 x10 x11 x12 x13 x14 = y0
  simp only [Host.dotGeneral]
  rw [Ideal.dotGeneral_apply, ← Equiv.sum_comp (ValueIdx.contrEquiv1 dot_S6001x32_S32x32_S6001x32_1_0_0_1_n_n 32 rfl rfl).symm]
  refine Finset.sum_congr rfl fun k _ => ?_
  have hk := ValueIdx.contrEquiv1_symm_val dot_S6001x32_S32x32_S6001x32_1_0_0_1_n_n 32 rfl rfl k
  have el : dot_S6001x32_S32x32_S6001x32_1_0_0_1_n_n.lhsIdx i ((ValueIdx.contrEquiv1 dot_S6001x32_S32x32_S6001x32_1_0_0_1_n_n 32 rfl rfl).symm k) = lidx_main_v65 i k := funext fun a => Fin.ext (by
    match a with
    | ⟨0, _⟩ => exact lhs_main_v65_0 _ _
    | ⟨1, _⟩ => exact (lhs_main_v65_1 _ _).trans hk)
  have er : dot_S6001x32_S32x32_S6001x32_1_0_0_1_n_n.rhsIdx i ((ValueIdx.contrEquiv1 dot_S6001x32_S32x32_S6001x32_1_0_0_1_n_n 32 rfl rfl).symm k) = ridx_main_v65 i k := funext fun a => Fin.ext (by
    match a with
    | ⟨0, _⟩ => exact (rhs_main_v65_0 _ _).trans hk
    | ⟨1, _⟩ => exact rhs_main_v65_1 _ _)
  rw [el, er]

def val_main_v66 : (⟨S1x32, .f32⟩ : BufTy).Contents (Elt F) :=
  broadcastInDim S1x32 ![1] bcast_S32_S1x32_1 (x18)
abbrev idx_main_v66 (i : S1x32.Idx) : S32.Idx := fun a => match a with
  | ⟨0, _⟩ => ⟨(i 1).val, (i 1).isLt⟩
theorem val_main_v66_apply (i : S1x32.Idx) :
    val_main_v66 (F := F) x18 i = x18 (idx_main_v66 i) := by
  unfold val_main_v66
  exact broadcastInDim_apply _ bcast_S32_S1x32_1 x18 i (idx_main_v66 i) (fun a => match a with
    | ⟨0, _⟩ => by show (i 1).val = if (32 : Nat) = 1 then 0 else (i 1).val; rw [if_neg (by decide)])

def val_main_v67 : (⟨S6001x32, .f32⟩ : BufTy).Contents (Elt F) :=
  broadcastInDim S6001x32 ![0, 1] bcast_S1x32_S6001x32_0_1 (val_main_v66 (F := F) x18)
abbrev idx_main_v67 (i : S6001x32.Idx) : S1x32.Idx := fun a => match a with
  | ⟨0, _⟩ => ⟨0, Nat.one_pos⟩
  | ⟨1, _⟩ => ⟨(i 1).val, (i 1).isLt⟩
theorem val_main_v67_apply (i : S6001x32.Idx) :
    val_main_v67 (F := F) x18 i = val_main_v66 (F := F) x18 (idx_main_v67 i) := by
  unfold val_main_v67
  generalize val_main_v66 (F := F) x18 = y
  exact broadcastInDim_apply _ bcast_S1x32_S6001x32_0_1 y i (idx_main_v67 i) (fun a => match a with
    | ⟨0, _⟩ => by show 0 = if (1 : Nat) = 1 then 0 else (i 0).val; rw [if_pos rfl]
    | ⟨1, _⟩ => by show (i 1).val = if (32 : Nat) = 1 then 0 else (i 1).val; rw [if_neg (by decide)])

def val_main_v68 : (⟨S6001x32, .f32⟩ : BufTy).Contents (Elt F) :=
  addf (val_main_v65 (F := F) x0 x1 x2 x4 x5 x6 x7 x9 x10 x11 x12 x13 x14 x17) (val_main_v67 (F := F) x18)
theorem val_main_v68_apply (i : S6001x32.Idx) :
    val_main_v68 (F := F) x0 x1 x2 x4 x5 x6 x7 x9 x10 x11 x12 x13 x14 x17 x18 i = FloatOps.addf (val_main_v65 (F := F) x0 x1 x2 x4 x5 x6 x7 x9 x10 x11 x12 x13 x14 x17 i) (val_main_v67 (F := F) x18 i) := rfl

def val_main_v69 : (⟨S4000x32, .f32⟩ : BufTy).Contents (Elt F) :=
  extractStridedSlice S4000x32 ![2000, 0] (val_main_v68 (F := F) x0 x1 x2 x4 x5 x6 x7 x9 x10 x11 x12 x13 x14 x17 x18) slices_S6001x32_S4000x32_2000_0
abbrev idx_main_v69 (i : S4000x32.Idx) : S6001x32.Idx := fun a => match a with
  | ⟨0, _⟩ => ⟨2000 + (i 0).val, by have h0 : (i 0).val < 4000 := (i 0).isLt; show 2000 + (i 0).val < 6001; omega⟩
  | ⟨1, _⟩ => ⟨(i 1).val, (i 1).isLt⟩
theorem val_main_v69_apply (i : S4000x32.Idx) :
    val_main_v69 (F := F) x0 x1 x2 x4 x5 x6 x7 x9 x10 x11 x12 x13 x14 x17 x18 i = val_main_v68 (F := F) x0 x1 x2 x4 x5 x6 x7 x9 x10 x11 x12 x13 x14 x17 x18 (idx_main_v69 i) := by
  unfold val_main_v69
  generalize val_main_v68 (F := F) x0 x1 x2 x4 x5 x6 x7 x9 x10 x11 x12 x13 x14 x17 x18 = y
  exact extractStridedSlice_apply ![2000, 0] y slices_S6001x32_S4000x32_2000_0 i (idx_main_v69 i) (fun a => match a with
    | ⟨0, _⟩ => by show 2000 + (i 0).val = 2000 + (i 0).val; omega
    | ⟨1, _⟩ => by show (i 1).val = 0 + (i 1).val; omega)

def val_main_v70 : (⟨S1x32, .f32⟩ : BufTy).Contents (Elt F) :=
  extractStridedSlice S1x32 ![6000, 0] (val_main_v68 (F := F) x0 x1 x2 x4 x5 x6 x7 x9 x10 x11 x12 x13 x14 x17 x18) slices_S6001x32_S1x32_6000_0
abbrev idx_main_v70 (i : S1x32.Idx) : S6001x32.Idx := fun a => match a with
  | ⟨0, _⟩ => ⟨6000 + (i 0).val, by have h0 : (i 0).val < 1 := (i 0).isLt; show 6000 + (i 0).val < 6001; omega⟩
  | ⟨1, _⟩ => ⟨(i 1).val, (i 1).isLt⟩
theorem val_main_v70_apply (i : S1x32.Idx) :
    val_main_v70 (F := F) x0 x1 x2 x4 x5 x6 x7 x9 x10 x11 x12 x13 x14 x17 x18 i = val_main_v68 (F := F) x0 x1 x2 x4 x5 x6 x7 x9 x10 x11 x12 x13 x14 x17 x18 (idx_main_v70 i) := by
  unfold val_main_v70
  generalize val_main_v68 (F := F) x0 x1 x2 x4 x5 x6 x7 x9 x10 x11 x12 x13 x14 x17 x18 = y
  exact extractStridedSlice_apply ![6000, 0] y slices_S6001x32_S1x32_6000_0 i (idx_main_v70 i) (fun a => match a with
    | ⟨0, _⟩ => by show 6000 + (i 0).val = 6000 + (i 0).val; omega
    | ⟨1, _⟩ => by show (i 1).val = 0 + (i 1).val; omega)

def val_main_v71 : (⟨S1x1, .f32⟩ : BufTy).Contents (Elt F) :=
  Host.negf (x8)
theorem val_main_v71_apply (i : S1x1.Idx) :
    val_main_v71 (F := F) x8 i = FloatOps.hostNegf (x8 i) := rfl

def val_main_v72 : (⟨S1x4000, .f32⟩ : BufTy).Contents (Elt F) :=
  broadcastInDim S1x4000 ![1] bcast_S4000_S1x4000_1 (x5)
abbrev idx_main_v72 (i : S1x4000.Idx) : S4000.Idx := fun a => match a with
  | ⟨0, _⟩ => ⟨(i 1).val, (i 1).isLt⟩
theorem val_main_v72_apply (i : S1x4000.Idx) :
    val_main_v72 (F := F) x5 i = x5 (idx_main_v72 i) := by
  unfold val_main_v72
  exact broadcastInDim_apply _ bcast_S4000_S1x4000_1 x5 i (idx_main_v72 i) (fun a => match a with
    | ⟨0, _⟩ => by show (i 1).val = if (4000 : Nat) = 1 then 0 else (i 1).val; rw [if_neg (by decide)])

def val_main_v73 : (⟨S1x4000, .f32⟩ : BufTy).Contents (Elt F) :=
  broadcastInDim S1x4000 ![0, 1] bcast_S1x1_S1x4000_0_1 (x9)
abbrev idx_main_v73 (i : S1x4000.Idx) : S1x1.Idx := fun a => match a with
  | ⟨0, _⟩ => ⟨0, Nat.one_pos⟩
  | ⟨1, _⟩ => ⟨0, Nat.one_pos⟩
theorem val_main_v73_apply (i : S1x4000.Idx) :
    val_main_v73 (F := F) x9 i = x9 (idx_main_v73 i) := by
  unfold val_main_v73
  exact broadcastInDim_apply _ bcast_S1x1_S1x4000_0_1 x9 i (idx_main_v73 i) (fun a => match a with
    | ⟨0, _⟩ => by show 0 = if (1 : Nat) = 1 then 0 else (i 0).val; rw [if_pos rfl]
    | ⟨1, _⟩ => by show 0 = if (1 : Nat) = 1 then 0 else (i 1).val; rw [if_pos rfl])

def val_main_v74 : (⟨S1x4000, .f32⟩ : BufTy).Contents (Elt F) :=
  mulf (val_main_v73 (F := F) x9) (val_main_v72 (F := F) x5)
theorem val_main_v74_apply (i : S1x4000.Idx) :
    val_main_v74 (F := F) x5 x9 i = FloatOps.mulf (val_main_v73 (F := F) x9 i) (val_main_v72 (F := F) x5 i) := rfl

def val_main_v75 : (⟨S1x4000, .f32⟩ : BufTy).Contents (Elt F) :=
  broadcastInDim S1x4000 ![0, 1] bcast_S1x1_S1x4000_0_1 (x10)
abbrev idx_main_v75 (i : S1x4000.Idx) : S1x1.Idx := fun a => match a with
  | ⟨0, _⟩ => ⟨0, Nat.one_pos⟩
  | ⟨1, _⟩ => ⟨0, Nat.one_pos⟩
theorem val_main_v75_apply (i : S1x4000.Idx) :
    val_main_v75 (F := F) x10 i = x10 (idx_main_v75 i) := by
  unfold val_main_v75
  exact broadcastInDim_apply _ bcast_S1x1_S1x4000_0_1 x10 i (idx_main_v75 i) (fun a => match a with
    | ⟨0, _⟩ => by show 0 = if (1 : Nat) = 1 then 0 else (i 0).val; rw [if_pos rfl]
    | ⟨1, _⟩ => by show 0 = if (1 : Nat) = 1 then 0 else (i 1).val; rw [if_pos rfl])

def val_main_v76 : (⟨S1x4000, .f32⟩ : BufTy).Contents (Elt F) :=
  addf (val_main_v74 (F := F) x5 x9) (val_main_v75 (F := F) x10)
theorem val_main_v76_apply (i : S1x4000.Idx) :
    val_main_v76 (F := F) x5 x9 x10 i = FloatOps.addf (val_main_v74 (F := F) x5 x9 i) (val_main_v75 (F := F) x10 i) := rfl

def val_main_v77 : (⟨S1x4000, .f32⟩ : BufTy).Contents (Elt F) :=
  broadcastInDim S1x4000 ![0, 1] bcast_S1x1_S1x4000_0_1 (val_main_v71 (F := F) x8)
abbrev idx_main_v77 (i : S1x4000.Idx) : S1x1.Idx := fun a => match a with
  | ⟨0, _⟩ => ⟨0, Nat.one_pos⟩
  | ⟨1, _⟩ => ⟨0, Nat.one_pos⟩
theorem val_main_v77_apply (i : S1x4000.Idx) :
    val_main_v77 (F := F) x8 i = val_main_v71 (F := F) x8 (idx_main_v77 i) := by
  unfold val_main_v77
  generalize val_main_v71 (F := F) x8 = y
  exact broadcastInDim_apply _ bcast_S1x1_S1x4000_0_1 y i (idx_main_v77 i) (fun a => match a with
    | ⟨0, _⟩ => by show 0 = if (1 : Nat) = 1 then 0 else (i 0).val; rw [if_pos rfl]
    | ⟨1, _⟩ => by show 0 = if (1 : Nat) = 1 then 0 else (i 1).val; rw [if_pos rfl])

def val_main_v78 : (⟨S1x4000, .f32⟩ : BufTy).Contents (Elt F) :=
  mulf (val_main_v77 (F := F) x8) (val_main_v76 (F := F) x5 x9 x10)
theorem val_main_v78_apply (i : S1x4000.Idx) :
    val_main_v78 (F := F) x5 x8 x9 x10 i = FloatOps.mulf (val_main_v77 (F := F) x8 i) (val_main_v76 (F := F) x5 x9 x10 i) := rfl

def val_main_v79 : (⟨S1x4000, .f32⟩ : BufTy).Contents (Elt F) :=
  Host.exp (val_main_v78 (F := F) x5 x8 x9 x10)
theorem val_main_v79_apply (i : S1x4000.Idx) :
    val_main_v79 (F := F) x5 x8 x9 x10 i = FloatOps.hostUnary .exp (val_main_v78 (F := F) x5 x8 x9 x10 i) := rfl

def val_main_v80 : (⟨S4000, .f32⟩ : BufTy).Contents (Elt F) :=
  shapeCast _ (val_main_v79 (F := F) x5 x8 x9 x10) shapeCasts_S1x4000_S4000
abbrev idx_main_v80 (i : S4000.Idx) : S1x4000.Idx := fun a => match a with
  | ⟨0, _⟩ => ⟨0, Nat.one_pos⟩
  | ⟨1, _⟩ => ⟨((i 0).val) % 4000, by have h0 : (i 0).val < 4000 := (i 0).isLt; show ((i 0).val) % 4000 < 4000; omega⟩
theorem val_main_v80_apply (i : S4000.Idx) :
    val_main_v80 (F := F) x5 x8 x9 x10 i = val_main_v79 (F := F) x5 x8 x9 x10 (idx_main_v80 i) := by
  unfold val_main_v80
  generalize val_main_v79 (F := F) x5 x8 x9 x10 = y
  exact shapeCast_apply y shapeCasts_S1x4000_S4000 i (idx_main_v80 i)
    (by rewrite [Shape.rowMajor_val_two, Shape.rowMajor_val_one]; have h0 : (i 0).val < 4000 := (i 0).isLt; show 0 * 4000 + ((i 0).val) % 4000 = (i 0).val; omega)

def val_main_v81 : (⟨S6001x6001, .i32⟩ : BufTy).Contents (Elt F) :=
  iotaInDim S6001x6001 32 0
theorem val_main_v81_apply (i : S6001x6001.Idx) :
    val_main_v81 (F := F) i = BitVec.ofNat 32 (i 0).val := rfl

def val_main_v82 : (⟨S6001x6001, .i32⟩ : BufTy).Contents (Elt F) :=
  iotaInDim S6001x6001 32 1
theorem val_main_v82_apply (i : S6001x6001.Idx) :
    val_main_v82 (F := F) i = BitVec.ofNat 32 (i 1).val := rfl

def val_main_c_10 : (⟨S_, .i32⟩ : BufTy).Contents (Elt F) :=
  constantI S_ 32 0#32
theorem val_main_c_10_apply (i : S_.Idx) :
    val_main_c_10 (F := F) i = 0#32 := rfl

def val_main_v83 : (⟨S6001x6001, .i32⟩ : BufTy).Contents (Elt F) :=
  broadcastInDim S6001x6001 ![] bcast_S_S6001x6001 (val_main_c_10 (F := F))
abbrev idx_main_v83 (i : S6001x6001.Idx) : S_.Idx := fun a => a.elim0
theorem val_main_v83_apply (i : S6001x6001.Idx) :
    val_main_v83 (F := F) i = val_main_c_10 (F := F) (idx_main_v83 i) := by
  unfold val_main_v83
  generalize val_main_c_10 (F := F) = y
  exact broadcastInDim_apply _ bcast_S_S6001x6001 y i (idx_main_v83 i) (fun a => a.elim0)

def val_main_v84 : (⟨S6001x6001, .i32⟩ : BufTy).Contents (Elt F) :=
  addi (val_main_v81 (F := F)) (val_main_v83 (F := F))
theorem val_main_v84_apply (i : S6001x6001.Idx) :
    val_main_v84 (F := F) i = IntOp.addi (val_main_v81 (F := F) i) (val_main_v83 (F := F) i) := rfl

def val_main_v85 : (⟨S6001x6001, .i1⟩ : BufTy).Contents (Elt F) :=
  cmpi .eq (val_main_v84 (F := F)) (val_main_v82 (F := F))
theorem val_main_v85_apply (i : S6001x6001.Idx) :
    val_main_v85 (F := F) i = IntOp.cmpi .eq (val_main_v84 (F := F) i) (val_main_v82 (F := F) i) := rfl

def val_main_v86 : (⟨S6001x6001, .f32⟩ : BufTy).Contents (Elt F) :=
  uitofp .f32 (val_main_v85 (F := F))
theorem val_main_v86_apply (i : S6001x6001.Idx) :
    val_main_v86 (F := F) i = FloatOps.uitofp .f32 (val_main_v85 (F := F) i) := rfl

def val_main_c_11 : (⟨S_, .i32⟩ : BufTy).Contents (Elt F) :=
  constantI S_ 32 2000#32
theorem val_main_c_11_apply (i : S_.Idx) :
    val_main_c_11 (F := F) i = 2000#32 := rfl

def val_main_v87 : (⟨S1, .i32⟩ : BufTy).Contents (Elt F) :=
  broadcastInDim S1 ![] bcast_S_S1 (val_main_c_11 (F := F))
abbrev idx_main_v87 (i : S1.Idx) : S_.Idx := fun a => a.elim0
theorem val_main_v87_apply (i : S1.Idx) :
    val_main_v87 (F := F) i = val_main_c_11 (F := F) (idx_main_v87 i) := by
  unfold val_main_v87
  generalize val_main_c_11 (F := F) = y
  exact broadcastInDim_apply _ bcast_S_S1 y i (idx_main_v87 i) (fun a => a.elim0)

def val_main_c_12 : (⟨S_, .i32⟩ : BufTy).Contents (Elt F) :=
  constantI S_ 32 6000#32
theorem val_main_c_12_apply (i : S_.Idx) :
    val_main_c_12 (F := F) i = 6000#32 := rfl

def val_main_v88 : (⟨S1, .i32⟩ : BufTy).Contents (Elt F) :=
  broadcastInDim S1 ![] bcast_S_S1 (val_main_c_12 (F := F))
abbrev idx_main_v88 (i : S1.Idx) : S_.Idx := fun a => a.elim0
theorem val_main_v88_apply (i : S1.Idx) :
    val_main_v88 (F := F) i = val_main_c_12 (F := F) (idx_main_v88 i) := by
  unfold val_main_v88
  generalize val_main_c_12 (F := F) = y
  exact broadcastInDim_apply _ bcast_S_S1 y i (idx_main_v88 i) (fun a => a.elim0)

def val_main_v89 : (⟨S2, .i32⟩ : BufTy).Contents (Elt F) :=
  concatenate S2 0 [⟨S1, (val_main_v87 (F := F))⟩, ⟨S1, (val_main_v88 (F := F))⟩] concatenates_S1_S1_S2_d0

def val_main_v90 : (⟨S6001x6001, .f32⟩ : BufTy).Contents (Elt F) :=
  Host.scatter scatter_S6001x6001_S2_S4000_0_1_01_0 (fun _ b => b) (val_main_v86 (F := F)) (val_main_v89 (F := F)) (val_main_v80 (F := F) x5 x8 x9 x10)

def val_main_v91 : (⟨S6001x32, .f32⟩ : BufTy).Contents (Elt F) :=
  concatenate S6001x32 0 [⟨S2000x32, (val_main_v0 (F := F) x0 x1)⟩, ⟨S4000x32, (val_main_v69 (F := F) x0 x1 x2 x4 x5 x6 x7 x9 x10 x11 x12 x13 x14 x17 x18)⟩, ⟨S1x32, (val_main_v70 (F := F) x0 x1 x2 x4 x5 x6 x7 x9 x10 x11 x12 x13 x14 x17 x18)⟩] concatenates_S2000x32_S4000x32_S1x32_S6001x32_d0

def val_main_cst_13 : (⟨S_, .f32⟩ : BufTy).Contents (Elt F) :=
  constant S_ .f32 0x00000000#32
theorem val_main_cst_13_apply (i : S_.Idx) :
    val_main_cst_13 (F := F) i = FloatOps.ofBits .f32 0x00000000#32 := rfl

def val_main_v92 : (⟨S6001, .f32⟩ : BufTy).Contents (Elt F) :=
  Host.reduceAdd (val_main_v90 (F := F) x5 x8 x9 x10) (val_main_cst_13 (F := F)) reducesTo_S6001x6001_S6001_d1 h_S_
abbrev idx_main_v92 (i : S6001.Idx) (k : Fin 6001) : S6001x6001.Idx := fun a => match a with
  | ⟨0, _⟩ => ⟨(i 0).val, (i 0).isLt⟩
  | ⟨1, _⟩ => ⟨k.val, k.isLt⟩

theorem val_main_v92_apply (x5 : (⟨S4000, .f32⟩ : BufTy).Contents (Elt Ideal)) (x8 x9 x10 : (⟨S1x1, .f32⟩ : BufTy).Contents (Elt Ideal)) (i : S6001.Idx) :
    val_main_v92 (F := Ideal) x5 x8 x9 x10 i = (val_main_cst_13 (F := Ideal)) (Shape.Idx.first h_S_) + ∑ k : Fin 6001, (val_main_v90 (F := Ideal) x5 x8 x9 x10) (idx_main_v92 i k) := by
  unfold val_main_v92
  generalize val_main_v90 (F := Ideal) x5 x8 x9 x10 = y0
  simp only [Host.reduceAdd, Ideal.hostReduceAdd_def]
  rw [Ideal.hostReduceAdd_single reducesTo_S6001x6001_S6001_d1 (by decide)]
  refine congrArg (_ + ·) (Finset.sum_congr rfl fun k _ => ?_)
  exact congrArg y0 (funext fun a => Fin.ext (by match a with | ⟨0, _⟩ => rfl | ⟨1, _⟩ => rfl))

def val_main_v93 : (⟨S6001x1, .f32⟩ : BufTy).Contents (Elt F) :=
  broadcastInDim S6001x1 ![0] bcast_S6001_S6001x1_0 (val_main_v92 (F := F) x5 x8 x9 x10)
abbrev idx_main_v93 (i : S6001x1.Idx) : S6001.Idx := fun a => match a with
  | ⟨0, _⟩ => ⟨(i 0).val, (i 0).isLt⟩
theorem val_main_v93_apply (i : S6001x1.Idx) :
    val_main_v93 (F := F) x5 x8 x9 x10 i = val_main_v92 (F := F) x5 x8 x9 x10 (idx_main_v93 i) := by
  unfold val_main_v93
  generalize val_main_v92 (F := F) x5 x8 x9 x10 = y
  exact broadcastInDim_apply _ bcast_S6001_S6001x1_0 y i (idx_main_v93 i) (fun a => match a with
    | ⟨0, _⟩ => by show (i 0).val = if (6001 : Nat) = 1 then 0 else (i 0).val; rw [if_neg (by decide)])

def val_main_v94 : (⟨S6001x6001, .f32⟩ : BufTy).Contents (Elt F) :=
  broadcastInDim S6001x6001 ![0, 1] bcast_S6001x1_S6001x6001_0_1 (val_main_v93 (F := F) x5 x8 x9 x10)
abbrev idx_main_v94 (i : S6001x6001.Idx) : S6001x1.Idx := fun a => match a with
  | ⟨0, _⟩ => ⟨(i 0).val, (i 0).isLt⟩
  | ⟨1, _⟩ => ⟨0, Nat.one_pos⟩
theorem val_main_v94_apply (i : S6001x6001.Idx) :
    val_main_v94 (F := F) x5 x8 x9 x10 i = val_main_v93 (F := F) x5 x8 x9 x10 (idx_main_v94 i) := by
  unfold val_main_v94
  generalize val_main_v93 (F := F) x5 x8 x9 x10 = y
  exact broadcastInDim_apply _ bcast_S6001x1_S6001x6001_0_1 y i (idx_main_v94 i) (fun a => match a with
    | ⟨0, _⟩ => by show (i 0).val = if (6001 : Nat) = 1 then 0 else (i 0).val; rw [if_neg (by decide)]
    | ⟨1, _⟩ => by show 0 = if (1 : Nat) = 1 then 0 else (i 1).val; rw [if_pos rfl])

def val_main_v95 : (⟨S6001x6001, .f32⟩ : BufTy).Contents (Elt F) :=
  Host.divf (val_main_v90 (F := F) x5 x8 x9 x10) (val_main_v94 (F := F) x5 x8 x9 x10)
theorem val_main_v95_apply (i : S6001x6001.Idx) :
    val_main_v95 (F := F) x5 x8 x9 x10 i = FloatOps.hostDivf (val_main_v90 (F := F) x5 x8 x9 x10 i) (val_main_v94 (F := F) x5 x8 x9 x10 i) := rfl

def val_main_v96 : (⟨S6001x32, .f32⟩ : BufTy).Contents (Elt F) :=
  Host.dotGeneral dot_S6001x6001_S6001x32_S6001x32_1_0_0_1_n_n none (val_main_v95 (F := F) x5 x8 x9 x10) (val_main_v91 (F := F) x0 x1 x2 x4 x5 x6 x7 x9 x10 x11 x12 x13 x14 x17 x18)
theorem lhs_main_v96_0 (i : S6001x32.Idx) (q : dot_S6001x6001_S6001x32_S6001x32_1_0_0_1_n_n.contr.Idx) :
    (dot_S6001x6001_S6001x32_S6001x32_1_0_0_1_n_n.lhsIdx i q 0).val = (i 0).val := by
  unfold DotDims.lhsIdx
  rw [dif_neg (show ¬(0 : Fin S6001x6001.rank) ∈ dot_S6001x6001_S6001x32_S6001x32_1_0_0_1_n_n.lhsBatch by decide), dif_pos (show (0 : Fin S6001x6001.rank) ∈ dot_S6001x6001_S6001x32_S6001x32_1_0_0_1_n_n.lhsNonContracting by decide)]
  rfl
theorem lhs_main_v96_1 (i : S6001x32.Idx) (q : dot_S6001x6001_S6001x32_S6001x32_1_0_0_1_n_n.contr.Idx) :
    (dot_S6001x6001_S6001x32_S6001x32_1_0_0_1_n_n.lhsIdx i q 1).val = (q ⟨0, by decide⟩).val :=
  dot_S6001x6001_S6001x32_S6001x32_1_0_0_1_n_n.lhsIdx_val_of_single rfl i q
theorem rhs_main_v96_0 (i : S6001x32.Idx) (q : dot_S6001x6001_S6001x32_S6001x32_1_0_0_1_n_n.contr.Idx) :
    (dot_S6001x6001_S6001x32_S6001x32_1_0_0_1_n_n.rhsIdx i q 0).val = (q ⟨0, by decide⟩).val :=
  dot_S6001x6001_S6001x32_S6001x32_1_0_0_1_n_n.rhsIdx_val_of_single rfl i q
theorem rhs_main_v96_1 (i : S6001x32.Idx) (q : dot_S6001x6001_S6001x32_S6001x32_1_0_0_1_n_n.contr.Idx) :
    (dot_S6001x6001_S6001x32_S6001x32_1_0_0_1_n_n.rhsIdx i q 1).val = (i 1).val := by
  unfold DotDims.rhsIdx
  rw [dif_neg (show ¬(1 : Fin S6001x32.rank) ∈ dot_S6001x6001_S6001x32_S6001x32_1_0_0_1_n_n.rhsBatch by decide), dif_pos (show (1 : Fin S6001x32.rank) ∈ dot_S6001x6001_S6001x32_S6001x32_1_0_0_1_n_n.rhsNonContracting by decide)]
  rfl
abbrev lidx_main_v96 (i : S6001x32.Idx) (k : Fin 6001) : S6001x6001.Idx := fun a => match a with
  | ⟨0, _⟩ => ⟨(i 0).val, (i 0).isLt⟩
  | ⟨1, _⟩ => ⟨k.val, k.isLt⟩
abbrev ridx_main_v96 (i : S6001x32.Idx) (k : Fin 6001) : S6001x32.Idx := fun a => match a with
  | ⟨0, _⟩ => ⟨k.val, k.isLt⟩
  | ⟨1, _⟩ => ⟨(i 1).val, (i 1).isLt⟩

theorem val_main_v96_apply (x0 : (⟨S2000x30, .f32⟩ : BufTy).Contents (Elt Ideal)) (x1 : (⟨S2000x2, .f32⟩ : BufTy).Contents (Elt Ideal)) (x2 : (⟨S4000x30, .f32⟩ : BufTy).Contents (Elt Ideal)) (x4 : (⟨S2000, .f32⟩ : BufTy).Contents (Elt Ideal)) (x5 : (⟨S4000, .f32⟩ : BufTy).Contents (Elt Ideal)) (x6 x7 x8 x9 x10 : (⟨S1x1, .f32⟩ : BufTy).Contents (Elt Ideal)) (x11 : (⟨S30x32, .f32⟩ : BufTy).Contents (Elt Ideal)) (x12 : (⟨S32, .f32⟩ : BufTy).Contents (Elt Ideal)) (x13 : (⟨S30x32, .f32⟩ : BufTy).Contents (Elt Ideal)) (x14 : (⟨S32, .f32⟩ : BufTy).Contents (Elt Ideal)) (x17 : (⟨S32x32, .f32⟩ : BufTy).Contents (Elt Ideal)) (x18 : (⟨S32, .f32⟩ : BufTy).Contents (Elt Ideal)) (i : S6001x32.Idx) :
    val_main_v96 (F := Ideal) x0 x1 x2 x4 x5 x6 x7 x8 x9 x10 x11 x12 x13 x14 x17 x18 i = ∑ k : Fin 6001, (val_main_v95 (F := Ideal) x5 x8 x9 x10) (lidx_main_v96 i k) * (val_main_v91 (F := Ideal) x0 x1 x2 x4 x5 x6 x7 x9 x10 x11 x12 x13 x14 x17 x18) (ridx_main_v96 i k) := by
  unfold val_main_v96
  generalize val_main_v95 (F := Ideal) x5 x8 x9 x10 = y0
  generalize val_main_v91 (F := Ideal) x0 x1 x2 x4 x5 x6 x7 x9 x10 x11 x12 x13 x14 x17 x18 = y1
  simp only [Host.dotGeneral]
  rw [Ideal.dotGeneral_apply, ← Equiv.sum_comp (ValueIdx.contrEquiv1 dot_S6001x6001_S6001x32_S6001x32_1_0_0_1_n_n 6001 rfl rfl).symm]
  refine Finset.sum_congr rfl fun k _ => ?_
  have hk := ValueIdx.contrEquiv1_symm_val dot_S6001x6001_S6001x32_S6001x32_1_0_0_1_n_n 6001 rfl rfl k
  have el : dot_S6001x6001_S6001x32_S6001x32_1_0_0_1_n_n.lhsIdx i ((ValueIdx.contrEquiv1 dot_S6001x6001_S6001x32_S6001x32_1_0_0_1_n_n 6001 rfl rfl).symm k) = lidx_main_v96 i k := funext fun a => Fin.ext (by
    match a with
    | ⟨0, _⟩ => exact lhs_main_v96_0 _ _
    | ⟨1, _⟩ => exact (lhs_main_v96_1 _ _).trans hk)
  have er : dot_S6001x6001_S6001x32_S6001x32_1_0_0_1_n_n.rhsIdx i ((ValueIdx.contrEquiv1 dot_S6001x6001_S6001x32_S6001x32_1_0_0_1_n_n 6001 rfl rfl).symm k) = ridx_main_v96 i k := funext fun a => Fin.ext (by
    match a with
    | ⟨0, _⟩ => exact (rhs_main_v96_0 _ _).trans hk
    | ⟨1, _⟩ => exact rhs_main_v96_1 _ _)
  rw [el, er]

def val_main_v97 : (⟨S6001x32, .f32⟩ : BufTy).Contents (Elt F) :=
  Host.dotGeneral dot_S6001x32_S32x32_S6001x32_1_0_0_1_n_n none (val_main_v96 (F := F) x0 x1 x2 x4 x5 x6 x7 x8 x9 x10 x11 x12 x13 x14 x17 x18) (x19)
theorem lhs_main_v97_0 (i : S6001x32.Idx) (q : dot_S6001x32_S32x32_S6001x32_1_0_0_1_n_n.contr.Idx) :
    (dot_S6001x32_S32x32_S6001x32_1_0_0_1_n_n.lhsIdx i q 0).val = (i 0).val := by
  unfold DotDims.lhsIdx
  rw [dif_neg (show ¬(0 : Fin S6001x32.rank) ∈ dot_S6001x32_S32x32_S6001x32_1_0_0_1_n_n.lhsBatch by decide), dif_pos (show (0 : Fin S6001x32.rank) ∈ dot_S6001x32_S32x32_S6001x32_1_0_0_1_n_n.lhsNonContracting by decide)]
  rfl
theorem lhs_main_v97_1 (i : S6001x32.Idx) (q : dot_S6001x32_S32x32_S6001x32_1_0_0_1_n_n.contr.Idx) :
    (dot_S6001x32_S32x32_S6001x32_1_0_0_1_n_n.lhsIdx i q 1).val = (q ⟨0, by decide⟩).val :=
  dot_S6001x32_S32x32_S6001x32_1_0_0_1_n_n.lhsIdx_val_of_single rfl i q
theorem rhs_main_v97_0 (i : S6001x32.Idx) (q : dot_S6001x32_S32x32_S6001x32_1_0_0_1_n_n.contr.Idx) :
    (dot_S6001x32_S32x32_S6001x32_1_0_0_1_n_n.rhsIdx i q 0).val = (q ⟨0, by decide⟩).val :=
  dot_S6001x32_S32x32_S6001x32_1_0_0_1_n_n.rhsIdx_val_of_single rfl i q
theorem rhs_main_v97_1 (i : S6001x32.Idx) (q : dot_S6001x32_S32x32_S6001x32_1_0_0_1_n_n.contr.Idx) :
    (dot_S6001x32_S32x32_S6001x32_1_0_0_1_n_n.rhsIdx i q 1).val = (i 1).val := by
  unfold DotDims.rhsIdx
  rw [dif_neg (show ¬(1 : Fin S32x32.rank) ∈ dot_S6001x32_S32x32_S6001x32_1_0_0_1_n_n.rhsBatch by decide), dif_pos (show (1 : Fin S32x32.rank) ∈ dot_S6001x32_S32x32_S6001x32_1_0_0_1_n_n.rhsNonContracting by decide)]
  rfl
abbrev lidx_main_v97 (i : S6001x32.Idx) (k : Fin 32) : S6001x32.Idx := fun a => match a with
  | ⟨0, _⟩ => ⟨(i 0).val, (i 0).isLt⟩
  | ⟨1, _⟩ => ⟨k.val, k.isLt⟩
abbrev ridx_main_v97 (i : S6001x32.Idx) (k : Fin 32) : S32x32.Idx := fun a => match a with
  | ⟨0, _⟩ => ⟨k.val, k.isLt⟩
  | ⟨1, _⟩ => ⟨(i 1).val, (i 1).isLt⟩

theorem val_main_v97_apply (x0 : (⟨S2000x30, .f32⟩ : BufTy).Contents (Elt Ideal)) (x1 : (⟨S2000x2, .f32⟩ : BufTy).Contents (Elt Ideal)) (x2 : (⟨S4000x30, .f32⟩ : BufTy).Contents (Elt Ideal)) (x4 : (⟨S2000, .f32⟩ : BufTy).Contents (Elt Ideal)) (x5 : (⟨S4000, .f32⟩ : BufTy).Contents (Elt Ideal)) (x6 x7 x8 x9 x10 : (⟨S1x1, .f32⟩ : BufTy).Contents (Elt Ideal)) (x11 : (⟨S30x32, .f32⟩ : BufTy).Contents (Elt Ideal)) (x12 : (⟨S32, .f32⟩ : BufTy).Contents (Elt Ideal)) (x13 : (⟨S30x32, .f32⟩ : BufTy).Contents (Elt Ideal)) (x14 : (⟨S32, .f32⟩ : BufTy).Contents (Elt Ideal)) (x17 : (⟨S32x32, .f32⟩ : BufTy).Contents (Elt Ideal)) (x18 : (⟨S32, .f32⟩ : BufTy).Contents (Elt Ideal)) (x19 : (⟨S32x32, .f32⟩ : BufTy).Contents (Elt Ideal)) (i : S6001x32.Idx) :
    val_main_v97 (F := Ideal) x0 x1 x2 x4 x5 x6 x7 x8 x9 x10 x11 x12 x13 x14 x17 x18 x19 i = ∑ k : Fin 32, (val_main_v96 (F := Ideal) x0 x1 x2 x4 x5 x6 x7 x8 x9 x10 x11 x12 x13 x14 x17 x18) (lidx_main_v97 i k) * x19 (ridx_main_v97 i k) := by
  unfold val_main_v97
  generalize val_main_v96 (F := Ideal) x0 x1 x2 x4 x5 x6 x7 x8 x9 x10 x11 x12 x13 x14 x17 x18 = y0
  simp only [Host.dotGeneral]
  rw [Ideal.dotGeneral_apply, ← Equiv.sum_comp (ValueIdx.contrEquiv1 dot_S6001x32_S32x32_S6001x32_1_0_0_1_n_n 32 rfl rfl).symm]
  refine Finset.sum_congr rfl fun k _ => ?_
  have hk := ValueIdx.contrEquiv1_symm_val dot_S6001x32_S32x32_S6001x32_1_0_0_1_n_n 32 rfl rfl k
  have el : dot_S6001x32_S32x32_S6001x32_1_0_0_1_n_n.lhsIdx i ((ValueIdx.contrEquiv1 dot_S6001x32_S32x32_S6001x32_1_0_0_1_n_n 32 rfl rfl).symm k) = lidx_main_v97 i k := funext fun a => Fin.ext (by
    match a with
    | ⟨0, _⟩ => exact lhs_main_v97_0 _ _
    | ⟨1, _⟩ => exact (lhs_main_v97_1 _ _).trans hk)
  have er : dot_S6001x32_S32x32_S6001x32_1_0_0_1_n_n.rhsIdx i ((ValueIdx.contrEquiv1 dot_S6001x32_S32x32_S6001x32_1_0_0_1_n_n 32 rfl rfl).symm k) = ridx_main_v97 i k := funext fun a => Fin.ext (by
    match a with
    | ⟨0, _⟩ => exact (rhs_main_v97_0 _ _).trans hk
    | ⟨1, _⟩ => exact rhs_main_v97_1 _ _)
  rw [el, er]

def val_main_v98 : (⟨S1x32, .f32⟩ : BufTy).Contents (Elt F) :=
  broadcastInDim S1x32 ![1] bcast_S32_S1x32_1 (x20)
abbrev idx_main_v98 (i : S1x32.Idx) : S32.Idx := fun a => match a with
  | ⟨0, _⟩ => ⟨(i 1).val, (i 1).isLt⟩
theorem val_main_v98_apply (i : S1x32.Idx) :
    val_main_v98 (F := F) x20 i = x20 (idx_main_v98 i) := by
  unfold val_main_v98
  exact broadcastInDim_apply _ bcast_S32_S1x32_1 x20 i (idx_main_v98 i) (fun a => match a with
    | ⟨0, _⟩ => by show (i 1).val = if (32 : Nat) = 1 then 0 else (i 1).val; rw [if_neg (by decide)])

def val_main_v99 : (⟨S6001x32, .f32⟩ : BufTy).Contents (Elt F) :=
  broadcastInDim S6001x32 ![0, 1] bcast_S1x32_S6001x32_0_1 (val_main_v98 (F := F) x20)
abbrev idx_main_v99 (i : S6001x32.Idx) : S1x32.Idx := fun a => match a with
  | ⟨0, _⟩ => ⟨0, Nat.one_pos⟩
  | ⟨1, _⟩ => ⟨(i 1).val, (i 1).isLt⟩
theorem val_main_v99_apply (i : S6001x32.Idx) :
    val_main_v99 (F := F) x20 i = val_main_v98 (F := F) x20 (idx_main_v99 i) := by
  unfold val_main_v99
  generalize val_main_v98 (F := F) x20 = y
  exact broadcastInDim_apply _ bcast_S1x32_S6001x32_0_1 y i (idx_main_v99 i) (fun a => match a with
    | ⟨0, _⟩ => by show 0 = if (1 : Nat) = 1 then 0 else (i 0).val; rw [if_pos rfl]
    | ⟨1, _⟩ => by show (i 1).val = if (32 : Nat) = 1 then 0 else (i 1).val; rw [if_neg (by decide)])

def val_main_v100 : (⟨S6001x32, .f32⟩ : BufTy).Contents (Elt F) :=
  addf (val_main_v97 (F := F) x0 x1 x2 x4 x5 x6 x7 x8 x9 x10 x11 x12 x13 x14 x17 x18 x19) (val_main_v99 (F := F) x20)
theorem val_main_v100_apply (i : S6001x32.Idx) :
    val_main_v100 (F := F) x0 x1 x2 x4 x5 x6 x7 x8 x9 x10 x11 x12 x13 x14 x17 x18 x19 x20 i = FloatOps.addf (val_main_v97 (F := F) x0 x1 x2 x4 x5 x6 x7 x8 x9 x10 x11 x12 x13 x14 x17 x18 x19 i) (val_main_v99 (F := F) x20 i) := rfl

def val_main_v101 : (⟨S4000x32, .f32⟩ : BufTy).Contents (Elt F) :=
  extractStridedSlice S4000x32 ![2000, 0] (val_main_v100 (F := F) x0 x1 x2 x4 x5 x6 x7 x8 x9 x10 x11 x12 x13 x14 x17 x18 x19 x20) slices_S6001x32_S4000x32_2000_0
abbrev idx_main_v101 (i : S4000x32.Idx) : S6001x32.Idx := fun a => match a with
  | ⟨0, _⟩ => ⟨2000 + (i 0).val, by have h0 : (i 0).val < 4000 := (i 0).isLt; show 2000 + (i 0).val < 6001; omega⟩
  | ⟨1, _⟩ => ⟨(i 1).val, (i 1).isLt⟩
theorem val_main_v101_apply (i : S4000x32.Idx) :
    val_main_v101 (F := F) x0 x1 x2 x4 x5 x6 x7 x8 x9 x10 x11 x12 x13 x14 x17 x18 x19 x20 i = val_main_v100 (F := F) x0 x1 x2 x4 x5 x6 x7 x8 x9 x10 x11 x12 x13 x14 x17 x18 x19 x20 (idx_main_v101 i) := by
  unfold val_main_v101
  generalize val_main_v100 (F := F) x0 x1 x2 x4 x5 x6 x7 x8 x9 x10 x11 x12 x13 x14 x17 x18 x19 x20 = y
  exact extractStridedSlice_apply ![2000, 0] y slices_S6001x32_S4000x32_2000_0 i (idx_main_v101 i) (fun a => match a with
    | ⟨0, _⟩ => by show 2000 + (i 0).val = 2000 + (i 0).val; omega
    | ⟨1, _⟩ => by show (i 1).val = 0 + (i 1).val; omega)

def val_main_v102 : (⟨S4000x94, .f32⟩ : BufTy).Contents (Elt F) :=
  concatenate S4000x94 1 [⟨S4000x30, (x2)⟩, ⟨S4000x32, (val_main_v69 (F := F) x0 x1 x2 x4 x5 x6 x7 x9 x10 x11 x12 x13 x14 x17 x18)⟩, ⟨S4000x32, (val_main_v101 (F := F) x0 x1 x2 x4 x5 x6 x7 x8 x9 x10 x11 x12 x13 x14 x17 x18 x19 x20)⟩] concatenates_S4000x30_S4000x32_S4000x32_S4000x94_d1

def val_main_v103 : (⟨S4000x32, .f32⟩ : BufTy).Contents (Elt F) :=
  Host.dotGeneral dot_S4000x94_S94x32_S4000x32_1_0_0_1_n_n none (val_main_v102 (F := F) x0 x1 x2 x4 x5 x6 x7 x8 x9 x10 x11 x12 x13 x14 x17 x18 x19 x20) (x21)
theorem lhs_main_v103_0 (i : S4000x32.Idx) (q : dot_S4000x94_S94x32_S4000x32_1_0_0_1_n_n.contr.Idx) :
    (dot_S4000x94_S94x32_S4000x32_1_0_0_1_n_n.lhsIdx i q 0).val = (i 0).val := by
  unfold DotDims.lhsIdx
  rw [dif_neg (show ¬(0 : Fin S4000x94.rank) ∈ dot_S4000x94_S94x32_S4000x32_1_0_0_1_n_n.lhsBatch by decide), dif_pos (show (0 : Fin S4000x94.rank) ∈ dot_S4000x94_S94x32_S4000x32_1_0_0_1_n_n.lhsNonContracting by decide)]
  rfl
theorem lhs_main_v103_1 (i : S4000x32.Idx) (q : dot_S4000x94_S94x32_S4000x32_1_0_0_1_n_n.contr.Idx) :
    (dot_S4000x94_S94x32_S4000x32_1_0_0_1_n_n.lhsIdx i q 1).val = (q ⟨0, by decide⟩).val :=
  dot_S4000x94_S94x32_S4000x32_1_0_0_1_n_n.lhsIdx_val_of_single rfl i q
theorem rhs_main_v103_0 (i : S4000x32.Idx) (q : dot_S4000x94_S94x32_S4000x32_1_0_0_1_n_n.contr.Idx) :
    (dot_S4000x94_S94x32_S4000x32_1_0_0_1_n_n.rhsIdx i q 0).val = (q ⟨0, by decide⟩).val :=
  dot_S4000x94_S94x32_S4000x32_1_0_0_1_n_n.rhsIdx_val_of_single rfl i q
theorem rhs_main_v103_1 (i : S4000x32.Idx) (q : dot_S4000x94_S94x32_S4000x32_1_0_0_1_n_n.contr.Idx) :
    (dot_S4000x94_S94x32_S4000x32_1_0_0_1_n_n.rhsIdx i q 1).val = (i 1).val := by
  unfold DotDims.rhsIdx
  rw [dif_neg (show ¬(1 : Fin S94x32.rank) ∈ dot_S4000x94_S94x32_S4000x32_1_0_0_1_n_n.rhsBatch by decide), dif_pos (show (1 : Fin S94x32.rank) ∈ dot_S4000x94_S94x32_S4000x32_1_0_0_1_n_n.rhsNonContracting by decide)]
  rfl
abbrev lidx_main_v103 (i : S4000x32.Idx) (k : Fin 94) : S4000x94.Idx := fun a => match a with
  | ⟨0, _⟩ => ⟨(i 0).val, (i 0).isLt⟩
  | ⟨1, _⟩ => ⟨k.val, k.isLt⟩
abbrev ridx_main_v103 (i : S4000x32.Idx) (k : Fin 94) : S94x32.Idx := fun a => match a with
  | ⟨0, _⟩ => ⟨k.val, k.isLt⟩
  | ⟨1, _⟩ => ⟨(i 1).val, (i 1).isLt⟩

theorem val_main_v103_apply (x0 : (⟨S2000x30, .f32⟩ : BufTy).Contents (Elt Ideal)) (x1 : (⟨S2000x2, .f32⟩ : BufTy).Contents (Elt Ideal)) (x2 : (⟨S4000x30, .f32⟩ : BufTy).Contents (Elt Ideal)) (x4 : (⟨S2000, .f32⟩ : BufTy).Contents (Elt Ideal)) (x5 : (⟨S4000, .f32⟩ : BufTy).Contents (Elt Ideal)) (x6 x7 x8 x9 x10 : (⟨S1x1, .f32⟩ : BufTy).Contents (Elt Ideal)) (x11 : (⟨S30x32, .f32⟩ : BufTy).Contents (Elt Ideal)) (x12 : (⟨S32, .f32⟩ : BufTy).Contents (Elt Ideal)) (x13 : (⟨S30x32, .f32⟩ : BufTy).Contents (Elt Ideal)) (x14 : (⟨S32, .f32⟩ : BufTy).Contents (Elt Ideal)) (x17 : (⟨S32x32, .f32⟩ : BufTy).Contents (Elt Ideal)) (x18 : (⟨S32, .f32⟩ : BufTy).Contents (Elt Ideal)) (x19 : (⟨S32x32, .f32⟩ : BufTy).Contents (Elt Ideal)) (x20 : (⟨S32, .f32⟩ : BufTy).Contents (Elt Ideal)) (x21 : (⟨S94x32, .f32⟩ : BufTy).Contents (Elt Ideal)) (i : S4000x32.Idx) :
    val_main_v103 (F := Ideal) x0 x1 x2 x4 x5 x6 x7 x8 x9 x10 x11 x12 x13 x14 x17 x18 x19 x20 x21 i = ∑ k : Fin 94, (val_main_v102 (F := Ideal) x0 x1 x2 x4 x5 x6 x7 x8 x9 x10 x11 x12 x13 x14 x17 x18 x19 x20) (lidx_main_v103 i k) * x21 (ridx_main_v103 i k) := by
  unfold val_main_v103
  generalize val_main_v102 (F := Ideal) x0 x1 x2 x4 x5 x6 x7 x8 x9 x10 x11 x12 x13 x14 x17 x18 x19 x20 = y0
  simp only [Host.dotGeneral]
  rw [Ideal.dotGeneral_apply, ← Equiv.sum_comp (ValueIdx.contrEquiv1 dot_S4000x94_S94x32_S4000x32_1_0_0_1_n_n 94 rfl rfl).symm]
  refine Finset.sum_congr rfl fun k _ => ?_
  have hk := ValueIdx.contrEquiv1_symm_val dot_S4000x94_S94x32_S4000x32_1_0_0_1_n_n 94 rfl rfl k
  have el : dot_S4000x94_S94x32_S4000x32_1_0_0_1_n_n.lhsIdx i ((ValueIdx.contrEquiv1 dot_S4000x94_S94x32_S4000x32_1_0_0_1_n_n 94 rfl rfl).symm k) = lidx_main_v103 i k := funext fun a => Fin.ext (by
    match a with
    | ⟨0, _⟩ => exact lhs_main_v103_0 _ _
    | ⟨1, _⟩ => exact (lhs_main_v103_1 _ _).trans hk)
  have er : dot_S4000x94_S94x32_S4000x32_1_0_0_1_n_n.rhsIdx i ((ValueIdx.contrEquiv1 dot_S4000x94_S94x32_S4000x32_1_0_0_1_n_n 94 rfl rfl).symm k) = ridx_main_v103 i k := funext fun a => Fin.ext (by
    match a with
    | ⟨0, _⟩ => exact (rhs_main_v103_0 _ _).trans hk
    | ⟨1, _⟩ => exact rhs_main_v103_1 _ _)
  rw [el, er]

def val_main_v104 : (⟨S1x32, .f32⟩ : BufTy).Contents (Elt F) :=
  broadcastInDim S1x32 ![1] bcast_S32_S1x32_1 (x22)
abbrev idx_main_v104 (i : S1x32.Idx) : S32.Idx := fun a => match a with
  | ⟨0, _⟩ => ⟨(i 1).val, (i 1).isLt⟩
theorem val_main_v104_apply (i : S1x32.Idx) :
    val_main_v104 (F := F) x22 i = x22 (idx_main_v104 i) := by
  unfold val_main_v104
  exact broadcastInDim_apply _ bcast_S32_S1x32_1 x22 i (idx_main_v104 i) (fun a => match a with
    | ⟨0, _⟩ => by show (i 1).val = if (32 : Nat) = 1 then 0 else (i 1).val; rw [if_neg (by decide)])

def val_main_v105 : (⟨S4000x32, .f32⟩ : BufTy).Contents (Elt F) :=
  broadcastInDim S4000x32 ![0, 1] bcast_S1x32_S4000x32_0_1 (val_main_v104 (F := F) x22)
abbrev idx_main_v105 (i : S4000x32.Idx) : S1x32.Idx := fun a => match a with
  | ⟨0, _⟩ => ⟨0, Nat.one_pos⟩
  | ⟨1, _⟩ => ⟨(i 1).val, (i 1).isLt⟩
theorem val_main_v105_apply (i : S4000x32.Idx) :
    val_main_v105 (F := F) x22 i = val_main_v104 (F := F) x22 (idx_main_v105 i) := by
  unfold val_main_v105
  generalize val_main_v104 (F := F) x22 = y
  exact broadcastInDim_apply _ bcast_S1x32_S4000x32_0_1 y i (idx_main_v105 i) (fun a => match a with
    | ⟨0, _⟩ => by show 0 = if (1 : Nat) = 1 then 0 else (i 0).val; rw [if_pos rfl]
    | ⟨1, _⟩ => by show (i 1).val = if (32 : Nat) = 1 then 0 else (i 1).val; rw [if_neg (by decide)])

def val_main_v106 : (⟨S4000x32, .f32⟩ : BufTy).Contents (Elt F) :=
  addf (val_main_v103 (F := F) x0 x1 x2 x4 x5 x6 x7 x8 x9 x10 x11 x12 x13 x14 x17 x18 x19 x20 x21) (val_main_v105 (F := F) x22)
theorem val_main_v106_apply (i : S4000x32.Idx) :
    val_main_v106 (F := F) x0 x1 x2 x4 x5 x6 x7 x8 x9 x10 x11 x12 x13 x14 x17 x18 x19 x20 x21 x22 i = FloatOps.addf (val_main_v103 (F := F) x0 x1 x2 x4 x5 x6 x7 x8 x9 x10 x11 x12 x13 x14 x17 x18 x19 x20 x21 i) (val_main_v105 (F := F) x22 i) := rfl

def val_main_v107 : (⟨S2000x32, .f32⟩ : BufTy).Contents (Elt F) :=
  Host.dotGeneral dot_S2000x30_S30x32_S2000x32_1_0_0_1_n_n none (x0) (x23)
theorem lhs_main_v107_0 (i : S2000x32.Idx) (q : dot_S2000x30_S30x32_S2000x32_1_0_0_1_n_n.contr.Idx) :
    (dot_S2000x30_S30x32_S2000x32_1_0_0_1_n_n.lhsIdx i q 0).val = (i 0).val := by
  unfold DotDims.lhsIdx
  rw [dif_neg (show ¬(0 : Fin S2000x30.rank) ∈ dot_S2000x30_S30x32_S2000x32_1_0_0_1_n_n.lhsBatch by decide), dif_pos (show (0 : Fin S2000x30.rank) ∈ dot_S2000x30_S30x32_S2000x32_1_0_0_1_n_n.lhsNonContracting by decide)]
  rfl
theorem lhs_main_v107_1 (i : S2000x32.Idx) (q : dot_S2000x30_S30x32_S2000x32_1_0_0_1_n_n.contr.Idx) :
    (dot_S2000x30_S30x32_S2000x32_1_0_0_1_n_n.lhsIdx i q 1).val = (q ⟨0, by decide⟩).val :=
  dot_S2000x30_S30x32_S2000x32_1_0_0_1_n_n.lhsIdx_val_of_single rfl i q
theorem rhs_main_v107_0 (i : S2000x32.Idx) (q : dot_S2000x30_S30x32_S2000x32_1_0_0_1_n_n.contr.Idx) :
    (dot_S2000x30_S30x32_S2000x32_1_0_0_1_n_n.rhsIdx i q 0).val = (q ⟨0, by decide⟩).val :=
  dot_S2000x30_S30x32_S2000x32_1_0_0_1_n_n.rhsIdx_val_of_single rfl i q
theorem rhs_main_v107_1 (i : S2000x32.Idx) (q : dot_S2000x30_S30x32_S2000x32_1_0_0_1_n_n.contr.Idx) :
    (dot_S2000x30_S30x32_S2000x32_1_0_0_1_n_n.rhsIdx i q 1).val = (i 1).val := by
  unfold DotDims.rhsIdx
  rw [dif_neg (show ¬(1 : Fin S30x32.rank) ∈ dot_S2000x30_S30x32_S2000x32_1_0_0_1_n_n.rhsBatch by decide), dif_pos (show (1 : Fin S30x32.rank) ∈ dot_S2000x30_S30x32_S2000x32_1_0_0_1_n_n.rhsNonContracting by decide)]
  rfl
abbrev lidx_main_v107 (i : S2000x32.Idx) (k : Fin 30) : S2000x30.Idx := fun a => match a with
  | ⟨0, _⟩ => ⟨(i 0).val, (i 0).isLt⟩
  | ⟨1, _⟩ => ⟨k.val, k.isLt⟩
abbrev ridx_main_v107 (i : S2000x32.Idx) (k : Fin 30) : S30x32.Idx := fun a => match a with
  | ⟨0, _⟩ => ⟨k.val, k.isLt⟩
  | ⟨1, _⟩ => ⟨(i 1).val, (i 1).isLt⟩

theorem val_main_v107_apply (x0 : (⟨S2000x30, .f32⟩ : BufTy).Contents (Elt Ideal)) (x23 : (⟨S30x32, .f32⟩ : BufTy).Contents (Elt Ideal)) (i : S2000x32.Idx) :
    val_main_v107 (F := Ideal) x0 x23 i = ∑ k : Fin 30, x0 (lidx_main_v107 i k) * x23 (ridx_main_v107 i k) := by
  unfold val_main_v107
  simp only [Host.dotGeneral]
  rw [Ideal.dotGeneral_apply, ← Equiv.sum_comp (ValueIdx.contrEquiv1 dot_S2000x30_S30x32_S2000x32_1_0_0_1_n_n 30 rfl rfl).symm]
  refine Finset.sum_congr rfl fun k _ => ?_
  have hk := ValueIdx.contrEquiv1_symm_val dot_S2000x30_S30x32_S2000x32_1_0_0_1_n_n 30 rfl rfl k
  have el : dot_S2000x30_S30x32_S2000x32_1_0_0_1_n_n.lhsIdx i ((ValueIdx.contrEquiv1 dot_S2000x30_S30x32_S2000x32_1_0_0_1_n_n 30 rfl rfl).symm k) = lidx_main_v107 i k := funext fun a => Fin.ext (by
    match a with
    | ⟨0, _⟩ => exact lhs_main_v107_0 _ _
    | ⟨1, _⟩ => exact (lhs_main_v107_1 _ _).trans hk)
  have er : dot_S2000x30_S30x32_S2000x32_1_0_0_1_n_n.rhsIdx i ((ValueIdx.contrEquiv1 dot_S2000x30_S30x32_S2000x32_1_0_0_1_n_n 30 rfl rfl).symm k) = ridx_main_v107 i k := funext fun a => Fin.ext (by
    match a with
    | ⟨0, _⟩ => exact (rhs_main_v107_0 _ _).trans hk
    | ⟨1, _⟩ => exact rhs_main_v107_1 _ _)
  rw [el, er]

def val_main_v108 : (⟨S1x32, .f32⟩ : BufTy).Contents (Elt F) :=
  broadcastInDim S1x32 ![1] bcast_S32_S1x32_1 (x24)
abbrev idx_main_v108 (i : S1x32.Idx) : S32.Idx := fun a => match a with
  | ⟨0, _⟩ => ⟨(i 1).val, (i 1).isLt⟩
theorem val_main_v108_apply (i : S1x32.Idx) :
    val_main_v108 (F := F) x24 i = x24 (idx_main_v108 i) := by
  unfold val_main_v108
  exact broadcastInDim_apply _ bcast_S32_S1x32_1 x24 i (idx_main_v108 i) (fun a => match a with
    | ⟨0, _⟩ => by show (i 1).val = if (32 : Nat) = 1 then 0 else (i 1).val; rw [if_neg (by decide)])

def val_main_v109 : (⟨S2000x32, .f32⟩ : BufTy).Contents (Elt F) :=
  broadcastInDim S2000x32 ![0, 1] bcast_S1x32_S2000x32_0_1 (val_main_v108 (F := F) x24)
abbrev idx_main_v109 (i : S2000x32.Idx) : S1x32.Idx := fun a => match a with
  | ⟨0, _⟩ => ⟨0, Nat.one_pos⟩
  | ⟨1, _⟩ => ⟨(i 1).val, (i 1).isLt⟩
theorem val_main_v109_apply (i : S2000x32.Idx) :
    val_main_v109 (F := F) x24 i = val_main_v108 (F := F) x24 (idx_main_v109 i) := by
  unfold val_main_v109
  generalize val_main_v108 (F := F) x24 = y
  exact broadcastInDim_apply _ bcast_S1x32_S2000x32_0_1 y i (idx_main_v109 i) (fun a => match a with
    | ⟨0, _⟩ => by show 0 = if (1 : Nat) = 1 then 0 else (i 0).val; rw [if_pos rfl]
    | ⟨1, _⟩ => by show (i 1).val = if (32 : Nat) = 1 then 0 else (i 1).val; rw [if_neg (by decide)])

def val_main_v110 : (⟨S2000x32, .f32⟩ : BufTy).Contents (Elt F) :=
  addf (val_main_v107 (F := F) x0 x23) (val_main_v109 (F := F) x24)
theorem val_main_v110_apply (i : S2000x32.Idx) :
    val_main_v110 (F := F) x0 x23 x24 i = FloatOps.addf (val_main_v107 (F := F) x0 x23 i) (val_main_v109 (F := F) x24 i) := rfl

def val_main_v111 : (⟨S2000x2, .f32⟩ : BufTy).Contents (Elt F) :=
  Host.dotGeneral dot_S2000x2_S2x2_S2000x2_1_0_0_1_n_n none (x1) (x25)
theorem lhs_main_v111_0 (i : S2000x2.Idx) (q : dot_S2000x2_S2x2_S2000x2_1_0_0_1_n_n.contr.Idx) :
    (dot_S2000x2_S2x2_S2000x2_1_0_0_1_n_n.lhsIdx i q 0).val = (i 0).val := by
  unfold DotDims.lhsIdx
  rw [dif_neg (show ¬(0 : Fin S2000x2.rank) ∈ dot_S2000x2_S2x2_S2000x2_1_0_0_1_n_n.lhsBatch by decide), dif_pos (show (0 : Fin S2000x2.rank) ∈ dot_S2000x2_S2x2_S2000x2_1_0_0_1_n_n.lhsNonContracting by decide)]
  rfl
theorem lhs_main_v111_1 (i : S2000x2.Idx) (q : dot_S2000x2_S2x2_S2000x2_1_0_0_1_n_n.contr.Idx) :
    (dot_S2000x2_S2x2_S2000x2_1_0_0_1_n_n.lhsIdx i q 1).val = (q ⟨0, by decide⟩).val :=
  dot_S2000x2_S2x2_S2000x2_1_0_0_1_n_n.lhsIdx_val_of_single rfl i q
theorem rhs_main_v111_0 (i : S2000x2.Idx) (q : dot_S2000x2_S2x2_S2000x2_1_0_0_1_n_n.contr.Idx) :
    (dot_S2000x2_S2x2_S2000x2_1_0_0_1_n_n.rhsIdx i q 0).val = (q ⟨0, by decide⟩).val :=
  dot_S2000x2_S2x2_S2000x2_1_0_0_1_n_n.rhsIdx_val_of_single rfl i q
theorem rhs_main_v111_1 (i : S2000x2.Idx) (q : dot_S2000x2_S2x2_S2000x2_1_0_0_1_n_n.contr.Idx) :
    (dot_S2000x2_S2x2_S2000x2_1_0_0_1_n_n.rhsIdx i q 1).val = (i 1).val := by
  unfold DotDims.rhsIdx
  rw [dif_neg (show ¬(1 : Fin S2x2.rank) ∈ dot_S2000x2_S2x2_S2000x2_1_0_0_1_n_n.rhsBatch by decide), dif_pos (show (1 : Fin S2x2.rank) ∈ dot_S2000x2_S2x2_S2000x2_1_0_0_1_n_n.rhsNonContracting by decide)]
  rfl
abbrev lidx_main_v111 (i : S2000x2.Idx) (k : Fin 2) : S2000x2.Idx := fun a => match a with
  | ⟨0, _⟩ => ⟨(i 0).val, (i 0).isLt⟩
  | ⟨1, _⟩ => ⟨k.val, k.isLt⟩
abbrev ridx_main_v111 (i : S2000x2.Idx) (k : Fin 2) : S2x2.Idx := fun a => match a with
  | ⟨0, _⟩ => ⟨k.val, k.isLt⟩
  | ⟨1, _⟩ => ⟨(i 1).val, (i 1).isLt⟩

theorem val_main_v111_apply (x1 : (⟨S2000x2, .f32⟩ : BufTy).Contents (Elt Ideal)) (x25 : (⟨S2x2, .f32⟩ : BufTy).Contents (Elt Ideal)) (i : S2000x2.Idx) :
    val_main_v111 (F := Ideal) x1 x25 i = ∑ k : Fin 2, x1 (lidx_main_v111 i k) * x25 (ridx_main_v111 i k) := by
  unfold val_main_v111
  simp only [Host.dotGeneral]
  rw [Ideal.dotGeneral_apply, ← Equiv.sum_comp (ValueIdx.contrEquiv1 dot_S2000x2_S2x2_S2000x2_1_0_0_1_n_n 2 rfl rfl).symm]
  refine Finset.sum_congr rfl fun k _ => ?_
  have hk := ValueIdx.contrEquiv1_symm_val dot_S2000x2_S2x2_S2000x2_1_0_0_1_n_n 2 rfl rfl k
  have el : dot_S2000x2_S2x2_S2000x2_1_0_0_1_n_n.lhsIdx i ((ValueIdx.contrEquiv1 dot_S2000x2_S2x2_S2000x2_1_0_0_1_n_n 2 rfl rfl).symm k) = lidx_main_v111 i k := funext fun a => Fin.ext (by
    match a with
    | ⟨0, _⟩ => exact lhs_main_v111_0 _ _
    | ⟨1, _⟩ => exact (lhs_main_v111_1 _ _).trans hk)
  have er : dot_S2000x2_S2x2_S2000x2_1_0_0_1_n_n.rhsIdx i ((ValueIdx.contrEquiv1 dot_S2000x2_S2x2_S2000x2_1_0_0_1_n_n 2 rfl rfl).symm k) = ridx_main_v111 i k := funext fun a => Fin.ext (by
    match a with
    | ⟨0, _⟩ => exact (rhs_main_v111_0 _ _).trans hk
    | ⟨1, _⟩ => exact rhs_main_v111_1 _ _)
  rw [el, er]

def val_main_v112 : (⟨S1x2, .f32⟩ : BufTy).Contents (Elt F) :=
  broadcastInDim S1x2 ![1] bcast_S2_S1x2_1 (x26)
abbrev idx_main_v112 (i : S1x2.Idx) : S2.Idx := fun a => match a with
  | ⟨0, _⟩ => ⟨(i 1).val, (i 1).isLt⟩
theorem val_main_v112_apply (i : S1x2.Idx) :
    val_main_v112 (F := F) x26 i = x26 (idx_main_v112 i) := by
  unfold val_main_v112
  exact broadcastInDim_apply _ bcast_S2_S1x2_1 x26 i (idx_main_v112 i) (fun a => match a with
    | ⟨0, _⟩ => by show (i 1).val = if (2 : Nat) = 1 then 0 else (i 1).val; rw [if_neg (by decide)])

def val_main_v113 : (⟨S2000x2, .f32⟩ : BufTy).Contents (Elt F) :=
  broadcastInDim S2000x2 ![0, 1] bcast_S1x2_S2000x2_0_1 (val_main_v112 (F := F) x26)
abbrev idx_main_v113 (i : S2000x2.Idx) : S1x2.Idx := fun a => match a with
  | ⟨0, _⟩ => ⟨0, Nat.one_pos⟩
  | ⟨1, _⟩ => ⟨(i 1).val, (i 1).isLt⟩
theorem val_main_v113_apply (i : S2000x2.Idx) :
    val_main_v113 (F := F) x26 i = val_main_v112 (F := F) x26 (idx_main_v113 i) := by
  unfold val_main_v113
  generalize val_main_v112 (F := F) x26 = y
  exact broadcastInDim_apply _ bcast_S1x2_S2000x2_0_1 y i (idx_main_v113 i) (fun a => match a with
    | ⟨0, _⟩ => by show 0 = if (1 : Nat) = 1 then 0 else (i 0).val; rw [if_pos rfl]
    | ⟨1, _⟩ => by show (i 1).val = if (2 : Nat) = 1 then 0 else (i 1).val; rw [if_neg (by decide)])

def val_main_v114 : (⟨S2000x2, .f32⟩ : BufTy).Contents (Elt F) :=
  addf (val_main_v111 (F := F) x1 x25) (val_main_v113 (F := F) x26)
theorem val_main_v114_apply (i : S2000x2.Idx) :
    val_main_v114 (F := F) x1 x25 x26 i = FloatOps.addf (val_main_v111 (F := F) x1 x25 i) (val_main_v113 (F := F) x26 i) := rfl

def val_main_cst_14 : (⟨S_, .f32⟩ : BufTy).Contents (Elt F) :=
  constant S_ .f32 0x40B504F3#32
theorem val_main_cst_14_apply (i : S_.Idx) :
    val_main_cst_14 (F := F) i = FloatOps.ofBits .f32 0x40B504F3#32 := rfl

def val_main_v115 : (⟨S4000x32, .f32⟩ : BufTy).Contents (Elt F) :=
  broadcastInDim S4000x32 ![] bcast_S_S4000x32 (val_main_cst_14 (F := F))
abbrev idx_main_v115 (i : S4000x32.Idx) : S_.Idx := fun a => a.elim0
theorem val_main_v115_apply (i : S4000x32.Idx) :
    val_main_v115 (F := F) i = val_main_cst_14 (F := F) (idx_main_v115 i) := by
  unfold val_main_v115
  generalize val_main_cst_14 (F := F) = y
  exact broadcastInDim_apply _ bcast_S_S4000x32 y i (idx_main_v115 i) (fun a => a.elim0)

def val_main_v116 : (⟨S4000x32, .f32⟩ : BufTy).Contents (Elt F) :=
  Host.divf (val_main_v106 (F := F) x0 x1 x2 x4 x5 x6 x7 x8 x9 x10 x11 x12 x13 x14 x17 x18 x19 x20 x21 x22) (val_main_v115 (F := F))
theorem val_main_v116_apply (i : S4000x32.Idx) :
    val_main_v116 (F := F) x0 x1 x2 x4 x5 x6 x7 x8 x9 x10 x11 x12 x13 x14 x17 x18 x19 x20 x21 x22 i = FloatOps.hostDivf (val_main_v106 (F := F) x0 x1 x2 x4 x5 x6 x7 x8 x9 x10 x11 x12 x13 x14 x17 x18 x19 x20 x21 x22 i) (val_main_v115 (F := F) i) := rfl

def val_main_v117 : (⟨S32x2000, .f32⟩ : BufTy).Contents (Elt F) :=
  transpose S32x2000 [1, 0] (val_main_v110 (F := F) x0 x23 x24) transposes_S2000x32_S32x2000_1_0
abbrev idx_main_v117 (i : S32x2000.Idx) : S2000x32.Idx := fun a => match a with
  | ⟨0, _⟩ => ⟨(i 1).val, (i 1).isLt⟩
  | ⟨1, _⟩ => ⟨(i 0).val, (i 0).isLt⟩
theorem val_main_v117_apply (i : S32x2000.Idx) :
    val_main_v117 (F := F) x0 x23 x24 i = val_main_v110 (F := F) x0 x23 x24 (idx_main_v117 i) := by
  unfold val_main_v117
  generalize val_main_v110 (F := F) x0 x23 x24 = y
  exact transpose_apply [1, 0] y transposes_S2000x32_S32x2000_1_0 i (idx_main_v117 i) (fun b => match b with
    | ⟨0, _⟩ => rfl
    | ⟨1, _⟩ => rfl)

def val_main_v118 : (⟨S4000x2000, .f32⟩ : BufTy).Contents (Elt F) :=
  Host.dotGeneral dot_S4000x32_S32x2000_S4000x2000_1_0_0_1_n_n none (val_main_v116 (F := F) x0 x1 x2 x4 x5 x6 x7 x8 x9 x10 x11 x12 x13 x14 x17 x18 x19 x20 x21 x22) (val_main_v117 (F := F) x0 x23 x24)
theorem lhs_main_v118_0 (i : S4000x2000.Idx) (q : dot_S4000x32_S32x2000_S4000x2000_1_0_0_1_n_n.contr.Idx) :
    (dot_S4000x32_S32x2000_S4000x2000_1_0_0_1_n_n.lhsIdx i q 0).val = (i 0).val := by
  unfold DotDims.lhsIdx
  rw [dif_neg (show ¬(0 : Fin S4000x32.rank) ∈ dot_S4000x32_S32x2000_S4000x2000_1_0_0_1_n_n.lhsBatch by decide), dif_pos (show (0 : Fin S4000x32.rank) ∈ dot_S4000x32_S32x2000_S4000x2000_1_0_0_1_n_n.lhsNonContracting by decide)]
  rfl
theorem lhs_main_v118_1 (i : S4000x2000.Idx) (q : dot_S4000x32_S32x2000_S4000x2000_1_0_0_1_n_n.contr.Idx) :
    (dot_S4000x32_S32x2000_S4000x2000_1_0_0_1_n_n.lhsIdx i q 1).val = (q ⟨0, by decide⟩).val :=
  dot_S4000x32_S32x2000_S4000x2000_1_0_0_1_n_n.lhsIdx_val_of_single rfl i q
theorem rhs_main_v118_0 (i : S4000x2000.Idx) (q : dot_S4000x32_S32x2000_S4000x2000_1_0_0_1_n_n.contr.Idx) :
    (dot_S4000x32_S32x2000_S4000x2000_1_0_0_1_n_n.rhsIdx i q 0).val = (q ⟨0, by decide⟩).val :=
  dot_S4000x32_S32x2000_S4000x2000_1_0_0_1_n_n.rhsIdx_val_of_single rfl i q
theorem rhs_main_v118_1 (i : S4000x2000.Idx) (q : dot_S4000x32_S32x2000_S4000x2000_1_0_0_1_n_n.contr.Idx) :
    (dot_S4000x32_S32x2000_S4000x2000_1_0_0_1_n_n.rhsIdx i q 1).val = (i 1).val := by
  unfold DotDims.rhsIdx
  rw [dif_neg (show ¬(1 : Fin S32x2000.rank) ∈ dot_S4000x32_S32x2000_S4000x2000_1_0_0_1_n_n.rhsBatch by decide), dif_pos (show (1 : Fin S32x2000.rank) ∈ dot_S4000x32_S32x2000_S4000x2000_1_0_0_1_n_n.rhsNonContracting by decide)]
  rfl
abbrev lidx_main_v118 (i : S4000x2000.Idx) (k : Fin 32) : S4000x32.Idx := fun a => match a with
  | ⟨0, _⟩ => ⟨(i 0).val, (i 0).isLt⟩
  | ⟨1, _⟩ => ⟨k.val, k.isLt⟩
abbrev ridx_main_v118 (i : S4000x2000.Idx) (k : Fin 32) : S32x2000.Idx := fun a => match a with
  | ⟨0, _⟩ => ⟨k.val, k.isLt⟩
  | ⟨1, _⟩ => ⟨(i 1).val, (i 1).isLt⟩

theorem val_main_v118_apply (x0 : (⟨S2000x30, .f32⟩ : BufTy).Contents (Elt Ideal)) (x1 : (⟨S2000x2, .f32⟩ : BufTy).Contents (Elt Ideal)) (x2 : (⟨S4000x30, .f32⟩ : BufTy).Contents (Elt Ideal)) (x4 : (⟨S2000, .f32⟩ : BufTy).Contents (Elt Ideal)) (x5 : (⟨S4000, .f32⟩ : BufTy).Contents (Elt Ideal)) (x6 x7 x8 x9 x10 : (⟨S1x1, .f32⟩ : BufTy).Contents (Elt Ideal)) (x11 : (⟨S30x32, .f32⟩ : BufTy).Contents (Elt Ideal)) (x12 : (⟨S32, .f32⟩ : BufTy).Contents (Elt Ideal)) (x13 : (⟨S30x32, .f32⟩ : BufTy).Contents (Elt Ideal)) (x14 : (⟨S32, .f32⟩ : BufTy).Contents (Elt Ideal)) (x17 : (⟨S32x32, .f32⟩ : BufTy).Contents (Elt Ideal)) (x18 : (⟨S32, .f32⟩ : BufTy).Contents (Elt Ideal)) (x19 : (⟨S32x32, .f32⟩ : BufTy).Contents (Elt Ideal)) (x20 : (⟨S32, .f32⟩ : BufTy).Contents (Elt Ideal)) (x21 : (⟨S94x32, .f32⟩ : BufTy).Contents (Elt Ideal)) (x22 : (⟨S32, .f32⟩ : BufTy).Contents (Elt Ideal)) (x23 : (⟨S30x32, .f32⟩ : BufTy).Contents (Elt Ideal)) (x24 : (⟨S32, .f32⟩ : BufTy).Contents (Elt Ideal)) (i : S4000x2000.Idx) :
    val_main_v118 (F := Ideal) x0 x1 x2 x4 x5 x6 x7 x8 x9 x10 x11 x12 x13 x14 x17 x18 x19 x20 x21 x22 x23 x24 i = ∑ k : Fin 32, (val_main_v116 (F := Ideal) x0 x1 x2 x4 x5 x6 x7 x8 x9 x10 x11 x12 x13 x14 x17 x18 x19 x20 x21 x22) (lidx_main_v118 i k) * (val_main_v117 (F := Ideal) x0 x23 x24) (ridx_main_v118 i k) := by
  unfold val_main_v118
  generalize val_main_v116 (F := Ideal) x0 x1 x2 x4 x5 x6 x7 x8 x9 x10 x11 x12 x13 x14 x17 x18 x19 x20 x21 x22 = y0
  generalize val_main_v117 (F := Ideal) x0 x23 x24 = y1
  simp only [Host.dotGeneral]
  rw [Ideal.dotGeneral_apply, ← Equiv.sum_comp (ValueIdx.contrEquiv1 dot_S4000x32_S32x2000_S4000x2000_1_0_0_1_n_n 32 rfl rfl).symm]
  refine Finset.sum_congr rfl fun k _ => ?_
  have hk := ValueIdx.contrEquiv1_symm_val dot_S4000x32_S32x2000_S4000x2000_1_0_0_1_n_n 32 rfl rfl k
  have el : dot_S4000x32_S32x2000_S4000x2000_1_0_0_1_n_n.lhsIdx i ((ValueIdx.contrEquiv1 dot_S4000x32_S32x2000_S4000x2000_1_0_0_1_n_n 32 rfl rfl).symm k) = lidx_main_v118 i k := funext fun a => Fin.ext (by
    match a with
    | ⟨0, _⟩ => exact lhs_main_v118_0 _ _
    | ⟨1, _⟩ => exact (lhs_main_v118_1 _ _).trans hk)
  have er : dot_S4000x32_S32x2000_S4000x2000_1_0_0_1_n_n.rhsIdx i ((ValueIdx.contrEquiv1 dot_S4000x32_S32x2000_S4000x2000_1_0_0_1_n_n 32 rfl rfl).symm k) = ridx_main_v118 i k := funext fun a => Fin.ext (by
    match a with
    | ⟨0, _⟩ => exact (rhs_main_v118_0 _ _).trans hk
    | ⟨1, _⟩ => exact rhs_main_v118_1 _ _)
  rw [el, er]

def val_main_cst_15 : (⟨S_, .f32⟩ : BufTy).Contents (Elt F) :=
  constant S_ .f32 0xFF800000#32
theorem val_main_cst_15_apply (i : S_.Idx) :
    val_main_cst_15 (F := F) i = FloatOps.ofBits .f32 0xFF800000#32 := rfl

def val_main_v119 : (⟨S4000, .f32⟩ : BufTy).Contents (Elt F) :=
  Host.reduce FloatOps.maximumf (val_main_v118 (F := F) x0 x1 x2 x4 x5 x6 x7 x8 x9 x10 x11 x12 x13 x14 x17 x18 x19 x20 x21 x22 x23 x24) (val_main_cst_15 (F := F)) reducesTo_S4000x2000_S4000_d1 h_S_

def val_main_cst_16 : (⟨S_, .f32⟩ : BufTy).Contents (Elt F) :=
  constant S_ .f32 0xFF800000#32
theorem val_main_cst_16_apply (i : S_.Idx) :
    val_main_cst_16 (F := F) i = FloatOps.ofBits .f32 0xFF800000#32 := rfl

def val_main_v120 : (⟨S4000, .f32⟩ : BufTy).Contents (Elt F) :=
  broadcastInDim S4000 ![] bcast_S_S4000 (val_main_cst_16 (F := F))
abbrev idx_main_v120 (i : S4000.Idx) : S_.Idx := fun a => a.elim0
theorem val_main_v120_apply (i : S4000.Idx) :
    val_main_v120 (F := F) i = val_main_cst_16 (F := F) (idx_main_v120 i) := by
  unfold val_main_v120
  generalize val_main_cst_16 (F := F) = y
  exact broadcastInDim_apply _ bcast_S_S4000 y i (idx_main_v120 i) (fun a => a.elim0)

def val_main_v121 : (⟨S4000, .f32⟩ : BufTy).Contents (Elt F) :=
  maximumf (val_main_v120 (F := F)) (val_main_v119 (F := F) x0 x1 x2 x4 x5 x6 x7 x8 x9 x10 x11 x12 x13 x14 x17 x18 x19 x20 x21 x22 x23 x24)
theorem val_main_v121_apply (i : S4000.Idx) :
    val_main_v121 (F := F) x0 x1 x2 x4 x5 x6 x7 x8 x9 x10 x11 x12 x13 x14 x17 x18 x19 x20 x21 x22 x23 x24 i = FloatOps.maximumf (val_main_v120 (F := F) i) (val_main_v119 (F := F) x0 x1 x2 x4 x5 x6 x7 x8 x9 x10 x11 x12 x13 x14 x17 x18 x19 x20 x21 x22 x23 x24 i) := rfl

def val_main_v122 : (⟨S4000x1, .f32⟩ : BufTy).Contents (Elt F) :=
  broadcastInDim S4000x1 ![0] bcast_S4000_S4000x1_0 (val_main_v121 (F := F) x0 x1 x2 x4 x5 x6 x7 x8 x9 x10 x11 x12 x13 x14 x17 x18 x19 x20 x21 x22 x23 x24)
abbrev idx_main_v122 (i : S4000x1.Idx) : S4000.Idx := fun a => match a with
  | ⟨0, _⟩ => ⟨(i 0).val, (i 0).isLt⟩
theorem val_main_v122_apply (i : S4000x1.Idx) :
    val_main_v122 (F := F) x0 x1 x2 x4 x5 x6 x7 x8 x9 x10 x11 x12 x13 x14 x17 x18 x19 x20 x21 x22 x23 x24 i = val_main_v121 (F := F) x0 x1 x2 x4 x5 x6 x7 x8 x9 x10 x11 x12 x13 x14 x17 x18 x19 x20 x21 x22 x23 x24 (idx_main_v122 i) := by
  unfold val_main_v122
  generalize val_main_v121 (F := F) x0 x1 x2 x4 x5 x6 x7 x8 x9 x10 x11 x12 x13 x14 x17 x18 x19 x20 x21 x22 x23 x24 = y
  exact broadcastInDim_apply _ bcast_S4000_S4000x1_0 y i (idx_main_v122 i) (fun a => match a with
    | ⟨0, _⟩ => by show (i 0).val = if (4000 : Nat) = 1 then 0 else (i 0).val; rw [if_neg (by decide)])

def val_main_v123 : (⟨S4000x2000, .f32⟩ : BufTy).Contents (Elt F) :=
  broadcastInDim S4000x2000 ![0, 1] bcast_S4000x1_S4000x2000_0_1 (val_main_v122 (F := F) x0 x1 x2 x4 x5 x6 x7 x8 x9 x10 x11 x12 x13 x14 x17 x18 x19 x20 x21 x22 x23 x24)
abbrev idx_main_v123 (i : S4000x2000.Idx) : S4000x1.Idx := fun a => match a with
  | ⟨0, _⟩ => ⟨(i 0).val, (i 0).isLt⟩
  | ⟨1, _⟩ => ⟨0, Nat.one_pos⟩
theorem val_main_v123_apply (i : S4000x2000.Idx) :
    val_main_v123 (F := F) x0 x1 x2 x4 x5 x6 x7 x8 x9 x10 x11 x12 x13 x14 x17 x18 x19 x20 x21 x22 x23 x24 i = val_main_v122 (F := F) x0 x1 x2 x4 x5 x6 x7 x8 x9 x10 x11 x12 x13 x14 x17 x18 x19 x20 x21 x22 x23 x24 (idx_main_v123 i) := by
  unfold val_main_v123
  generalize val_main_v122 (F := F) x0 x1 x2 x4 x5 x6 x7 x8 x9 x10 x11 x12 x13 x14 x17 x18 x19 x20 x21 x22 x23 x24 = y
  exact broadcastInDim_apply _ bcast_S4000x1_S4000x2000_0_1 y i (idx_main_v123 i) (fun a => match a with
    | ⟨0, _⟩ => by show (i 0).val = if (4000 : Nat) = 1 then 0 else (i 0).val; rw [if_neg (by decide)]
    | ⟨1, _⟩ => by show 0 = if (1 : Nat) = 1 then 0 else (i 1).val; rw [if_pos rfl])

def val_main_v124 : (⟨S4000x2000, .f32⟩ : BufTy).Contents (Elt F) :=
  subf (val_main_v118 (F := F) x0 x1 x2 x4 x5 x6 x7 x8 x9 x10 x11 x12 x13 x14 x17 x18 x19 x20 x21 x22 x23 x24) (val_main_v123 (F := F) x0 x1 x2 x4 x5 x6 x7 x8 x9 x10 x11 x12 x13 x14 x17 x18 x19 x20 x21 x22 x23 x24)
theorem val_main_v124_apply (i : S4000x2000.Idx) :
    val_main_v124 (F := F) x0 x1 x2 x4 x5 x6 x7 x8 x9 x10 x11 x12 x13 x14 x17 x18 x19 x20 x21 x22 x23 x24 i = FloatOps.subf (val_main_v118 (F := F) x0 x1 x2 x4 x5 x6 x7 x8 x9 x10 x11 x12 x13 x14 x17 x18 x19 x20 x21 x22 x23 x24 i) (val_main_v123 (F := F) x0 x1 x2 x4 x5 x6 x7 x8 x9 x10 x11 x12 x13 x14 x17 x18 x19 x20 x21 x22 x23 x24 i) := rfl

def val_main_v125 : (⟨S4000x2000, .f32⟩ : BufTy).Contents (Elt F) :=
  Host.exp (val_main_v124 (F := F) x0 x1 x2 x4 x5 x6 x7 x8 x9 x10 x11 x12 x13 x14 x17 x18 x19 x20 x21 x22 x23 x24)
theorem val_main_v125_apply (i : S4000x2000.Idx) :
    val_main_v125 (F := F) x0 x1 x2 x4 x5 x6 x7 x8 x9 x10 x11 x12 x13 x14 x17 x18 x19 x20 x21 x22 x23 x24 i = FloatOps.hostUnary .exp (val_main_v124 (F := F) x0 x1 x2 x4 x5 x6 x7 x8 x9 x10 x11 x12 x13 x14 x17 x18 x19 x20 x21 x22 x23 x24 i) := rfl

def val_main_cst_17 : (⟨S_, .f32⟩ : BufTy).Contents (Elt F) :=
  constant S_ .f32 0x00000000#32
theorem val_main_cst_17_apply (i : S_.Idx) :
    val_main_cst_17 (F := F) i = FloatOps.ofBits .f32 0x00000000#32 := rfl

def val_main_v126 : (⟨S4000, .f32⟩ : BufTy).Contents (Elt F) :=
  Host.reduceAdd (val_main_v125 (F := F) x0 x1 x2 x4 x5 x6 x7 x8 x9 x10 x11 x12 x13 x14 x17 x18 x19 x20 x21 x22 x23 x24) (val_main_cst_17 (F := F)) reducesTo_S4000x2000_S4000_d1 h_S_
abbrev idx_main_v126 (i : S4000.Idx) (k : Fin 2000) : S4000x2000.Idx := fun a => match a with
  | ⟨0, _⟩ => ⟨(i 0).val, (i 0).isLt⟩
  | ⟨1, _⟩ => ⟨k.val, k.isLt⟩

theorem val_main_v126_apply (x0 : (⟨S2000x30, .f32⟩ : BufTy).Contents (Elt Ideal)) (x1 : (⟨S2000x2, .f32⟩ : BufTy).Contents (Elt Ideal)) (x2 : (⟨S4000x30, .f32⟩ : BufTy).Contents (Elt Ideal)) (x4 : (⟨S2000, .f32⟩ : BufTy).Contents (Elt Ideal)) (x5 : (⟨S4000, .f32⟩ : BufTy).Contents (Elt Ideal)) (x6 x7 x8 x9 x10 : (⟨S1x1, .f32⟩ : BufTy).Contents (Elt Ideal)) (x11 : (⟨S30x32, .f32⟩ : BufTy).Contents (Elt Ideal)) (x12 : (⟨S32, .f32⟩ : BufTy).Contents (Elt Ideal)) (x13 : (⟨S30x32, .f32⟩ : BufTy).Contents (Elt Ideal)) (x14 : (⟨S32, .f32⟩ : BufTy).Contents (Elt Ideal)) (x17 : (⟨S32x32, .f32⟩ : BufTy).Contents (Elt Ideal)) (x18 : (⟨S32, .f32⟩ : BufTy).Contents (Elt Ideal)) (x19 : (⟨S32x32, .f32⟩ : BufTy).Contents (Elt Ideal)) (x20 : (⟨S32, .f32⟩ : BufTy).Contents (Elt Ideal)) (x21 : (⟨S94x32, .f32⟩ : BufTy).Contents (Elt Ideal)) (x22 : (⟨S32, .f32⟩ : BufTy).Contents (Elt Ideal)) (x23 : (⟨S30x32, .f32⟩ : BufTy).Contents (Elt Ideal)) (x24 : (⟨S32, .f32⟩ : BufTy).Contents (Elt Ideal)) (i : S4000.Idx) :
    val_main_v126 (F := Ideal) x0 x1 x2 x4 x5 x6 x7 x8 x9 x10 x11 x12 x13 x14 x17 x18 x19 x20 x21 x22 x23 x24 i = (val_main_cst_17 (F := Ideal)) (Shape.Idx.first h_S_) + ∑ k : Fin 2000, (val_main_v125 (F := Ideal) x0 x1 x2 x4 x5 x6 x7 x8 x9 x10 x11 x12 x13 x14 x17 x18 x19 x20 x21 x22 x23 x24) (idx_main_v126 i k) := by
  unfold val_main_v126
  generalize val_main_v125 (F := Ideal) x0 x1 x2 x4 x5 x6 x7 x8 x9 x10 x11 x12 x13 x14 x17 x18 x19 x20 x21 x22 x23 x24 = y0
  simp only [Host.reduceAdd, Ideal.hostReduceAdd_def]
  rw [Ideal.hostReduceAdd_single reducesTo_S4000x2000_S4000_d1 (by decide)]
  refine congrArg (_ + ·) (Finset.sum_congr rfl fun k _ => ?_)
  exact congrArg y0 (funext fun a => Fin.ext (by match a with | ⟨0, _⟩ => rfl | ⟨1, _⟩ => rfl))

def val_main_v127 : (⟨S4000x1, .f32⟩ : BufTy).Contents (Elt F) :=
  broadcastInDim S4000x1 ![0] bcast_S4000_S4000x1_0 (val_main_v126 (F := F) x0 x1 x2 x4 x5 x6 x7 x8 x9 x10 x11 x12 x13 x14 x17 x18 x19 x20 x21 x22 x23 x24)
abbrev idx_main_v127 (i : S4000x1.Idx) : S4000.Idx := fun a => match a with
  | ⟨0, _⟩ => ⟨(i 0).val, (i 0).isLt⟩
theorem val_main_v127_apply (i : S4000x1.Idx) :
    val_main_v127 (F := F) x0 x1 x2 x4 x5 x6 x7 x8 x9 x10 x11 x12 x13 x14 x17 x18 x19 x20 x21 x22 x23 x24 i = val_main_v126 (F := F) x0 x1 x2 x4 x5 x6 x7 x8 x9 x10 x11 x12 x13 x14 x17 x18 x19 x20 x21 x22 x23 x24 (idx_main_v127 i) := by
  unfold val_main_v127
  generalize val_main_v126 (F := F) x0 x1 x2 x4 x5 x6 x7 x8 x9 x10 x11 x12 x13 x14 x17 x18 x19 x20 x21 x22 x23 x24 = y
  exact broadcastInDim_apply _ bcast_S4000_S4000x1_0 y i (idx_main_v127 i) (fun a => match a with
    | ⟨0, _⟩ => by show (i 0).val = if (4000 : Nat) = 1 then 0 else (i 0).val; rw [if_neg (by decide)])

def val_main_v128 : (⟨S4000x2000, .f32⟩ : BufTy).Contents (Elt F) :=
  broadcastInDim S4000x2000 ![0, 1] bcast_S4000x1_S4000x2000_0_1 (val_main_v127 (F := F) x0 x1 x2 x4 x5 x6 x7 x8 x9 x10 x11 x12 x13 x14 x17 x18 x19 x20 x21 x22 x23 x24)
abbrev idx_main_v128 (i : S4000x2000.Idx) : S4000x1.Idx := fun a => match a with
  | ⟨0, _⟩ => ⟨(i 0).val, (i 0).isLt⟩
  | ⟨1, _⟩ => ⟨0, Nat.one_pos⟩
theorem val_main_v128_apply (i : S4000x2000.Idx) :
    val_main_v128 (F := F) x0 x1 x2 x4 x5 x6 x7 x8 x9 x10 x11 x12 x13 x14 x17 x18 x19 x20 x21 x22 x23 x24 i = val_main_v127 (F := F) x0 x1 x2 x4 x5 x6 x7 x8 x9 x10 x11 x12 x13 x14 x17 x18 x19 x20 x21 x22 x23 x24 (idx_main_v128 i) := by
  unfold val_main_v128
  generalize val_main_v127 (F := F) x0 x1 x2 x4 x5 x6 x7 x8 x9 x10 x11 x12 x13 x14 x17 x18 x19 x20 x21 x22 x23 x24 = y
  exact broadcastInDim_apply _ bcast_S4000x1_S4000x2000_0_1 y i (idx_main_v128 i) (fun a => match a with
    | ⟨0, _⟩ => by show (i 0).val = if (4000 : Nat) = 1 then 0 else (i 0).val; rw [if_neg (by decide)]
    | ⟨1, _⟩ => by show 0 = if (1 : Nat) = 1 then 0 else (i 1).val; rw [if_pos rfl])

def val_main_v129 : (⟨S4000x2000, .f32⟩ : BufTy).Contents (Elt F) :=
  Host.divf (val_main_v125 (F := F) x0 x1 x2 x4 x5 x6 x7 x8 x9 x10 x11 x12 x13 x14 x17 x18 x19 x20 x21 x22 x23 x24) (val_main_v128 (F := F) x0 x1 x2 x4 x5 x6 x7 x8 x9 x10 x11 x12 x13 x14 x17 x18 x19 x20 x21 x22 x23 x24)
theorem val_main_v129_apply (i : S4000x2000.Idx) :
    val_main_v129 (F := F) x0 x1 x2 x4 x5 x6 x7 x8 x9 x10 x11 x12 x13 x14 x17 x18 x19 x20 x21 x22 x23 x24 i = FloatOps.hostDivf (val_main_v125 (F := F) x0 x1 x2 x4 x5 x6 x7 x8 x9 x10 x11 x12 x13 x14 x17 x18 x19 x20 x21 x22 x23 x24 i) (val_main_v128 (F := F) x0 x1 x2 x4 x5 x6 x7 x8 x9 x10 x11 x12 x13 x14 x17 x18 x19 x20 x21 x22 x23 x24 i) := rfl

def val_main_v130 : (⟨S4000x2, .f32⟩ : BufTy).Contents (Elt F) :=
  Host.dotGeneral dot_S4000x2000_S2000x2_S4000x2_1_0_0_1_n_n none (val_main_v129 (F := F) x0 x1 x2 x4 x5 x6 x7 x8 x9 x10 x11 x12 x13 x14 x17 x18 x19 x20 x21 x22 x23 x24) (val_main_v114 (F := F) x1 x25 x26)
theorem lhs_main_v130_0 (i : S4000x2.Idx) (q : dot_S4000x2000_S2000x2_S4000x2_1_0_0_1_n_n.contr.Idx) :
    (dot_S4000x2000_S2000x2_S4000x2_1_0_0_1_n_n.lhsIdx i q 0).val = (i 0).val := by
  unfold DotDims.lhsIdx
  rw [dif_neg (show ¬(0 : Fin S4000x2000.rank) ∈ dot_S4000x2000_S2000x2_S4000x2_1_0_0_1_n_n.lhsBatch by decide), dif_pos (show (0 : Fin S4000x2000.rank) ∈ dot_S4000x2000_S2000x2_S4000x2_1_0_0_1_n_n.lhsNonContracting by decide)]
  rfl
theorem lhs_main_v130_1 (i : S4000x2.Idx) (q : dot_S4000x2000_S2000x2_S4000x2_1_0_0_1_n_n.contr.Idx) :
    (dot_S4000x2000_S2000x2_S4000x2_1_0_0_1_n_n.lhsIdx i q 1).val = (q ⟨0, by decide⟩).val :=
  dot_S4000x2000_S2000x2_S4000x2_1_0_0_1_n_n.lhsIdx_val_of_single rfl i q
theorem rhs_main_v130_0 (i : S4000x2.Idx) (q : dot_S4000x2000_S2000x2_S4000x2_1_0_0_1_n_n.contr.Idx) :
    (dot_S4000x2000_S2000x2_S4000x2_1_0_0_1_n_n.rhsIdx i q 0).val = (q ⟨0, by decide⟩).val :=
  dot_S4000x2000_S2000x2_S4000x2_1_0_0_1_n_n.rhsIdx_val_of_single rfl i q
theorem rhs_main_v130_1 (i : S4000x2.Idx) (q : dot_S4000x2000_S2000x2_S4000x2_1_0_0_1_n_n.contr.Idx) :
    (dot_S4000x2000_S2000x2_S4000x2_1_0_0_1_n_n.rhsIdx i q 1).val = (i 1).val := by
  unfold DotDims.rhsIdx
  rw [dif_neg (show ¬(1 : Fin S2000x2.rank) ∈ dot_S4000x2000_S2000x2_S4000x2_1_0_0_1_n_n.rhsBatch by decide), dif_pos (show (1 : Fin S2000x2.rank) ∈ dot_S4000x2000_S2000x2_S4000x2_1_0_0_1_n_n.rhsNonContracting by decide)]
  rfl
abbrev lidx_main_v130 (i : S4000x2.Idx) (k : Fin 2000) : S4000x2000.Idx := fun a => match a with
  | ⟨0, _⟩ => ⟨(i 0).val, (i 0).isLt⟩
  | ⟨1, _⟩ => ⟨k.val, k.isLt⟩
abbrev ridx_main_v130 (i : S4000x2.Idx) (k : Fin 2000) : S2000x2.Idx := fun a => match a with
  | ⟨0, _⟩ => ⟨k.val, k.isLt⟩
  | ⟨1, _⟩ => ⟨(i 1).val, (i 1).isLt⟩

theorem val_main_v130_apply (x0 : (⟨S2000x30, .f32⟩ : BufTy).Contents (Elt Ideal)) (x1 : (⟨S2000x2, .f32⟩ : BufTy).Contents (Elt Ideal)) (x2 : (⟨S4000x30, .f32⟩ : BufTy).Contents (Elt Ideal)) (x4 : (⟨S2000, .f32⟩ : BufTy).Contents (Elt Ideal)) (x5 : (⟨S4000, .f32⟩ : BufTy).Contents (Elt Ideal)) (x6 x7 x8 x9 x10 : (⟨S1x1, .f32⟩ : BufTy).Contents (Elt Ideal)) (x11 : (⟨S30x32, .f32⟩ : BufTy).Contents (Elt Ideal)) (x12 : (⟨S32, .f32⟩ : BufTy).Contents (Elt Ideal)) (x13 : (⟨S30x32, .f32⟩ : BufTy).Contents (Elt Ideal)) (x14 : (⟨S32, .f32⟩ : BufTy).Contents (Elt Ideal)) (x17 : (⟨S32x32, .f32⟩ : BufTy).Contents (Elt Ideal)) (x18 : (⟨S32, .f32⟩ : BufTy).Contents (Elt Ideal)) (x19 : (⟨S32x32, .f32⟩ : BufTy).Contents (Elt Ideal)) (x20 : (⟨S32, .f32⟩ : BufTy).Contents (Elt Ideal)) (x21 : (⟨S94x32, .f32⟩ : BufTy).Contents (Elt Ideal)) (x22 : (⟨S32, .f32⟩ : BufTy).Contents (Elt Ideal)) (x23 : (⟨S30x32, .f32⟩ : BufTy).Contents (Elt Ideal)) (x24 : (⟨S32, .f32⟩ : BufTy).Contents (Elt Ideal)) (x25 : (⟨S2x2, .f32⟩ : BufTy).Contents (Elt Ideal)) (x26 : (⟨S2, .f32⟩ : BufTy).Contents (Elt Ideal)) (i : S4000x2.Idx) :
    val_main_v130 (F := Ideal) x0 x1 x2 x4 x5 x6 x7 x8 x9 x10 x11 x12 x13 x14 x17 x18 x19 x20 x21 x22 x23 x24 x25 x26 i = ∑ k : Fin 2000, (val_main_v129 (F := Ideal) x0 x1 x2 x4 x5 x6 x7 x8 x9 x10 x11 x12 x13 x14 x17 x18 x19 x20 x21 x22 x23 x24) (lidx_main_v130 i k) * (val_main_v114 (F := Ideal) x1 x25 x26) (ridx_main_v130 i k) := by
  unfold val_main_v130
  generalize val_main_v129 (F := Ideal) x0 x1 x2 x4 x5 x6 x7 x8 x9 x10 x11 x12 x13 x14 x17 x18 x19 x20 x21 x22 x23 x24 = y0
  generalize val_main_v114 (F := Ideal) x1 x25 x26 = y1
  simp only [Host.dotGeneral]
  rw [Ideal.dotGeneral_apply, ← Equiv.sum_comp (ValueIdx.contrEquiv1 dot_S4000x2000_S2000x2_S4000x2_1_0_0_1_n_n 2000 rfl rfl).symm]
  refine Finset.sum_congr rfl fun k _ => ?_
  have hk := ValueIdx.contrEquiv1_symm_val dot_S4000x2000_S2000x2_S4000x2_1_0_0_1_n_n 2000 rfl rfl k
  have el : dot_S4000x2000_S2000x2_S4000x2_1_0_0_1_n_n.lhsIdx i ((ValueIdx.contrEquiv1 dot_S4000x2000_S2000x2_S4000x2_1_0_0_1_n_n 2000 rfl rfl).symm k) = lidx_main_v130 i k := funext fun a => Fin.ext (by
    match a with
    | ⟨0, _⟩ => exact lhs_main_v130_0 _ _
    | ⟨1, _⟩ => exact (lhs_main_v130_1 _ _).trans hk)
  have er : dot_S4000x2000_S2000x2_S4000x2_1_0_0_1_n_n.rhsIdx i ((ValueIdx.contrEquiv1 dot_S4000x2000_S2000x2_S4000x2_1_0_0_1_n_n 2000 rfl rfl).symm k) = ridx_main_v130 i k := funext fun a => Fin.ext (by
    match a with
    | ⟨0, _⟩ => exact (rhs_main_v130_0 _ _).trans hk
    | ⟨1, _⟩ => exact rhs_main_v130_1 _ _)
  rw [el, er]

end Cert.ReferenceIdeal.ReadP

end
-- ==== Proof.LibLine.lean ====
import Idealize.ShloMosaic.Lib.StableHlo.Run
import Idealize.ShloMosaic.Lib.Pipeline.Frame
import Mathlib.Data.List.Forall2

namespace Idealize.ShloMosaic.StableHlo

open TcCoe

variable {τ : Topo} {sig : RefSig} {Val : EltTy → Type}

/-- A line of operations in single-assignment form: operation `k` writes the buffer of `ys[k]` only, and the buffers' numbers increase along the line. -/
structure Line (l : List (HloOp τ sig Val)) (ys : List (Ref sig .tc)) : Prop where
  writes : List.Forall₂ (fun op y => op.writes = {Proc.devRef .tc y}) l ys
  sorted : (ys.map fun y => y.idx.val).Pairwise (· < ·)

namespace Line

variable {l : List (HloOp τ sig Val)} {ys : List (Ref sig .tc)}

/-- A buffer the line does not write keeps its contents. -/
theorem kept_of (h : List.Forall₂ (fun op y => op.writes = {Proc.devRef .tc y}) l ys) (V : Valuation τ sig Val) {r : Ref sig .tc}
    (hr : r ∉ ys) : after l V (Proc.devRef .tc r) = V (Proc.devRef .tc r) := by
  induction h generalizing V with
  | nil => rfl
  | cons hop _ ih =>
    rw [after_cons, ih _ fun h' => hr (List.mem_cons_of_mem _ h'), HloOp.result_of_not_mem]
    rw [hop, Finset.mem_singleton]
    exact fun e => hr (Proc.devRef_injective _ e ▸ List.mem_cons_self)

theorem kept (L : Line l ys) (V : Valuation τ sig Val) {r : Ref sig .tc} (hr : r ∉ ys) :
    after l V (Proc.devRef .tc r) = V (Proc.devRef .tc r) := kept_of L.writes V hr

/-- Operation `k` ran on contents `W` that the end contents still show at every lower-numbered buffer, and what it wrote is still there at the end: later operations write higher-numbered buffers. -/
theorem at_op (L : Line l ys) (V : Valuation τ sig Val) {k : Nat} {op : HloOp τ sig Val} (hk : l[k]? = some op) :
    ∃ W : Valuation τ sig Val, (∀ b ∈ op.writes, after l V b = op.result W b)
      ∧ ∀ r y : Ref sig .tc, Proc.devRef .tc y ∈ op.writes → r.idx.val < y.idx.val → W (Proc.devRef .tc r) = after l V (Proc.devRef .tc r) := by
  obtain ⟨hlt, rfl⟩ := List.getElem?_eq_some_iff.mp hk
  have hl : l = l.take k ++ l[k] :: l.drop (k + 1) := by rw [← List.drop_eq_getElem_cons hlt, List.take_append_drop]
  have hys : k < ys.length := L.writes.length_eq ▸ hlt
  have hd := List.drop_eq_getElem_cons hys
  have hw := List.forall₂_drop k L.writes
  rw [List.drop_eq_getElem_cons hlt, hd] at hw
  obtain ⟨hwk, hw'⟩ := List.forall₂_cons.mp hw
  have hs := (List.pairwise_map.mp L.sorted).sublist (List.drop_sublist k ys)
  rw [hd] at hs
  obtain ⟨hlt', _⟩ := List.pairwise_cons.mp hs
  refine ⟨after (l.take k) V, fun b hb => ?_, fun r y hy hr => ?_⟩
  · rw [hwk, Finset.mem_singleton] at hb
    subst hb
    conv_lhs => rw [hl, after_append, after_cons]
    exact kept_of hw' _ fun h => Nat.lt_irrefl _ (hlt' _ h)
  · rw [hwk, Finset.mem_singleton] at hy
    cases Proc.devRef_injective _ hy
    conv_rhs => rw [← List.take_append_drop k l, after_append]
    refine (kept_of (List.forall₂_drop k L.writes) _ fun h => ?_).symm
    rw [hd] at h
    rcases List.mem_cons.mp h with rfl | h
    · exact Nat.lt_irrefl _ hr
    · exact Nat.lt_asymm hr (hlt' _ h)

variable (L : Line l ys) {V E : Valuation τ sig Val} (hE : after l V = E) (k : Nat)
include L hE

theorem nullary {y : Ref sig .tc} {v hy} (hk : l[k]? = some (nullary y v hy)) : E (Proc.devRef .tc y) = v := by
  subst hE; obtain ⟨W, h1, _⟩ := L.at_op V hk
  rw [h1 _ (Finset.mem_singleton_self _), nullary_result]

theorem unary {x y : Ref sig .tc} {f hx hy} (hk : l[k]? = some (unary x y f hx hy)) (hx' : x.idx.val < y.idx.val)
    {vx} (ex : E (Proc.devRef .tc x) = vx) {w} (hw : f vx = w := by rfl) : E (Proc.devRef .tc y) = w := by
  subst hE ex hw; obtain ⟨W, h1, h2⟩ := L.at_op V hk
  rw [h1 _ (Finset.mem_singleton_self _), unary_result, h2 x y (Finset.mem_singleton_self _) hx']

theorem binary {a b y : Ref sig .tc} {f ha hb hy} (hk : l[k]? = some (binary a b y f ha hb hy))
    (ha' : a.idx.val < y.idx.val) (hb' : b.idx.val < y.idx.val)
    {va vb} (ea : E (Proc.devRef .tc a) = va) (eb : E (Proc.devRef .tc b) = vb) {w} (hw : f va vb = w := by rfl) :
    E (Proc.devRef .tc y) = w := by
  subst hE ea eb hw; obtain ⟨W, h1, h2⟩ := L.at_op V hk
  have m := Finset.mem_singleton_self (Proc.devRef (τ := τ) .tc y)
  rw [h1 _ m, binary_result, h2 a y m ha', h2 b y m hb']

theorem ternary {c a b y : Ref sig .tc} {f hc ha hb hy} (hk : l[k]? = some (ternary c a b y f hc ha hb hy))
    (hc' : c.idx.val < y.idx.val) (ha' : a.idx.val < y.idx.val) (hb' : b.idx.val < y.idx.val)
    {vc va vb} (ec : E (Proc.devRef .tc c) = vc) (ea : E (Proc.devRef .tc a) = va) (eb : E (Proc.devRef .tc b) = vb)
    {w} (hw : f vc va vb = w := by rfl) : E (Proc.devRef .tc y) = w := by
  subst hE ec ea eb hw; obtain ⟨W, h1, h2⟩ := L.at_op V hk
  have m := Finset.mem_singleton_self (Proc.devRef (τ := τ) .tc y)
  rw [h1 _ m, ternary_result, h2 c y m hc', h2 a y m ha', h2 b y m hb']

theorem reshape {x y : Ref sig .tc} {he hn hx hy} (hk : l[k]? = some (reshape x y he hn hx hy)) (hx' : x.idx.val < y.idx.val)
    {vx} (ex : E (Proc.devRef .tc x) = vx) {w} (hw : (fun i => he ▸ shapeCast y.ty.shape vx hn i) = w := by rfl) :
    E (Proc.devRef .tc y) = w := by
  subst hE ex hw; obtain ⟨W, h1, h2⟩ := L.at_op V hk
  rw [h1 _ (Finset.mem_singleton_self _), reshape_result, h2 x y (Finset.mem_singleton_self _) hx']

theorem nary3 {a b c y : Ref sig .tc}
    {f : ((i : Fin 3) → ((![a, b, c] : Fin 3 → Ref sig .tc) i).ty.Contents Val) → y.ty.Contents Val} {hxs hy}
    (hk : l[k]? = some (nary ![a, b, c] y f hxs hy))
    (ha' : a.idx.val < y.idx.val) (hb' : b.idx.val < y.idx.val) (hc' : c.idx.val < y.idx.val)
    {va vb vc} (ea : E (Proc.devRef .tc a) = va) (eb : E (Proc.devRef .tc b) = vb) (ec : E (Proc.devRef .tc c) = vc)
    {w} (hw : f (Fin.cons va (Fin.cons vb (Fin.cons vc fun i => i.elim0))) = w := by rfl) : E (Proc.devRef .tc y) = w := by
  subst hE ea eb ec hw; obtain ⟨W, h1, h2⟩ := L.at_op V hk
  have m := Finset.mem_singleton_self (Proc.devRef (τ := τ) .tc y)
  rw [h1 _ m, nary_result]; congr 1; funext i; fin_cases i
  exacts [h2 a y m ha', h2 b y m hb', h2 c y m hc']

/-- The same for an operation of an outlined function, whose buffers come with their types: carrying contents to a buffer's own type and back changes nothing. -/
theorem nullaryT {y : Ref sig .tc} {h1 h2} {v : y.ty.Contents Val} (hk : l[k]? = some (TRef.nullary (TRef.of (T := y.ty) y rfl h1 h2) v)) :
    E (Proc.devRef .tc y) = v := L.nullary hE k hk

theorem unaryT {x y : Ref sig .tc} {hx1 hx2 hy1 hy2} {f : x.ty.Contents Val → y.ty.Contents Val}
    (hk : l[k]? = some (TRef.unary (TRef.of (T := x.ty) x rfl hx1 hx2) (TRef.of (T := y.ty) y rfl hy1 hy2) f))
    (hx' : x.idx.val < y.idx.val) {vx} (ex : E (Proc.devRef .tc x) = vx) {w} (hw : f vx = w := by rfl) : E (Proc.devRef .tc y) = w :=
  (L.unary hE k hk hx' ex rfl).trans hw

theorem binaryT {a b y : Ref sig .tc} {ha1 ha2 hb1 hb2 hy1 hy2} {f : a.ty.Contents Val → b.ty.Contents Val → y.ty.Contents Val}
    (hk : l[k]? = some (TRef.binary (TRef.of (T := a.ty) a rfl ha1 ha2) (TRef.of (T := b.ty) b rfl hb1 hb2) (TRef.of (T := y.ty) y rfl hy1 hy2) f))
    (ha' : a.idx.val < y.idx.val) (hb' : b.idx.val < y.idx.val)
    {va vb} (ea : E (Proc.devRef .tc a) = va) (eb : E (Proc.devRef .tc b) = vb) {w} (hw : f va vb = w := by rfl) :
    E (Proc.devRef .tc y) = w :=
  (L.binary hE k hk ha' hb' ea eb rfl).trans hw

end Line

end Idealize.ShloMosaic.StableHlo
-- ==== Proof.RefStages.lean ====
import proofs.«406318_j68710886801531_3_alg».proof.Proof.RunQ
import proofs.«406318_j68710886801531_3_alg».proof.Proof.ReadQ
import proofs.«406318_j68710886801531_3_alg».proof.Proof.LibLine

noncomputable section

namespace Cert.ReferenceIdeal.Stages

open Cert.ReferenceIdeal Cert.ReferenceIdeal.Gen Cert.ReferenceIdeal.ValueQ Cert.ReferenceIdeal.ReadP Idealize.ShloMosaic Idealize.ShloMosaic.TcCoe Idealize.ShloMosaic.StableHlo

variable {F : FTy → Type} [FloatOps F]

abbrev outs : List (Ref sig .tc) :=
  [main_v0, main_cst, main_v1, main_v2, main_cst_0, main_v3, main_v4, main_cst_1, main_v5, main_v6, main_v7, main_v8, main_v9, main_v10, main_v11, main_v12, main_v13, main_v14, main_v15, main_cst_2, main_v16, main_v17, main_v18, main_v19, main_call0_cst, main_call0_v0, main_call0_cst_0, main_call0_v1, main_call0_v2, main_call0_v3, main_call0_v4, main_call0_v5, main_call0_v6, main_call0_cst_1, main_call0_v7, main_call0_v8, main_call0_v9, main_call0_v10, main_v20, main_v21, main_v22, main_v23, main_v24, main_v25, main_v26, main_v27, main_v28, main_v29, main_v30, main_v31, main_v32, main_v33, main_v34, main_v35, main_v36, main_v37, main_v38, main_v39, main_v40, main_v41, main_v42, main_v43, main_c, main_v44, main_v45, main_v46, main_v47, main_c_3, main_v48, main_c_4, main_v49, main_v50, main_v51, main_c_5, main_v52, main_c_6, main_v53, main_v54, main_v55, main_c_7, main_v56, main_c_8, main_v57, main_v58, main_v59, main_cst_9, main_v60, main_v61, main_v62, main_v63, main_v64, main_v65, main_v66, main_v67, main_v68, main_v69, main_v70, main_v71, main_v72, main_v73, main_v74, main_v75, main_v76, main_v77, main_v78, main_v79, main_v80, main_v81, main_v82, main_c_10, main_v83, main_v84, main_v85, main_v86, main_c_11, main_v87, main_c_12, main_v88, main_v89, main_v90, main_v91, main_cst_13, main_v92, main_v93, main_v94, main_v95, main_v96, main_v97, main_v98, main_v99, main_v100, main_v101, main_v102, main_v103, main_v104, main_v105, main_v106, main_v107, main_v108, main_v109, main_v110, main_v111, main_v112, main_v113, main_v114, main_cst_14, main_v115, main_v116, main_v117, main_v118, main_cst_15, main_v119, main_cst_16, main_v120, main_v121, main_v122, main_v123, main_v124, main_v125, main_cst_17, main_v126, main_v127, main_v128, main_v129, main_v130]

theorem line : Line (ops : List (HloOp τ sig (Elt F))) outs := ⟨by repeat' constructor, by decide⟩

variable {V E : Valuation τ sig (Elt F)} (hE : after ops V = E)
include hE

/-- Each buffer ends at its stage of the arguments' end contents: an operation's operands are written before it and never again. -/
theorem stages :
    E main_v102 = val_main_v102 (E main_arg0) (E main_arg1) (E main_arg2) (E main_arg4) (E main_arg5) (E main_arg6) (E main_arg7) (E main_arg8) (E main_arg9) (E main_arg10) (E main_arg11) (E main_arg12) (E main_arg13) (E main_arg14) (E main_arg17) (E main_arg18) (E main_arg19) (E main_arg20)
    ∧ E main_v130 = val_main_v130 (E main_arg0) (E main_arg1) (E main_arg2) (E main_arg4) (E main_arg5) (E main_arg6) (E main_arg7) (E main_arg8) (E main_arg9) (E main_arg10) (E main_arg11) (E main_arg12) (E main_arg13) (E main_arg14) (E main_arg17) (E main_arg18) (E main_arg19) (E main_arg20) (E main_arg21) (E main_arg22) (E main_arg23) (E main_arg24) (E main_arg25) (E main_arg26) := by
  have L := line (F := F)
  have v0 : E main_v0 = val_main_v0 _ _ := L.binary hE 0 rfl (by decide) (by decide) rfl rfl
  have cst : E main_cst = val_main_cst := L.nullary hE 1 rfl
  have v1 : E main_v1 = val_main_v1 := L.unary hE 2 rfl (by decide) cst
  have v2 : E main_v2 = val_main_v2 _ := L.binary hE 3 rfl (by decide) (by decide) rfl v1
  have cst_0 : E main_cst_0 = val_main_cst_0 := L.nullary hE 4 rfl
  have v3 : E main_v3 = val_main_v3 _ _ := L.binary hE 5 rfl (by decide) (by decide) v0 cst_0
  have v4 : E main_v4 = val_main_v4 _ _ := L.unary hE 6 rfl (by decide) v3
  have cst_1 : E main_cst_1 = val_main_cst_1 := L.nullary hE 7 rfl
  have v5 : E main_v5 = val_main_v5 := L.unary hE 8 rfl (by decide) cst_1
  have v6 : E main_v6 = val_main_v6 _ _ := L.binary hE 9 rfl (by decide) (by decide) v4 v5
  have v7 : E main_v7 = val_main_v7 _ _ _ := L.nary3 hE 10 rfl (by decide) (by decide) (by decide) v0 v2 v6
  have v8 : E main_v8 = val_main_v8 _ _ := L.binary hE 11 rfl (by decide) (by decide) rfl rfl
  have v9 : E main_v9 = val_main_v9 _ := L.unary hE 12 rfl (by decide) rfl
  have v10 : E main_v10 = val_main_v10 _ := L.unary hE 13 rfl (by decide) v9
  have v11 : E main_v11 = val_main_v11 _ _ _ := L.binary hE 14 rfl (by decide) (by decide) v8 v10
  have v12 : E main_v12 = val_main_v12 _ _ := L.binary hE 15 rfl (by decide) (by decide) rfl rfl
  have v13 : E main_v13 = val_main_v13 _ := L.unary hE 16 rfl (by decide) rfl
  have v14 : E main_v14 = val_main_v14 _ := L.unary hE 17 rfl (by decide) v13
  have v15 : E main_v15 = val_main_v15 _ _ _ := L.binary hE 18 rfl (by decide) (by decide) v12 v14
  have cst_2 : E main_cst_2 = val_main_cst_2 := L.nullary hE 19 rfl
  have v16 : E main_v16 = val_main_v16 := L.unary hE 20 rfl (by decide) cst_2
  have v17 : E main_v17 = val_main_v17 _ _ _ := L.binary hE 21 rfl (by decide) (by decide) v11 v16
  have v18 : E main_v18 = val_main_v18 _ _ _ := L.unary hE 22 rfl (by decide) v15
  have v19 : E main_v19 = val_main_v19 _ _ _ _ _ _ := L.binary hE 23 rfl (by decide) (by decide) v17 v18
  have call0_cst : E main_call0_cst = val_main_call0_cst := L.nullaryT hE 24 rfl
  have call0_v0 : E main_call0_v0 = val_main_call0_v0 _ _ _ _ _ _ := L.binaryT hE 25 rfl (by decide) (by decide) v19 call0_cst
  have call0_cst_0 : E main_call0_cst_0 = val_main_call0_cst_0 := L.nullaryT hE 26 rfl
  have call0_v1 : E main_call0_v1 = val_main_call0_v1 := L.unaryT hE 27 rfl (by decide) call0_cst_0
  have call0_v2 : E main_call0_v2 = val_main_call0_v2 _ _ _ _ _ _ := L.binaryT hE 28 rfl (by decide) (by decide) call0_v1 call0_v0
  have call0_v3 : E main_call0_v3 = val_main_call0_v3 _ _ _ _ _ _ := L.unaryT hE 29 rfl (by decide) call0_v2
  have call0_v4 : E main_call0_v4 = val_main_call0_v4 _ _ _ _ _ _ := L.unaryT hE 30 rfl (by decide) call0_v3
  have call0_v5 : E main_call0_v5 = val_main_call0_v5 _ _ _ _ _ _ := L.binaryT hE 31 rfl (by decide) (by decide) v19 call0_v4
  have call0_v6 : E main_call0_v6 = val_main_call0_v6 _ _ _ _ _ _ := L.unaryT hE 32 rfl (by decide) call0_v5
  have call0_cst_1 : E main_call0_cst_1 = val_main_call0_cst_1 := L.nullaryT hE 33 rfl
  have call0_v7 : E main_call0_v7 = val_main_call0_v7 _ _ _ _ _ _ := L.binaryT hE 34 rfl (by decide) (by decide) call0_v6 call0_cst_1
  have call0_v8 : E main_call0_v8 = val_main_call0_v8 _ _ _ _ _ _ := L.unaryT hE 35 rfl (by decide) call0_v7
  have call0_v9 : E main_call0_v9 = val_main_call0_v9 _ _ _ _ _ _ := L.unaryT hE 36 rfl (by decide) call0_v8
  have call0_v10 : E main_call0_v10 = val_main_call0_v10 _ _ _ _ _ _ := L.unaryT hE 37 rfl (by decide) call0_v9
  have v20 : E main_v20 = val_main_v20 _ _ _ _ _ _ := L.binaryT hE 38 rfl (by decide) (by decide) call0_v5 call0_v10
  have v21 : E main_v21 = val_main_v21 _ _ _ _ _ _ := L.unary hE 39 rfl (by decide) v20
  have v22 : E main_v22 = val_main_v22 _ := L.unary hE 40 rfl (by decide) rfl
  have v23 : E main_v23 = val_main_v23 _ := L.unary hE 41 rfl (by decide) rfl
  have v24 : E main_v24 = val_main_v24 _ := L.unary hE 42 rfl (by decide) rfl
  have v25 : E main_v25 = val_main_v25 _ _ := L.binary hE 43 rfl (by decide) (by decide) v24 v23
  have v26 : E main_v26 = val_main_v26 _ := L.unary hE 44 rfl (by decide) rfl
  have v27 : E main_v27 = val_main_v27 _ _ _ := L.binary hE 45 rfl (by decide) (by decide) v25 v26
  have v28 : E main_v28 = val_main_v28 _ := L.unary hE 46 rfl (by decide) v22
  have v29 : E main_v29 = val_main_v29 _ _ _ _ := L.binary hE 47 rfl (by decide) (by decide) v28 v27
  have v30 : E main_v30 = val_main_v30 _ _ _ _ := L.unary hE 48 rfl (by decide) v29
  have v31 : E main_v31 = val_main_v31 _ _ _ _ := L.reshape hE 49 rfl (by decide) v30
  have v32 : E main_v32 = val_main_v32 _ := L.unary hE 50 rfl (by decide) rfl
  have v33 : E main_v33 = val_main_v33 _ := L.unary hE 51 rfl (by decide) rfl
  have v34 : E main_v34 = val_main_v34 _ := L.unary hE 52 rfl (by decide) rfl
  have v35 : E main_v35 = val_main_v35 _ _ := L.binary hE 53 rfl (by decide) (by decide) v34 v33
  have v36 : E main_v36 = val_main_v36 _ := L.unary hE 54 rfl (by decide) rfl
  have v37 : E main_v37 = val_main_v37 _ _ _ := L.binary hE 55 rfl (by decide) (by decide) v35 v36
  have v38 : E main_v38 = val_main_v38 _ := L.unary hE 56 rfl (by decide) v32
  have v39 : E main_v39 = val_main_v39 _ _ _ _ := L.binary hE 57 rfl (by decide) (by decide) v38 v37
  have v40 : E main_v40 = val_main_v40 _ _ _ _ := L.unary hE 58 rfl (by decide) v39
  have v41 : E main_v41 = val_main_v41 _ _ _ _ := L.reshape hE 59 rfl (by decide) v40
  have v42 : E main_v42 = val_main_v42 := L.nullary hE 60 rfl
  have v43 : E main_v43 = val_main_v43 := L.nullary hE 61 rfl
  have c : E main_c = val_main_c := L.nullary hE 62 rfl
  have v44 : E main_v44 = val_main_v44 := L.unary hE 63 rfl (by decide) c
  have v45 : E main_v45 = val_main_v45 := L.binary hE 64 rfl (by decide) (by decide) v42 v44
  have v46 : E main_v46 = val_main_v46 := L.binary hE 65 rfl (by decide) (by decide) v45 v43
  have v47 : E main_v47 = val_main_v47 := L.unary hE 66 rfl (by decide) v46
  have c_3 : E main_c_3 = val_main_c_3 := L.nullary hE 67 rfl
  have v48 : E main_v48 = val_main_v48 := L.unary hE 68 rfl (by decide) c_3
  have c_4 : E main_c_4 = val_main_c_4 := L.nullary hE 69 rfl
  have v49 : E main_v49 = val_main_v49 := L.unary hE 70 rfl (by decide) c_4
  have v50 : E main_v50 = val_main_v50 := L.binary hE 71 rfl (by decide) (by decide) v48 v49
  have v51 : E main_v51 = val_main_v51 _ _ _ _ _ _ := L.ternary hE 72 rfl (by decide) (by decide) (by decide) v47 v50 v21
  have c_5 : E main_c_5 = val_main_c_5 := L.nullary hE 73 rfl
  have v52 : E main_v52 = val_main_v52 := L.unary hE 74 rfl (by decide) c_5
  have c_6 : E main_c_6 = val_main_c_6 := L.nullary hE 75 rfl
  have v53 : E main_v53 = val_main_v53 := L.unary hE 76 rfl (by decide) c_6
  have v54 : E main_v54 = val_main_v54 := L.binary hE 77 rfl (by decide) (by decide) v52 v53
  have v55 : E main_v55 = val_main_v55 _ _ _ _ _ _ _ _ _ _ := L.ternary hE 78 rfl (by decide) (by decide) (by decide) v51 v54 v31
  have c_7 : E main_c_7 = val_main_c_7 := L.nullary hE 79 rfl
  have v56 : E main_v56 = val_main_v56 := L.unary hE 80 rfl (by decide) c_7
  have c_8 : E main_c_8 = val_main_c_8 := L.nullary hE 81 rfl
  have v57 : E main_v57 = val_main_v57 := L.unary hE 82 rfl (by decide) c_8
  have v58 : E main_v58 = val_main_v58 := L.binary hE 83 rfl (by decide) (by decide) v56 v57
  have v59 : E main_v59 = val_main_v59 _ _ _ _ _ _ _ _ _ _ _ _ := L.ternary hE 84 rfl (by decide) (by decide) (by decide) v55 v58 v41
  have cst_9 : E main_cst_9 = val_main_cst_9 := L.nullary hE 85 rfl
  have v60 : E main_v60 = val_main_v60 _ _ _ _ _ _ _ _ _ _ _ _ := L.binary hE 86 rfl (by decide) (by decide) v59 cst_9
  have v61 : E main_v61 = val_main_v61 _ _ _ _ _ _ _ _ _ _ _ _ := L.unary hE 87 rfl (by decide) v60
  have v62 : E main_v62 = val_main_v62 _ _ _ _ _ _ _ _ _ _ _ _ := L.unary hE 88 rfl (by decide) v61
  have v63 : E main_v63 = val_main_v63 _ _ _ _ _ _ _ _ _ _ _ _ := L.binary hE 89 rfl (by decide) (by decide) v59 v62
  have v64 : E main_v64 = val_main_v64 _ _ _ _ _ _ _ _ _ _ _ _ _ := L.binary hE 90 rfl (by decide) (by decide) v63 v7
  have v65 : E main_v65 = val_main_v65 _ _ _ _ _ _ _ _ _ _ _ _ _ _ := L.binary hE 91 rfl (by decide) (by decide) v64 rfl
  have v66 : E main_v66 = val_main_v66 _ := L.unary hE 92 rfl (by decide) rfl
  have v67 : E main_v67 = val_main_v67 _ := L.unary hE 93 rfl (by decide) v66
  have v68 : E main_v68 = val_main_v68 _ _ _ _ _ _ _ _ _ _ _ _ _ _ _ := L.binary hE 94 rfl (by decide) (by decide) v65 v67
  have v69 : E main_v69 = val_main_v69 _ _ _ _ _ _ _ _ _ _ _ _ _ _ _ := L.unary hE 95 rfl (by decide) v68
  have v70 : E main_v70 = val_main_v70 _ _ _ _ _ _ _ _ _ _ _ _ _ _ _ := L.unary hE 96 rfl (by decide) v68
  have v71 : E main_v71 = val_main_v71 _ := L.unary hE 97 rfl (by decide) rfl
  have v72 : E main_v72 = val_main_v72 _ := L.unary hE 98 rfl (by decide) rfl
  have v73 : E main_v73 = val_main_v73 _ := L.unary hE 99 rfl (by decide) rfl
  have v74 : E main_v74 = val_main_v74 _ _ := L.binary hE 100 rfl (by decide) (by decide) v73 v72
  have v75 : E main_v75 = val_main_v75 _ := L.unary hE 101 rfl (by decide) rfl
  have v76 : E main_v76 = val_main_v76 _ _ _ := L.binary hE 102 rfl (by decide) (by decide) v74 v75
  have v77 : E main_v77 = val_main_v77 _ := L.unary hE 103 rfl (by decide) v71
  have v78 : E main_v78 = val_main_v78 _ _ _ _ := L.binary hE 104 rfl (by decide) (by decide) v77 v76
  have v79 : E main_v79 = val_main_v79 _ _ _ _ := L.unary hE 105 rfl (by decide) v78
  have v80 : E main_v80 = val_main_v80 _ _ _ _ := L.reshape hE 106 rfl (by decide) v79
  have v81 : E main_v81 = val_main_v81 := L.nullary hE 107 rfl
  have v82 : E main_v82 = val_main_v82 := L.nullary hE 108 rfl
  have c_10 : E main_c_10 = val_main_c_10 := L.nullary hE 109 rfl
  have v83 : E main_v83 = val_main_v83 := L.unary hE 110 rfl (by decide) c_10
  have v84 : E main_v84 = val_main_v84 := L.binary hE 111 rfl (by decide) (by decide) v81 v83
  have v85 : E main_v85 = val_main_v85 := L.binary hE 112 rfl (by decide) (by decide) v84 v82
  have v86 : E main_v86 = val_main_v86 := L.unary hE 113 rfl (by decide) v85
  have c_11 : E main_c_11 = val_main_c_11 := L.nullary hE 114 rfl
  have v87 : E main_v87 = val_main_v87 := L.unary hE 115 rfl (by decide) c_11
  have c_12 : E main_c_12 = val_main_c_12 := L.nullary hE 116 rfl
  have v88 : E main_v88 = val_main_v88 := L.unary hE 117 rfl (by decide) c_12
  have v89 : E main_v89 = val_main_v89 := L.binary hE 118 rfl (by decide) (by decide) v87 v88
  have v90 : E main_v90 = val_main_v90 _ _ _ _ := L.ternary hE 119 rfl (by decide) (by decide) (by decide) v86 v89 v80
  have v91 : E main_v91 = val_main_v91 _ _ _ _ _ _ _ _ _ _ _ _ _ _ _ := L.nary3 hE 120 rfl (by decide) (by decide) (by decide) v0 v69 v70
  have cst_13 : E main_cst_13 = val_main_cst_13 := L.nullary hE 121 rfl
  have v92 : E main_v92 = val_main_v92 _ _ _ _ := L.binary hE 122 rfl (by decide) (by decide) v90 cst_13
  have v93 : E main_v93 = val_main_v93 _ _ _ _ := L.unary hE 123 rfl (by decide) v92
  have v94 : E main_v94 = val_main_v94 _ _ _ _ := L.unary hE 124 rfl (by decide) v93
  have v95 : E main_v95 = val_main_v95 _ _ _ _ := L.binary hE 125 rfl (by decide) (by decide) v90 v94
  have v96 : E main_v96 = val_main_v96 _ _ _ _ _ _ _ _ _ _ _ _ _ _ _ _ := L.binary hE 126 rfl (by decide) (by decide) v95 v91
  have v97 : E main_v97 = val_main_v97 _ _ _ _ _ _ _ _ _ _ _ _ _ _ _ _ _ := L.binary hE 127 rfl (by decide) (by decide) v96 rfl
  have v98 : E main_v98 = val_main_v98 _ := L.unary hE 128 rfl (by decide) rfl
  have v99 : E main_v99 = val_main_v99 _ := L.unary hE 129 rfl (by decide) v98
  have v100 : E main_v100 = val_main_v100 _ _ _ _ _ _ _ _ _ _ _ _ _ _ _ _ _ _ := L.binary hE 130 rfl (by decide) (by decide) v97 v99
  have v101 : E main_v101 = val_main_v101 _ _ _ _ _ _ _ _ _ _ _ _ _ _ _ _ _ _ := L.unary hE 131 rfl (by decide) v100
  have v102 : E main_v102 = val_main_v102 _ _ _ _ _ _ _ _ _ _ _ _ _ _ _ _ _ _ := L.nary3 hE 132 rfl (by decide) (by decide) (by decide) rfl v69 v101
  have v103 : E main_v103 = val_main_v103 _ _ _ _ _ _ _ _ _ _ _ _ _ _ _ _ _ _ _ := L.binary hE 133 rfl (by decide) (by decide) v102 rfl
  have v104 : E main_v104 = val_main_v104 _ := L.unary hE 134 rfl (by decide) rfl
  have v105 : E main_v105 = val_main_v105 _ := L.unary hE 135 rfl (by decide) v104
  have v106 : E main_v106 = val_main_v106 _ _ _ _ _ _ _ _ _ _ _ _ _ _ _ _ _ _ _ _ := L.binary hE 136 rfl (by decide) (by decide) v103 v105
  have v107 : E main_v107 = val_main_v107 _ _ := L.binary hE 137 rfl (by decide) (by decide) rfl rfl
  have v108 : E main_v108 = val_main_v108 _ := L.unary hE 138 rfl (by decide) rfl
  have v109 : E main_v109 = val_main_v109 _ := L.unary hE 139 rfl (by decide) v108
  have v110 : E main_v110 = val_main_v110 _ _ _ := L.binary hE 140 rfl (by decide) (by decide) v107 v109
  have v111 : E main_v111 = val_main_v111 _ _ := L.binary hE 141 rfl (by decide) (by decide) rfl rfl
  have v112 : E main_v112 = val_main_v112 _ := L.unary hE 142 rfl (by decide) rfl
  have v113 : E main_v113 = val_main_v113 _ := L.unary hE 143 rfl (by decide) v112
  have v114 : E main_v114 = val_main_v114 _ _ _ := L.binary hE 144 rfl (by decide) (by decide) v111 v113
  have cst_14 : E main_cst_14 = val_main_cst_14 := L.nullary hE 145 rfl
  have v115 : E main_v115 = val_main_v115 := L.unary hE 146 rfl (by decide) cst_14
  have v116 : E main_v116 = val_main_v116 _ _ _ _ _ _ _ _ _ _ _ _ _ _ _ _ _ _ _ _ := L.binary hE 147 rfl (by decide) (by decide) v106 v115
  have v117 : E main_v117 = val_main_v117 _ _ _ := L.unary hE 148 rfl (by decide) v110
  have v118 : E main_v118 = val_main_v118 _ _ _ _ _ _ _ _ _ _ _ _ _ _ _ _ _ _ _ _ _ _ := L.binary hE 149 rfl (by decide) (by decide) v116 v117
  have cst_15 : E main_cst_15 = val_main_cst_15 := L.nullary hE 150 rfl
  have v119 : E main_v119 = val_main_v119 _ _ _ _ _ _ _ _ _ _ _ _ _ _ _ _ _ _ _ _ _ _ := L.binary hE 151 rfl (by decide) (by decide) v118 cst_15
  have cst_16 : E main_cst_16 = val_main_cst_16 := L.nullary hE 152 rfl
  have v120 : E main_v120 = val_main_v120 := L.unary hE 153 rfl (by decide) cst_16
  have v121 : E main_v121 = val_main_v121 _ _ _ _ _ _ _ _ _ _ _ _ _ _ _ _ _ _ _ _ _ _ := L.binary hE 154 rfl (by decide) (by decide) v120 v119
  have v122 : E main_v122 = val_main_v122 _ _ _ _ _ _ _ _ _ _ _ _ _ _ _ _ _ _ _ _ _ _ := L.unary hE 155 rfl (by decide) v121
  have v123 : E main_v123 = val_main_v123 _ _ _ _ _ _ _ _ _ _ _ _ _ _ _ _ _ _ _ _ _ _ := L.unary hE 156 rfl (by decide) v122
  have v124 : E main_v124 = val_main_v124 _ _ _ _ _ _ _ _ _ _ _ _ _ _ _ _ _ _ _ _ _ _ := L.binary hE 157 rfl (by decide) (by decide) v118 v123
  have v125 : E main_v125 = val_main_v125 _ _ _ _ _ _ _ _ _ _ _ _ _ _ _ _ _ _ _ _ _ _ := L.unary hE 158 rfl (by decide) v124
  have cst_17 : E main_cst_17 = val_main_cst_17 := L.nullary hE 159 rfl
  have v126 : E main_v126 = val_main_v126 _ _ _ _ _ _ _ _ _ _ _ _ _ _ _ _ _ _ _ _ _ _ := L.binary hE 160 rfl (by decide) (by decide) v125 cst_17
  have v127 : E main_v127 = val_main_v127 _ _ _ _ _ _ _ _ _ _ _ _ _ _ _ _ _ _ _ _ _ _ := L.unary hE 161 rfl (by decide) v126
  have v128 : E main_v128 = val_main_v128 _ _ _ _ _ _ _ _ _ _ _ _ _ _ _ _ _ _ _ _ _ _ := L.unary hE 162 rfl (by decide) v127
  have v129 : E main_v129 = val_main_v129 _ _ _ _ _ _ _ _ _ _ _ _ _ _ _ _ _ _ _ _ _ _ := L.binary hE 163 rfl (by decide) (by decide) v125 v128
  have v130 : E main_v130 = val_main_v130 _ _ _ _ _ _ _ _ _ _ _ _ _ _ _ _ _ _ _ _ _ _ _ _ := L.binary hE 164 rfl (by decide) (by decide) v129 v114
  exact ⟨v102, v130⟩

end Cert.ReferenceIdeal.Stages

end
-- ==== Proof.GraphSums.lean ====
import proofs.«406318_j68710886801531_3_alg».proof.Proof.SpecGraph
import proofs.«406318_j68710886801531_3_alg».proof.Proof.RealOps

noncomputable section

namespace Cert.StarGraph

open Idealize.ShloMosaic Idealize.ShloMosaic.ValueIdx

variable (I : Inputs)

theorem sum_nodes (f : Fin 6001 → ℝ) :
    ∑ k : Fin 6001, f k = ∑ j : Fin 2000, f ⟨j.val, by omega⟩ + ∑ i : Fin 4000, f ⟨2000 + i.val, by omega⟩ + f ⟨6000, by omega⟩ := by

  refine (Fin.sum_univ_castSucc (n := 6000) f).trans ?_
  refine congrArg₂ (· + ·) ?_ rfl
  refine (Fin.sum_univ_add (a := 2000) (b := 4000) (fun k => f (Fin.castSucc k))).trans ?_
  rfl

theorem rou0_pos (i : Fin 4000) : 0 < rou0 I i := by
  unfold rou0 decay; exact Real.exp_pos _
theorem rou1_pos (i : Fin 4000) : 0 < rou1 I i := by
  unfold rou1 decay; exact Real.exp_pos _
theorem dsc_pos (j : Fin 2000) : 0 < dsc I j := by
  unfold dsc decay; exact Real.exp_pos _
theorem degR_pos : 0 < degR I := by
  unfold degR
  exact add_pos_of_pos_of_nonneg one_pos (Finset.sum_nonneg fun j _ => (dsc_pos I j).le)

theorem att_sum (i : Fin 4000) : ∑ j : Fin 2000, att I i j = 1 := by
  haveI : Nonempty (Fin 2000) := ⟨⟨0, by omega⟩⟩
  unfold att
  rw [← Finset.sum_div]
  exact div_self (ne_of_gt (sum_exp_pos _))

theorem allF0_lm (j : Fin 2000) (z : Fin 32) : allF0 I ⟨j.val, by omega⟩ z = lmF I j z := by
  unfold allF0; rw [dif_pos j.isLt]
theorem allF0_tg (i : Fin 4000) (z : Fin 32) : allF0 I ⟨2000 + i.val, by omega⟩ z = tg0 I i z := by
  unfold allF0
  rw [dif_neg (show ¬ 2000 + i.val < 2000 by omega), dif_pos (show 2000 + i.val < 6000 by omega)]
  congr 1; exact Fin.ext (by simp)
theorem allF0_router (z : Fin 32) : allF0 I ⟨6000, by omega⟩ z = router0 I z := by
  unfold allF0
  rw [dif_neg (show ¬ 6000 < 2000 by omega), dif_neg (show ¬ 6000 < 6000 by omega)]

theorem allF1_lm (j : Fin 2000) (z : Fin 32) : allF1 I ⟨j.val, by omega⟩ z = lmF I j z := by
  unfold allF1; rw [dif_pos j.isLt]
theorem allF1_tg (i : Fin 4000) (z : Fin 32) : allF1 I ⟨2000 + i.val, by omega⟩ z = feat1 I i z := by
  unfold allF1
  rw [dif_neg (show ¬ 2000 + i.val < 2000 by omega), dif_pos (show 2000 + i.val < 6000 by omega)]
  congr 1; exact Fin.ext (by simp)
theorem allF1_router (z : Fin 32) : allF1 I ⟨6000, by omega⟩ z = router1 I z := by
  unfold allF1
  rw [dif_neg (show ¬ 6000 < 2000 by omega), dif_neg (show ¬ 6000 < 6000 by omega)]

theorem tgNode_eq_iff (i i' : Fin 4000) :
    ((⟨2000 + i.val, by omega⟩ : Fin 6001) = ⟨2000 + i'.val, by omega⟩) ↔ i = i' := by
  constructor
  · intro e
    have h : 2000 + i.val = 2000 + i'.val := congrArg Fin.val e
    exact Fin.ext (by omega)
  · intro e; subst e; rfl

theorem adj0_target_lm (i : Fin 4000) (j : Fin 2000) :
    adj0 I ⟨2000 + i.val, by omega⟩ ⟨j.val, by omega⟩ = att I i j := by
  unfold adj0
  rw [dif_pos (show 2000 ≤ 2000 + i.val ∧ 2000 + i.val < 6000 from ⟨by omega, by omega⟩), dif_pos j.isLt]
  congr 1; exact Fin.ext (by simp)

theorem adj0_target_tg (i i' : Fin 4000) :
    adj0 I ⟨2000 + i.val, by omega⟩ ⟨2000 + i'.val, by omega⟩ = if i = i' then 1 else 0 := by
  unfold adj0
  rw [dif_pos (show 2000 ≤ 2000 + i.val ∧ 2000 + i.val < 6000 from ⟨by omega, by omega⟩),
    dif_neg (show ¬ 2000 + i'.val < 2000 by omega), if_neg (show ¬ 2000 + i'.val = 6000 by omega)]
  exact if_congr (tgNode_eq_iff i i') rfl rfl

theorem adj0_target_router (i : Fin 4000) :
    adj0 I ⟨2000 + i.val, by omega⟩ ⟨6000, by omega⟩ = rou0 I i := by
  unfold adj0
  rw [dif_pos (show 2000 ≤ 2000 + i.val ∧ 2000 + i.val < 6000 from ⟨by omega, by omega⟩),
    dif_neg (show ¬ 6000 < 2000 by omega), if_pos rfl]
  congr 1; exact Fin.ext (by simp)

theorem adj0_router_lm (j : Fin 2000) : adj0 I ⟨6000, by omega⟩ ⟨j.val, by omega⟩ = dsc I j := by
  unfold adj0
  rw [dif_neg (show ¬ (2000 ≤ 6000 ∧ 6000 < 6000) by omega), if_pos rfl, dif_pos j.isLt]

theorem adj0_router_tg (i' : Fin 4000) : adj0 I ⟨6000, by omega⟩ ⟨2000 + i'.val, by omega⟩ = 0 := by
  unfold adj0
  rw [dif_neg (show ¬ (2000 ≤ 6000 ∧ 6000 < 6000) by omega), if_pos rfl,
    dif_neg (show ¬ 2000 + i'.val < 2000 by omega), if_neg]
  intro e
  have h : 6000 = 2000 + i'.val := congrArg Fin.val e
  omega

theorem adj0_router_router : adj0 I ⟨6000, by omega⟩ ⟨6000, by omega⟩ = 1 := by
  unfold adj0
  rw [dif_neg (show ¬ (2000 ≤ 6000 ∧ 6000 < 6000) by omega), if_pos rfl,
    dif_neg (show ¬ 6000 < 2000 by omega), if_pos rfl]

theorem adj1_target_lm (i : Fin 4000) (j : Fin 2000) :
    adj1 I ⟨2000 + i.val, by omega⟩ ⟨j.val, by omega⟩ = 0 := by
  unfold adj1
  rw [dif_pos (show 2000 ≤ 2000 + i.val ∧ 2000 + i.val < 6000 from ⟨by omega, by omega⟩),
    if_neg (show ¬ j.val = 6000 by omega), if_neg]
  intro e
  have h : 2000 + i.val = j.val := congrArg Fin.val e
  omega

theorem adj1_target_tg (i i' : Fin 4000) :
    adj1 I ⟨2000 + i.val, by omega⟩ ⟨2000 + i'.val, by omega⟩ = if i = i' then 1 else 0 := by
  unfold adj1
  rw [dif_pos (show 2000 ≤ 2000 + i.val ∧ 2000 + i.val < 6000 from ⟨by omega, by omega⟩),
    if_neg (show ¬ 2000 + i'.val = 6000 by omega)]
  exact if_congr (tgNode_eq_iff i i') rfl rfl

theorem adj1_target_router (i : Fin 4000) :
    adj1 I ⟨2000 + i.val, by omega⟩ ⟨6000, by omega⟩ = rou1 I i := by
  unfold adj1
  rw [dif_pos (show 2000 ≤ 2000 + i.val ∧ 2000 + i.val < 6000 from ⟨by omega, by omega⟩), if_pos rfl]
  congr 1; exact Fin.ext (by simp)

theorem sum_diag (i : Fin 4000) (d : ℝ) (g : Fin 4000 → ℝ) :
    ∑ i' : Fin 4000, (if i = i' then (1 : ℝ) else 0) / d * g i' = 1 / d * g i := by
  rw [Finset.sum_eq_single i]
  · rw [if_pos rfl]
  · intro b _ hb
    rw [if_neg (Ne.symm hb), zero_div, zero_mul]
  · intro h; exact absurd (Finset.mem_univ i) h

theorem sum_div_mul (d : ℝ) (w g : Fin 2000 → ℝ) :
    ∑ j : Fin 2000, w j / d * g j = (∑ j : Fin 2000, w j * g j) / d := by
  rw [Finset.sum_div]
  exact Finset.sum_congr rfl (fun j _ => by ring)

theorem adj0_rowsum_target (i : Fin 4000) : ∑ l : Fin 6001, adj0 I ⟨2000 + i.val, by omega⟩ l = 2 + rou0 I i := by
  rw [sum_nodes]
  simp only [adj0_target_lm, adj0_target_tg, adj0_target_router]
  rw [att_sum, Finset.sum_ite_eq, if_pos (Finset.mem_univ i)]
  ring

theorem adj0_rowsum_router : ∑ l : Fin 6001, adj0 I ⟨6000, by omega⟩ l = degR I := by
  rw [sum_nodes]
  simp only [adj0_router_lm, adj0_router_tg, adj0_router_router]
  rw [Finset.sum_const_zero]
  unfold degR
  ring

theorem hop1_target (i : Fin 4000) (z : Fin 32) :
    ∑ l : Fin 6001, adj0 I ⟨2000 + i.val, by omega⟩ l / (2 + rou0 I i) * allF0 I l z = pre1 I i z := by
  rw [sum_nodes]
  simp only [adj0_target_lm, adj0_target_tg, adj0_target_router, allF0_lm, allF0_tg, allF0_router]
  rw [sum_div_mul, sum_diag]
  unfold pre1 msg
  ring

theorem hop1_router (z : Fin 32) :
    ∑ l : Fin 6001, adj0 I ⟨6000, by omega⟩ l / degR I * allF0 I l z = routerPre I z := by
  rw [sum_nodes]
  simp only [adj0_router_lm, adj0_router_tg, adj0_router_router, allF0_lm, allF0_tg, allF0_router]
  rw [sum_div_mul]
  simp only [zero_div, zero_mul, Finset.sum_const_zero]
  unfold routerPre
  ring

theorem adj1_rowsum_target (i : Fin 4000) : ∑ l : Fin 6001, adj1 I ⟨2000 + i.val, by omega⟩ l = 1 + rou1 I i := by
  rw [sum_nodes]
  simp only [adj1_target_lm, adj1_target_tg, adj1_target_router]
  rw [Finset.sum_const_zero, Finset.sum_ite_eq, if_pos (Finset.mem_univ i)]
  ring

theorem hop2_target (i : Fin 4000) (z : Fin 32) :
    ∑ l : Fin 6001, adj1 I ⟨2000 + i.val, by omega⟩ l / (1 + rou1 I i) * allF1 I l z = pre2 I i z := by
  rw [sum_nodes]
  simp only [adj1_target_lm, adj1_target_tg, adj1_target_router, allF1_lm, allF1_tg, allF1_router]
  rw [sum_diag]
  simp only [zero_div, zero_mul, Finset.sum_const_zero]
  unfold pre2
  ring

end Cert.StarGraph

end
-- ==== Proof.RefA.lean ====
import proofs.«406318_j68710886801531_3_alg».proof.Proof.ReadQ
import proofs.«406318_j68710886801531_3_alg».proof.Proof.SpecGraph
import proofs.«406318_j68710886801531_3_alg».proof.Proof.RealOps
import proofs.«406318_j68710886801531_3_alg».proof.Proof.LibPlainDot

noncomputable section

namespace Cert.StarGraph.Ref

open Idealize.ShloMosaic Idealize.ShloMosaic.ValueIdx Cert.ReferenceIdeal Cert.ReferenceIdeal.Gen Cert.ReferenceIdeal.ReadP Cert.StarGraph

variable (I : Inputs)

theorem ofBits_two_thousand : Ideal.ofBits .f32 0x44FA0000#32 = ((2000 : ℝ) : EReal) := by
  simp [Ideal.ofBits, Ideal.ieee, -EReal.coe_mul]; norm_num

theorem v0_apply (j : Fin 2000) (z : Fin 32) : val_main_v0 (F := Ideal) (up I.lmX) (up I.lmY) (ix2 j z) = ((lmF I j z : ℝ) : EReal) := by
  unfold val_main_v0 lmF
  by_cases h : z.val < 30
  · rw [dif_pos h]
    exact concatenate_pair_apply_left 1 (up I.lmX) (up I.lmY) concatenates_S2000x30_S2000x2_S2000x32_d1
      (ix2 j z) rfl (ix2 j ⟨z.val, h⟩) (fun b => by
        match b with
        | ⟨0, _⟩ => rfl
        | ⟨1, _⟩ => rfl)
  · rw [dif_neg h]
    exact concatenate_pair_apply_right 1 (up I.lmX) (up I.lmY) concatenates_S2000x30_S2000x2_S2000x32_d1
      (ix2 j z) rfl rfl (ix2 j ⟨z.val - 30, by omega⟩)
      (fun b hb => by
        match b with
        | ⟨0, _⟩ => rfl
        | ⟨1, _⟩ => exact absurd rfl hb)
      (by show z.val - 30 + 30 = z.val; omega)

theorem v2_apply (i : Fin 4000) (z : Fin 32) : val_main_v2 (F := Ideal) (up I.tgX) (ix2 i z) = ((tg0 I i z : ℝ) : EReal) := by
  unfold val_main_v2 tg0
  by_cases h : z.val < 30
  · rw [dif_pos h]
    exact concatenate_pair_apply_left 1 (up I.tgX) (val_main_v1 (F := Ideal)) concatenates_S4000x30_S4000x2_S4000x32_d1
      (ix2 i z) rfl (ix2 i ⟨z.val, h⟩) (fun b => by
        match b with
        | ⟨0, _⟩ => rfl
        | ⟨1, _⟩ => rfl)
  · rw [dif_neg h]
    rw [concatenate_pair_apply_right 1 (up I.tgX) (val_main_v1 (F := Ideal)) concatenates_S4000x30_S4000x2_S4000x32_d1
      (ix2 i z) rfl rfl (ix2 i ⟨z.val - 30, by omega⟩)
      (fun b hb => by
        match b with
        | ⟨0, _⟩ => rfl
        | ⟨1, _⟩ => exact absurd rfl hb)
      (by show z.val - 30 + 30 = z.val; omega)]
    rw [val_main_v1_apply, val_main_cst_apply, Ideal.ofBits_def, Ideal.ofBits_zero_f32]
    rfl

theorem v3_apply (z : Fin 32) : val_main_v3 (F := Ideal) (up I.lmX) (up I.lmY) (ix1 z) = ((∑ j : Fin 2000, lmF I j z : ℝ) : EReal) := by
  rw [val_main_v3_apply, val_main_cst_0_apply, Ideal.ofBits_def, Ideal.ofBits_zero_f32, zero_add, coe_sum]
  refine Finset.sum_congr rfl fun k _ => ?_
  rw [← v0_apply I k z]
  exact congrArg _ (funext fun a => Fin.ext (by match a with | ⟨0, _⟩ => rfl | ⟨1, _⟩ => rfl))

theorem v6_apply (z : Fin 32) : val_main_v6 (F := Ideal) (up I.lmX) (up I.lmY) (ix2 (0 : Fin 1) z) = ((router0 I z : ℝ) : EReal) := by
  rw [val_main_v6_apply, val_main_v4_apply, val_main_v5_apply, val_main_cst_1_apply]
  have hidx : idx_main_v4 (ix2 (0 : Fin 1) z) = ix1 z :=
    funext fun a => Fin.ext (by match a with | ⟨0, _⟩ => rfl)
  rw [hidx, v3_apply, Ideal.hostDivf_def, Ideal.ofBits_def, ofBits_two_thousand, div_coe_coe _ _ (by norm_num)]
  rfl

theorem v7_apply (k : Fin 6001) (z : Fin 32) : val_main_v7 (F := Ideal) (up I.lmX) (up I.lmY) (up I.tgX) (ix2 k z) = ((allF0 I k z : ℝ) : EReal) := by
  unfold val_main_v7 allF0
  by_cases h : k.val < 2000
  · rw [dif_pos h, ← v0_apply I ⟨k.val, h⟩ z]
    exact concatenate_apply_piece (t := S6001x32) (0 : Fin 2)
        [⟨S2000x32, val_main_v0 (F := Ideal) (up I.lmX) (up I.lmY)⟩, ⟨S4000x32, val_main_v2 (F := Ideal) (up I.tgX)⟩, ⟨S1x32, val_main_v6 (F := Ideal) (up I.lmX) (up I.lmY)⟩]
        concatenates_S2000x32_S4000x32_S1x32_S6001x32_d0 (ix2 k z)
      0 (by show (0 : ℕ) < 3; omega) S2000x32 (val_main_v0 (F := Ideal) (up I.lmX) (up I.lmY)) rfl rfl 0 rfl (ix2 ⟨k.val, h⟩ z)
      (fun b hb => by
        match b with
        | ⟨0, _⟩ => exact absurd rfl hb
        | ⟨1, _⟩ => rfl)
      (by show 0 + k.val = k.val; omega)
  · rw [dif_neg h]
    by_cases h2 : k.val < 6000
    · rw [dif_pos h2, ← v2_apply I ⟨k.val - 2000, by omega⟩ z]
      exact concatenate_apply_piece (t := S6001x32) (0 : Fin 2)
        [⟨S2000x32, val_main_v0 (F := Ideal) (up I.lmX) (up I.lmY)⟩, ⟨S4000x32, val_main_v2 (F := Ideal) (up I.tgX)⟩, ⟨S1x32, val_main_v6 (F := Ideal) (up I.lmX) (up I.lmY)⟩]
        concatenates_S2000x32_S4000x32_S1x32_S6001x32_d0 (ix2 k z)
        1 (by show (1 : ℕ) < 3; omega) S4000x32 (val_main_v2 (F := Ideal) (up I.tgX)) rfl rfl 2000 rfl (ix2 ⟨k.val - 2000, by omega⟩ z)
        (fun b hb => by
          match b with
          | ⟨0, _⟩ => exact absurd rfl hb
          | ⟨1, _⟩ => rfl)
        (by show 2000 + (k.val - 2000) = k.val; omega)
    · rw [dif_neg h2, ← v6_apply I z]
      exact concatenate_apply_piece (t := S6001x32) (0 : Fin 2)
        [⟨S2000x32, val_main_v0 (F := Ideal) (up I.lmX) (up I.lmY)⟩, ⟨S4000x32, val_main_v2 (F := Ideal) (up I.tgX)⟩, ⟨S1x32, val_main_v6 (F := Ideal) (up I.lmX) (up I.lmY)⟩]
        concatenates_S2000x32_S4000x32_S1x32_S6001x32_d0 (ix2 k z)
        2 (by show (2 : ℕ) < 3; omega) S1x32 (val_main_v6 (F := Ideal) (up I.lmX) (up I.lmY)) rfl rfl 6000 rfl (ix2 (0 : Fin 1) z)
        (fun b hb => by
          match b with
          | ⟨0, _⟩ => exact absurd rfl hb
          | ⟨1, _⟩ => rfl)
        (by show 6000 + 0 = k.val; have := k.isLt; omega)

end Cert.StarGraph.Ref

end
-- ==== Proof.LibScatterWindow.lean ====
import Idealize.ShloMosaic.Lib.ValueIdx
import Idealize.ShloMosaic.PureOps.ShapeOps

noncomputable section

namespace Cert.Hand.ScatterWindow

open Idealize.ShloMosaic Idealize.ShloMosaic.ValueIdx

section Fold

variable {s si u : Shape} {w : Nat} {α : Type} (d : ScatterDims s si u) (f : α → α → α) (idx : IVec si w)
  (upd : u.Idx → α)

/-- One update entry folded in: the operand entry it lands on is combined with it, every other entry stays. -/
def step (r : s.Idx → α) (j : u.Idx) : s.Idx → α :=
  match d.resultIdx? j idx with
  | some i => fun i' => if i' = i then f (r i) (upd j) else r i'
  | none => r

theorem step_of_some {r : s.Idx → α} {j : u.Idx} {i : s.Idx} (h : d.resultIdx? j idx = some i) :
    step d f idx upd r j i = f (r i) (upd j) := by
  unfold step
  rw [h]
  exact if_pos rfl

theorem step_of_ne {r : s.Idx → α} {j : u.Idx} {i : s.Idx} (h : d.resultIdx? j idx ≠ some i) :
    step d f idx upd r j i = r i := by
  unfold step
  cases hj : d.resultIdx? j idx with
  | none => rfl
  | some i0 =>
    have hne : i ≠ i0 := fun e => h (by rw [hj, e])
    exact if_neg hne

theorem foldl_step_of_not_mem (l : List u.Idx) (x : s.Idx → α) (i : s.Idx)
    (h : ∀ j ∈ l, d.resultIdx? j idx ≠ some i) : l.foldl (step d f idx upd) x i = x i := by
  induction l generalizing x with
  | nil => rfl
  | cons a t ih =>
    rw [List.foldl_cons, ih _ (fun j hj => h j (List.mem_cons_of_mem _ hj)),
      step_of_ne d f idx upd (h a List.mem_cons_self)]

theorem foldl_step_of_mem
    (hinj : ∀ (j j' : u.Idx) (i : s.Idx), d.resultIdx? j idx = some i → d.resultIdx? j' idx = some i → j = j')
    (l : List u.Idx) (hl : l.Nodup) (x : s.Idx → α) (i : s.Idx) (j : u.Idx) (hj : j ∈ l)
    (hji : d.resultIdx? j idx = some i) : l.foldl (step d f idx upd) x i = f (x i) (upd j) := by
  induction l generalizing x with
  | nil => cases hj
  | cons a t ih =>
    rw [List.nodup_cons] at hl
    rw [List.foldl_cons]
    rcases List.mem_cons.1 hj with hja | hjt
    · subst hja
      have hrest : ∀ j' ∈ t, d.resultIdx? j' idx ≠ some i := fun j' hj' e => by
        have hjj : j = j' := hinj j j' i hji e
        rw [hjj] at hl
        exact hl.1 hj'
      rw [foldl_step_of_not_mem d f idx upd t _ i hrest, step_of_some d f idx upd hji]
    · have hne : d.resultIdx? a idx ≠ some i := fun e => by
        have haj : a = j := hinj a j i e hji
        rw [haj] at hl
        exact hl.1 hjt
      rw [ih hl.2 _ hjt, step_of_ne d f idx upd hne]

/-- A scatter is the fold of the single steps over the update's entries in row-major order. -/
theorem scatter_eq_foldl (x : s.Idx → α) :
    Host.scatter d f x idx upd
      = ((List.finRange u.numel).map u.rowMajor.symm).foldl (step d f idx upd) x := by
  rw [List.foldl_map]
  rfl

theorem nodup_indices : ((List.finRange u.numel).map u.rowMajor.symm).Nodup :=
  List.Nodup.map u.rowMajor.symm.injective (List.nodup_finRange _)

theorem mem_indices (j : u.Idx) : j ∈ (List.finRange u.numel).map u.rowMajor.symm :=
  List.mem_map.2 ⟨u.rowMajor j, List.mem_finRange _, u.rowMajor.symm_apply_apply j⟩

end Fold

/-- Where exactly one update entry lands on an operand entry, that entry ends combined with it once. -/
theorem scatter_apply_of_injective {s si u : Shape} {w : Nat} {α : Type} (d : ScatterDims s si u) (f : α → α → α)
    (x : s.Idx → α) (idx : IVec si w) (upd : u.Idx → α)
    (hinj : ∀ (j j' : u.Idx) (i : s.Idx), d.resultIdx? j idx = some i → d.resultIdx? j' idx = some i → j = j')
    (i : s.Idx) :
    (∀ j, d.resultIdx? j idx = some i → Host.scatter d f x idx upd i = f (x i) (upd j))
    ∧ ((∀ j, d.resultIdx? j idx ≠ some i) → Host.scatter d f x idx upd i = x i) := by
  rw [scatter_eq_foldl]
  exact ⟨fun j hji => foldl_step_of_mem d f idx upd hinj _ nodup_indices x i j (mem_indices j) hji,
    fun hno => foldl_step_of_not_mem d f idx upd _ x i (fun j _ => hno j)⟩

/-- A scatter that writes an R×CU update into the columns k … k + CU - 1 of an R×C operand. -/
structure IsColWindow {R C CU : Nat}
    (d : ScatterDims (⟨2, ![R, C]⟩ : Shape) (⟨1, ![1]⟩ : Shape) (⟨2, ![R, CU]⟩ : Shape)) : Prop where
  uw : d.updateWindowDims = [0, 1]
  iw : d.insertedWindowDims = []
  sd : d.scatterDimsToOperandDims = [1]
  iv : d.indexVectorDim = 0

section ColWindow

variable {R C CU : Nat}
  {d : ScatterDims (⟨2, ![R, C]⟩ : Shape) (⟨1, ![1]⟩ : Shape) (⟨2, ![R, CU]⟩ : Shape)}

theorem window_eq (d : ScatterDims (⟨2, ![R, C]⟩ : Shape) (⟨1, ![1]⟩ : Shape) (⟨2, ![R, CU]⟩ : Shape))
    (uw : d.updateWindowDims = [0, 1]) (iw : d.insertedWindowDims = [])
    (j : (⟨2, ![R, CU]⟩ : Shape).Idx) (a : Fin 2) : d.window j a = (j a).val := by
  obtain ⟨uw', iw', sd', iv', wf⟩ := d
  dsimp only at uw iw
  subst uw iw
  unfold ScatterDims.window
  match a with
  | ⟨0, _⟩ => rfl
  | ⟨1, _⟩ => rfl

theorem start_eq (d : ScatterDims (⟨2, ![R, C]⟩ : Shape) (⟨1, ![1]⟩ : Shape) (⟨2, ![R, CU]⟩ : Shape))
    (sd : d.scatterDimsToOperandDims = [1]) (idx : IVec (⟨1, ![1]⟩ : Shape) 32)
    (j : (⟨2, ![R, CU]⟩ : Shape).Idx) (a : Fin 2) :
    d.start j idx a = if a = 1 then (idx (ix1 0)).toInt else 0 := by
  have hone : ∀ q : (⟨1, ![1]⟩ : Shape).Idx, q = ix1 0 := fun q =>
    (eq_ix1 q).trans (congrArg ix1 (Subsingleton.elim (α := Fin 1) _ _))
  unfold ScatterDims.start
  simp only [sd, List.mem_singleton]
  by_cases h : a = 1
  · rw [dif_pos h, if_pos h, hone (d.siIdx j _)]
  · rw [dif_neg h, if_neg h]

theorem IsColWindow.resultIdx?_eq (h : IsColWindow d)
    (idx : IVec (⟨1, ![1]⟩ : Shape) 32) (k : ℕ) (hk : (idx (ix1 0)).toInt = (k : ℤ)) (hfit : k + CU ≤ C)
    (r' : Fin R) (c' : Fin CU) :
    d.resultIdx? (ix2 r' c') idx = some (ix2 r' ⟨k + c'.val, by omega⟩) := by
  have hs0 : d.start (ix2 r' c') idx (0 : Fin 2) = 0 := by rw [start_eq d h.sd, if_neg (by decide)]
  have hs1 : d.start (ix2 r' c') idx (1 : Fin 2) = (k : ℤ) := by rw [start_eq d h.sd, if_pos rfl, hk]
  have hw0 : d.window (ix2 r' c') (0 : Fin 2) = r'.val := window_eq d h.uw h.iw _ 0
  have hw1 : d.window (ix2 r' c') (1 : Fin 2) = c'.val := window_eq d h.uw h.iw _ 1
  have hr : r'.val < R := r'.isLt
  have hc : c'.val < CU := c'.isLt
  have hcond : ∀ a, 0 ≤ d.start (ix2 r' c') idx a + d.window (ix2 r' c') a
      ∧ d.start (ix2 r' c') idx a + d.window (ix2 r' c') a < (⟨2, ![R, C]⟩ : Shape).size a := by
    refine Fin.forall_fin_two.2 ⟨?_, ?_⟩
    · rw [hs0, hw0]
      show (0 : ℤ) ≤ 0 + ((r'.val : ℕ) : ℤ) ∧ (0 : ℤ) + ((r'.val : ℕ) : ℤ) < ((R : ℕ) : ℤ)
      omega
    · rw [hs1, hw1]
      show (0 : ℤ) ≤ (k : ℤ) + ((c'.val : ℕ) : ℤ) ∧ (k : ℤ) + ((c'.val : ℕ) : ℤ) < ((C : ℕ) : ℤ)
      omega
  unfold ScatterDims.resultIdx?
  rw [dif_pos hcond]
  congr 1
  funext a
  apply Fin.ext
  revert a
  refine Fin.forall_fin_two.2 ⟨?_, ?_⟩
  · show (d.start (ix2 r' c') idx (0 : Fin 2) + (d.window (ix2 r' c') (0 : Fin 2) : ℕ)).toNat = r'.val
    rw [hs0, hw0]; omega
  · show (d.start (ix2 r' c') idx (1 : Fin 2) + (d.window (ix2 r' c') (1 : Fin 2) : ℕ)).toNat = k + c'.val
    rw [hs1, hw1]; omega

end ColWindow

/-- Inside the written columns an entry is combined with the update's entry, outside them it is the operand's. -/
theorem IsColWindow.scatter_apply {R C CU : Nat}
    {d : ScatterDims (⟨2, ![R, C]⟩ : Shape) (⟨1, ![1]⟩ : Shape) (⟨2, ![R, CU]⟩ : Shape)} (h : IsColWindow d)
    {α : Type} (f : α → α → α) (x : (⟨2, ![R, C]⟩ : Shape).Idx → α) (idx : IVec (⟨1, ![1]⟩ : Shape) 32)
    (upd : (⟨2, ![R, CU]⟩ : Shape).Idx → α) (k : ℕ) (hk : (idx (ix1 0)).toInt = (k : ℤ)) (hfit : k + CU ≤ C)
    (r : Fin R) (c : Fin C) :
    Host.scatter d f x idx upd (ix2 r c)
      = if hc : k ≤ c.val ∧ c.val < k + CU then f (x (ix2 r c)) (upd (ix2 r ⟨c.val - k, by omega⟩))
        else x (ix2 r c) := by
  have hres : ∀ (r' : Fin R) (c' : Fin CU),
      d.resultIdx? (ix2 r' c') idx = some (ix2 r' ⟨k + c'.val, by omega⟩) :=
    fun r' c' => h.resultIdx?_eq idx k hk hfit r' c'

  have hinj : ∀ (j j' : (⟨2, ![R, CU]⟩ : Shape).Idx) (i : (⟨2, ![R, C]⟩ : Shape).Idx),
      d.resultIdx? j idx = some i → d.resultIdx? j' idx = some i → j = j' := by
    intro j j' i hj hj'
    obtain ⟨r1, c1, rfl⟩ : ∃ (r1 : Fin R) (c1 : Fin CU), j = ix2 r1 c1 := ⟨j 0, j 1, eq_ix2 j⟩
    obtain ⟨r2, c2, rfl⟩ : ∃ (r2 : Fin R) (c2 : Fin CU), j' = ix2 r2 c2 := ⟨j' 0, j' 1, eq_ix2 j'⟩
    rw [hres] at hj hj'
    have e := Option.some.inj (hj.trans hj'.symm)
    have e0 : r1 = r2 := congrFun e (0 : Fin 2)
    have e1 : k + c1.val = k + c2.val := congrArg Fin.val (congrFun e (1 : Fin 2))
    have e1' : c1 = c2 := Fin.ext (by omega)
    rw [e0, e1']
  have key := scatter_apply_of_injective d f x idx upd hinj (ix2 r c)
  by_cases hc : k ≤ c.val ∧ c.val < k + CU
  · rw [dif_pos hc]
    apply key.1
    rw [hres]
    exact congrArg (fun z => some (ix2 r z)) (Fin.ext (show k + (c.val - k) = c.val by omega))
  · rw [dif_neg hc]
    apply key.2
    intro j hj
    obtain ⟨r', c', rfl⟩ : ∃ (r' : Fin R) (c' : Fin CU), j = ix2 r' c' := ⟨j 0, j 1, eq_ix2 j⟩
    rw [hres] at hj
    have e1 : k + c'.val = c.val := congrArg Fin.val (congrFun (Option.some.inj hj) (1 : Fin 2))
    have hc' : c'.val < CU := c'.isLt
    exact hc (by omega)

end Cert.Hand.ScatterWindow

end
-- ==== Proof.LibScatterAt.lean ====
import Idealize.ShloMosaic.Lib.ValueIdx
import Idealize.ShloMosaic.PureOps.ShapeOps
import proofs.«406318_j68710886801531_3_alg».proof.Proof.LibScatterWindow

noncomputable section

namespace Cert.Hand.ScatterAt

open Idealize.ShloMosaic Idealize.ShloMosaic.ValueIdx Cert.Hand.ScatterWindow

/-- If update entry j lands on `land j` and `land` is injective, entry `land j` ends combined with j, and entries off its range stay. -/
theorem scatter_apply_of_landing {s si u : Shape} {w : Nat} {α : Type} (d : ScatterDims s si u) (f : α → α → α)
    (x : s.Idx → α) (idx : IVec si w) (upd : u.Idx → α) (land : u.Idx → s.Idx)
    (hres : ∀ j, d.resultIdx? j idx = some (land j)) (hinj : Function.Injective land) (i : s.Idx) :
    (∀ j, land j = i → Host.scatter d f x idx upd i = f (x i) (upd j))
    ∧ ((∀ j, land j ≠ i) → Host.scatter d f x idx upd i = x i) := by
  have hinj' : ∀ (j j' : u.Idx) (i : s.Idx), d.resultIdx? j idx = some i → d.resultIdx? j' idx = some i → j = j' := by
    intro j j' i hj hj'
    rw [hres] at hj hj'
    exact hinj ((Option.some.inj hj).trans (Option.some.inj hj').symm)
  have key := scatter_apply_of_injective d f x idx upd hinj' i
  refine ⟨fun j hj => key.1 j (by rw [hres, hj]), fun hno => key.2 (fun j hj => ?_)⟩
  rw [hres] at hj
  exact hno j (Option.some.inj hj)

section TwoWords

variable {R C : Nat} {u : Shape}

theorem resultIdx?_eq_of {si : Shape} {w : Nat} (d : ScatterDims (⟨2, ![R, C]⟩ : Shape) si u) (idx : IVec si w)
    (j : u.Idx) (s0 s1 w0 w1 : ℕ)
    (hs0 : d.start j idx (0 : Fin 2) = (s0 : ℤ)) (hs1 : d.start j idx (1 : Fin 2) = (s1 : ℤ))
    (hw0 : d.window j (0 : Fin 2) = w0) (hw1 : d.window j (1 : Fin 2) = w1)
    (h0 : s0 + w0 < R) (h1 : s1 + w1 < C) :
    d.resultIdx? j idx = some (ix2 ⟨s0 + w0, h0⟩ ⟨s1 + w1, h1⟩) := by
  have hcond : ∀ a, 0 ≤ d.start j idx a + d.window j a
      ∧ d.start j idx a + d.window j a < (⟨2, ![R, C]⟩ : Shape).size a := by
    refine Fin.forall_fin_two.2 ⟨?_, ?_⟩
    · rw [hs0, hw0]
      show (0 : ℤ) ≤ (s0 : ℤ) + ((w0 : ℕ) : ℤ) ∧ (s0 : ℤ) + ((w0 : ℕ) : ℤ) < ((R : ℕ) : ℤ)
      omega
    · rw [hs1, hw1]
      show (0 : ℤ) ≤ (s1 : ℤ) + ((w1 : ℕ) : ℤ) ∧ (s1 : ℤ) + ((w1 : ℕ) : ℤ) < ((C : ℕ) : ℤ)
      omega
  unfold ScatterDims.resultIdx?
  rw [dif_pos hcond]
  congr 1
  funext a
  apply Fin.ext
  revert a
  refine Fin.forall_fin_two.2 ⟨?_, ?_⟩
  · show (d.start j idx (0 : Fin 2) + (d.window j (0 : Fin 2) : ℕ)).toNat = s0 + w0
    rw [hs0, hw0]; omega
  · show (d.start j idx (1 : Fin 2) + (d.window j (1 : Fin 2) : ℕ)).toNat = s1 + w1
    rw [hs1, hw1]; omega

theorem siIdx_eq (d : ScatterDims (⟨2, ![R, C]⟩ : Shape) (⟨1, ![2]⟩ : Shape) u) (iv : d.indexVectorDim = 0)
    (j : u.Idx) (c : Fin d.scatterDimsToOperandDims.length) (c' : Fin 2) (hc : c.val = c'.val) :
    d.siIdx j c = ix1 c' := by
  funext b
  match b with
  | ⟨0, hb⟩ =>
    unfold ScatterDims.siIdx
    rw [dif_pos (show ((⟨0, hb⟩ : Fin (⟨1, ![2]⟩ : Shape).rank)).val = d.indexVectorDim from iv.symm)]
    exact Fin.ext hc

theorem start_eq (d : ScatterDims (⟨2, ![R, C]⟩ : Shape) (⟨1, ![2]⟩ : Shape) u)
    (sd : d.scatterDimsToOperandDims = [0, 1]) (iv : d.indexVectorDim = 0) (idx : IVec (⟨1, ![2]⟩ : Shape) 32)
    (j : u.Idx) (a : Fin 2) : d.start j idx a = (idx (ix1 a)).toInt := by
  have ha : a ∈ d.scatterDimsToOperandDims := by
    rw [sd]
    match a with
    | ⟨0, _⟩ => exact List.mem_cons_self
    | ⟨1, _⟩ => exact List.mem_cons_of_mem _ List.mem_cons_self
  unfold ScatterDims.start
  rw [dif_pos ha]
  refine congrArg (fun q => (idx q).toInt) (siIdx_eq d iv j _ a ?_)
  show List.idxOf a d.scatterDimsToOperandDims = a.val
  rw [sd]
  match a with
  | ⟨0, _⟩ => rfl
  | ⟨1, _⟩ => rfl

end TwoWords

/-- A scatter that writes an RU×CU block at (r0, c0). -/
structure IsBlockAt {R C RU CU : Nat}
    (d : ScatterDims (⟨2, ![R, C]⟩ : Shape) (⟨1, ![2]⟩ : Shape) (⟨2, ![RU, CU]⟩ : Shape)) : Prop where
  uw : d.updateWindowDims = [0, 1]
  iw : d.insertedWindowDims = []
  sd : d.scatterDimsToOperandDims = [0, 1]
  iv : d.indexVectorDim = 0

theorem block_window_eq {R C RU CU : Nat}
    (d : ScatterDims (⟨2, ![R, C]⟩ : Shape) (⟨1, ![2]⟩ : Shape) (⟨2, ![RU, CU]⟩ : Shape))
    (uw : d.updateWindowDims = [0, 1]) (iw : d.insertedWindowDims = [])
    (j : (⟨2, ![RU, CU]⟩ : Shape).Idx) (a : Fin 2) : d.window j a = (j a).val := by
  obtain ⟨uw', iw', sd', iv', wf⟩ := d
  dsimp only at uw iw
  subst uw iw
  unfold ScatterDims.window
  match a with
  | ⟨0, _⟩ => rfl
  | ⟨1, _⟩ => rfl

theorem IsBlockAt.resultIdx?_eq {R C RU CU : Nat}
    {d : ScatterDims (⟨2, ![R, C]⟩ : Shape) (⟨1, ![2]⟩ : Shape) (⟨2, ![RU, CU]⟩ : Shape)} (h : IsBlockAt d)
    (idx : IVec (⟨1, ![2]⟩ : Shape) 32) (r0 c0 : ℕ) (hr0 : (idx (ix1 0)).toInt = (r0 : ℤ))
    (hc0 : (idx (ix1 1)).toInt = (c0 : ℤ)) (hfr : r0 + RU ≤ R) (hfc : c0 + CU ≤ C) (r' : Fin RU) (c' : Fin CU) :
    d.resultIdx? (ix2 r' c') idx = some (ix2 ⟨r0 + r'.val, by omega⟩ ⟨c0 + c'.val, by omega⟩) :=
  resultIdx?_eq_of d idx (ix2 r' c') r0 c0 r'.val c'.val
    ((start_eq d h.sd h.iv idx _ 0).trans hr0) ((start_eq d h.sd h.iv idx _ 1).trans hc0)
    (block_window_eq d h.uw h.iw _ 0) (block_window_eq d h.uw h.iw _ 1) (by omega) (by omega)

/-- Inside the block an entry is combined with the update's entry at its offset from (r0, c0); outside it is the operand's. -/
theorem IsBlockAt.scatter_apply {R C RU CU : Nat}
    {d : ScatterDims (⟨2, ![R, C]⟩ : Shape) (⟨1, ![2]⟩ : Shape) (⟨2, ![RU, CU]⟩ : Shape)} (h : IsBlockAt d)
    {α : Type} (f : α → α → α) (x : (⟨2, ![R, C]⟩ : Shape).Idx → α) (idx : IVec (⟨1, ![2]⟩ : Shape) 32)
    (upd : (⟨2, ![RU, CU]⟩ : Shape).Idx → α) (r0 c0 : ℕ) (hr0 : (idx (ix1 0)).toInt = (r0 : ℤ))
    (hc0 : (idx (ix1 1)).toInt = (c0 : ℤ)) (hfr : r0 + RU ≤ R) (hfc : c0 + CU ≤ C) (r : Fin R) (c : Fin C) :
    Host.scatter d f x idx upd (ix2 r c)
      = if hrc : (r0 ≤ r.val ∧ r.val < r0 + RU) ∧ (c0 ≤ c.val ∧ c.val < c0 + CU) then
          f (x (ix2 r c)) (upd (ix2 ⟨r.val - r0, by omega⟩ ⟨c.val - c0, by omega⟩))
        else x (ix2 r c) := by
  let land : (⟨2, ![RU, CU]⟩ : Shape).Idx → (⟨2, ![R, C]⟩ : Shape).Idx := fun j =>
    ix2 ⟨r0 + (j 0).val, by have := idx2_lt0 j; omega⟩ ⟨c0 + (j 1).val, by have := idx2_lt1 j; omega⟩
  have hres : ∀ j, d.resultIdx? j idx = some (land j) := fun j => by
    rw [eq_ix2 j]
    exact h.resultIdx?_eq idx r0 c0 hr0 hc0 hfr hfc (j 0) (j 1)
  have hinj : Function.Injective land := fun j j' e => by
    have e0 : r0 + (j 0).val = r0 + (j' 0).val := congrArg Fin.val (congrFun e (0 : Fin 2))
    have e1 : c0 + (j 1).val = c0 + (j' 1).val := congrArg Fin.val (congrFun e (1 : Fin 2))
    rw [eq_ix2 j, eq_ix2 j', show j 0 = j' 0 from Fin.ext (by omega), show j 1 = j' 1 from Fin.ext (by omega)]
  have key := scatter_apply_of_landing d f x idx upd land hres hinj (ix2 r c)
  by_cases hrc : (r0 ≤ r.val ∧ r.val < r0 + RU) ∧ (c0 ≤ c.val ∧ c.val < c0 + CU)
  · rw [dif_pos hrc]
    apply key.1
    funext a
    match a with
    | ⟨0, _⟩ => exact Fin.ext (show r0 + (r.val - r0) = r.val by omega)
    | ⟨1, _⟩ => exact Fin.ext (show c0 + (c.val - c0) = c.val by omega)
  · rw [dif_neg hrc]
    apply key.2
    intro j hj
    have e0 : r0 + (j 0).val = r.val := congrArg Fin.val (congrFun hj (0 : Fin 2))
    have e1 : c0 + (j 1).val = c.val := congrArg Fin.val (congrFun hj (1 : Fin 2))
    have := idx2_lt0 j
    have := idx2_lt1 j
    exact hrc (by omega)

/-- A scatter that writes a vector into row r0 from column c0 on. -/
structure IsRowAt {R C CU : Nat}
    (d : ScatterDims (⟨2, ![R, C]⟩ : Shape) (⟨1, ![2]⟩ : Shape) (⟨1, ![CU]⟩ : Shape)) : Prop where
  uw : d.updateWindowDims = [0]
  iw : d.insertedWindowDims = [0]
  sd : d.scatterDimsToOperandDims = [0, 1]
  iv : d.indexVectorDim = 0

theorem row_window_eq {R C CU : Nat}
    (d : ScatterDims (⟨2, ![R, C]⟩ : Shape) (⟨1, ![2]⟩ : Shape) (⟨1, ![CU]⟩ : Shape))
    (uw : d.updateWindowDims = [0]) (iw : d.insertedWindowDims = [0])
    (j : (⟨1, ![CU]⟩ : Shape).Idx) :
    d.window j (0 : Fin 2) = 0 ∧ d.window j (1 : Fin 2) = (j 0).val := by
  obtain ⟨uw', iw', sd', iv', wf⟩ := d
  dsimp only at uw iw
  subst uw iw
  unfold ScatterDims.window
  exact ⟨rfl, rfl⟩

theorem IsRowAt.resultIdx?_eq {R C CU : Nat}
    {d : ScatterDims (⟨2, ![R, C]⟩ : Shape) (⟨1, ![2]⟩ : Shape) (⟨1, ![CU]⟩ : Shape)} (h : IsRowAt d)
    (idx : IVec (⟨1, ![2]⟩ : Shape) 32) (r0 c0 : ℕ) (hr0 : (idx (ix1 0)).toInt = (r0 : ℤ))
    (hc0 : (idx (ix1 1)).toInt = (c0 : ℤ)) (hfr : r0 < R) (hfc : c0 + CU ≤ C) (c' : Fin CU) :
    d.resultIdx? (ix1 c') idx = some (ix2 ⟨r0, hfr⟩ ⟨c0 + c'.val, by omega⟩) :=
  resultIdx?_eq_of d idx (ix1 c') r0 c0 0 c'.val
    ((start_eq d h.sd h.iv idx _ 0).trans hr0) ((start_eq d h.sd h.iv idx _ 1).trans hc0)
    (row_window_eq d h.uw h.iw _).1 (row_window_eq d h.uw h.iw _).2 (by omega) (by omega)

/-- On row r0 from column c0 on an entry is combined with the vector's entry; elsewhere it is the operand's. -/
theorem IsRowAt.scatter_apply {R C CU : Nat}
    {d : ScatterDims (⟨2, ![R, C]⟩ : Shape) (⟨1, ![2]⟩ : Shape) (⟨1, ![CU]⟩ : Shape)} (h : IsRowAt d)
    {α : Type} (f : α → α → α) (x : (⟨2, ![R, C]⟩ : Shape).Idx → α) (idx : IVec (⟨1, ![2]⟩ : Shape) 32)
    (upd : (⟨1, ![CU]⟩ : Shape).Idx → α) (r0 c0 : ℕ) (hr0 : (idx (ix1 0)).toInt = (r0 : ℤ))
    (hc0 : (idx (ix1 1)).toInt = (c0 : ℤ)) (hfr : r0 < R) (hfc : c0 + CU ≤ C) (r : Fin R) (c : Fin C) :
    Host.scatter d f x idx upd (ix2 r c)
      = if hrc : r.val = r0 ∧ (c0 ≤ c.val ∧ c.val < c0 + CU) then
          f (x (ix2 r c)) (upd (ix1 ⟨c.val - c0, by omega⟩))
        else x (ix2 r c) := by
  let land : (⟨1, ![CU]⟩ : Shape).Idx → (⟨2, ![R, C]⟩ : Shape).Idx := fun j =>
    ix2 ⟨r0, hfr⟩ ⟨c0 + (j 0).val, by have : (j 0).val < CU := (j 0).isLt; omega⟩
  have hres : ∀ j, d.resultIdx? j idx = some (land j) := fun j => by
    rw [eq_ix1 j]
    exact h.resultIdx?_eq idx r0 c0 hr0 hc0 hfr hfc (j 0)
  have hinj : Function.Injective land := fun j j' e => by
    have e1 : c0 + (j 0).val = c0 + (j' 0).val := congrArg Fin.val (congrFun e (1 : Fin 2))
    rw [eq_ix1 j, eq_ix1 j', show j 0 = j' 0 from Fin.ext (by omega)]
  have key := scatter_apply_of_landing d f x idx upd land hres hinj (ix2 r c)
  by_cases hrc : r.val = r0 ∧ (c0 ≤ c.val ∧ c.val < c0 + CU)
  · rw [dif_pos hrc]
    apply key.1
    funext a
    match a with
    | ⟨0, _⟩ => exact Fin.ext hrc.1.symm
    | ⟨1, _⟩ => exact Fin.ext (show c0 + (c.val - c0) = c.val by omega)
  · rw [dif_neg hrc]
    apply key.2
    intro j hj
    have e0 : r0 = r.val := congrArg Fin.val (congrFun hj (0 : Fin 2))
    have e1 : c0 + (j 0).val = c.val := congrArg Fin.val (congrFun hj (1 : Fin 2))
    have : (j 0).val < CU := (j 0).isLt
    exact hrc (by omega)

/-- A scatter that writes a vector into column c0 from row r0 on. -/
structure IsColAt {R C RU : Nat}
    (d : ScatterDims (⟨2, ![R, C]⟩ : Shape) (⟨1, ![2]⟩ : Shape) (⟨1, ![RU]⟩ : Shape)) : Prop where
  uw : d.updateWindowDims = [0]
  iw : d.insertedWindowDims = [1]
  sd : d.scatterDimsToOperandDims = [0, 1]
  iv : d.indexVectorDim = 0

theorem col_window_eq {R C RU : Nat}
    (d : ScatterDims (⟨2, ![R, C]⟩ : Shape) (⟨1, ![2]⟩ : Shape) (⟨1, ![RU]⟩ : Shape))
    (uw : d.updateWindowDims = [0]) (iw : d.insertedWindowDims = [1])
    (j : (⟨1, ![RU]⟩ : Shape).Idx) :
    d.window j (0 : Fin 2) = (j 0).val ∧ d.window j (1 : Fin 2) = 0 := by
  obtain ⟨uw', iw', sd', iv', wf⟩ := d
  dsimp only at uw iw
  subst uw iw
  unfold ScatterDims.window
  exact ⟨rfl, rfl⟩

theorem IsColAt.resultIdx?_eq {R C RU : Nat}
    {d : ScatterDims (⟨2, ![R, C]⟩ : Shape) (⟨1, ![2]⟩ : Shape) (⟨1, ![RU]⟩ : Shape)} (h : IsColAt d)
    (idx : IVec (⟨1, ![2]⟩ : Shape) 32) (r0 c0 : ℕ) (hr0 : (idx (ix1 0)).toInt = (r0 : ℤ))
    (hc0 : (idx (ix1 1)).toInt = (c0 : ℤ)) (hfr : r0 + RU ≤ R) (hfc : c0 < C) (r' : Fin RU) :
    d.resultIdx? (ix1 r') idx = some (ix2 ⟨r0 + r'.val, by omega⟩ ⟨c0, hfc⟩) :=
  resultIdx?_eq_of d idx (ix1 r') r0 c0 r'.val 0
    ((start_eq d h.sd h.iv idx _ 0).trans hr0) ((start_eq d h.sd h.iv idx _ 1).trans hc0)
    (col_window_eq d h.uw h.iw _).1 (col_window_eq d h.uw h.iw _).2 (by omega) (by omega)

/-- On column c0 from row r0 on an entry is combined with the vector's entry; elsewhere it is the operand's. -/
theorem IsColAt.scatter_apply {R C RU : Nat}
    {d : ScatterDims (⟨2, ![R, C]⟩ : Shape) (⟨1, ![2]⟩ : Shape) (⟨1, ![RU]⟩ : Shape)} (h : IsColAt d)
    {α : Type} (f : α → α → α) (x : (⟨2, ![R, C]⟩ : Shape).Idx → α) (idx : IVec (⟨1, ![2]⟩ : Shape) 32)
    (upd : (⟨1, ![RU]⟩ : Shape).Idx → α) (r0 c0 : ℕ) (hr0 : (idx (ix1 0)).toInt = (r0 : ℤ))
    (hc0 : (idx (ix1 1)).toInt = (c0 : ℤ)) (hfr : r0 + RU ≤ R) (hfc : c0 < C) (r : Fin R) (c : Fin C) :
    Host.scatter d f x idx upd (ix2 r c)
      = if hrc : (r0 ≤ r.val ∧ r.val < r0 + RU) ∧ c.val = c0 then
          f (x (ix2 r c)) (upd (ix1 ⟨r.val - r0, by omega⟩))
        else x (ix2 r c) := by
  let land : (⟨1, ![RU]⟩ : Shape).Idx → (⟨2, ![R, C]⟩ : Shape).Idx := fun j =>
    ix2 ⟨r0 + (j 0).val, by have : (j 0).val < RU := (j 0).isLt; omega⟩ ⟨c0, hfc⟩
  have hres : ∀ j, d.resultIdx? j idx = some (land j) := fun j => by
    rw [eq_ix1 j]
    exact h.resultIdx?_eq idx r0 c0 hr0 hc0 hfr hfc (j 0)
  have hinj : Function.Injective land := fun j j' e => by
    have e0 : r0 + (j 0).val = r0 + (j' 0).val := congrArg Fin.val (congrFun e (0 : Fin 2))
    rw [eq_ix1 j, eq_ix1 j', show j 0 = j' 0 from Fin.ext (by omega)]
  have key := scatter_apply_of_landing d f x idx upd land hres hinj (ix2 r c)
  by_cases hrc : (r0 ≤ r.val ∧ r.val < r0 + RU) ∧ c.val = c0
  · rw [dif_pos hrc]
    apply key.1
    funext a
    match a with
    | ⟨0, _⟩ => exact Fin.ext (show r0 + (r.val - r0) = r.val by omega)
    | ⟨1, _⟩ => exact Fin.ext hrc.2.symm
  · rw [dif_neg hrc]
    apply key.2
    intro j hj
    have e0 : r0 + (j 0).val = r.val := congrArg Fin.val (congrFun hj (0 : Fin 2))
    have e1 : c0 = c.val := congrArg Fin.val (congrFun hj (1 : Fin 2))
    have : (j 0).val < RU := (j 0).isLt
    exact hrc (by omega)

end Cert.Hand.ScatterAt

end
-- ==== Proof.RefB.lean ====
import proofs.«406318_j68710886801531_3_alg».proof.Proof.ReadQ
import proofs.«406318_j68710886801531_3_alg».proof.Proof.SpecGraph
import proofs.«406318_j68710886801531_3_alg».proof.Proof.RealOps
import proofs.«406318_j68710886801531_3_alg».proof.Proof.LibPlainDot

noncomputable section

namespace Cert.StarGraph.Ref

open Idealize.ShloMosaic Idealize.ShloMosaic.ValueIdx Cert.ReferenceIdeal Cert.ReferenceIdeal.ReadP Cert.StarGraph

variable (I : Inputs)

theorem ofBits_D : Ideal.ofBits .f32 0x40B504F3#32 = ((11863283 / 2097152 : ℝ) : EReal) := by
  simp [Ideal.ofBits, Ideal.ieee, -EReal.coe_mul]; norm_num

theorem ofBits_negInf : Ideal.ofBits .f32 0xFF800000#32 = (⊥ : EReal) := by
  simp [Ideal.ofBits, Ideal.ieee]

theorem q_apply (i : Fin 4000) (z : Fin 32) :
    val_main_v11 (F := Ideal) (up I.tgX) (up I.Wq) (up I.bq) (ix2 i z) = ((qry I i z : ℝ) : EReal) := by
  have el : ∀ k : Fin 30, lidx_main_v8 (ix2 i z) k = ix2 i k := fun k =>
    funext fun a => by match a with | ⟨0, _⟩ => rfl | ⟨1, _⟩ => rfl
  have er : ∀ k : Fin 30, ridx_main_v8 (ix2 i z) k = ix2 k z := fun k =>
    funext fun a => by match a with | ⟨0, _⟩ => rfl | ⟨1, _⟩ => rfl
  have eb : idx_main_v9 (idx_main_v10 (ix2 i z)) = ix1 z :=
    funext fun a => by match a with | ⟨0, _⟩ => rfl
  rw [val_main_v11_apply, val_main_v8_apply, val_main_v10_apply, val_main_v9_apply, eb]
  simp only [el, er, up_apply, Ideal.addf_def]
  rw [qry, EReal.coe_add, coe_sum]
  simp only [EReal.coe_mul]

theorem k_apply (j : Fin 2000) (z : Fin 32) :
    val_main_v15 (F := Ideal) (up I.lmX) (up I.Wk) (up I.bk) (ix2 j z) = ((keyA I j z : ℝ) : EReal) := by
  have el : ∀ k : Fin 30, lidx_main_v12 (ix2 j z) k = ix2 j k := fun k =>
    funext fun a => by match a with | ⟨0, _⟩ => rfl | ⟨1, _⟩ => rfl
  have er : ∀ k : Fin 30, ridx_main_v12 (ix2 j z) k = ix2 k z := fun k =>
    funext fun a => by match a with | ⟨0, _⟩ => rfl | ⟨1, _⟩ => rfl
  have eb : idx_main_v13 (idx_main_v14 (ix2 j z)) = ix1 z :=
    funext fun a => by match a with | ⟨0, _⟩ => rfl
  rw [val_main_v15_apply, val_main_v12_apply, val_main_v14_apply, val_main_v13_apply, eb]
  simp only [el, er, up_apply, Ideal.addf_def]
  rw [keyA, EReal.coe_add, coe_sum]
  simp only [EReal.coe_mul]

theorem qs_apply (i : Fin 4000) (z : Fin 32) :
    val_main_v17 (F := Ideal) (up I.tgX) (up I.Wq) (up I.bq) (ix2 i z) = ((qry I i z * invTemp : ℝ) : EReal) := by
  rw [val_main_v17_apply, q_apply, val_main_v16_apply, val_main_cst_2_apply, Ideal.hostDivf_def, Ideal.ofBits_def,
    ofBits_D, div_coe_coe _ _ (by norm_num)]
  congr 1
  unfold invTemp
  ring

theorem score_apply (i : Fin 4000) (j : Fin 2000) :
    val_main_v19 (F := Ideal) (up I.lmX) (up I.tgX) (up I.Wq) (up I.bq) (up I.Wk) (up I.bk) (ix2 i j) = ((score I i j : ℝ) : EReal) := by
  have el : ∀ k : Fin 32, lidx_main_v19 (ix2 i j) k = ix2 i k := fun k =>
    funext fun a => by match a with | ⟨0, _⟩ => rfl | ⟨1, _⟩ => rfl
  have er : ∀ k : Fin 32, idx_main_v18 (ridx_main_v19 (ix2 i j) k) = ix2 j k := fun k =>
    funext fun a => by match a with | ⟨0, _⟩ => rfl | ⟨1, _⟩ => rfl
  rw [val_main_v19_apply]
  simp only [val_main_v18_apply, el, er, qs_apply I, k_apply I]
  rw [score, coe_sum]
  simp only [EReal.coe_mul]

theorem max_real (i : Fin 4000) :
    ∃ M : ℝ, val_main_call0_v2 (F := Ideal) (up I.lmX) (up I.tgX) (up I.Wq) (up I.bq) (up I.Wk) (up I.bk) (ix1 i) = ((M : ℝ) : EReal) := by
  have hR : S4000x2000.Reduces [1] S4000 := by decide
  obtain ⟨k, hk⟩ := fold_max_coe (n := 1999) (fun k => score I i k)
  refine ⟨score I i k, ?_⟩
  have hf : (val_main_v19 (F := Ideal) (up I.lmX) (up I.tgX) (up I.Wq) (up I.bq) (up I.Wk) (up I.bk)) ∘ hR.lift (ix1 i)
      = fun k : Fin 2000 => ((score I i k : ℝ) : EReal) :=
    funext fun (k : Fin 2000) => by
      have e : hR.lift (ix1 i) k = ix2 i k :=
        funext fun a => Fin.ext (by match a with | ⟨0, _⟩ => rfl | ⟨1, _⟩ => rfl)
      show val_main_v19 (F := Ideal) (up I.lmX) (up I.tgX) (up I.Wq) (up I.bq) (up I.Wk) (up I.bk) (hR.lift (ix1 i) k) = _
      rw [e, score_apply]
  rw [val_main_call0_v2_apply, val_main_call0_v1_apply, val_main_call0_cst_0_apply]
  unfold val_main_call0_v0
  rw [Host.reduce_eq_fold_single FloatOps.maximumf _ _ Gen.reducesTo_S4000x2000_S4000_d1 hR Gen.h_S_ (ix1 i), hf,
    val_main_call0_cst_apply, Ideal.ofBits_def, ofBits_negInf, Ideal.maximumf_def, max_eq_right bot_le]
  exact hk

theorem shifted_apply (i : Fin 4000) (j : Fin 2000) (M : ℝ)
    (hM : val_main_call0_v2 (F := Ideal) (up I.lmX) (up I.tgX) (up I.Wq) (up I.bq) (up I.Wk) (up I.bk) (ix1 i) = ((M : ℝ) : EReal)) :
    val_main_call0_v5 (F := Ideal) (up I.lmX) (up I.tgX) (up I.Wq) (up I.bq) (up I.Wk) (up I.bk) (ix2 i j) = ((score I i j - M : ℝ) : EReal) := by
  have e : idx_main_call0_v3 (idx_main_call0_v4 (ix2 i j)) = ix1 i :=
    funext fun a => by match a with | ⟨0, _⟩ => rfl
  rw [val_main_call0_v5_apply, score_apply, val_main_call0_v4_apply, val_main_call0_v3_apply, e, hM, Ideal.subf_def,
    ← EReal.coe_sub]

theorem sumexp_apply (i : Fin 4000) (M : ℝ)
    (hM : val_main_call0_v2 (F := Ideal) (up I.lmX) (up I.tgX) (up I.Wq) (up I.bq) (up I.Wk) (up I.bk) (ix1 i) = ((M : ℝ) : EReal)) :
    val_main_call0_v7 (F := Ideal) (up I.lmX) (up I.tgX) (up I.Wq) (up I.bq) (up I.Wk) (up I.bk) (ix1 i)
      = ((∑ j' : Fin 2000, Real.exp (score I i j' - M) : ℝ) : EReal) := by
  have e : ∀ k : Fin 2000, idx_main_call0_v7 (ix1 i) k = ix2 i k := fun k =>
    funext fun a => by match a with | ⟨0, _⟩ => rfl | ⟨1, _⟩ => rfl
  rw [val_main_call0_v7_apply, val_main_call0_cst_1_apply, Ideal.ofBits_def, Ideal.ofBits_zero_f32, zero_add]
  simp only [val_main_call0_v6_apply, e, shifted_apply I i _ M hM, Ideal.hostUnary_exp_def, Ideal.exp_coe]
  rw [coe_sum]

theorem lse_apply (i : Fin 4000) (j : Fin 2000) (M : ℝ)
    (hM : val_main_call0_v2 (F := Ideal) (up I.lmX) (up I.tgX) (up I.Wq) (up I.bq) (up I.Wk) (up I.bk) (ix1 i) = ((M : ℝ) : EReal)) :
    val_main_call0_v10 (F := Ideal) (up I.lmX) (up I.tgX) (up I.Wq) (up I.bq) (up I.Wk) (up I.bk) (ix2 i j)
      = ((Real.log (∑ j' : Fin 2000, Real.exp (score I i j' - M)) : ℝ) : EReal) := by
  haveI : Nonempty (Fin 2000) := ⟨⟨0, by norm_num⟩⟩
  have e : idx_main_call0_v8 (idx_main_call0_v10 (ix2 i j)) = ix1 i :=
    funext fun a => by match a with | ⟨0, _⟩ => rfl
  have hpos : ¬ (∑ j' : Fin 2000, Real.exp (score I i j' - M)) ≤ 0 :=
    not_le.mpr (sum_exp_pos fun j' : Fin 2000 => score I i j' - M)
  rw [val_main_call0_v10_apply, val_main_call0_v9_apply, val_main_call0_v8_apply, e, sumexp_apply I i M hM,
    Ideal.hostUnary_log_def, Ideal.log_coe, if_neg hpos]

theorem v21_apply (i : Fin 4000) (j : Fin 2000) : val_main_v21 (F := Ideal) (up I.lmX) (up I.tgX) (up I.Wq) (up I.bq) (up I.Wk) (up I.bk) (ix2 i j) = ((att I i j : ℝ) : EReal) := by
  haveI : Nonempty (Fin 2000) := ⟨⟨0, by norm_num⟩⟩
  obtain ⟨M, hM⟩ := max_real I i
  rw [val_main_v21_apply, val_main_v20_apply, shifted_apply I i j M hM, lse_apply I i j M hM, Ideal.subf_def,
    ← EReal.coe_sub, Ideal.hostUnary_exp_def, Ideal.exp_coe, exp_log_softmax (score I i) M j]
  rfl

end Cert.StarGraph.Ref

end
-- ==== Proof.RefC.lean ====
import proofs.«406318_j68710886801531_3_alg».proof.Proof.ReadQ
import proofs.«406318_j68710886801531_3_alg».proof.Proof.SpecGraph
import proofs.«406318_j68710886801531_3_alg».proof.Proof.RealOps
import proofs.«406318_j68710886801531_3_alg».proof.Proof.LibPlainDot

noncomputable section

namespace Cert.StarGraph.Ref

open Idealize.ShloMosaic Idealize.ShloMosaic.ValueIdx Cert.ReferenceIdeal Cert.ReferenceIdeal.ReadP Cert.StarGraph

variable (I : Inputs)

theorem decay_coe (g a d b : ℝ) :
    Ideal.exp (-(g : EReal) * ((a : EReal) * (d : EReal) + (b : EReal)))
      = ((Real.exp (-g * (a * d + b)) : ℝ) : EReal) := by
  rw [← EReal.coe_mul, ← EReal.coe_add, ← EReal.coe_neg, ← EReal.coe_mul, Ideal.exp_coe]

theorem decay_ops (g a d b : ℝ) :
    FloatOps.hostUnary (F := Ideal) (φ := .f32) .exp
        (FloatOps.mulf (FloatOps.hostNegf ((g : ℝ) : EReal))
          (FloatOps.addf (FloatOps.mulf ((a : ℝ) : EReal) ((d : ℝ) : EReal)) ((b : ℝ) : EReal)))
      = ((Real.exp (-g * (a * d + b)) : ℝ) : EReal) := by
  rw [Ideal.hostUnary_exp_def, Ideal.mulf_def, Ideal.hostNegf_def, Ideal.negf_def, Ideal.addf_def, Ideal.mulf_def]
  exact decay_coe g a d b

theorem idx2000 (j : Fin 2000) : idx_main_v23 (idx_main_v31 (ix1 j)) = ix1 j := by
  funext a
  match a with
  | ⟨0, _⟩ => exact Fin.ext (Nat.mod_eq_of_lt j.isLt)

theorem idx4000 (i : Fin 4000) : idx_main_v33 (idx_main_v41 (ix1 i)) = ix1 i := by
  funext a
  match a with
  | ⟨0, _⟩ => exact Fin.ext (Nat.mod_eq_of_lt i.isLt)

theorem idx4000b (i : Fin 4000) : idx_main_v72 (idx_main_v80 (ix1 i)) = ix1 i := by
  funext a
  match a with
  | ⟨0, _⟩ => exact Fin.ext (Nat.mod_eq_of_lt i.isLt)

theorem idx11 (k : (⟨2, ![1, 1]⟩ : Shape).Idx) : k = ix2 0 0 := by
  funext a
  match a with
  | ⟨0, _⟩ => exact Subsingleton.elim (α := Fin 1) _ _
  | ⟨1, _⟩ => exact Subsingleton.elim (α := Fin 1) _ _

theorem v31_apply (j : Fin 2000) : val_main_v31 (F := Ideal) (up I.lmD) (up I.g1) (up I.al) (up I.be) (ix1 j) = ((dsc I j : ℝ) : EReal) := by
  rw [val_main_v31_apply, val_main_v30_apply, val_main_v29_apply, val_main_v28_apply, val_main_v22_apply,
    val_main_v27_apply, val_main_v25_apply, val_main_v24_apply, val_main_v23_apply, val_main_v26_apply,
    idx2000 j, idx11 (idx_main_v28 _), idx11 (idx_main_v24 _), idx11 (idx_main_v26 _)]
  simp only [up_apply]
  exact decay_ops _ _ _ _

theorem v41_apply (i : Fin 4000) : val_main_v41 (F := Ideal) (up I.tgD) (up I.g2) (up I.al) (up I.be) (ix1 i) = ((rou0 I i : ℝ) : EReal) := by
  rw [val_main_v41_apply, val_main_v40_apply, val_main_v39_apply, val_main_v38_apply, val_main_v32_apply,
    val_main_v37_apply, val_main_v35_apply, val_main_v34_apply, val_main_v33_apply, val_main_v36_apply,
    idx4000 i, idx11 (idx_main_v38 _), idx11 (idx_main_v34 _), idx11 (idx_main_v36 _)]
  simp only [up_apply]
  exact decay_ops _ _ _ _

theorem v80_apply (i : Fin 4000) : val_main_v80 (F := Ideal) (up I.tgD) (up I.g3) (up I.al) (up I.be) (ix1 i) = ((rou1 I i : ℝ) : EReal) := by
  rw [val_main_v80_apply, val_main_v79_apply, val_main_v78_apply, val_main_v77_apply, val_main_v71_apply,
    val_main_v76_apply, val_main_v74_apply, val_main_v73_apply, val_main_v72_apply, val_main_v75_apply,
    idx4000b i, idx11 (idx_main_v77 _), idx11 (idx_main_v73 _), idx11 (idx_main_v75 _)]
  simp only [up_apply]
  exact decay_ops _ _ _ _

end Cert.StarGraph.Ref

end
-- ==== Proof.RefEye.lean ====
import proofs.«406318_j68710886801531_3_alg».proof.Proof.ReadQ
import proofs.«406318_j68710886801531_3_alg».proof.Proof.SpecGraph
import proofs.«406318_j68710886801531_3_alg».proof.Proof.RealOps
import proofs.«406318_j68710886801531_3_alg».proof.Proof.LibPlainDot

noncomputable section

namespace Cert.StarGraph.Ref

open Idealize.ShloMosaic Idealize.ShloMosaic.ValueIdx Cert.ReferenceIdeal Cert.ReferenceIdeal.ReadP Cert.StarGraph

variable (I : Inputs)

theorem eye_word (k l : Fin 6001) :
    IntOp.cmpi .eq (IntOp.addi (BitVec.ofNat 32 k.val) 0#32) (BitVec.ofNat 32 l.val) = if k = l then 1#1 else 0#1 := by
  show BitVec.ofBool (BitVec.ofNat 32 k.val + 0#32 == BitVec.ofNat 32 l.val) = _
  rw [BitVec.add_zero]
  by_cases h : k = l
  · subst h
    rw [if_pos rfl, beq_self_eq_true]
    rfl
  · rw [if_neg h]
    have hne : BitVec.ofNat 32 k.val ≠ BitVec.ofNat 32 l.val := fun e => h (Fin.ext (by
      have e' := congrArg BitVec.toNat e
      rw [BitVec.toNat_ofNat, BitVec.toNat_ofNat,
        Nat.mod_eq_of_lt (Nat.lt_of_lt_of_le k.isLt (by norm_num)),
        Nat.mod_eq_of_lt (Nat.lt_of_lt_of_le l.isLt (by norm_num))] at e'
      exact e'))
    rw [beq_eq_false_iff_ne.mpr hne]
    rfl

theorem eye_float (k l : Fin 6001) :
    FloatOps.uitofp (F := Ideal) .f32 (if k = l then 1#1 else 0#1) = if k = l then ((1 : ℝ) : EReal) else ((0 : ℝ) : EReal) := by
  by_cases h : k = l
  · rw [if_pos h, if_pos h]
    show (((1#1 : BitVec 1).toNat : ℝ) : EReal) = _
    norm_num
  · rw [if_neg h, if_neg h]
    show (((0#1 : BitVec 1).toNat : ℝ) : EReal) = _
    norm_num

theorem v47_apply (k l : Fin 6001) : val_main_v47 (F := Ideal) (ix2 k l) = if k = l then ((1 : ℝ) : EReal) else ((0 : ℝ) : EReal) := by
  rw [val_main_v47_apply, val_main_v46_apply, val_main_v45_apply, val_main_v44_apply, val_main_c_apply,
    val_main_v42_apply, val_main_v43_apply]
  exact (congrArg (FloatOps.uitofp (F := Ideal) .f32) (eye_word k l)).trans (eye_float k l)

theorem v86_apply (k l : Fin 6001) : val_main_v86 (F := Ideal) (ix2 k l) = if k = l then ((1 : ℝ) : EReal) else ((0 : ℝ) : EReal) := by
  rw [val_main_v86_apply, val_main_v85_apply, val_main_v84_apply, val_main_v83_apply, val_main_c_10_apply,
    val_main_v81_apply, val_main_v82_apply]
  exact (congrArg (FloatOps.uitofp (F := Ideal) .f32) (eye_word k l)).trans (eye_float k l)

theorem eye_pair_left {α : Type} (x₁ x₂ : S1.Idx → α) (h : Shape.Concatenates [S1, S1] S2 0) :
    concatenate S2 0 [⟨S1, x₁⟩, ⟨S1, x₂⟩] h (ix1 (0 : Fin 2)) = x₁ (ix1 (0 : Fin 1)) :=
  concatenate_pair_apply_left 0 x₁ x₂ h (ix1 (0 : Fin 2)) rfl (ix1 (0 : Fin 1)) (fun b => by
    match b with
    | ⟨0, _⟩ => rfl)

theorem eye_pair_right {α : Type} (x₁ x₂ : S1.Idx → α) (h : Shape.Concatenates [S1, S1] S2 0) :
    concatenate S2 0 [⟨S1, x₁⟩, ⟨S1, x₂⟩] h (ix1 (1 : Fin 2)) = x₂ (ix1 (0 : Fin 1)) :=
  concatenate_pair_apply_right 0 x₁ x₂ h (ix1 (1 : Fin 2)) rfl rfl (ix1 (0 : Fin 1))
    (fun b hb => (hb (Fin.ext (by have hlt : b.val < 1 := b.isLt; show b.val = 0; omega))).elim) rfl

theorem v50_apply : val_main_v50 (F := Ideal) (ix1 (0 : Fin 2)) = 2000#32 ∧ val_main_v50 (F := Ideal) (ix1 (1 : Fin 2)) = 0#32 := by
  unfold val_main_v50
  refine ⟨(eye_pair_left _ _ _).trans ?_, (eye_pair_right _ _ _).trans ?_⟩
  · rw [val_main_v48_apply, val_main_c_3_apply]
  · rw [val_main_v49_apply, val_main_c_4_apply]

theorem v54_apply : val_main_v54 (F := Ideal) (ix1 (0 : Fin 2)) = 6000#32 ∧ val_main_v54 (F := Ideal) (ix1 (1 : Fin 2)) = 0#32 := by
  unfold val_main_v54
  refine ⟨(eye_pair_left _ _ _).trans ?_, (eye_pair_right _ _ _).trans ?_⟩
  · rw [val_main_v52_apply, val_main_c_5_apply]
  · rw [val_main_v53_apply, val_main_c_6_apply]

theorem v58_apply : val_main_v58 (F := Ideal) (ix1 (0 : Fin 2)) = 2000#32 ∧ val_main_v58 (F := Ideal) (ix1 (1 : Fin 2)) = 6000#32 := by
  unfold val_main_v58
  refine ⟨(eye_pair_left _ _ _).trans ?_, (eye_pair_right _ _ _).trans ?_⟩
  · rw [val_main_v56_apply, val_main_c_7_apply]
  · rw [val_main_v57_apply, val_main_c_8_apply]

theorem v89_apply : val_main_v89 (F := Ideal) (ix1 (0 : Fin 2)) = 2000#32 ∧ val_main_v89 (F := Ideal) (ix1 (1 : Fin 2)) = 6000#32 := by
  unfold val_main_v89
  refine ⟨(eye_pair_left _ _ _).trans ?_, (eye_pair_right _ _ _).trans ?_⟩
  · rw [val_main_v87_apply, val_main_c_11_apply]
  · rw [val_main_v88_apply, val_main_c_12_apply]

end Cert.StarGraph.Ref

end
-- ==== Proof.RefD.lean ====
import proofs.«406318_j68710886801531_3_alg».proof.Proof.ReadQ
import proofs.«406318_j68710886801531_3_alg».proof.Proof.SpecGraph
import proofs.«406318_j68710886801531_3_alg».proof.Proof.RealOps
import proofs.«406318_j68710886801531_3_alg».proof.Proof.LibPlainDot
import proofs.«406318_j68710886801531_3_alg».proof.Proof.LibScatterWindow
import proofs.«406318_j68710886801531_3_alg».proof.Proof.LibScatterAt
import proofs.«406318_j68710886801531_3_alg».proof.Proof.RefB
import proofs.«406318_j68710886801531_3_alg».proof.Proof.RefC
import proofs.«406318_j68710886801531_3_alg».proof.Proof.RefEye
import Mathlib.Tactic.SplitIfs

noncomputable section

namespace Cert.StarGraph.Ref

open Idealize.ShloMosaic Idealize.ShloMosaic.ValueIdx Cert.ReferenceIdeal Cert.ReferenceIdeal.ReadP Cert.StarGraph
open Cert.Hand.ScatterAt

variable (I : Inputs)

theorem isBlockAt_v51 :
    IsBlockAt (R := 6001) (C := 6001) (RU := 4000) (CU := 2000) scatter_S6001x6001_S2_S4000x2000_01_n_01_0 :=
  ⟨rfl, rfl, rfl, rfl⟩

theorem isRowAt_v55 : IsRowAt (R := 6001) (C := 6001) (CU := 2000) scatter_S6001x6001_S2_S2000_0_0_01_0 :=
  ⟨rfl, rfl, rfl, rfl⟩

theorem isColAt_v59 : IsColAt (R := 6001) (C := 6001) (RU := 4000) scatter_S6001x6001_S2_S4000_0_1_01_0 :=
  ⟨rfl, rfl, rfl, rfl⟩

theorem toInt_2000 : (2000#32 : BitVec 32).toInt = ((2000 : ℕ) : ℤ) := by decide
theorem toInt_6000 : (6000#32 : BitVec 32).toInt = ((6000 : ℕ) : ℤ) := by decide
theorem toInt_0 : (0#32 : BitVec 32).toInt = ((0 : ℕ) : ℤ) := by decide

def adjA (k l : Fin 6001) : ℝ :=
  if h : (2000 ≤ k.val ∧ k.val < 6000) ∧ l.val < 2000 then att I ⟨k.val - 2000, by omega⟩ ⟨l.val, h.2⟩
  else if k = l then 1 else 0

def adjB (k l : Fin 6001) : ℝ :=
  if h : k.val = 6000 ∧ l.val < 2000 then dsc I ⟨l.val, h.2⟩ else adjA I k l

theorem v51_apply (k l : Fin 6001) :
    val_main_v51 (F := Ideal) (up I.lmX) (up I.tgX) (up I.Wq) (up I.bq) (up I.Wk) (up I.bk) (ix2 k l)
      = ((adjA I k l : ℝ) : EReal) := by
  unfold val_main_v51
  refine (isBlockAt_v51.scatter_apply (fun _ b => b) _ _ _ 2000 0
    (by rw [v50_apply.1]; exact toInt_2000) (by rw [v50_apply.2]; exact toInt_0) (by omega) (by omega) k l).trans ?_
  unfold adjA
  by_cases h : (2000 ≤ k.val ∧ k.val < 6000) ∧ l.val < 2000
  · rw [dif_pos (show (2000 ≤ k.val ∧ k.val < 2000 + 4000) ∧ (0 ≤ l.val ∧ l.val < 0 + 2000) by omega), dif_pos h]
    exact v21_apply I _ _
  · rw [dif_neg (show ¬ ((2000 ≤ k.val ∧ k.val < 2000 + 4000) ∧ (0 ≤ l.val ∧ l.val < 0 + 2000)) by omega),
      dif_neg h, v47_apply]
    by_cases e : k = l
    · rw [if_pos e, if_pos e]
    · rw [if_neg e, if_neg e]

theorem v55_apply (k l : Fin 6001) :
    val_main_v55 (F := Ideal) (up I.lmX) (up I.tgX) (up I.lmD) (up I.g1) (up I.al) (up I.be) (up I.Wq) (up I.bq)
        (up I.Wk) (up I.bk) (ix2 k l)
      = ((adjB I k l : ℝ) : EReal) := by
  unfold val_main_v55
  refine (isRowAt_v55.scatter_apply (fun _ b => b) _ _ _ 6000 0
    (by rw [v54_apply.1]; exact toInt_6000) (by rw [v54_apply.2]; exact toInt_0) (by omega) (by omega) k l).trans ?_
  unfold adjB
  by_cases h : k.val = 6000 ∧ l.val < 2000
  · rw [dif_pos (show k.val = 6000 ∧ (0 ≤ l.val ∧ l.val < 0 + 2000) by omega), dif_pos h]
    exact v31_apply I _
  · rw [dif_neg (show ¬ (k.val = 6000 ∧ (0 ≤ l.val ∧ l.val < 0 + 2000)) by omega), dif_neg h]
    exact v51_apply I k l

theorem adj0_eq (k l : Fin 6001) :
    adj0 I k l = if h : (2000 ≤ k.val ∧ k.val < 6000) ∧ l.val = 6000 then rou0 I ⟨k.val - 2000, by omega⟩
      else adjB I k l := by
  unfold adj0 adjB adjA
  split_ifs <;> first | rfl | (exfalso; omega)

theorem v59_apply (k l : Fin 6001) : val_main_v59 (F := Ideal) (up I.lmX) (up I.tgX) (up I.lmD) (up I.tgD) (up I.g1) (up I.g2) (up I.al) (up I.be) (up I.Wq) (up I.bq) (up I.Wk) (up I.bk) (ix2 k l) = ((adj0 I k l : ℝ) : EReal) := by
  unfold val_main_v59
  refine (isColAt_v59.scatter_apply (fun _ b => b) _ _ _ 2000 6000
    (by rw [v58_apply.1]; exact toInt_2000) (by rw [v58_apply.2]; exact toInt_6000) (by omega) (by omega) k l).trans ?_
  rw [adj0_eq]
  by_cases h : (2000 ≤ k.val ∧ k.val < 6000) ∧ l.val = 6000
  · rw [dif_pos (show (2000 ≤ k.val ∧ k.val < 2000 + 4000) ∧ l.val = 6000 by omega), dif_pos h]
    exact v41_apply I _
  · rw [dif_neg (show ¬ ((2000 ≤ k.val ∧ k.val < 2000 + 4000) ∧ l.val = 6000) by omega), dif_neg h]
    exact v55_apply I k l

theorem v90_apply (k l : Fin 6001) : val_main_v90 (F := Ideal) (up I.tgD) (up I.g3) (up I.al) (up I.be) (ix2 k l) = ((adj1 I k l : ℝ) : EReal) := by
  unfold val_main_v90
  refine (isColAt_v59.scatter_apply (fun _ b => b) _ _ _ 2000 6000
    (by rw [v89_apply.1]; exact toInt_2000) (by rw [v89_apply.2]; exact toInt_6000) (by omega) (by omega) k l).trans ?_
  unfold adj1
  by_cases hk : 2000 ≤ k.val ∧ k.val < 6000
  · rw [dif_pos hk]
    by_cases h6 : l.val = 6000
    · rw [dif_pos (show (2000 ≤ k.val ∧ k.val < 2000 + 4000) ∧ l.val = 6000 by omega), if_pos h6]
      exact v80_apply I _
    · rw [dif_neg (show ¬ ((2000 ≤ k.val ∧ k.val < 2000 + 4000) ∧ l.val = 6000) by omega), if_neg h6, v86_apply]
      by_cases e : k = l
      · rw [if_pos e, if_pos e]
      · rw [if_neg e, if_neg e]
  · rw [dif_neg (show ¬ ((2000 ≤ k.val ∧ k.val < 2000 + 4000) ∧ l.val = 6000) by omega), dif_neg hk, v86_apply]
    by_cases e : k = l
    · rw [if_pos e, if_pos e]
    · rw [if_neg e, if_neg e]

end Cert.StarGraph.Ref

end
-- ==== Proof.RefE.lean ====
import proofs.«406318_j68710886801531_3_alg».proof.Proof.ReadQ
import proofs.«406318_j68710886801531_3_alg».proof.Proof.SpecGraph
import proofs.«406318_j68710886801531_3_alg».proof.Proof.RealOps
import proofs.«406318_j68710886801531_3_alg».proof.Proof.LibPlainDot
import proofs.«406318_j68710886801531_3_alg».proof.Proof.GraphSums
import proofs.«406318_j68710886801531_3_alg».proof.Proof.RefA
import proofs.«406318_j68710886801531_3_alg».proof.Proof.RefD

noncomputable section

namespace Cert.StarGraph.Ref

open Idealize.ShloMosaic Idealize.ShloMosaic.ValueIdx Cert.ReferenceIdeal Cert.ReferenceIdeal.ReadP Cert.StarGraph

variable (I : Inputs)

private theorem tgRow_lt (i : Fin 4000) : 2000 + i.val < 6001 := by omega
private theorem routerRow_lt : 6000 < 6001 := by omega

theorem v60_apply (k : Fin 6001) :
    val_main_v60 (F := Ideal) (up I.lmX) (up I.tgX) (up I.lmD) (up I.tgD) (up I.g1) (up I.g2) (up I.al) (up I.be) (up I.Wq) (up I.bq) (up I.Wk) (up I.bk) (ix1 k) = ((∑ l : Fin 6001, adj0 I k l : ℝ) : EReal) := by
  rw [val_main_v60_apply, val_main_cst_9_apply, Ideal.ofBits_def, Ideal.ofBits_zero_f32, zero_add, coe_sum]
  refine Finset.sum_congr rfl fun l _ => ?_
  rw [← v59_apply I k l]
  exact congrArg _ (funext fun a => Fin.ext (by match a with | ⟨0, _⟩ => rfl | ⟨1, _⟩ => rfl))

theorem v63_apply (k l : Fin 6001) (d : ℝ) (hd : ∑ l : Fin 6001, adj0 I k l = d) (hne : d ≠ 0) :
    val_main_v63 (F := Ideal) (up I.lmX) (up I.tgX) (up I.lmD) (up I.tgD) (up I.g1) (up I.g2) (up I.al) (up I.be) (up I.Wq) (up I.bq) (up I.Wk) (up I.bk) (ix2 k l) = ((adj0 I k l / d : ℝ) : EReal) := by
  rw [val_main_v63_apply, val_main_v62_apply, val_main_v61_apply, v59_apply]
  have hidx : idx_main_v61 (idx_main_v62 (ix2 k l)) = ix1 k := funext fun a => Fin.ext (by match a with | ⟨0, _⟩ => rfl)
  rw [hidx, v60_apply, hd, Ideal.hostDivf_def, div_coe_coe _ _ hne]

theorem v64_apply (k : Fin 6001) (z : Fin 32) (d : ℝ) (hd : ∑ l : Fin 6001, adj0 I k l = d) (hne : d ≠ 0) :
    val_main_v64 (F := Ideal) (up I.lmX) (up I.lmY) (up I.tgX) (up I.lmD) (up I.tgD) (up I.g1) (up I.g2) (up I.al) (up I.be) (up I.Wq) (up I.bq) (up I.Wk) (up I.bk) (ix2 k z)
      = ((∑ l : Fin 6001, adj0 I k l / d * allF0 I l z : ℝ) : EReal) := by
  rw [val_main_v64_apply, coe_sum]
  refine Finset.sum_congr rfl fun l _ => ?_
  have hl : lidx_main_v64 (ix2 k z) l = ix2 k l := funext fun a => Fin.ext (by match a with | ⟨0, _⟩ => rfl | ⟨1, _⟩ => rfl)
  have hr : ridx_main_v64 (ix2 k z) l = ix2 l z := funext fun a => Fin.ext (by match a with | ⟨0, _⟩ => rfl | ⟨1, _⟩ => rfl)
  rw [hl, hr, v63_apply I k l d hd hne, v7_apply, ← EReal.coe_mul]

theorem v64_target (i : Fin 4000) (k : Fin 6001) (hk : k.val = 2000 + i.val) (z : Fin 32) :
    val_main_v64 (F := Ideal) (up I.lmX) (up I.lmY) (up I.tgX) (up I.lmD) (up I.tgD) (up I.g1) (up I.g2) (up I.al) (up I.be) (up I.Wq) (up I.bq) (up I.Wk) (up I.bk) (ix2 k z) = ((pre1 I i z : ℝ) : EReal) := by
  obtain rfl : k = ⟨2000 + i.val, tgRow_lt i⟩ := Fin.ext hk
  have hpos : 0 < 2 + rou0 I i := add_pos two_pos (rou0_pos I i)
  rw [v64_apply I _ z (2 + rou0 I i) (adj0_rowsum_target I i) (ne_of_gt hpos), hop1_target]

theorem v64_router (k : Fin 6001) (hk : k.val = 6000) (z : Fin 32) :
    val_main_v64 (F := Ideal) (up I.lmX) (up I.lmY) (up I.tgX) (up I.lmD) (up I.tgD) (up I.g1) (up I.g2) (up I.al) (up I.be) (up I.Wq) (up I.bq) (up I.Wk) (up I.bk) (ix2 k z) = ((routerPre I z : ℝ) : EReal) := by
  obtain rfl : k = ⟨6000, routerRow_lt⟩ := Fin.ext hk
  rw [v64_apply I _ z (degR I) (adj0_rowsum_router I) (ne_of_gt (degR_pos I)), hop1_router]

theorem v68_apply (k : Fin 6001) (z : Fin 32) (p : Fin 32 → ℝ)
    (hp : ∀ z' : Fin 32, val_main_v64 (F := Ideal) (up I.lmX) (up I.lmY) (up I.tgX) (up I.lmD) (up I.tgD) (up I.g1) (up I.g2) (up I.al) (up I.be) (up I.Wq) (up I.bq) (up I.Wk) (up I.bk) (ix2 k z') = ((p z' : ℝ) : EReal)) :
    val_main_v68 (F := Ideal) (up I.lmX) (up I.lmY) (up I.tgX) (up I.lmD) (up I.tgD) (up I.g1) (up I.g2) (up I.al) (up I.be) (up I.Wq) (up I.bq) (up I.Wk) (up I.bk) (up I.W1) (up I.b1) (ix2 k z)
      = ((∑ z' : Fin 32, p z' * I.W1 (ix2 z' z) + I.b1 (ix1 z) : ℝ) : EReal) := by
  rw [val_main_v68_apply, val_main_v67_apply, val_main_v66_apply, val_main_v65_apply, Ideal.addf_def]
  have hb : idx_main_v66 (idx_main_v67 (ix2 k z)) = ix1 z := funext fun a => Fin.ext (by match a with | ⟨0, _⟩ => rfl)
  rw [hb, up_apply, EReal.coe_add, coe_sum]
  refine congrArg (· + _) (Finset.sum_congr rfl fun z' _ => ?_)
  have hl : lidx_main_v65 (ix2 k z) z' = ix2 k z' := funext fun a => Fin.ext (by match a with | ⟨0, _⟩ => rfl | ⟨1, _⟩ => rfl)
  have hr : ridx_main_v65 (ix2 k z) z' = ix2 z' z := funext fun a => Fin.ext (by match a with | ⟨0, _⟩ => rfl | ⟨1, _⟩ => rfl)
  rw [hl, hr, hp z', up_apply, ← EReal.coe_mul]

theorem v69_apply (i : Fin 4000) (z : Fin 32) : val_main_v69 (F := Ideal) (up I.lmX) (up I.lmY) (up I.tgX) (up I.lmD) (up I.tgD) (up I.g1) (up I.g2) (up I.al) (up I.be) (up I.Wq) (up I.bq) (up I.Wk) (up I.bk) (up I.W1) (up I.b1) (ix2 i z) = ((feat1 I i z : ℝ) : EReal) := by
  rw [val_main_v69_apply]
  have hidx : idx_main_v69 (ix2 i z) = ix2 (⟨2000 + i.val, by omega⟩ : Fin 6001) z := funext fun a => Fin.ext (by match a with | ⟨0, _⟩ => rfl | ⟨1, _⟩ => rfl)
  rw [hidx, v68_apply I _ z (pre1 I i) (fun z' => v64_target I i _ rfl z')]
  rfl

theorem v70_apply (z : Fin 32) : val_main_v70 (F := Ideal) (up I.lmX) (up I.lmY) (up I.tgX) (up I.lmD) (up I.tgD) (up I.g1) (up I.g2) (up I.al) (up I.be) (up I.Wq) (up I.bq) (up I.Wk) (up I.bk) (up I.W1) (up I.b1) (ix2 (0 : Fin 1) z) = ((router1 I z : ℝ) : EReal) := by
  rw [val_main_v70_apply]
  have hidx : idx_main_v70 (ix2 (0 : Fin 1) z) = ix2 (⟨6000, by omega⟩ : Fin 6001) z := funext fun a => Fin.ext (by match a with | ⟨0, _⟩ => rfl | ⟨1, _⟩ => rfl)
  rw [hidx, v68_apply I _ z (routerPre I) (fun z' => v64_router I _ rfl z')]
  rfl

end Cert.StarGraph.Ref

end
-- ==== Proof.RefF.lean ====
import proofs.«406318_j68710886801531_3_alg».proof.Proof.ReadQ
import proofs.«406318_j68710886801531_3_alg».proof.Proof.SpecGraph
import proofs.«406318_j68710886801531_3_alg».proof.Proof.RealOps
import proofs.«406318_j68710886801531_3_alg».proof.Proof.LibPlainDot
import proofs.«406318_j68710886801531_3_alg».proof.Proof.GraphSums
import proofs.«406318_j68710886801531_3_alg».proof.Proof.RefA
import proofs.«406318_j68710886801531_3_alg».proof.Proof.RefD
import proofs.«406318_j68710886801531_3_alg».proof.Proof.RefE

noncomputable section

namespace Cert.StarGraph.Ref

open Idealize.ShloMosaic Idealize.ShloMosaic.ValueIdx Cert.ReferenceIdeal Cert.ReferenceIdeal.Gen Cert.ReferenceIdeal.ReadP Cert.StarGraph

variable (I : Inputs)

theorem stack_rows_apply {α : Type} (a : S2000x32.Idx → α) (b : S4000x32.Idx → α) (c : S1x32.Idx → α)
    (k : Fin 6001) (z : Fin 32) :
    concatenate S6001x32 0 [⟨S2000x32, a⟩, ⟨S4000x32, b⟩, ⟨S1x32, c⟩]
        concatenates_S2000x32_S4000x32_S1x32_S6001x32_d0 (ix2 k z)
      = if h : k.val < 2000 then a (ix2 ⟨k.val, h⟩ z)
        else if h2 : k.val < 6000 then b (ix2 ⟨k.val - 2000, by omega⟩ z) else c (ix2 (0 : Fin 1) z) := by
  by_cases h : k.val < 2000
  · rw [dif_pos h]
    refine concatenate_apply_piece (t := S6001x32) (0 : Fin 2) [⟨S2000x32, a⟩, ⟨S4000x32, b⟩, ⟨S1x32, c⟩] concatenates_S2000x32_S4000x32_S1x32_S6001x32_d0 (ix2 k z)
      0 (by show 0 < 3; omega) S2000x32 a rfl rfl 0 rfl (ix2 ⟨k.val, h⟩ z) (fun d hd => ?_) ?_
    · match d with
      | ⟨0, _⟩ => exact absurd rfl hd
      | ⟨1, _⟩ => rfl
    · show 0 + k.val = k.val
      omega
  · rw [dif_neg h]
    by_cases h2 : k.val < 6000
    · rw [dif_pos h2]
      refine concatenate_apply_piece (t := S6001x32) (0 : Fin 2) [⟨S2000x32, a⟩, ⟨S4000x32, b⟩, ⟨S1x32, c⟩] concatenates_S2000x32_S4000x32_S1x32_S6001x32_d0 (ix2 k z)
        1 (by show 1 < 3; omega) S4000x32 b rfl rfl 2000 rfl (ix2 ⟨k.val - 2000, by omega⟩ z) (fun d hd => ?_) ?_
      · match d with
        | ⟨0, _⟩ => exact absurd rfl hd
        | ⟨1, _⟩ => rfl
      · show 2000 + (k.val - 2000) = k.val
        omega
    · rw [dif_neg h2]
      refine concatenate_apply_piece (t := S6001x32) (0 : Fin 2) [⟨S2000x32, a⟩, ⟨S4000x32, b⟩, ⟨S1x32, c⟩] concatenates_S2000x32_S4000x32_S1x32_S6001x32_d0 (ix2 k z)
        2 (by show 2 < 3; omega) S1x32 c rfl rfl 6000 rfl (ix2 (0 : Fin 1) z) (fun d hd => ?_) ?_
      · match d with
        | ⟨0, _⟩ => exact absurd rfl hd
        | ⟨1, _⟩ => rfl
      · show 6000 + 0 = k.val
        have := k.isLt
        omega

theorem v91_apply (k : Fin 6001) (z : Fin 32) : val_main_v91 (F := Ideal) (up I.lmX) (up I.lmY) (up I.tgX) (up I.lmD) (up I.tgD) (up I.g1) (up I.g2) (up I.al) (up I.be) (up I.Wq) (up I.bq) (up I.Wk) (up I.bk) (up I.W1) (up I.b1) (ix2 k z) = ((allF1 I k z : ℝ) : EReal) := by
  unfold val_main_v91 allF1
  rw [stack_rows_apply]
  by_cases h : k.val < 2000
  · rw [dif_pos h, dif_pos h, v0_apply]
  · rw [dif_neg h, dif_neg h]
    by_cases h2 : k.val < 6000
    · rw [dif_pos h2, dif_pos h2, v69_apply]
    · rw [dif_neg h2, dif_neg h2, v70_apply]

theorem cst13_zero (j : S_.Idx) : val_main_cst_13 (F := Ideal) j = ((0 : ℝ) : EReal) := by
  rw [val_main_cst_13_apply, Ideal.ofBits_def, Ideal.ofBits_zero_f32]
  rfl

theorem v92_apply (k : Fin 6001) : val_main_v92 (F := Ideal) (up I.tgD) (up I.g3) (up I.al) (up I.be) (ix1 k) = ((∑ l : Fin 6001, adj1 I k l : ℝ) : EReal) := by
  rw [val_main_v92_apply, cst13_zero, coe_sum, EReal.coe_zero, zero_add]
  refine Finset.sum_congr rfl fun l _ => ?_
  rw [← v90_apply I k l]
  exact congrArg _ (funext fun a => Fin.ext (by match a with | ⟨0, _⟩ => rfl | ⟨1, _⟩ => rfl))

theorem v92_target (i : Fin 4000) : val_main_v92 (F := Ideal) (up I.tgD) (up I.g3) (up I.al) (up I.be) (ix1 (⟨2000 + i.val, by omega⟩ : Fin 6001)) = ((1 + rou1 I i : ℝ) : EReal) := by
  rw [v92_apply, adj1_rowsum_target]

theorem v95_target (i : Fin 4000) (l : Fin 6001) : val_main_v95 (F := Ideal) (up I.tgD) (up I.g3) (up I.al) (up I.be) (ix2 (⟨2000 + i.val, by omega⟩ : Fin 6001) l) = ((adj1 I ⟨2000 + i.val, by omega⟩ l / (1 + rou1 I i) : ℝ) : EReal) := by
  rw [val_main_v95_apply, val_main_v94_apply, val_main_v93_apply]
  have hidx : idx_main_v93 (idx_main_v94 (ix2 (⟨2000 + i.val, by omega⟩ : Fin 6001) l)) = ix1 (⟨2000 + i.val, by omega⟩ : Fin 6001) :=
    funext fun a => Fin.ext (by match a with | ⟨0, _⟩ => rfl)
  rw [hidx, v92_target, v90_apply, Ideal.hostDivf_def, div_coe_coe _ _ (by have := rou1_pos I i; positivity)]

theorem v96_target (i : Fin 4000) (z : Fin 32) : val_main_v96 (F := Ideal) (up I.lmX) (up I.lmY) (up I.tgX) (up I.lmD) (up I.tgD) (up I.g1) (up I.g2) (up I.g3) (up I.al) (up I.be) (up I.Wq) (up I.bq) (up I.Wk) (up I.bk) (up I.W1) (up I.b1) (ix2 (⟨2000 + i.val, by omega⟩ : Fin 6001) z) = ((pre2 I i z : ℝ) : EReal) := by
  rw [val_main_v96_apply, ← hop2_target, coe_sum]
  refine Finset.sum_congr rfl fun l _ => ?_
  have hl : lidx_main_v96 (ix2 (⟨2000 + i.val, by omega⟩ : Fin 6001) z) l = ix2 (⟨2000 + i.val, by omega⟩ : Fin 6001) l :=
    funext fun a => Fin.ext (by match a with | ⟨0, _⟩ => rfl | ⟨1, _⟩ => rfl)
  have hr : ridx_main_v96 (ix2 (⟨2000 + i.val, by omega⟩ : Fin 6001) z) l = ix2 l z :=
    funext fun a => Fin.ext (by match a with | ⟨0, _⟩ => rfl | ⟨1, _⟩ => rfl)
  rw [hl, hr, v95_target, v91_apply, ← EReal.coe_mul]

theorem v99_apply (k : Fin 6001) (z : Fin 32) : val_main_v99 (F := Ideal) (up I.b2) (ix2 k z) = ((I.b2 (ix1 z) : ℝ) : EReal) := by
  rw [val_main_v99_apply, val_main_v98_apply]
  have hidx : idx_main_v98 (idx_main_v99 (ix2 k z)) = ix1 z :=
    funext fun a => Fin.ext (by match a with | ⟨0, _⟩ => rfl)
  rw [hidx, up_apply]

theorem v100_target (i : Fin 4000) (z : Fin 32) : val_main_v100 (F := Ideal) (up I.lmX) (up I.lmY) (up I.tgX) (up I.lmD) (up I.tgD) (up I.g1) (up I.g2) (up I.g3) (up I.al) (up I.be) (up I.Wq) (up I.bq) (up I.Wk) (up I.bk) (up I.W1) (up I.b1) (up I.W2) (up I.b2) (ix2 (⟨2000 + i.val, by omega⟩ : Fin 6001) z) = ((feat2 I i z : ℝ) : EReal) := by
  rw [val_main_v100_apply, val_main_v97_apply, v99_apply, Ideal.addf_def]
  unfold feat2
  rw [EReal.coe_add, coe_sum]
  refine congrArg (· + _) (Finset.sum_congr rfl fun z' _ => ?_)
  have hl : lidx_main_v97 (ix2 (⟨2000 + i.val, by omega⟩ : Fin 6001) z) z' = ix2 (⟨2000 + i.val, by omega⟩ : Fin 6001) z' :=
    funext fun a => Fin.ext (by match a with | ⟨0, _⟩ => rfl | ⟨1, _⟩ => rfl)
  have hr : ridx_main_v97 (ix2 (⟨2000 + i.val, by omega⟩ : Fin 6001) z) z' = ix2 z' z :=
    funext fun a => Fin.ext (by match a with | ⟨0, _⟩ => rfl | ⟨1, _⟩ => rfl)
  rw [hl, hr, v96_target, up_apply, ← EReal.coe_mul]

theorem v101_apply (i : Fin 4000) (z : Fin 32) : val_main_v101 (F := Ideal) (up I.lmX) (up I.lmY) (up I.tgX) (up I.lmD) (up I.tgD) (up I.g1) (up I.g2) (up I.g3) (up I.al) (up I.be) (up I.Wq) (up I.bq) (up I.Wk) (up I.bk) (up I.W1) (up I.b1) (up I.W2) (up I.b2) (ix2 i z) = ((feat2 I i z : ℝ) : EReal) := by
  rw [val_main_v101_apply]
  have hidx : idx_main_v101 (ix2 i z) = ix2 (⟨2000 + i.val, by omega⟩ : Fin 6001) z :=
    funext fun a => Fin.ext (by match a with | ⟨0, _⟩ => rfl | ⟨1, _⟩ => rfl)
  rw [hidx, v100_target]

end Cert.StarGraph.Ref

end
-- ==== Proof.RefG.lean ====
import proofs.«406318_j68710886801531_3_alg».proof.Proof.ReadQ
import proofs.«406318_j68710886801531_3_alg».proof.Proof.SpecGraph
import proofs.«406318_j68710886801531_3_alg».proof.Proof.RealOps
import proofs.«406318_j68710886801531_3_alg».proof.Proof.LibPlainDot
import proofs.«406318_j68710886801531_3_alg».proof.Proof.RefE
import proofs.«406318_j68710886801531_3_alg».proof.Proof.RefF

noncomputable section

namespace Cert.StarGraph.Ref

open Idealize.ShloMosaic Idealize.ShloMosaic.ValueIdx Cert.ReferenceIdeal Cert.ReferenceIdeal.Gen Cert.ReferenceIdeal.ReadP Cert.StarGraph

variable (I : Inputs)

namespace Results

theorem ofBits_D : Ideal.ofBits .f32 0x40B504F3#32 = ((11863283 / 2097152 : ℝ) : EReal) := by
  simp [Ideal.ofBits, Ideal.ieee, -EReal.coe_mul]; norm_num

theorem ofBits_negInf : Ideal.ofBits .f32 0xFF800000#32 = (⊥ : EReal) := by
  simp [Ideal.ofBits, Ideal.ieee]

theorem lidx103 (i : Fin 4000) (z : Fin 32) (k : Fin 94) : lidx_main_v103 (ix2 i z) k = ix2 i k := funext fun a => Fin.ext (by match a with | ⟨0, _⟩ => rfl | ⟨1, _⟩ => rfl)
theorem ridx103 (i : Fin 4000) (z : Fin 32) (k : Fin 94) : ridx_main_v103 (ix2 i z) k = ix2 k z := funext fun a => Fin.ext (by match a with | ⟨0, _⟩ => rfl | ⟨1, _⟩ => rfl)
theorem idxb104 (i : Fin 4000) (z : Fin 32) : idx_main_v104 (idx_main_v105 (ix2 i z)) = ix1 z := funext fun a => Fin.ext (by match a with | ⟨0, _⟩ => rfl)
theorem lidx107 (j : Fin 2000) (z : Fin 32) (k : Fin 30) : lidx_main_v107 (ix2 j z) k = ix2 j k := funext fun a => Fin.ext (by match a with | ⟨0, _⟩ => rfl | ⟨1, _⟩ => rfl)
theorem ridx107 (j : Fin 2000) (z : Fin 32) (k : Fin 30) : ridx_main_v107 (ix2 j z) k = ix2 k z := funext fun a => Fin.ext (by match a with | ⟨0, _⟩ => rfl | ⟨1, _⟩ => rfl)
theorem idxb108 (j : Fin 2000) (z : Fin 32) : idx_main_v108 (idx_main_v109 (ix2 j z)) = ix1 z := funext fun a => Fin.ext (by match a with | ⟨0, _⟩ => rfl)
theorem lidx111 (j : Fin 2000) (b : Fin 2) (k : Fin 2) : lidx_main_v111 (ix2 j b) k = ix2 j k := funext fun a => Fin.ext (by match a with | ⟨0, _⟩ => rfl | ⟨1, _⟩ => rfl)
theorem ridx111 (j : Fin 2000) (b : Fin 2) (k : Fin 2) : ridx_main_v111 (ix2 j b) k = ix2 k b := funext fun a => Fin.ext (by match a with | ⟨0, _⟩ => rfl | ⟨1, _⟩ => rfl)
theorem idxb112 (j : Fin 2000) (b : Fin 2) : idx_main_v112 (idx_main_v113 (ix2 j b)) = ix1 b := funext fun a => Fin.ext (by match a with | ⟨0, _⟩ => rfl)
theorem lidx118 (i : Fin 4000) (j : Fin 2000) (k : Fin 32) : lidx_main_v118 (ix2 i j) k = ix2 i k := funext fun a => Fin.ext (by match a with | ⟨0, _⟩ => rfl | ⟨1, _⟩ => rfl)
theorem idx117 (i : Fin 4000) (j : Fin 2000) (k : Fin 32) : idx_main_v117 (ridx_main_v118 (ix2 i j) k) = ix2 j k := funext fun a => Fin.ext (by match a with | ⟨0, _⟩ => rfl | ⟨1, _⟩ => rfl)
theorem idx122 (i : Fin 4000) (j : Fin 2000) : idx_main_v122 (idx_main_v123 (ix2 i j)) = ix1 i := funext fun a => Fin.ext (by match a with | ⟨0, _⟩ => rfl)
theorem idx126 (i : Fin 4000) (k : Fin 2000) : idx_main_v126 (ix1 i) k = ix2 i k := funext fun a => Fin.ext (by match a with | ⟨0, _⟩ => rfl | ⟨1, _⟩ => rfl)
theorem idx127 (i : Fin 4000) (j : Fin 2000) : idx_main_v127 (idx_main_v128 (ix2 i j)) = ix1 i := funext fun a => Fin.ext (by match a with | ⟨0, _⟩ => rfl)
theorem lidx130 (i : Fin 4000) (b : Fin 2) (k : Fin 2000) : lidx_main_v130 (ix2 i b) k = ix2 i k := funext fun a => Fin.ext (by match a with | ⟨0, _⟩ => rfl | ⟨1, _⟩ => rfl)
theorem ridx130 (i : Fin 4000) (b : Fin 2) (k : Fin 2000) : ridx_main_v130 (ix2 i b) k = ix2 k b := funext fun a => Fin.ext (by match a with | ⟨0, _⟩ => rfl | ⟨1, _⟩ => rfl)

theorem v102_apply (i : Fin 4000) (f : Fin 94) : val_main_v102 (F := Ideal) (up I.lmX) (up I.lmY) (up I.tgX) (up I.lmD) (up I.tgD) (up I.g1) (up I.g2) (up I.g3) (up I.al) (up I.be) (up I.Wq) (up I.bq) (up I.Wk) (up I.bk) (up I.W1) (up I.b1) (up I.W2) (up I.b2) (ix2 i f) = ((feat I i f : ℝ) : EReal) := by
  unfold val_main_v102 feat
  by_cases h : f.val < 30
  · rw [dif_pos h]
    exact concatenate_apply_piece (t := S4000x94) (1 : Fin 2)
        [⟨S4000x30, up I.tgX⟩, ⟨S4000x32, val_main_v69 (F := Ideal) (up I.lmX) (up I.lmY) (up I.tgX) (up I.lmD) (up I.tgD) (up I.g1) (up I.g2) (up I.al) (up I.be) (up I.Wq) (up I.bq) (up I.Wk) (up I.bk) (up I.W1) (up I.b1)⟩, ⟨S4000x32, val_main_v101 (F := Ideal) (up I.lmX) (up I.lmY) (up I.tgX) (up I.lmD) (up I.tgD) (up I.g1) (up I.g2) (up I.g3) (up I.al) (up I.be) (up I.Wq) (up I.bq) (up I.Wk) (up I.bk) (up I.W1) (up I.b1) (up I.W2) (up I.b2)⟩]
        concatenates_S4000x30_S4000x32_S4000x32_S4000x94_d1 (ix2 i f)
      0 (by show (0 : Nat) < 3; omega) S4000x30 (up I.tgX) rfl rfl 0 rfl (ix2 i ⟨f.val, h⟩)
      (fun b hb => by
        match b with
        | ⟨0, _⟩ => rfl
        | ⟨1, _⟩ => exact absurd rfl hb)
      (by show 0 + f.val = f.val; omega)
  · rw [dif_neg h]
    by_cases h2 : f.val < 62
    · rw [dif_pos h2, ← v69_apply I i ⟨f.val - 30, by omega⟩]
      exact concatenate_apply_piece (t := S4000x94) (1 : Fin 2)
        [⟨S4000x30, up I.tgX⟩, ⟨S4000x32, val_main_v69 (F := Ideal) (up I.lmX) (up I.lmY) (up I.tgX) (up I.lmD) (up I.tgD) (up I.g1) (up I.g2) (up I.al) (up I.be) (up I.Wq) (up I.bq) (up I.Wk) (up I.bk) (up I.W1) (up I.b1)⟩, ⟨S4000x32, val_main_v101 (F := Ideal) (up I.lmX) (up I.lmY) (up I.tgX) (up I.lmD) (up I.tgD) (up I.g1) (up I.g2) (up I.g3) (up I.al) (up I.be) (up I.Wq) (up I.bq) (up I.Wk) (up I.bk) (up I.W1) (up I.b1) (up I.W2) (up I.b2)⟩]
        concatenates_S4000x30_S4000x32_S4000x32_S4000x94_d1 (ix2 i f)
        1 (by show (1 : Nat) < 3; omega) S4000x32 (val_main_v69 (F := Ideal) (up I.lmX) (up I.lmY) (up I.tgX) (up I.lmD) (up I.tgD) (up I.g1) (up I.g2) (up I.al) (up I.be) (up I.Wq) (up I.bq) (up I.Wk) (up I.bk) (up I.W1) (up I.b1)) rfl rfl 30 rfl (ix2 i ⟨f.val - 30, by omega⟩)
        (fun b hb => by
          match b with
          | ⟨0, _⟩ => rfl
          | ⟨1, _⟩ => exact absurd rfl hb)
        (by show 30 + (f.val - 30) = f.val; omega)
    · rw [dif_neg h2, ← v101_apply I i ⟨f.val - 62, by have := f.isLt; omega⟩]
      exact concatenate_apply_piece (t := S4000x94) (1 : Fin 2)
        [⟨S4000x30, up I.tgX⟩, ⟨S4000x32, val_main_v69 (F := Ideal) (up I.lmX) (up I.lmY) (up I.tgX) (up I.lmD) (up I.tgD) (up I.g1) (up I.g2) (up I.al) (up I.be) (up I.Wq) (up I.bq) (up I.Wk) (up I.bk) (up I.W1) (up I.b1)⟩, ⟨S4000x32, val_main_v101 (F := Ideal) (up I.lmX) (up I.lmY) (up I.tgX) (up I.lmD) (up I.tgD) (up I.g1) (up I.g2) (up I.g3) (up I.al) (up I.be) (up I.Wq) (up I.bq) (up I.Wk) (up I.bk) (up I.W1) (up I.b1) (up I.W2) (up I.b2)⟩]
        concatenates_S4000x30_S4000x32_S4000x32_S4000x94_d1 (ix2 i f)
        2 (by show (2 : Nat) < 3; omega) S4000x32 (val_main_v101 (F := Ideal) (up I.lmX) (up I.lmY) (up I.tgX) (up I.lmD) (up I.tgD) (up I.g1) (up I.g2) (up I.g3) (up I.al) (up I.be) (up I.Wq) (up I.bq) (up I.Wk) (up I.bk) (up I.W1) (up I.b1) (up I.W2) (up I.b2)) rfl rfl 62 rfl (ix2 i ⟨f.val - 62, by have := f.isLt; omega⟩)
        (fun b hb => by
          match b with
          | ⟨0, _⟩ => rfl
          | ⟨1, _⟩ => exact absurd rfl hb)
        (by show 62 + (f.val - 62) = f.val; omega)

theorem v106_apply (i : Fin 4000) (z : Fin 32) : val_main_v106 (F := Ideal) (up I.lmX) (up I.lmY) (up I.tgX) (up I.lmD) (up I.tgD) (up I.g1) (up I.g2) (up I.g3) (up I.al) (up I.be) (up I.Wq) (up I.bq) (up I.Wk) (up I.bk) (up I.W1) (up I.b1) (up I.W2) (up I.b2) (up I.Wpq) (up I.bpq) (ix2 i z) = ((pqry I i z : ℝ) : EReal) := by
  rw [val_main_v106_apply, val_main_v103_apply, val_main_v105_apply, val_main_v104_apply, idxb104, Ideal.addf_def]
  unfold pqry
  rw [EReal.coe_add, coe_sum]
  refine congrArg₂ (· + ·) (Finset.sum_congr rfl fun k _ => ?_) rfl
  rw [lidx103, ridx103, v102_apply, EReal.coe_mul]
  rfl

theorem v110_apply (j : Fin 2000) (z : Fin 32) : val_main_v110 (F := Ideal) (up I.lmX) (up I.Wpk) (up I.bpk) (ix2 j z) = ((keyP I j z : ℝ) : EReal) := by
  rw [val_main_v110_apply, val_main_v107_apply, val_main_v109_apply, val_main_v108_apply, idxb108, Ideal.addf_def]
  unfold keyP
  rw [EReal.coe_add, coe_sum]
  refine congrArg₂ (· + ·) (Finset.sum_congr rfl fun k _ => ?_) rfl
  rw [lidx107, ridx107, EReal.coe_mul]
  rfl

theorem v114_apply (j : Fin 2000) (b : Fin 2) : val_main_v114 (F := Ideal) (up I.lmY) (up I.Wpv) (up I.bpv) (ix2 j b) = ((valP I j b : ℝ) : EReal) := by
  rw [val_main_v114_apply, val_main_v111_apply, val_main_v113_apply, val_main_v112_apply, idxb112, Ideal.addf_def]
  unfold valP
  rw [EReal.coe_add, coe_sum]
  refine congrArg₂ (· + ·) (Finset.sum_congr rfl fun k _ => ?_) rfl
  rw [lidx111, ridx111, EReal.coe_mul]
  rfl

theorem v116_apply (i : Fin 4000) (z : Fin 32) : val_main_v116 (F := Ideal) (up I.lmX) (up I.lmY) (up I.tgX) (up I.lmD) (up I.tgD) (up I.g1) (up I.g2) (up I.g3) (up I.al) (up I.be) (up I.Wq) (up I.bq) (up I.Wk) (up I.bk) (up I.W1) (up I.b1) (up I.W2) (up I.b2) (up I.Wpq) (up I.bpq) (ix2 i z) = ((pqry I i z * invTemp : ℝ) : EReal) := by
  rw [val_main_v116_apply, val_main_v115_apply, val_main_cst_14_apply, v106_apply, Ideal.hostDivf_def, Ideal.ofBits_def, ofBits_D,
    div_coe_coe _ _ (by norm_num)]
  unfold invTemp
  rw [div_div_eq_mul_div, mul_div_assoc]

theorem v118_apply (i : Fin 4000) (j : Fin 2000) : val_main_v118 (F := Ideal) (up I.lmX) (up I.lmY) (up I.tgX) (up I.lmD) (up I.tgD) (up I.g1) (up I.g2) (up I.g3) (up I.al) (up I.be) (up I.Wq) (up I.bq) (up I.Wk) (up I.bk) (up I.W1) (up I.b1) (up I.W2) (up I.b2) (up I.Wpq) (up I.bpq) (up I.Wpk) (up I.bpk) (ix2 i j) = ((pscore I i j : ℝ) : EReal) := by
  rw [val_main_v118_apply]
  unfold pscore
  rw [coe_sum]
  refine Finset.sum_congr rfl fun k _ => ?_
  rw [lidx118, v116_apply, val_main_v117_apply, idx117, v110_apply, ← EReal.coe_mul]

theorem hRed : S4000x2000.Reduces [1] S4000 := by decide

theorem red_lift (i : Fin 4000) (k : Fin 2000) : hRed.lift (ix1 i) k = ix2 i k := funext fun a => Fin.ext (by match a with | ⟨0, _⟩ => rfl | ⟨1, _⟩ => rfl)

theorem v119_real (i : Fin 4000) : ∃ M : ℝ, val_main_v119 (F := Ideal) (up I.lmX) (up I.lmY) (up I.tgX) (up I.lmD) (up I.tgD) (up I.g1) (up I.g2) (up I.g3) (up I.al) (up I.be) (up I.Wq) (up I.bq) (up I.Wk) (up I.bk) (up I.W1) (up I.b1) (up I.W2) (up I.b2) (up I.Wpq) (up I.bpq) (up I.Wpk) (up I.bpk) (ix1 i) = ((M : ℝ) : EReal) := by
  unfold val_main_v119
  rw [Host.reduce_eq_fold_single (FloatOps.maximumf (F := Ideal) (φ := .f32)) _ _ reducesTo_S4000x2000_S4000_d1 hRed h_S_ (ix1 i)]
  have hf : (val_main_v118 (F := Ideal) (up I.lmX) (up I.lmY) (up I.tgX) (up I.lmD) (up I.tgD) (up I.g1) (up I.g2) (up I.g3) (up I.al) (up I.be) (up I.Wq) (up I.bq) (up I.Wk) (up I.bk) (up I.W1) (up I.b1) (up I.W2) (up I.b2) (up I.Wpq) (up I.bpq) (up I.Wpk) (up I.bpk) ∘ hRed.lift (ix1 i))
      = fun k : Fin 2000 => ((pscore I i k : ℝ) : EReal) := by
    funext k
    exact (congrArg (val_main_v118 (F := Ideal) (up I.lmX) (up I.lmY) (up I.tgX) (up I.lmD) (up I.tgD) (up I.g1) (up I.g2) (up I.g3) (up I.al) (up I.be) (up I.Wq) (up I.bq) (up I.Wk) (up I.bk) (up I.W1) (up I.b1) (up I.W2) (up I.b2) (up I.Wpq) (up I.bpq) (up I.Wpk) (up I.bpk)) (red_lift i k)).trans (v118_apply I i k)
  rw [hf, val_main_cst_15_apply, Ideal.ofBits_def, ofBits_negInf]
  obtain ⟨k, hk⟩ := fold_max_coe (n := 1999) (fun k => pscore I i k)
  exact ⟨pscore I i k, hk⟩

theorem v121_real (i : Fin 4000) : ∃ M : ℝ, val_main_v121 (F := Ideal) (up I.lmX) (up I.lmY) (up I.tgX) (up I.lmD) (up I.tgD) (up I.g1) (up I.g2) (up I.g3) (up I.al) (up I.be) (up I.Wq) (up I.bq) (up I.Wk) (up I.bk) (up I.W1) (up I.b1) (up I.W2) (up I.b2) (up I.Wpq) (up I.bpq) (up I.Wpk) (up I.bpk) (ix1 i) = ((M : ℝ) : EReal) := by
  obtain ⟨M, hM⟩ := v119_real I i
  refine ⟨M, ?_⟩
  rw [val_main_v121_apply, val_main_v120_apply, val_main_cst_16_apply, hM, Ideal.maximumf_def, Ideal.ofBits_def, ofBits_negInf]
  exact max_eq_right bot_le

def rowShift (i : Fin 4000) : ℝ := Classical.choose (v121_real I i)

theorem v121_apply (i : Fin 4000) : val_main_v121 (F := Ideal) (up I.lmX) (up I.lmY) (up I.tgX) (up I.lmD) (up I.tgD) (up I.g1) (up I.g2) (up I.g3) (up I.al) (up I.be) (up I.Wq) (up I.bq) (up I.Wk) (up I.bk) (up I.W1) (up I.b1) (up I.W2) (up I.b2) (up I.Wpq) (up I.bpq) (up I.Wpk) (up I.bpk) (ix1 i) = ((rowShift I i : ℝ) : EReal) :=
  Classical.choose_spec (v121_real I i)

theorem v125_apply (i : Fin 4000) (j : Fin 2000) : val_main_v125 (F := Ideal) (up I.lmX) (up I.lmY) (up I.tgX) (up I.lmD) (up I.tgD) (up I.g1) (up I.g2) (up I.g3) (up I.al) (up I.be) (up I.Wq) (up I.bq) (up I.Wk) (up I.bk) (up I.W1) (up I.b1) (up I.W2) (up I.b2) (up I.Wpq) (up I.bpq) (up I.Wpk) (up I.bpk) (ix2 i j) = ((Real.exp (pscore I i j - rowShift I i) : ℝ) : EReal) := by
  rw [val_main_v125_apply, val_main_v124_apply, val_main_v123_apply, val_main_v122_apply, idx122, v118_apply, v121_apply,
    Ideal.hostUnary_exp_def, Ideal.subf_def, ← EReal.coe_sub, Ideal.exp_coe]

theorem v126_apply (i : Fin 4000) : val_main_v126 (F := Ideal) (up I.lmX) (up I.lmY) (up I.tgX) (up I.lmD) (up I.tgD) (up I.g1) (up I.g2) (up I.g3) (up I.al) (up I.be) (up I.Wq) (up I.bq) (up I.Wk) (up I.bk) (up I.W1) (up I.b1) (up I.W2) (up I.b2) (up I.Wpq) (up I.bpq) (up I.Wpk) (up I.bpk) (ix1 i) = ((∑ j : Fin 2000, Real.exp (pscore I i j - rowShift I i) : ℝ) : EReal) := by
  rw [val_main_v126_apply, val_main_cst_17_apply, Ideal.ofBits_def, Ideal.ofBits_zero_f32, zero_add, coe_sum]
  refine Finset.sum_congr rfl fun k _ => ?_
  rw [idx126, v125_apply]

theorem v129_apply (i : Fin 4000) (j : Fin 2000) : val_main_v129 (F := Ideal) (up I.lmX) (up I.lmY) (up I.tgX) (up I.lmD) (up I.tgD) (up I.g1) (up I.g2) (up I.g3) (up I.al) (up I.be) (up I.Wq) (up I.bq) (up I.Wk) (up I.bk) (up I.W1) (up I.b1) (up I.W2) (up I.b2) (up I.Wpq) (up I.bpq) (up I.Wpk) (up I.bpk) (ix2 i j) = ((patt I i j : ℝ) : EReal) := by
  have hpos : (∑ j' : Fin 2000, Real.exp (pscore I i j' - rowShift I i)) ≠ 0 :=
    (Finset.sum_pos (fun j' _ => Real.exp_pos _) ⟨⟨0, by norm_num⟩, Finset.mem_univ _⟩).ne'
  rw [val_main_v129_apply, v125_apply, val_main_v128_apply, val_main_v127_apply, idx127, v126_apply, Ideal.hostDivf_def,
    div_coe_coe _ _ hpos]
  unfold patt
  rw [softmax_shift (pscore I i) (rowShift I i) j]

theorem v130_apply (i : Fin 4000) (b : Fin 2) : val_main_v130 (F := Ideal) (up I.lmX) (up I.lmY) (up I.tgX) (up I.lmD) (up I.tgD) (up I.g1) (up I.g2) (up I.g3) (up I.al) (up I.be) (up I.Wq) (up I.bq) (up I.Wk) (up I.bk) (up I.W1) (up I.b1) (up I.W2) (up I.b2) (up I.Wpq) (up I.bpq) (up I.Wpk) (up I.bpk) (up I.Wpv) (up I.bpv) (ix2 i b) = ((yPred I i b : ℝ) : EReal) := by
  rw [val_main_v130_apply]
  unfold yPred
  rw [coe_sum]
  refine Finset.sum_congr rfl fun k _ => ?_
  rw [lidx130, ridx130, v129_apply, v114_apply, EReal.coe_mul]

end Results

theorem v102_eq : val_main_v102 (F := Ideal) (up I.lmX) (up I.lmY) (up I.tgX) (up I.lmD) (up I.tgD) (up I.g1) (up I.g2) (up I.g3) (up I.al) (up I.be) (up I.Wq) (up I.bq) (up I.Wk) (up I.bk) (up I.W1) (up I.b1) (up I.W2) (up I.b2) = featOut I := by
  funext j
  exact (congrArg (val_main_v102 (F := Ideal) (up I.lmX) (up I.lmY) (up I.tgX) (up I.lmD) (up I.tgD) (up I.g1) (up I.g2) (up I.g3) (up I.al) (up I.be) (up I.Wq) (up I.bq) (up I.Wk) (up I.bk) (up I.W1) (up I.b1) (up I.W2) (up I.b2)) (eq_ix2 j)).trans (Results.v102_apply I (j 0) (j 1))

theorem v130_eq : val_main_v130 (F := Ideal) (up I.lmX) (up I.lmY) (up I.tgX) (up I.lmD) (up I.tgD) (up I.g1) (up I.g2) (up I.g3) (up I.al) (up I.be) (up I.Wq) (up I.bq) (up I.Wk) (up I.bk) (up I.W1) (up I.b1) (up I.W2) (up I.b2) (up I.Wpq) (up I.bpq) (up I.Wpk) (up I.bpk) (up I.Wpv) (up I.bpv) = yOut I := by
  funext j
  exact (congrArg (val_main_v130 (F := Ideal) (up I.lmX) (up I.lmY) (up I.tgX) (up I.lmD) (up I.tgD) (up I.g1) (up I.g2) (up I.g3) (up I.al) (up I.be) (up I.Wq) (up I.bq) (up I.Wk) (up I.bk) (up I.W1) (up I.b1) (up I.W2) (up I.b2) (up I.Wpq) (up I.bpq) (up I.Wpk) (up I.bpk) (up I.Wpv) (up I.bpv)) (eq_ix2 j)).trans (Results.v130_apply I (j 0) (j 1))

end Cert.StarGraph.Ref

end
-- ==== Proof.RefRun.lean ====
import proofs.«406318_j68710886801531_3_alg».proof.Proof.RefStages
import proofs.«406318_j68710886801531_3_alg».proof.Proof.RefG

noncomputable section

namespace Cert.StarGraph.Ref

open Idealize.ShloMosaic Idealize.ShloMosaic.TcCoe Idealize.ShloMosaic.StableHlo Idealize.SL.Sem Cert.StarGraph Cert.ReferenceIdeal

variable (m : (ℓ : Loc nD τ sig) → Buf (Elt Ideal) ℓ)

/-- The reference program's argument arrays are the real inputs `I`. -/
structure AgreesR (I : Inputs) : Prop where
  lmX : ∀ c : Dev nD, m ((c.tc : Thread nD τ).loc main_arg0) = up I.lmX
  lmY : ∀ c : Dev nD, m ((c.tc : Thread nD τ).loc main_arg1) = up I.lmY
  tgX : ∀ c : Dev nD, m ((c.tc : Thread nD τ).loc main_arg2) = up I.tgX
  lmD : ∀ c : Dev nD, m ((c.tc : Thread nD τ).loc main_arg4) = up I.lmD
  tgD : ∀ c : Dev nD, m ((c.tc : Thread nD τ).loc main_arg5) = up I.tgD
  g1 : ∀ c : Dev nD, m ((c.tc : Thread nD τ).loc main_arg6) = up I.g1
  g2 : ∀ c : Dev nD, m ((c.tc : Thread nD τ).loc main_arg7) = up I.g2
  g3 : ∀ c : Dev nD, m ((c.tc : Thread nD τ).loc main_arg8) = up I.g3
  al : ∀ c : Dev nD, m ((c.tc : Thread nD τ).loc main_arg9) = up I.al
  be : ∀ c : Dev nD, m ((c.tc : Thread nD τ).loc main_arg10) = up I.be
  Wq : ∀ c : Dev nD, m ((c.tc : Thread nD τ).loc main_arg11) = up I.Wq
  bq : ∀ c : Dev nD, m ((c.tc : Thread nD τ).loc main_arg12) = up I.bq
  Wk : ∀ c : Dev nD, m ((c.tc : Thread nD τ).loc main_arg13) = up I.Wk
  bk : ∀ c : Dev nD, m ((c.tc : Thread nD τ).loc main_arg14) = up I.bk
  W1 : ∀ c : Dev nD, m ((c.tc : Thread nD τ).loc main_arg17) = up I.W1
  b1 : ∀ c : Dev nD, m ((c.tc : Thread nD τ).loc main_arg18) = up I.b1
  W2 : ∀ c : Dev nD, m ((c.tc : Thread nD τ).loc main_arg19) = up I.W2
  b2 : ∀ c : Dev nD, m ((c.tc : Thread nD τ).loc main_arg20) = up I.b2
  Wpq : ∀ c : Dev nD, m ((c.tc : Thread nD τ).loc main_arg21) = up I.Wpq
  bpq : ∀ c : Dev nD, m ((c.tc : Thread nD τ).loc main_arg22) = up I.bpq
  Wpk : ∀ c : Dev nD, m ((c.tc : Thread nD τ).loc main_arg23) = up I.Wpk
  bpk : ∀ c : Dev nD, m ((c.tc : Thread nD τ).loc main_arg24) = up I.bpk
  Wpv : ∀ c : Dev nD, m ((c.tc : Thread nD τ).loc main_arg25) = up I.Wpv
  bpv : ∀ c : Dev nD, m ((c.tc : Thread nD τ).loc main_arg26) = up I.bpv

/-- Each buffer ends at its stage, the last two stages are the specification's arrays on real inputs, and a buffer the reference does not write stays as launched. -/
theorem reference_run (ρ : Dev nD → PrngReg) :
    θ_run (defs (F := Ideal)) (onTc (τ := τ) (main (F := Ideal))) ⟨m, fun _ => 0, ρ⟩ fun r => ∀ c : Dev nD,
      (∀ I, AgreesR m I → r.2.mem ((c.tc : Thread nD τ).loc main_v130) = yOut I ∧ r.2.mem ((c.tc : Thread nD τ).loc main_v102) = featOut I)
      ∧ ∀ a ∉ Stages.outs, r.2.mem ((c.tc : Thread nD τ).loc a) = m ((c.tc : Thread nD τ).loc a) :=
  (θ_run defs _ _).mono (fun _ h c => by
      have K : ∀ {a : Ref sig .tc} {x}, a ∉ Stages.outs → m ((c.tc : Thread nD τ).loc a) = x →
          after ValueQ.ops (launchContents m c) (Proc.devRef .tc a) = x := fun ha hx => (Stages.line.kept _ ha).trans hx
      refine ⟨fun I hI => ?_, fun a ha => (h c a).trans (K ha rfl)⟩
      have S := Stages.stages (F := Ideal) (V := launchContents m c) rfl
      rw [K (by decide) (hI.lmX c), K (by decide) (hI.lmY c), K (by decide) (hI.tgX c), K (by decide) (hI.lmD c), K (by decide) (hI.tgD c), K (by decide) (hI.g1 c), K (by decide) (hI.g2 c), K (by decide) (hI.g3 c), K (by decide) (hI.al c), K (by decide) (hI.be c), K (by decide) (hI.Wq c), K (by decide) (hI.bq c), K (by decide) (hI.Wk c), K (by decide) (hI.bk c), K (by decide) (hI.W1 c), K (by decide) (hI.b1 c), K (by decide) (hI.W2 c), K (by decide) (hI.b2 c), K (by decide) (hI.Wpq c), K (by decide) (hI.bpq c), K (by decide) (hI.Wpk c), K (by decide) (hI.bpk c), K (by decide) (hI.Wpv c), K (by decide) (hI.bpv c)] at S
      exact ⟨(h c main_v130).trans (S.2.trans (v130_eq I)), (h c main_v102).trans (S.1.trans (v102_eq I))⟩)
    (run_seq ValueQ.scopedRefs_eq ValueQ.scopedSems_eq defs main (fun _ => ValueQ.ops) ValueQ.main_eq (fun _ => ValueQ.ops_sub) m ρ)

end Cert.StarGraph.Ref

end
-- ==== Proof.lean ====
import proofs.«406318_j68710886801531_3_alg».proof.Defs
import proofs.«406318_j68710886801531_3_alg».proof.Proof.Gen.Kernel
import proofs.«406318_j68710886801531_3_alg».proof.Proof.Gen.KernelIdeal
import proofs.«406318_j68710886801531_3_alg».proof.Proof.Gen.ReferenceIdeal
import proofs.«406318_j68710886801531_3_alg».proof.Proof.Gen.Pre_finite_inputs
import proofs.«406318_j68710886801531_3_alg».proof.Proof.FrameK
import proofs.«406318_j68710886801531_3_alg».proof.Proof.FrameKI
import proofs.«406318_j68710886801531_3_alg».proof.Proof.Finite
import proofs.«406318_j68710886801531_3_alg».proof.Proof.KValue
import proofs.«406318_j68710886801531_3_alg».proof.Proof.RefRun
import Idealize.ShloMosaic.Adequacy
import Idealize.ShloMosaic.Init
import Idealize.ShloMosaic.PureOps.IdealRules

noncomputable section

namespace Cert.Proof

open Idealize.ShloMosaic Idealize.SL.Sem Cert.StarGraph

theorem frame_k : Cert.frame_Kernel := fun m ρ _ => Cert.Kernel.HandFrame.frame m ρ

theorem frame_ki : Cert.frame_KernelIdeal := fun m ρ _ => Cert.KernelIdeal.HandFrame.frame m ρ

/-- The reference writes none of its arguments. -/
theorem frame_r : Cert.frame_ReferenceIdeal := fun m ρ _ =>
  (θ_run (Cert.ReferenceIdeal.defs (F := Ideal)) _ _).mono (fun _ h c => by
    repeat' apply And.intro
    all_goals exact (h c).2 _ (by decide)) (Ref.reference_run m ρ)

/-- The table gives the name "inv_temp" the value 2097152/11863283, which the printed constant then is over the extended reals. -/
theorem preserves : Cert.preserves_Kernel_KernelIdeal :=
  ⟨IdealRules.named_const.statement Cert.KernelIdeal.κ "inv_temp" .f32 0x3E3504F3#32 ((2097152 / 11863283 : ℝ) : EReal) rfl,
   IdealRules.named_const.statement Cert.KernelIdeal.κ "inv_temp" .f32 0x3E3504F3#32 ((2097152 / 11863283 : ℝ) : EReal) rfl⟩

/-- Finite inputs are real inputs `I`; both programs, reading the same `I`, end at the specification's two arrays of `I`. -/
theorem algebraic : Cert.algebraic_KernelIdeal_ReferenceIdeal := by
  intro m ρ m' ρ' hpre hagree
  obtain ⟨I, hI⟩ := exists_inputs m hpre
  have hR : Ref.AgreesR m' I :=
    { lmX := fun c => (hagree c).1.trans (hI.lmX c)
      lmY := fun c => (hagree c).2.1.trans (hI.lmY c)
      tgX := fun c => (hagree c).2.2.1.trans (hI.tgX c)
      lmD := fun c => (hagree c).2.2.2.2.1.trans (hI.lmD c)
      tgD := fun c => (hagree c).2.2.2.2.2.1.trans (hI.tgD c)
      g1 := fun c => (hagree c).2.2.2.2.2.2.1.trans (hI.g1 c)
      g2 := fun c => (hagree c).2.2.2.2.2.2.2.1.trans (hI.g2 c)
      g3 := fun c => (hagree c).2.2.2.2.2.2.2.2.1.trans (hI.g3 c)
      al := fun c => (hagree c).2.2.2.2.2.2.2.2.2.1.trans (hI.al c)
      be := fun c => (hagree c).2.2.2.2.2.2.2.2.2.2.1.trans (hI.be c)
      Wq := fun c => (hagree c).2.2.2.2.2.2.2.2.2.2.2.1.trans (hI.Wq c)
      bq := fun c => (hagree c).2.2.2.2.2.2.2.2.2.2.2.2.1.trans (hI.bq c)
      Wk := fun c => (hagree c).2.2.2.2.2.2.2.2.2.2.2.2.2.1.trans (hI.Wk c)
      bk := fun c => (hagree c).2.2.2.2.2.2.2.2.2.2.2.2.2.2.1.trans (hI.bk c)
      W1 := fun c => (hagree c).2.2.2.2.2.2.2.2.2.2.2.2.2.2.2.2.2.1.trans (hI.W1 c)
      b1 := fun c => (hagree c).2.2.2.2.2.2.2.2.2.2.2.2.2.2.2.2.2.2.1.trans (hI.b1 c)
      W2 := fun c => (hagree c).2.2.2.2.2.2.2.2.2.2.2.2.2.2.2.2.2.2.2.1.trans (hI.W2 c)
      b2 := fun c => (hagree c).2.2.2.2.2.2.2.2.2.2.2.2.2.2.2.2.2.2.2.2.1.trans (hI.b2 c)
      Wpq := fun c => (hagree c).2.2.2.2.2.2.2.2.2.2.2.2.2.2.2.2.2.2.2.2.2.1.trans (hI.Wpq c)
      bpq := fun c => (hagree c).2.2.2.2.2.2.2.2.2.2.2.2.2.2.2.2.2.2.2.2.2.2.1.trans (hI.bpq c)
      Wpk := fun c => (hagree c).2.2.2.2.2.2.2.2.2.2.2.2.2.2.2.2.2.2.2.2.2.2.2.1.trans (hI.Wpk c)
      bpk := fun c => (hagree c).2.2.2.2.2.2.2.2.2.2.2.2.2.2.2.2.2.2.2.2.2.2.2.2.1.trans (hI.bpk c)
      Wpv := fun c => (hagree c).2.2.2.2.2.2.2.2.2.2.2.2.2.2.2.2.2.2.2.2.2.2.2.2.2.1.trans (hI.Wpv c)
      bpv := fun c => (hagree c).2.2.2.2.2.2.2.2.2.2.2.2.2.2.2.2.2.2.2.2.2.2.2.2.2.2.trans (hI.bpv c) }
  refine ⟨fun _ => yOut I, fun _ => featOut I, Kern.kernel_value I m ρ hI,
    (θ_run (Cert.ReferenceIdeal.defs (F := Ideal)) _ _).mono (fun _ h c => ?_) (Ref.reference_run m' ρ')⟩
  refine ⟨((h c).1 I hR).1, ((h c).1 I hR).2, ?_⟩
  repeat' apply And.intro
  all_goals exact (h c).2 _ (by decide)

theorem claim : Cert.Claim :=
  ⟨Cert.Kernel.Gen.facts, Cert.KernelIdeal.Gen.facts, Cert.ReferenceIdeal.Gen.facts, Cert.Pre_finite_inputs.Gen.facts,
    frame_k, frame_ki, frame_r, preserves, algebraic⟩

end Cert.Proof

end
